-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v687) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x28x28 : Shape := ⟨4, ![1024, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S_ : Shape := ⟨0, ![]⟩

class Facts : Prop where
  bcast_S_S1024x1x28x28 : S_.BroadcastsInDim S1024x1x28x28 (![] : Fin 0 → Fin S1024x1x28x28.rank)
  reducesTo_S1024x1x28x28_S_d0_1_2_3 : S1024x1x28x28.ReducesTo [0, 1, 2, 3] S_
  h_S_ : 0 < S_.numel
  bcast_S_S10x1x5x5 : S_.BroadcastsInDim S10x1x5x5 (![] : Fin 0 → Fin S10x1x5x5.rank)
  reducesTo_S10x1x5x5_S_d0_1_2_3 : S10x1x5x5.ReducesTo [0, 1, 2, 3] S_
  bcast_S_S10 : S_.BroadcastsInDim S10 (![] : Fin 0 → Fin S10.rank)
  reducesTo_S10_S_d0 : S10.ReducesTo [0] S_
  bcast_S_S20x10x5x5 : S_.BroadcastsInDim S20x10x5x5 (![] : Fin 0 → Fin S20x10x5x5.rank)
  reducesTo_S20x10x5x5_S_d0_1_2_3 : S20x10x5x5.ReducesTo [0, 1, 2, 3] S_
  bcast_S_S20 : S_.BroadcastsInDim S20 (![] : Fin 0 → Fin S20.rank)
  reducesTo_S20_S_d0 : S20.ReducesTo [0] S_
  bcast_S_S50x320 : S_.BroadcastsInDim S50x320 (![] : Fin 0 → Fin S50x320.rank)
  reducesTo_S50x320_S_d0_1 : S50x320.ReducesTo [0, 1] S_
  bcast_S_S50 : S_.BroadcastsInDim S50 (![] : Fin 0 → Fin S50.rank)
  reducesTo_S50_S_d0 : S50.ReducesTo [0] S_
  bcast_S_S10x50 : S_.BroadcastsInDim S10x50 (![] : Fin 0 → Fin S10x50.rank)
  reducesTo_S10x50_S_d0_1 : S10x50.ReducesTo [0, 1] S_

variable [Facts]

def fn_part2 {F : FTy → Type} [FloatOps F] (main_arg7 : FVec F S10x50 .f32) (main_arg8 : FVec F S10 .f32) (main_v33 : IVec S_ 1) : IVec S_ 1 :=
  let main_v34 : FVec F S10x50 .f32 := Host.absf main_arg7
  let main_cst_12 : FVec F S_ .f32 := constant S_ .f32 0x7F800000#32
  let main_v35 : FVec F S10x50 .f32 := broadcastInDim S10x50 ![] bcast_S_S10x50 main_cst_12
  let main_v36 : IVec S10x50 1 := cmpf .olt main_v34 main_v35
  let main_c_13 : IVec S_ 1 := constantI S_ 1 1#1
  let main_v37 : IVec S_ 1 := (fun x v => Host.reduce IntOp.andi x v reducesTo_S10x50_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S20 .f32) (main_arg5 : FVec F S50x320 .f32) (main_arg6 : FVec F S50 .f32) (main_arg7 : FVec F S10x50 .f32) (main_arg8 : FVec F S10 .f32) (main_v13 : IVec S_ 1) (main_v16 : IVec S20x10x5x5 1) : IVec S_ 1 :=
  let main_c_5 : IVec S_ 1 := constantI S_ 1 1#1
  let main_v17 : IVec S_ 1 := (fun x v => Host.reduce IntOp.andi x v reducesTo_S20x10x5x5_S_d0_1_2_3 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S50x320 .f32 := Host.absf main_arg5
  let main_cst_8 : FVec F S_ .f32 := constant S_ .f32 0x7F800000#32
  let main_v25 : FVec F S50x320 .f32 := broadcastInDim S50x320 ![] bcast_S_S50x320 main_cst_8
  let main_v26 : IVec S50x320 1 := cmpf .olt main_v24 main_v25
  let main_c_9 : IVec S_ 1 := constantI S_ 1 1#1
  let main_v27 : IVec S_ 1 := (fun x v => Host.reduce IntOp.andi x v reducesTo_S50x320_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_v33

def fn {F : FTy → Type} [FloatOps F] (main_arg0 : FVec F S1024x1x28x28 .f32) (main_arg1 : FVec F S10x1x5x5 .f32) (main_arg2 : FVec F S10 .f32) (main_arg3 : FVec F S20x10x5x5 .f32) (main_arg4 : FVec F S20 .f32) (main_arg5 : FVec F S50x320 .f32) (main_arg6 : FVec F S50 .f32) (main_arg7 : FVec F S10x50 .f32) (main_arg8 : FVec F S10 .f32) : IVec S_ 1 :=
  let main_v0 : FVec F S1024x1x28x28 .f32 := Host.absf main_arg0
  let main_cst : FVec F S_ .f32 := constant S_ .f32 0x7F800000#32
  let main_v1 : FVec F S1024x1x28x28 .f32 := broadcastInDim S1024x1x28x28 ![] bcast_S_S1024x1x28x28 main_cst
  let main_v2 : IVec S1024x1x28x28 1 := cmpf .olt main_v0 main_v1
  let main_c : IVec S_ 1 := constantI S_ 1 1#1
  let main_v3 : IVec S_ 1 := (fun x v => Host.reduce IntOp.andi x v reducesTo_S1024x1x28x28_S_d0_1_2_3 h_S_) main_v2 main_c
  let main_v4 : FVec F S10x1x5x5 .f32 := Host.absf main_arg1
  let main_cst_0 : FVec F S_ .f32 := constant S_ .f32 0x7F800000#32
  let main_v5 : FVec F S10x1x5x5 .f32 := broadcastInDim S10x1x5x5 ![] bcast_S_S10x1x5x5 main_cst_0
  let main_v6 : IVec S10x1x5x5 1 := cmpf .olt main_v4 main_v5
  let main_c_1 : IVec S_ 1 := constantI S_ 1 1#1
  let main_v7 : IVec S_ 1 := (fun x v => Host.reduce IntOp.andi x v reducesTo_S10x1x5x5_S_d0_1_2_3 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S20x10x5x5 .f32 := Host.absf main_arg3
  let main_cst_4 : FVec F S_ .f32 := constant S_ .f32 0x7F800000#32
  let main_v15 : FVec F S20x10x5x5 .f32 := broadcastInDim S20x10x5x5 ![] bcast_S_S20x10x5x5 main_cst_4
  let main_v16 : IVec S20x10x5x5 1 := cmpf .olt main_v14 main_v15
  fn_part1 (F := F) main_arg4 main_arg5 main_arg6 main_arg7 main_arg8 main_v13 main_v16
-- ==== Kernel.lean ====
abbrev S1024x1x28x28 : Shape := ⟨4, ![1024, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S28x28x1x1024 : Shape := ⟨4, ![28, 28, 1, 1024]⟩
abbrev S_ : Shape := ⟨0, ![]⟩
abbrev S50x20x4x4 : Shape := ⟨4, ![50, 20, 4, 4]⟩
abbrev S4x4x50x20 : Shape := ⟨4, ![4, 4, 50, 20]⟩
abbrev S10x1024 : Shape := ⟨2, ![10, 1024]⟩
abbrev S28x28x1x128 : Shape := ⟨4, ![28, 28, 1, 128]⟩
abbrev S10x128 : Shape := ⟨2, ![10, 128]⟩
abbrev S24x24x10x128 : Shape := ⟨4, ![24, 24, 10, 128]⟩
abbrev S24x24x1x128 : Shape := ⟨4, ![24, 24, 1, 128]⟩
abbrev S10x1x1x1 : Shape := ⟨4, ![10, 1, 1, 1]⟩
abbrev S10x1 : Shape := ⟨2, ![10, 1]⟩
abbrev S24x24x128 : Shape := ⟨3, ![24, 24, 128]⟩
abbrev S1x1x10x1 : Shape := ⟨4, ![1, 1, 10, 1]⟩
abbrev S12x2x24x10x128 : Shape := ⟨5, ![12, 2, 24, 10, 128]⟩
abbrev S12x1x24x10x128 : Shape := ⟨5, ![12, 1, 24, 10, 128]⟩
abbrev S12x24x10x128 : Shape := ⟨4, ![12, 24, 10, 128]⟩
abbrev S12x12x2x10x128 : Shape := ⟨5, ![12, 12, 2, 10, 128]⟩
abbrev S12x12x1x10x128 : Shape := ⟨5, ![12, 12, 1, 10, 128]⟩
abbrev S12x12x10x128 : Shape := ⟨4, ![12, 12, 10, 128]⟩
abbrev S8x8x20x128 : Shape := ⟨4, ![8, 8, 20, 128]⟩
abbrev S8x8x10x128 : Shape := ⟨4, ![8, 8, 10, 128]⟩
abbrev S20x10x1x1 : Shape := ⟨4, ![20, 10, 1, 1]⟩
abbrev S20x10 : Shape := ⟨2, ![20, 10]⟩
abbrev S10x20 : Shape := ⟨2, ![10, 20]⟩
abbrev S8x8x10x1x128 : Shape := ⟨5, ![8, 8, 10, 1, 128]⟩
abbrev S1x1x10x20x1 : Shape := ⟨5, ![1, 1, 10, 20, 1]⟩
abbrev S8x8x10x20x128 : Shape := ⟨5, ![8, 8, 10, 20, 128]⟩
abbrev S1x1x20x1 : Shape := ⟨4, ![1, 1, 20, 1]⟩
abbrev S4x2x8x20x128 : Shape := ⟨5, ![4, 2, 8, 20, 128]⟩
abbrev S4x1x8x20x128 : Shape := ⟨5, ![4, 1, 8, 20, 128]⟩
abbrev S4x8x20x128 : Shape := ⟨4, ![4, 8, 20, 128]⟩
abbrev S4x4x2x20x128 : Shape := ⟨5, ![4, 4, 2, 20, 128]⟩
abbrev S4x4x1x20x128 : Shape := ⟨5, ![4, 4, 1, 20, 128]⟩
abbrev S4x4x20x128 : Shape := ⟨4, ![4, 4, 20, 128]⟩
abbrev S50x128 : Shape := ⟨2, ![50, 128]⟩
abbrev S1x1x50x20 : Shape := ⟨4, ![1, 1, 50, 20]⟩
abbrev S50x20 : Shape := ⟨2, ![50, 20]⟩
abbrev S1x1x20x128 : Shape := ⟨4, ![1, 1, 20, 128]⟩
abbrev S20x128 : Shape := ⟨2, ![20, 128]⟩
abbrev S50x1 : Shape := ⟨2, ![50, 1]⟩
abbrev S128 : Shape := ⟨1, ![128]⟩
abbrev S1x128 : Shape := ⟨2, ![1, 128]⟩
abbrev S1024x10 : Shape := ⟨2, ![1024, 10]⟩

abbrev nBuf : Space → Nat
  | .hbm => 102
  | .vmem => 12
  | .smem => 0
  | _ => 0

abbrev bufTy : (tb : Table) → Fin (tcTables nBuf tb) → BufTy
  | .hbm, ⟨0, _⟩ => ⟨S1024x1x28x28, .f32⟩
  | .hbm, ⟨1, _⟩ => ⟨S10x1x5x5, .f32⟩
  | .hbm, ⟨2, _⟩ => ⟨S10, .f32⟩
  | .hbm, ⟨3, _⟩ => ⟨S20x10x5x5, .f32⟩
  | .hbm, ⟨4, _⟩ => ⟨S20, .f32⟩
  | .hbm, ⟨5, _⟩ => ⟨S50x320, .f32⟩
  | .hbm, ⟨6, _⟩ => ⟨S50, .f32⟩
  | .hbm, ⟨7, _⟩ => ⟨S10x50, .f32⟩
  | .hbm, ⟨8, _⟩ => ⟨S10, .f32⟩
  | .hbm, ⟨9, _⟩ => ⟨S28x28x1x1024, .f32⟩
  | .hbm, ⟨10, _⟩ => ⟨S_, .f32⟩
  | .hbm, ⟨11, _⟩ => ⟨S10x1x5x5, .f32⟩
  | .hbm, ⟨12, _⟩ => ⟨S10x1x5x5, .f32⟩
  | .hbm, ⟨13, _⟩ => ⟨S10x1x5x5, .f32⟩
  | .hbm, ⟨14, _⟩ => ⟨S_, .f32⟩
  | .hbm, ⟨15, _⟩ => ⟨S10x1x5x5, .f32⟩
  | .hbm, ⟨16, _⟩ => ⟨S10x1x5x5, .f32⟩
  | .hbm, ⟨17, _⟩ => ⟨S_, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S20x10x5x5, .f32⟩
  | .hbm, ⟨26, _⟩ => ⟨S20x10x5x5, .f32⟩
  | .hbm, ⟨27, _⟩ => ⟨S20x10x5x5, .f32⟩
  | .hbm, ⟨28, _⟩ => ⟨S_, .f32⟩
  | .hbm, ⟨29, _⟩ => ⟨S20x10x5x5, .f32⟩
  | .hbm, ⟨30, _⟩ => ⟨S20x10x5x5, .f32⟩
  | .hbm, ⟨31, _⟩ => ⟨S_, .f32⟩
  | .hbm, ⟨32, _⟩ => ⟨S20, .f32⟩
  | .hbm, ⟨33, _⟩ => ⟨S20, .f32⟩
  | .hbm, ⟨34, _⟩ => ⟨S20, .f32⟩
  | .hbm, ⟨35, _⟩ => ⟨S_, .f32⟩
  | .hbm, ⟨36, _⟩ => ⟨S20, .f32⟩
  | .hbm, ⟨37, _⟩ => ⟨S20, .f32⟩
  | .hbm, ⟨38, _⟩ => ⟨S_, .f32⟩
  | .hbm, ⟨39, _⟩ => ⟨S50x320, .f32⟩
  | .hbm, ⟨40, _⟩ => ⟨S50x320, .f32⟩
  | .hbm, ⟨41, _⟩ => ⟨S50x320, .f32⟩
  | .hbm, ⟨42, _⟩ => ⟨S_, .f32⟩
  | .hbm, ⟨43, _⟩ => ⟨S50x320, .f32⟩
  | .hbm, ⟨44, _⟩ => ⟨S50x320, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S50x320, .f32⟩
  | .hbm, ⟨49, _⟩ => ⟨S50x320, .f32⟩
  | .hbm, ⟨50, _⟩ => ⟨S_, .f32⟩
  | .hbm, ⟨51, _⟩ => ⟨S50x320, .f32⟩
  | .hbm, ⟨52, _⟩ => ⟨S50x320, .f32⟩
  | .hbm, ⟨53, _⟩ => ⟨S_, .f32⟩
  | .hbm, ⟨54, _⟩ => ⟨S50, .f32⟩
  | .hbm, ⟨55, _⟩ => ⟨S50, .f32⟩
  | .hbm, ⟨56, _⟩ => ⟨S50, .f32⟩
  | .hbm, ⟨57, _⟩ => ⟨S_, .f32⟩
  | .hbm, ⟨58, _⟩ => ⟨S50, .f32⟩
  | .hbm, ⟨59, _⟩ => ⟨S50, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S50, .f32⟩
  | .hbm, ⟨64, _⟩ => ⟨S50, .f32⟩
  | .hbm, ⟨65, _⟩ => ⟨S_, .f32⟩
  | .hbm, ⟨66, _⟩ => ⟨S50, .f32⟩
  | .hbm, ⟨67, _⟩ => ⟨S50, .f32⟩
  | .hbm, ⟨68, _⟩ => ⟨S_, .f32⟩
  | .hbm, ⟨69, _⟩ => ⟨S10x50, .f32⟩
  | .hbm, ⟨70, _⟩ => ⟨S10x50, .f32⟩
  | .hbm, ⟨71, _⟩ => ⟨S10x50, .f32⟩
  | .hbm, ⟨72, _⟩ => ⟨S_, .f32⟩
  | .hbm, ⟨73, _⟩ => ⟨S10x50, .f32⟩
  | .hbm, ⟨74, _⟩ => ⟨S10x50, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S10x50, .f32⟩
  | .hbm, ⟨79, _⟩ => ⟨S10x50, .f32⟩
  | .hbm, ⟨80, _⟩ => ⟨S_, .f32⟩
  | .hbm, ⟨81, _⟩ => ⟨S10x50, .f32⟩
  | .hbm, ⟨82, _⟩ => ⟨S10x50, .f32⟩
  | .hbm, ⟨83, _⟩ => ⟨S_, .f32⟩
  | .hbm, ⟨84, _⟩ => ⟨S10, .f32⟩
  | .hbm, ⟨85, _⟩ => ⟨S10, .f32⟩
  | .hbm, ⟨86, _⟩ => ⟨S10, .f32⟩
  | .hbm, ⟨87, _⟩ => ⟨S_, .f32⟩
  | .hbm, ⟨88, _⟩ => ⟨S10, .f32⟩
  | .hbm, ⟨89, _⟩ => ⟨S10, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S10, .f32⟩
  | .hbm, ⟨94, _⟩ => ⟨S10, .f32⟩
  | .hbm, ⟨95, _⟩ => ⟨S_, .f32⟩
  | .hbm, ⟨96, _⟩ => ⟨S10, .f32⟩
  | .hbm, ⟨97, _⟩ => ⟨S10, .f32⟩
  | .hbm, ⟨98, _⟩ => ⟨S50x20x4x4, .f32⟩
  | .hbm, ⟨99, _⟩ => ⟨S4x4x50x20, .f32⟩
  | .hbm, ⟨100, _⟩ => ⟨S10x1024, .f32⟩
  | .hbm, ⟨101, _⟩ => ⟨S1024x10, .f32⟩
  | .local _ .vmem, ⟨0, _⟩ => ⟨S28x28x1x128, .f32⟩
  | .local _ .vmem, ⟨1, _⟩ => ⟨S28x28x1x128, .f32⟩
  | .local _ .vmem, ⟨2, _⟩ => ⟨S10x1x5x5, .f32⟩
  | .local _ .vmem, ⟨3, _⟩ => ⟨S10, .f32⟩
  | .local _ .vmem, ⟨4, _⟩ => ⟨S20x10x5x5, .f32⟩
  | .local _ .vmem, ⟨5, _⟩ => ⟨S20, .f32⟩
  | .local _ .vmem, ⟨6, _⟩ => ⟨S4x4x50x20, .f32⟩
  | .local _ .vmem, ⟨7, _⟩ => ⟨S50, .f32⟩
  | .local _ .vmem, ⟨8, _⟩ => ⟨S10x50, .f32⟩
  | .local _ .vmem, ⟨9, _⟩ => ⟨S10, .f32⟩
  | .local _ .vmem, ⟨10, _⟩ => ⟨S10x128, .f32⟩
  | .local _ .vmem, ⟨11, _⟩ => ⟨S10x128, .f32⟩
  | _, _ => ⟨S1024x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_cst_10 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v26 : Ref sig .tc := ⟨.hbm, 52, rfl⟩
abbrev main_cst_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_12 : Ref sig .tc := ⟨.hbm, 57, rfl⟩
abbrev main_v30 : Ref sig .tc := ⟨.hbm, 58, rfl⟩
abbrev main_v31 : Ref sig .tc := ⟨.hbm, 59, rfl⟩
abbrev main_cst_13 : Ref sig .tc := ⟨.hbm, 60, rfl⟩
abbrev main_cst_14 : Ref sig .tc := ⟨.hbm, 61, rfl⟩
abbrev main_call7_v0 : Ref sig .tc := ⟨.hbm, 62, rfl⟩
abbrev main_call7_v1 : Ref sig .tc := ⟨.hbm, 63, rfl⟩
abbrev main_call7_v2 : Ref sig .tc := ⟨.hbm, 64, rfl⟩
abbrev main_call7_v3 : Ref sig .tc := ⟨.hbm, 65, rfl⟩
abbrev main_call7_v4 : Ref sig .tc := ⟨.hbm, 66, rfl⟩
abbrev main_v32 : Ref sig .tc := ⟨.hbm, 67, rfl⟩
abbrev main_cst_15 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_16 : Ref sig .tc := ⟨.hbm, 72, rfl⟩
abbrev main_v36 : Ref sig .tc := ⟨.hbm, 73, rfl⟩
abbrev main_v37 : Ref sig .tc := ⟨.hbm, 74, rfl⟩
abbrev main_cst_17 : Ref sig .tc := ⟨.hbm, 75, rfl⟩
abbrev main_cst_18 : Ref sig .tc := ⟨.hbm, 76, rfl⟩
abbrev main_call9_v0 : Ref sig .tc := ⟨.hbm, 77, rfl⟩
abbrev main_call9_v1 : Ref sig .tc := ⟨.hbm, 78, rfl⟩
abbrev main_call9_v2 : Ref sig .tc := ⟨.hbm, 79, rfl⟩
abbrev main_call9_v3 : Ref sig .tc := ⟨.hbm, 80, rfl⟩
abbrev main_call9_v4 : Ref sig .tc := ⟨.hbm, 81, rfl⟩
abbrev main_v38 : Ref sig .tc := ⟨.hbm, 82, rfl⟩
abbrev main_cst_19 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_20 : Ref sig .tc := ⟨.hbm, 87, rfl⟩
abbrev main_v42 : Ref sig .tc := ⟨.hbm, 88, rfl⟩
abbrev main_v43 : Ref sig .tc := ⟨.hbm, 89, rfl⟩
abbrev main_cst_21 : Ref sig .tc := ⟨.hbm, 90, rfl⟩
abbrev main_cst_22 : Ref sig .tc := ⟨.hbm, 91, rfl⟩
abbrev main_call11_v0 : Ref sig .tc := ⟨.hbm, 92, rfl⟩
abbrev main_call11_v1 : Ref sig .tc := ⟨.hbm, 93, rfl⟩
abbrev main_call11_v2 : Ref sig .tc := ⟨.hbm, 94, rfl⟩
abbrev main_call11_v3 : Ref sig .tc := ⟨.hbm, 95, rfl⟩
abbrev main_call11_v4 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S28x28x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x1x5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x10x5x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x4x50x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S1024x1x28x28_S28x28x1x1024_2_3_1_0 : S1024x1x28x28.Transposes [2, 3, 1, 0] S28x28x1x1024
  bcast_S_S10x1x5x5 : S_.BroadcastsInDim S10x1x5x5 (![] : Fin 0 → Fin S10x1x5x5.rank)
  bcast_S_S10 : S_.BroadcastsInDim S10 (![] : Fin 0 → Fin S10.rank)
  bcast_S_S20x10x5x5 : S_.BroadcastsInDim S20x10x5x5 (![] : Fin 0 → Fin S20x10x5x5.rank)
  bcast_S_S20 : S_.BroadcastsInDim S20 (![] : Fin 0 → Fin S20.rank)
  bcast_S_S50x320 : S_.BroadcastsInDim S50x320 (![] : Fin 0 → Fin S50x320.rank)
  bcast_S_S50 : S_.BroadcastsInDim S50 (![] : Fin 0 → Fin S50.rank)
  bcast_S_S10x50 : S_.BroadcastsInDim S10x50 (![] : Fin 0 → Fin S10x50.rank)
  shapeCasts_S50x320_S50x20x4x4 : S50x320.ShapeCasts S50x20x4x4
  transposes_S50x20x4x4_S4x4x50x20_2_3_0_1 : S50x20x4x4.Transposes [2, 3, 0, 1] S4x4x50x20
  inb_S28x28x1x128_S28x28x1x128_0_0_0_0 : ∀ a, (![0, 0, 0, 0] : Fin 4 → Nat) a + S28x28x1x128.size a ≤ S28x28x1x128.size a
  h_S28x28x1x128 : 0 < S28x28x1x128.numel
  shapeCasts_S28x28x1x128_S28x28x1x128 : S28x28x1x128.ShapeCasts S28x28x1x128
  inb_S10x1x5x5_S10x1x5x5_0_0_0_0 : ∀ a, (![0, 0, 0, 0] : Fin 4 → Nat) a + S10x1x5x5.size a ≤ S10x1x5x5.size a
  h_S10x1x5x5 : 0 < S10x1x5x5.numel
  shapeCasts_S10x1x5x5_S10x1x5x5 : S10x1x5x5.ShapeCasts S10x1x5x5
  inb_S10_S10_0 : ∀ a, (![0] : Fin 1 → Nat) a + S10.size a ≤ S10.size a
  h_S10 : 0 < S10.numel
  shapeCasts_S10_S10 : S10.ShapeCasts S10
  slices_S28x28x1x128_o0_0_0_0_S24x24x1x128 : S28x28x1x128.Slices ![0, 0, 0, 0] S24x24x1x128
  slices_S10x1x5x5_o0_0_0_0_S10x1x1x1 : S10x1x5x5.Slices ![0, 0, 0, 0] S10x1x1x1
  shapeCasts_S10x1x1x1_S10x1 : S10x1x1x1.ShapeCasts S10x1
  shapeCasts_S10x1_S10 : S10x1.ShapeCasts S10
  shapeCasts_S24x24x1x128_S24x24x128 : S24x24x1x128.ShapeCasts S24x24x128
  shapeCasts_S24x24x128_S24x24x1x128 : S24x24x128.ShapeCasts S24x24x1x128
  shapeCasts_S10_S1x1x10x1 : S10.ShapeCasts S1x1x10x1
  broadcasts_S24x24x1x128_S24x24x10x128 : S24x24x1x128.Broadcasts S24x24x10x128
  broadcasts_S1x1x10x1_S24x24x10x128 : S1x1x10x1.Broadcasts S24x24x10x128
  slices_S28x28x1x128_o0_1_0_0_S24x24x1x128 : S28x28x1x128.Slices ![0, 1, 0, 0] S24x24x1x128
  slices_S10x1x5x5_o0_0_0_1_S10x1x1x1 : S10x1x5x5.Slices ![0, 0, 0, 1] S10x1x1x1
  slices_S28x28x1x128_o0_2_0_0_S24x24x1x128 : S28x28x1x128.Slices ![0, 2, 0, 0] S24x24x1x128
  slices_S10x1x5x5_o0_0_0_2_S10x1x1x1 : S10x1x5x5.Slices ![0, 0, 0, 2] S10x1x1x1
  slices_S28x28x1x128_o0_3_0_0_S24x24x1x128 : S28x28x1x128.Slices ![0, 3, 0, 0] S24x24x1x128
  slices_S10x1x5x5_o0_0_0_3_S10x1x1x1 : S10x1x5x5.Slices ![0, 0, 0, 3] S10x1x1x1
  slices_S28x28x1x128_o0_4_0_0_S24x24x1x128 : S28x28x1x128.Slices ![0, 4, 0, 0] S24x24x1x128
  slices_S10x1x5x5_o0_0_0_4_S10x1x1x1 : S10x1x5x5.Slices ![0, 0, 0, 4] S10x1x1x1
  slices_S28x28x1x128_o1_0_0_0_S24x24x1x128 : S28x28x1x128.Slices ![1, 0, 0, 0] S24x24x1x128
  slices_S10x1x5x5_o0_0_1_0_S10x1x1x1 : S10x1x5x5.Slices ![0, 0, 1, 0] S10x1x1x1
  slices_S28x28x1x128_o1_1_0_0_S24x24x1x128 : S28x28x1x128.Slices ![1, 1, 0, 0] S24x24x1x128
  slices_S10x1x5x5_o0_0_1_1_S10x1x1x1 : S10x1x5x5.Slices ![0, 0, 1, 1] S10x1x1x1
  slices_S28x28x1x128_o1_2_0_0_S24x24x1x128 : S28x28x1x128.Slices ![1, 2, 0, 0] S24x24x1x128
  slices_S10x1x5x5_o0_0_1_2_S10x1x1x1 : S10x1x5x5.Slices ![0, 0, 1, 2] S10x1x1x1
  slices_S28x28x1x128_o1_3_0_0_S24x24x1x128 : S28x28x1x128.Slices ![1, 3, 0, 0] S24x24x1x128
  slices_S10x1x5x5_o0_0_1_3_S10x1x1x1 : S10x1x5x5.Slices ![0, 0, 1, 3] S10x1x1x1
  slices_S28x28x1x128_o1_4_0_0_S24x24x1x128 : S28x28x1x128.Slices ![1, 4, 0, 0] S24x24x1x128
  slices_S10x1x5x5_o0_0_1_4_S10x1x1x1 : S10x1x5x5.Slices ![0, 0, 1, 4] S10x1x1x1
  slices_S28x28x1x128_o2_0_0_0_S24x24x1x128 : S28x28x1x128.Slices ![2, 0, 0, 0] S24x24x1x128
  slices_S10x1x5x5_o0_0_2_0_S10x1x1x1 : S10x1x5x5.Slices ![0, 0, 2, 0] S10x1x1x1
  slices_S28x28x1x128_o2_1_0_0_S24x24x1x128 : S28x28x1x128.Slices ![2, 1, 0, 0] S24x24x1x128
  slices_S10x1x5x5_o0_0_2_1_S10x1x1x1 : S10x1x5x5.Slices ![0, 0, 2, 1] S10x1x1x1
  slices_S28x28x1x128_o2_2_0_0_S24x24x1x128 : S28x28x1x128.Slices ![2, 2, 0, 0] S24x24x1x128
  slices_S10x1x5x5_o0_0_2_2_S10x1x1x1 : S10x1x5x5.Slices ![0, 0, 2, 2] S10x1x1x1
  slices_S28x28x1x128_o2_3_0_0_S24x24x1x128 : S28x28x1x128.Slices ![2, 3, 0, 0] S24x24x1x128
  slices_S10x1x5x5_o0_0_2_3_S10x1x1x1 : S10x1x5x5.Slices ![0, 0, 2, 3] S10x1x1x1
  slices_S28x28x1x128_o2_4_0_0_S24x24x1x128 : S28x28x1x128.Slices ![2, 4, 0, 0] S24x24x1x128
  slices_S10x1x5x5_o0_0_2_4_S10x1x1x1 : S10x1x5x5.Slices ![0, 0, 2, 4] S10x1x1x1
  slices_S28x28x1x128_o3_0_0_0_S24x24x1x128 : S28x28x1x128.Slices ![3, 0, 0, 0] S24x24x1x128
  slices_S10x1x5x5_o0_0_3_0_S10x1x1x1 : S10x1x5x5.Slices ![0, 0, 3, 0] S10x1x1x1
  slices_S28x28x1x128_o3_1_0_0_S24x24x1x128 : S28x28x1x128.Slices ![3, 1, 0, 0] S24x24x1x128
  slices_S10x1x5x5_o0_0_3_1_S10x1x1x1 : S10x1x5x5.Slices ![0, 0, 3, 1] S10x1x1x1
  slices_S28x28x1x128_o3_2_0_0_S24x24x1x128 : S28x28x1x128.Slices ![3, 2, 0, 0] S24x24x1x128
  slices_S10x1x5x5_o0_0_3_2_S10x1x1x1 : S10x1x5x5.Slices ![0, 0, 3, 2] S10x1x1x1
  slices_S28x28x1x128_o3_3_0_0_S24x24x1x128 : S28x28x1x128.Slices ![3, 3, 0, 0] S24x24x1x128
  slices_S10x1x5x5_o0_0_3_3_S10x1x1x1 : S10x1x5x5.Slices ![0, 0, 3, 3] S10x1x1x1
  slices_S28x28x1x128_o3_4_0_0_S24x24x1x128 : S28x28x1x128.Slices ![3, 4, 0, 0] S24x24x1x128
  slices_S10x1x5x5_o0_0_3_4_S10x1x1x1 : S10x1x5x5.Slices ![0, 0, 3, 4] S10x1x1x1
  slices_S28x28x1x128_o4_0_0_0_S24x24x1x128 : S28x28x1x128.Slices ![4, 0, 0, 0] S24x24x1x128
  slices_S10x1x5x5_o0_0_4_0_S10x1x1x1 : S10x1x5x5.Slices ![0, 0, 4, 0] S10x1x1x1
  slices_S28x28x1x128_o4_1_0_0_S24x24x1x128 : S28x28x1x128.Slices ![4, 1, 0, 0] S24x24x1x128
  slices_S10x1x5x5_o0_0_4_1_S10x1x1x1 : S10x1x5x5.Slices ![0, 0, 4, 1] S10x1x1x1
  slices_S28x28x1x128_o4_2_0_0_S24x24x1x128 : S28x28x1x128.Slices ![4, 2, 0, 0] S24x24x1x128
  slices_S10x1x5x5_o0_0_4_2_S10x1x1x1 : S10x1x5x5.Slices ![0, 0, 4, 2] S10x1x1x1
  slices_S28x28x1x128_o4_3_0_0_S24x24x1x128 : S28x28x1x128.Slices ![4, 3, 0, 0] S24x24x1x128
  slices_S10x1x5x5_o0_0_4_3_S10x1x1x1 : S10x1x5x5.Slices ![0, 0, 4, 3] S10x1x1x1
  slices_S28x28x1x128_o4_4_0_0_S24x24x1x128 : S28x28x1x128.Slices ![4, 4, 0, 0] S24x24x1x128
  slices_S10x1x5x5_o0_0_4_4_S10x1x1x1 : S10x1x5x5.Slices ![0, 0, 4, 4] S10x1x1x1
  shapeCasts_S24x24x10x128_S12x2x24x10x128 : S24x24x10x128.ShapeCasts S12x2x24x10x128
  slices_S12x2x24x10x128_o0_0_0_0_0_S12x1x24x10x128 : S12x2x24x10x128.Slices ![0, 0, 0, 0, 0] S12x1x24x10x128
  shapeCasts_S12x1x24x10x128_S12x24x10x128 : S12x1x24x10x128.ShapeCasts S12x24x10x128
  slices_S12x2x24x10x128_o0_1_0_0_0_S12x1x24x10x128 : S12x2x24x10x128.Slices ![0, 1, 0, 0, 0] S12x1x24x10x128
  shapeCasts_S12x24x10x128_S12x12x2x10x128 : S12x24x10x128.ShapeCasts S12x12x2x10x128
  slices_S12x12x2x10x128_o0_0_0_0_0_S12x12x1x10x128 : S12x12x2x10x128.Slices ![0, 0, 0, 0, 0] S12x12x1x10x128
  shapeCasts_S12x12x1x10x128_S12x12x10x128 : S12x12x1x10x128.ShapeCasts S12x12x10x128
  slices_S12x12x2x10x128_o0_0_1_0_0_S12x12x1x10x128 : S12x12x2x10x128.Slices ![0, 0, 1, 0, 0] S12x12x1x10x128
  inb_S20x10x5x5_S20x10x5x5_0_0_0_0 : ∀ a, (![0, 0, 0, 0] : Fin 4 → Nat) a + S20x10x5x5.size a ≤ S20x10x5x5.size a
  h_S20x10x5x5 : 0 < S20x10x5x5.numel
  shapeCasts_S20x10x5x5_S20x10x5x5 : S20x10x5x5.ShapeCasts S20x10x5x5
  inb_S20_S20_0 : ∀ a, (![0] : Fin 1 → Nat) a + S20.size a ≤ S20.size a
  h_S20 : 0 < S20.numel
  shapeCasts_S20_S20 : S20.ShapeCasts S20
  slices_S12x12x10x128_o0_0_0_0_S8x8x10x128 : S12x12x10x128.Slices ![0, 0, 0, 0] S8x8x10x128
  slices_S20x10x5x5_o0_0_0_0_S20x10x1x1 : S20x10x5x5.Slices ![0, 0, 0, 0] S20x10x1x1
  shapeCasts_S20x10x1x1_S20x10 : S20x10x1x1.ShapeCasts S20x10
  transposes_S20x10_p1_0_S10x20 : S20x10.Transposes [1, 0] S10x20
  shapeCasts_S8x8x10x128_S8x8x10x1x128 : S8x8x10x128.ShapeCasts S8x8x10x1x128
  shapeCasts_S10x20_S1x1x10x20x1 : S10x20.ShapeCasts S1x1x10x20x1
  broadcasts_S8x8x10x1x128_S8x8x10x20x128 : S8x8x10x1x128.Broadcasts S8x8x10x20x128
  broadcasts_S1x1x10x20x1_S8x8x10x20x128 : S1x1x10x20x1.Broadcasts S8x8x10x20x128
  reduces_S8x8x10x20x128_S8x8x20x128 : S8x8x10x20x128.Reduces [2] S8x8x20x128
  slices_S12x12x10x128_o0_1_0_0_S8x8x10x128 : S12x12x10x128.Slices ![0, 1, 0, 0] S8x8x10x128
  slices_S20x10x5x5_o0_0_0_1_S20x10x1x1 : S20x10x5x5.Slices ![0, 0, 0, 1] S20x10x1x1
  slices_S12x12x10x128_o0_2_0_0_S8x8x10x128 : S12x12x10x128.Slices ![0, 2, 0, 0] S8x8x10x128
  slices_S20x10x5x5_o0_0_0_2_S20x10x1x1 : S20x10x5x5.Slices ![0, 0, 0, 2] S20x10x1x1
  slices_S12x12x10x128_o0_3_0_0_S8x8x10x128 : S12x12x10x128.Slices ![0, 3, 0, 0] S8x8x10x128
  slices_S20x10x5x5_o0_0_0_3_S20x10x1x1 : S20x10x5x5.Slices ![0, 0, 0, 3] S20x10x1x1
  slices_S12x12x10x128_o0_4_0_0_S8x8x10x128 : S12x12x10x128.Slices ![0, 4, 0, 0] S8x8x10x128
  slices_S20x10x5x5_o0_0_0_4_S20x10x1x1 : S20x10x5x5.Slices ![0, 0, 0, 4] S20x10x1x1
  slices_S12x12x10x128_o1_0_0_0_S8x8x10x128 : S12x12x10x128.Slices ![1, 0, 0, 0] S8x8x10x128
  slices_S20x10x5x5_o0_0_1_0_S20x10x1x1 : S20x10x5x5.Slices ![0, 0, 1, 0] S20x10x1x1
  slices_S12x12x10x128_o1_1_0_0_S8x8x10x128 : S12x12x10x128.Slices ![1, 1, 0, 0] S8x8x10x128
  slices_S20x10x5x5_o0_0_1_1_S20x10x1x1 : S20x10x5x5.Slices ![0, 0, 1, 1] S20x10x1x1
  slices_S12x12x10x128_o1_2_0_0_S8x8x10x128 : S12x12x10x128.Slices ![1, 2, 0, 0] S8x8x10x128
  slices_S20x10x5x5_o0_0_1_2_S20x10x1x1 : S20x10x5x5.Slices ![0, 0, 1, 2] S20x10x1x1
  slices_S12x12x10x128_o1_3_0_0_S8x8x10x128 : S12x12x10x128.Slices ![1, 3, 0, 0] S8x8x10x128
  slices_S20x10x5x5_o0_0_1_3_S20x10x1x1 : S20x10x5x5.Slices ![0, 0, 1, 3] S20x10x1x1
  slices_S12x12x10x128_o1_4_0_0_S8x8x10x128 : S12x12x10x128.Slices ![1, 4, 0, 0] S8x8x10x128
  slices_S20x10x5x5_o0_0_1_4_S20x10x1x1 : S20x10x5x5.Slices ![0, 0, 1, 4] S20x10x1x1
  slices_S12x12x10x128_o2_0_0_0_S8x8x10x128 : S12x12x10x128.Slices ![2, 0, 0, 0] S8x8x10x128
  slices_S20x10x5x5_o0_0_2_0_S20x10x1x1 : S20x10x5x5.Slices ![0, 0, 2, 0] S20x10x1x1
  slices_S12x12x10x128_o2_1_0_0_S8x8x10x128 : S12x12x10x128.Slices ![2, 1, 0, 0] S8x8x10x128
  slices_S20x10x5x5_o0_0_2_1_S20x10x1x1 : S20x10x5x5.Slices ![0, 0, 2, 1] S20x10x1x1
  slices_S12x12x10x128_o2_2_0_0_S8x8x10x128 : S12x12x10x128.Slices ![2, 2, 0, 0] S8x8x10x128
  slices_S20x10x5x5_o0_0_2_2_S20x10x1x1 : S20x10x5x5.Slices ![0, 0, 2, 2] S20x10x1x1
  slices_S12x12x10x128_o2_3_0_0_S8x8x10x128 : S12x12x10x128.Slices ![2, 3, 0, 0] S8x8x10x128
  slices_S20x10x5x5_o0_0_2_3_S20x10x1x1 : S20x10x5x5.Slices ![0, 0, 2, 3] S20x10x1x1
  slices_S12x12x10x128_o2_4_0_0_S8x8x10x128 : S12x12x10x128.Slices ![2, 4, 0, 0] S8x8x10x128
  slices_S20x10x5x5_o0_0_2_4_S20x10x1x1 : S20x10x5x5.Slices ![0, 0, 2, 4] S20x10x1x1
  slices_S12x12x10x128_o3_0_0_0_S8x8x10x128 : S12x12x10x128.Slices ![3, 0, 0, 0] S8x8x10x128
  slices_S20x10x5x5_o0_0_3_0_S20x10x1x1 : S20x10x5x5.Slices ![0, 0, 3, 0] S20x10x1x1
  slices_S12x12x10x128_o3_1_0_0_S8x8x10x128 : S12x12x10x128.Slices ![3, 1, 0, 0] S8x8x10x128
  slices_S20x10x5x5_o0_0_3_1_S20x10x1x1 : S20x10x5x5.Slices ![0, 0, 3, 1] S20x10x1x1
  slices_S12x12x10x128_o3_2_0_0_S8x8x10x128 : S12x12x10x128.Slices ![3, 2, 0, 0] S8x8x10x128
  slices_S20x10x5x5_o0_0_3_2_S20x10x1x1 : S20x10x5x5.Slices ![0, 0, 3, 2] S20x10x1x1
  slices_S12x12x10x128_o3_3_0_0_S8x8x10x128 : S12x12x10x128.Slices ![3, 3, 0, 0] S8x8x10x128
  slices_S20x10x5x5_o0_0_3_3_S20x10x1x1 : S20x10x5x5.Slices ![0, 0, 3, 3] S20x10x1x1
  slices_S12x12x10x128_o3_4_0_0_S8x8x10x128 : S12x12x10x128.Slices ![3, 4, 0, 0] S8x8x10x128
  slices_S20x10x5x5_o0_0_3_4_S20x10x1x1 : S20x10x5x5.Slices ![0, 0, 3, 4] S20x10x1x1
  slices_S12x12x10x128_o4_0_0_0_S8x8x10x128 : S12x12x10x128.Slices ![4, 0, 0, 0] S8x8x10x128
  slices_S20x10x5x5_o0_0_4_0_S20x10x1x1 : S20x10x5x5.Slices ![0, 0, 4, 0] S20x10x1x1
  slices_S12x12x10x128_o4_1_0_0_S8x8x10x128 : S12x12x10x128.Slices ![4, 1, 0, 0] S8x8x10x128
  slices_S20x10x5x5_o0_0_4_1_S20x10x1x1 : S20x10x5x5.Slices ![0, 0, 4, 1] S20x10x1x1
  slices_S12x12x10x128_o4_2_0_0_S8x8x10x128 : S12x12x10x128.Slices ![4, 2, 0, 0] S8x8x10x128
  slices_S20x10x5x5_o0_0_4_2_S20x10x1x1 : S20x10x5x5.Slices ![0, 0, 4, 2] S20x10x1x1
  slices_S12x12x10x128_o4_3_0_0_S8x8x10x128 : S12x12x10x128.Slices ![4, 3, 0, 0] S8x8x10x128
  slices_S20x10x5x5_o0_0_4_3_S20x10x1x1 : S20x10x5x5.Slices ![0, 0, 4, 3] S20x10x1x1
  slices_S12x12x10x128_o4_4_0_0_S8x8x10x128 : S12x12x10x128.Slices ![4, 4, 0, 0] S8x8x10x128
  slices_S20x10x5x5_o0_0_4_4_S20x10x1x1 : S20x10x5x5.Slices ![0, 0, 4, 4] S20x10x1x1
  shapeCasts_S20_S1x1x20x1 : S20.ShapeCasts S1x1x20x1
  broadcasts_S1x1x20x1_S8x8x20x128 : S1x1x20x1.Broadcasts S8x8x20x128
  shapeCasts_S8x8x20x128_S4x2x8x20x128 : S8x8x20x128.ShapeCasts S4x2x8x20x128
  slices_S4x2x8x20x128_o0_0_0_0_0_S4x1x8x20x128 : S4x2x8x20x128.Slices ![0, 0, 0, 0, 0] S4x1x8x20x128
  shapeCasts_S4x1x8x20x128_S4x8x20x128 : S4x1x8x20x128.ShapeCasts S4x8x20x128
  slices_S4x2x8x20x128_o0_1_0_0_0_S4x1x8x20x128 : S4x2x8x20x128.Slices ![0, 1, 0, 0, 0] S4x1x8x20x128
  shapeCasts_S4x8x20x128_S4x4x2x20x128 : S4x8x20x128.ShapeCasts S4x4x2x20x128
  slices_S4x4x2x20x128_o0_0_0_0_0_S4x4x1x20x128 : S4x4x2x20x128.Slices ![0, 0, 0, 0, 0] S4x4x1x20x128
  shapeCasts_S4x4x1x20x128_S4x4x20x128 : S4x4x1x20x128.ShapeCasts S4x4x20x128
  slices_S4x4x2x20x128_o0_0_1_0_0_S4x4x1x20x128 : S4x4x2x20x128.Slices ![0, 0, 1, 0, 0] S4x4x1x20x128
  inb_S4x4x50x20_S4x4x50x20_0_0_0_0 : ∀ a, (![0, 0, 0, 0] : Fin 4 → Nat) a + S4x4x50x20.size a ≤ S4x4x50x20.size a
  h_S4x4x50x20 : 0 < S4x4x50x20.numel
  shapeCasts_S4x4x50x20_S4x4x50x20 : S4x4x50x20.ShapeCasts S4x4x50x20
  inb_S50_S50_0 : ∀ a, (![0] : Fin 1 → Nat) a + S50.size a ≤ S50.size a
  h_S50 : 0 < S50.numel
  shapeCasts_S50_S50 : S50.ShapeCasts S50
  slices_S4x4x50x20_o0_0_0_0_S1x1x50x20 : S4x4x50x20.Slices ![0, 0, 0, 0] S1x1x50x20
  shapeCasts_S1x1x50x20_S50x20 : S1x1x50x20.ShapeCasts S50x20
  slices_S4x4x20x128_o0_0_0_0_S1x1x20x128 : S4x4x20x128.Slices ![0, 0, 0, 0] S1x1x20x128
  shapeCasts_S1x1x20x128_S20x128 : S1x1x20x128.ShapeCasts S20x128
  slices_S4x4x50x20_o0_1_0_0_S1x1x50x20 : S4x4x50x20.Slices ![0, 1, 0, 0] S1x1x50x20
  slices_S4x4x20x128_o0_1_0_0_S1x1x20x128 : S4x4x20x128.Slices ![0, 1, 0, 0] S1x1x20x128
  slices_S4x4x50x20_o0_2_0_0_S1x1x50x20 : S4x4x50x20.Slices ![0, 2, 0, 0] S1x1x50x20
  slices_S4x4x20x128_o0_2_0_0_S1x1x20x128 : S4x4x20x128.Slices ![0, 2, 0, 0] S1x1x20x128
  slices_S4x4x50x20_o0_3_0_0_S1x1x50x20 : S4x4x50x20.Slices ![0, 3, 0, 0] S1x1x50x20
  slices_S4x4x20x128_o0_3_0_0_S1x1x20x128 : S4x4x20x128.Slices ![0, 3, 0, 0] S1x1x20x128
  slices_S4x4x50x20_o1_0_0_0_S1x1x50x20 : S4x4x50x20.Slices ![1, 0, 0, 0] S1x1x50x20
  slices_S4x4x20x128_o1_0_0_0_S1x1x20x128 : S4x4x20x128.Slices ![1, 0, 0, 0] S1x1x20x128
  slices_S4x4x50x20_o1_1_0_0_S1x1x50x20 : S4x4x50x20.Slices ![1, 1, 0, 0] S1x1x50x20
  slices_S4x4x20x128_o1_1_0_0_S1x1x20x128 : S4x4x20x128.Slices ![1, 1, 0, 0] S1x1x20x128
  slices_S4x4x50x20_o1_2_0_0_S1x1x50x20 : S4x4x50x20.Slices ![1, 2, 0, 0] S1x1x50x20
  slices_S4x4x20x128_o1_2_0_0_S1x1x20x128 : S4x4x20x128.Slices ![1, 2, 0, 0] S1x1x20x128
  slices_S4x4x50x20_o1_3_0_0_S1x1x50x20 : S4x4x50x20.Slices ![1, 3, 0, 0] S1x1x50x20
  slices_S4x4x20x128_o1_3_0_0_S1x1x20x128 : S4x4x20x128.Slices ![1, 3, 0, 0] S1x1x20x128
  slices_S4x4x50x20_o2_0_0_0_S1x1x50x20 : S4x4x50x20.Slices ![2, 0, 0, 0] S1x1x50x20
  slices_S4x4x20x128_o2_0_0_0_S1x1x20x128 : S4x4x20x128.Slices ![2, 0, 0, 0] S1x1x20x128
  slices_S4x4x50x20_o2_1_0_0_S1x1x50x20 : S4x4x50x20.Slices ![2, 1, 0, 0] S1x1x50x20
  slices_S4x4x20x128_o2_1_0_0_S1x1x20x128 : S4x4x20x128.Slices ![2, 1, 0, 0] S1x1x20x128
  slices_S4x4x50x20_o2_2_0_0_S1x1x50x20 : S4x4x50x20.Slices ![2, 2, 0, 0] S1x1x50x20
  slices_S4x4x20x128_o2_2_0_0_S1x1x20x128 : S4x4x20x128.Slices ![2, 2, 0, 0] S1x1x20x128
  slices_S4x4x50x20_o2_3_0_0_S1x1x50x20 : S4x4x50x20.Slices ![2, 3, 0, 0] S1x1x50x20
  slices_S4x4x20x128_o2_3_0_0_S1x1x20x128 : S4x4x20x128.Slices ![2, 3, 0, 0] S1x1x20x128
  slices_S4x4x50x20_o3_0_0_0_S1x1x50x20 : S4x4x50x20.Slices ![3, 0, 0, 0] S1x1x50x20
  slices_S4x4x20x128_o3_0_0_0_S1x1x20x128 : S4x4x20x128.Slices ![3, 0, 0, 0] S1x1x20x128
  slices_S4x4x50x20_o3_1_0_0_S1x1x50x20 : S4x4x50x20.Slices ![3, 1, 0, 0] S1x1x50x20
  slices_S4x4x20x128_o3_1_0_0_S1x1x20x128 : S4x4x20x128.Slices ![3, 1, 0, 0] S1x1x20x128
  slices_S4x4x50x20_o3_2_0_0_S1x1x50x20 : S4x4x50x20.Slices ![3, 2, 0, 0] S1x1x50x20
  slices_S4x4x20x128_o3_2_0_0_S1x1x20x128 : S4x4x20x128.Slices ![3, 2, 0, 0] S1x1x20x128
  slices_S4x4x50x20_o3_3_0_0_S1x1x50x20 : S4x4x50x20.Slices ![3, 3, 0, 0] S1x1x50x20
  slices_S4x4x20x128_o3_3_0_0_S1x1x20x128 : S4x4x20x128.Slices ![3, 3, 0, 0] S1x1x20x128
  shapeCasts_S50_S50x1 : S50.ShapeCasts S50x1
  broadcasts_S50x1_S50x128 : S50x1.Broadcasts S50x128
  inb_S10x50_S10x50_0_0 : ∀ a, (![0, 0] : Fin 2 → Nat) a + S10x50.size a ≤ S10x50.size a
  h_S10x50 : 0 < S10x50.numel
  shapeCasts_S10x50_S10x50 : S10x50.ShapeCasts S10x50
  shapeCasts_S10_S10x1 : S10.ShapeCasts S10x1
  broadcasts_S10x1_S10x128 : S10x1.Broadcasts S10x128
  reduces_S10x128_S128 : S10x128.Reduces [0] S128
  shapeCasts_S128_S1x128 : S128.ShapeCasts S1x128
  broadcasts_S1x128_S10x128 : S1x128.Broadcasts S10x128
  inb_S10x128_S10x128_0_0 : ∀ a, (![0, 0] : Fin 2 → Nat) a + S10x128.size a ≤ S10x128.size a
  h_S10x128 : 0 < S10x128.numel
  transposes_S10x1024_S1024x10_1_0 : S10x1024.Transposes [1, 0] S1024x10
  dot_S50x20_S20x128_S50x128_1_0_0_1_n_n_wf : DotDims.WF S50x20 S20x128 S50x128 [1] [0] [0] [1] [] []
  dot_S10x50_S50x128_S10x128_1_0_0_1_n_n_wf : DotDims.WF S10x50 S50x128 S10x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S28x28x1x128.size a ≤ S28x28x1x1024.size a
  hwx0_0 : ∀ i : grid0.Coords, EltTy.bits .f32 = 32 ∨ (Rect.block (s := S28x28x1x1024) S28x28x1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x1x5x5.size a ≤ S10x1x5x5.size a
  hwx0_1 : ∀ i : grid0.Coords, EltTy.bits .f32 = 32 ∨ (Rect.block (s := S10x1x5x5) S10x1x5x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10.size a ≤ S10.size a
  hwx0_2 : ∀ i : grid0.Coords, EltTy.bits .f32 = 32 ∨ (Rect.block (s := S10) S10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x10x5x5.size a ≤ S20x10x5x5.size a
  hwx0_3 : ∀ i : grid0.Coords, EltTy.bits .f32 = 32 ∨ (Rect.block (s := S20x10x5x5) S20x10x5x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20.size a ≤ S20.size a
  hwx0_4 : ∀ i : grid0.Coords, EltTy.bits .f32 = 32 ∨ (Rect.block (s := S20) S20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x4x50x20.size a ≤ S4x4x50x20.size a
  hwx0_5 : ∀ i : grid0.Coords, EltTy.bits .f32 = 32 ∨ (Rect.block (s := S4x4x50x20) S4x4x50x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50.size a ≤ S50.size a
  hwx0_6 : ∀ i : grid0.Coords, EltTy.bits .f32 = 32 ∨ (Rect.block (s := S50) S50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x50.size a ≤ S10x50.size a
  hwx0_7 : ∀ i : grid0.Coords, EltTy.bits .f32 = 32 ∨ (Rect.block (s := S10x50) S10x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10.size a ≤ S10.size a
  hwx0_8 : ∀ i : grid0.Coords, EltTy.bits .f32 = 32 ∨ (Rect.block (s := S10) S10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10x128.size a ≤ S10x1024.size a
  hwx0_9 : ∀ i : grid0.Coords, EltTy.bits .f32 = 32 ∨ (Rect.block (s := S10x1024) S10x128.size (cc0_transform_9 i) (hinb0_9 i)).WholeWords (EltTy.packing .f32)

variable [Facts₀]

def dot_S50x20_S20x128_S50x128_1_0_0_1_n_n : DotDims S50x20 S20x128 S50x128 where
  lhsContracting := [1]
  rhsContracting := [0]
  lhsNonContracting := [0]
  rhsNonContracting := [1]
  lhsBatch := []
  rhsBatch := []
  wf := dot_S50x20_S20x128_S50x128_1_0_0_1_n_n_wf
def dot_S10x50_S50x128_S10x128_1_0_0_1_n_n : DotDims S10x50 S50x128 S10x128 where
  lhsContracting := [1]
  rhsContracting := [0]
  lhsNonContracting := [0]
  rhsNonContracting := [1]
  lhsBatch := []
  rhsBatch := []
  wf := dot_S10x50_S50x128_S10x128_1_0_0_1_n_n_wf

abbrev win0_0 : Pipeline.Window sig grid0 :=
  Pipeline.Window.ofSpec (Memref.whole main_v0) S28x28x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S10x1x5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S20x10x5x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S4x4x50x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S10x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v47) S10x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1024x1x28x28 : Shape := ⟨4, ![1024, 1, 28, 28]⟩
abbrev S10x1x5x5 : Shape := ⟨4, ![10, 1, 5, 5]⟩
abbrev S10 : Shape := ⟨1, ![10]⟩
abbrev S20x10x5x5 : Shape := ⟨4, ![20, 10, 5, 5]⟩
abbrev S20 : Shape := ⟨1, ![20]⟩
abbrev S50x320 : Shape := ⟨2, ![50, 320]⟩
abbrev S50 : Shape := ⟨1, ![50]⟩
abbrev S10x50 : Shape := ⟨2, ![10, 50]⟩
abbrev S_ : Shape := ⟨0, ![]⟩
abbrev S1024x10x24x24 : Shape := ⟨4, ![1024, 10, 24, 24]⟩
abbrev S1024x1x24x24 : Shape := ⟨4, ![1024, 1, 24, 24]⟩
abbrev S1024x1x1x24x24 : Shape := ⟨5, ![1024, 1, 1, 24, 24]⟩
abbrev S10x1x1x1 : Shape := ⟨4, ![10, 1, 1, 1]⟩
abbrev S10x1 : Shape := ⟨2, ![10, 1]⟩
abbrev S1x10x1 : Shape := ⟨3, ![1, 10, 1]⟩
abbrev S1x10x1x1x1 : Shape := ⟨5, ![1, 10, 1, 1, 1]⟩
abbrev S1024x10x1x24x24 : Shape := ⟨5, ![1024, 10, 1, 24, 24]⟩
abbrev S1x10x1x1 : Shape := ⟨4, ![1, 10, 1, 1]⟩
abbrev S1024x10x12x12 : Shape := ⟨4, ![1024, 10, 12, 12]⟩
abbrev S1024x20x8x8 : Shape := ⟨4, ![1024, 20, 8, 8]⟩
abbrev S1024x10x8x8 : Shape := ⟨4, ![1024, 10, 8, 8]⟩
abbrev S1024x1x10x8x8 : Shape := ⟨5, ![1024, 1, 10, 8, 8]⟩
abbrev S20x10x1x1 : Shape := ⟨4, ![20, 10, 1, 1]⟩
abbrev S20x10 : Shape := ⟨2, ![20, 10]⟩
abbrev S1x20x10 : Shape := ⟨3, ![1, 20, 10]⟩
abbrev S1x20x10x1x1 : Shape := ⟨5, ![1, 20, 10, 1, 1]⟩
abbrev S1024x20x10x8x8 : Shape := ⟨5, ![1024, 20, 10, 8, 8]⟩
abbrev S1x20x1x1 : Shape := ⟨4, ![1, 20, 1, 1]⟩
abbrev S1024x20x4x4 : Shape := ⟨4, ![1024, 20, 4, 4]⟩
abbrev S1024x320 : Shape := ⟨2, ![1024, 320]⟩
abbrev S320x50 : Shape := ⟨2, ![320, 50]⟩
abbrev S1024x50 : Shape := ⟨2, ![1024, 50]⟩
abbrev S1x50 : Shape := ⟨2, ![1, 50]⟩
abbrev S50x10 : Shape := ⟨2, ![50, 10]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩

abbrev nBuf : Space → Nat
  | .hbm => 1185
  | .vmem => 0
  | .smem => 0
  | _ => 0

abbrev hbmTy0_0 (i : Nat) : BufTy := match i % 128 with
  | 0 => ⟨S1024x1x28x28, .f32⟩
  | 1 => ⟨S10x1x5x5, .f32⟩
  | 2 => ⟨S10, .f32⟩
  | 3 => ⟨S20x10x5x5, .f32⟩
  | 4 => ⟨S20, .f32⟩
  | 5 => ⟨S50x320, .f32⟩
  | 6 => ⟨S50, .f32⟩
  | 7 => ⟨S10x50, .f32⟩
  | 8 => ⟨S10, .f32⟩
  | 9 => ⟨S_, .f32⟩
  | 10 => ⟨S1024x1x28x28, .f32⟩
  | 11 => ⟨S1024x1x28x28, .f32⟩
  | 12 => ⟨S1024x1x28x28, .f32⟩
  | 13 => ⟨S_, .f32⟩
  | 14 => ⟨S1024x1x28x28, .f32⟩
  | 15 => ⟨S1024x1x28x28, .f32⟩
  | 16 => ⟨S_, .f32⟩
  | 17 => ⟨S10x1x5x5, .f32⟩
  | 18 => ⟨S10x1x5x5, .f32⟩
  | 19 => ⟨S10x1x5x5, .f32⟩
  | 20 => ⟨S_, .f32⟩
  | 21 => ⟨S10x1x5x5, .f32⟩
  | 22 => ⟨S10x1x5x5, .f32⟩
  | 23 => ⟨S_, .f32⟩
  | 24 => ⟨S10, .f32⟩
  | 25 => ⟨S10, .f32⟩
  | 26 => ⟨S10, .f32⟩
  | 27 => ⟨S_, .f32⟩
  | 28 => ⟨S10, .f32⟩
  | 29 => ⟨S10, .f32⟩
  | 30 => ⟨S_, .f32⟩
  | 31 => ⟨S1024x10x24x24, .f32⟩
  | 32 => ⟨S1024x1x24x24, .f32⟩
  | 33 => ⟨S1024x1x1x24x24, .f32⟩
  | 34 => ⟨S10x1x1x1, .f32⟩
  | 35 => ⟨S10x1, .f32⟩
  | 36 => ⟨S1x10x1, .f32⟩
  | 37 => ⟨S1x10x1x1x1, .f32⟩
  | 38 => ⟨S1024x10x1x24x24, .f32⟩
  | 39 => ⟨S1024x10x1x24x24, .f32⟩
  | 40 => ⟨S1024x10x1x24x24, .f32⟩
  | 41 => ⟨S_, .f32⟩
  | 42 => ⟨S_, .f32⟩
  | 43 => ⟨S_, .f32⟩
  | 44 => ⟨S1024x10x1x24x24, .f32⟩
  | 45 => ⟨S1024x10x1x24x24, .f32⟩
  | 46 => ⟨S_, .f32⟩
  | 47 => ⟨S1024x10x1x24x24, .f32⟩
  | 48 => ⟨S1024x10x1x24x24, .f32⟩
  | 49 => ⟨S_, .f32⟩
  | 50 => ⟨S1024x10x24x24, .f32⟩
  | 51 => ⟨S1024x10x24x24, .f32⟩
  | 52 => ⟨S1024x1x24x24, .f32⟩
  | 53 => ⟨S1024x1x1x24x24, .f32⟩
  | 54 => ⟨S10x1x1x1, .f32⟩
  | 55 => ⟨S10x1, .f32⟩
  | 56 => ⟨S1x10x1, .f32⟩
  | 57 => ⟨S1x10x1x1x1, .f32⟩
  | 58 => ⟨S1024x10x1x24x24, .f32⟩
  | 59 => ⟨S1024x10x1x24x24, .f32⟩
  | 60 => ⟨S1024x10x1x24x24, .f32⟩
  | 61 => ⟨S_, .f32⟩
  | 62 => ⟨S_, .f32⟩
  | 63 => ⟨S_, .f32⟩
  | 64 => ⟨S1024x10x1x24x24, .f32⟩
  | 65 => ⟨S1024x10x1x24x24, .f32⟩
  | 66 => ⟨S_, .f32⟩
  | 67 => ⟨S1024x10x1x24x24, .f32⟩
  | 68 => ⟨S1024x10x1x24x24, .f32⟩
  | 69 => ⟨S_, .f32⟩
  | 70 => ⟨S1024x10x24x24, .f32⟩
  | 71 => ⟨S1024x10x24x24, .f32⟩
  | 72 => ⟨S1024x1x24x24, .f32⟩
  | 73 => ⟨S1024x1x1x24x24, .f32⟩
  | 74 => ⟨S10x1x1x1, .f32⟩
  | 75 => ⟨S10x1, .f32⟩
  | 76 => ⟨S1x10x1, .f32⟩
  | 77 => ⟨S1x10x1x1x1, .f32⟩
  | 78 => ⟨S1024x10x1x24x24, .f32⟩
  | 79 => ⟨S1024x10x1x24x24, .f32⟩
  | 80 => ⟨S1024x10x1x24x24, .f32⟩
  | 81 => ⟨S_, .f32⟩
  | 82 => ⟨S_, .f32⟩
  | 83 => ⟨S_, .f32⟩
  | 84 => ⟨S1024x10x1x24x24, .f32⟩
  | 85 => ⟨S1024x10x1x24x24, .f32⟩
  | 86 => ⟨S_, .f32⟩
  | 87 => ⟨S1024x10x1x24x24, .f32⟩
  | 88 => ⟨S1024x10x1x24x24, .f32⟩
  | 89 => ⟨S_, .f32⟩
  | 90 => ⟨S1024x10x24x24, .f32⟩
  | 91 => ⟨S1024x10x24x24, .f32⟩
  | 92 => ⟨S1024x1x24x24, .f32⟩
  | 93 => ⟨S1024x1x1x24x24, .f32⟩
  | 94 => ⟨S10x1x1x1, .f32⟩
  | 95 => ⟨S10x1, .f32⟩
  | 96 => ⟨S1x10x1, .f32⟩
  | 97 => ⟨S1x10x1x1x1, .f32⟩
  | 98 => ⟨S1024x10x1x24x24, .f32⟩
  | 99 => ⟨S1024x10x1x24x24, .f32⟩
  | 100 => ⟨S1024x10x1x24x24, .f32⟩
  | 101 => ⟨S_, .f32⟩
  | 102 => ⟨S_, .f32⟩
  | 103 => ⟨S_, .f32⟩
  | 104 => ⟨S1024x10x1x24x24, .f32⟩
  | 105 => ⟨S1024x10x1x24x24, .f32⟩
  | 106 => ⟨S_, .f32⟩
  | 107 => ⟨S1024x10x1x24x24, .f32⟩
  | 108 => ⟨S1024x10x1x24x24, .f32⟩
  | 109 => ⟨S_, .f32⟩
  | 110 => ⟨S1024x10x24x24, .f32⟩
  | 111 => ⟨S1024x10x24x24, .f32⟩
  | 112 => ⟨S1024x1x24x24, .f32⟩
  | 113 => ⟨S1024x1x1x24x24, .f32⟩
  | 114 => ⟨S10x1x1x1, .f32⟩
  | 115 => ⟨S10x1, .f32⟩
  | 116 => ⟨S1x10x1, .f32⟩
  | 117 => ⟨S1x10x1x1x1, .f32⟩
  | 118 => ⟨S1024x10x1x24x24, .f32⟩
  | 119 => ⟨S1024x10x1x24x24, .f32⟩
  | 120 => ⟨S1024x10x1x24x24, .f32⟩
  | 121 => ⟨S_, .f32⟩
  | 122 => ⟨S_, .f32⟩
  | 123 => ⟨S_, .f32⟩
  | 124 => ⟨S1024x10x1x24x24, .f32⟩
  | 125 => ⟨S1024x10x1x24x24, .f32⟩
  | 126 => ⟨S_, .f32⟩
  | 127 => ⟨S1024x10x1x24x24, .f32⟩
  | _ => ⟨S1024x1x28x28, .f32⟩

abbrev hbmTy0_1 (i : Nat) : BufTy := match i % 128 with
  | 0 => ⟨S1024x10x1x24x24, .f32⟩
  | 1 => ⟨S_, .f32⟩
  | 2 => ⟨S1024x10x24x24, .f32⟩
  | 3 => ⟨S1024x10x24x24, .f32⟩
  | 4 => ⟨S1024x1x24x24, .f32⟩
  | 5 => ⟨S1024x1x1x24x24, .f32⟩
  | 6 => ⟨S10x1x1x1, .f32⟩
  | 7 => ⟨S10x1, .f32⟩
  | 8 => ⟨S1x10x1, .f32⟩
  | 9 => ⟨S1x10x1x1x1, .f32⟩
  | 10 => ⟨S1024x10x1x24x24, .f32⟩
  | 11 => ⟨S1024x10x1x24x24, .f32⟩
  | 12 => ⟨S1024x10x1x24x24, .f32⟩
  | 13 => ⟨S_, .f32⟩
  | 14 => ⟨S_, .f32⟩
  | 15 => ⟨S_, .f32⟩
  | 16 => ⟨S1024x10x1x24x24, .f32⟩
  | 17 => ⟨S1024x10x1x24x24, .f32⟩
  | 18 => ⟨S_, .f32⟩
  | 19 => ⟨S1024x10x1x24x24, .f32⟩
  | 20 => ⟨S1024x10x1x24x24, .f32⟩
  | 21 => ⟨S_, .f32⟩
  | 22 => ⟨S1024x10x24x24, .f32⟩
  | 23 => ⟨S1024x10x24x24, .f32⟩
  | 24 => ⟨S1024x1x24x24, .f32⟩
  | 25 => ⟨S1024x1x1x24x24, .f32⟩
  | 26 => ⟨S10x1x1x1, .f32⟩
  | 27 => ⟨S10x1, .f32⟩
  | 28 => ⟨S1x10x1, .f32⟩
  | 29 => ⟨S1x10x1x1x1, .f32⟩
  | 30 => ⟨S1024x10x1x24x24, .f32⟩
  | 31 => ⟨S1024x10x1x24x24, .f32⟩
  | 32 => ⟨S1024x10x1x24x24, .f32⟩
  | 33 => ⟨S_, .f32⟩
  | 34 => ⟨S_, .f32⟩
  | 35 => ⟨S_, .f32⟩
  | 36 => ⟨S1024x10x1x24x24, .f32⟩
  | 37 => ⟨S1024x10x1x24x24, .f32⟩
  | 38 => ⟨S_, .f32⟩
  | 39 => ⟨S1024x10x1x24x24, .f32⟩
  | 40 => ⟨S1024x10x1x24x24, .f32⟩
  | 41 => ⟨S_, .f32⟩
  | 42 => ⟨S1024x10x24x24, .f32⟩
  | 43 => ⟨S1024x10x24x24, .f32⟩
  | 44 => ⟨S1024x1x24x24, .f32⟩
  | 45 => ⟨S1024x1x1x24x24, .f32⟩
  | 46 => ⟨S10x1x1x1, .f32⟩
  | 47 => ⟨S10x1, .f32⟩
  | 48 => ⟨S1x10x1, .f32⟩
  | 49 => ⟨S1x10x1x1x1, .f32⟩
  | 50 => ⟨S1024x10x1x24x24, .f32⟩
  | 51 => ⟨S1024x10x1x24x24, .f32⟩
  | 52 => ⟨S1024x10x1x24x24, .f32⟩
  | 53 => ⟨S_, .f32⟩
  | 54 => ⟨S_, .f32⟩
  | 55 => ⟨S_, .f32⟩
  | 56 => ⟨S1024x10x1x24x24, .f32⟩
  | 57 => ⟨S1024x10x1x24x24, .f32⟩
  | 58 => ⟨S_, .f32⟩
  | 59 => ⟨S1024x10x1x24x24, .f32⟩
  | 60 => ⟨S1024x10x1x24x24, .f32⟩
  | 61 => ⟨S_, .f32⟩
  | 62 => ⟨S1024x10x24x24, .f32⟩
  | 63 => ⟨S1024x10x24x24, .f32⟩
  | 64 => ⟨S1024x1x24x24, .f32⟩
  | 65 => ⟨S1024x1x1x24x24, .f32⟩
  | 66 => ⟨S10x1x1x1, .f32⟩
  | 67 => ⟨S10x1, .f32⟩
  | 68 => ⟨S1x10x1, .f32⟩
  | 69 => ⟨S1x10x1x1x1, .f32⟩
  | 70 => ⟨S1024x10x1x24x24, .f32⟩
  | 71 => ⟨S1024x10x1x24x24, .f32⟩
  | 72 => ⟨S1024x10x1x24x24, .f32⟩
  | 73 => ⟨S_, .f32⟩
  | 74 => ⟨S_, .f32⟩
  | 75 => ⟨S_, .f32⟩
  | 76 => ⟨S1024x10x1x24x24, .f32⟩
  | 77 => ⟨S1024x10x1x24x24, .f32⟩
  | 78 => ⟨S_, .f32⟩
  | 79 => ⟨S1024x10x1x24x24, .f32⟩
  | 80 => ⟨S1024x10x1x24x24, .f32⟩
  | 81 => ⟨S_, .f32⟩
  | 82 => ⟨S1024x10x24x24, .f32⟩
  | 83 => ⟨S1024x10x24x24, .f32⟩
  | 84 => ⟨S1024x1x24x24, .f32⟩
  | 85 => ⟨S1024x1x1x24x24, .f32⟩
  | 86 => ⟨S10x1x1x1, .f32⟩
  | 87 => ⟨S10x1, .f32⟩
  | 88 => ⟨S1x10x1, .f32⟩
  | 89 => ⟨S1x10x1x1x1, .f32⟩
  | 90 => ⟨S1024x10x1x24x24, .f32⟩
  | 91 => ⟨S1024x10x1x24x24, .f32⟩
  | 92 => ⟨S1024x10x1x24x24, .f32⟩
  | 93 => ⟨S_, .f32⟩
  | 94 => ⟨S_, .f32⟩
  | 95 => ⟨S_, .f32⟩
  | 96 => ⟨S1024x10x1x24x24, .f32⟩
  | 97 => ⟨S1024x10x1x24x24, .f32⟩
  | 98 => ⟨S_, .f32⟩
  | 99 => ⟨S1024x10x1x24x24, .f32⟩
  | 100 => ⟨S1024x10x1x24x24, .f32⟩
  | 101 => ⟨S_, .f32⟩
  | 102 => ⟨S1024x10x24x24, .f32⟩
  | 103 => ⟨S1024x10x24x24, .f32⟩
  | 104 => ⟨S1024x1x24x24, .f32⟩
  | 105 => ⟨S1024x1x1x24x24, .f32⟩
  | 106 => ⟨S10x1x1x1, .f32⟩
  | 107 => ⟨S10x1, .f32⟩
  | 108 => ⟨S1x10x1, .f32⟩
  | 109 => ⟨S1x10x1x1x1, .f32⟩
  | 110 => ⟨S1024x10x1x24x24, .f32⟩
  | 111 => ⟨S1024x10x1x24x24, .f32⟩
  | 112 => ⟨S1024x10x1x24x24, .f32⟩
  | 113 => ⟨S_, .f32⟩
  | 114 => ⟨S_, .f32⟩
  | 115 => ⟨S_, .f32⟩
  | 116 => ⟨S1024x10x1x24x24, .f32⟩
  | 117 => ⟨S1024x10x1x24x24, .f32⟩
  | 118 => ⟨S_, .f32⟩
  | 119 => ⟨S1024x10x1x24x24, .f32⟩
  | 120 => ⟨S1024x10x1x24x24, .f32⟩
  | 121 => ⟨S_, .f32⟩
  | 122 => ⟨S1024x10x24x24, .f32⟩
  | 123 => ⟨S1024x10x24x24, .f32⟩
  | 124 => ⟨S1024x1x24x24, .f32⟩
  | 125 => ⟨S1024x1x1x24x24, .f32⟩
  | 126 => ⟨S10x1x1x1, .f32⟩
  | 127 => ⟨S10x1, .f32⟩
  | _ => ⟨S1024x1x28x28, .f32⟩

abbrev hbmTy0_2 (i : Nat) : BufTy := match i % 128 with
  | 0 => ⟨S1x10x1, .f32⟩
  | 1 => ⟨S1x10x1x1x1, .f32⟩
  | 2 => ⟨S1024x10x1x24x24, .f32⟩
  | 3 => ⟨S1024x10x1x24x24, .f32⟩
  | 4 => ⟨S1024x10x1x24x24, .f32⟩
  | 5 => ⟨S_, .f32⟩
  | 6 => ⟨S_, .f32⟩
  | 7 => ⟨S_, .f32⟩
  | 8 => ⟨S1024x10x1x24x24, .f32⟩
  | 9 => ⟨S1024x10x1x24x24, .f32⟩
  | 10 => ⟨S_, .f32⟩
  | 11 => ⟨S1024x10x1x24x24, .f32⟩
  | 12 => ⟨S1024x10x1x24x24, .f32⟩
  | 13 => ⟨S_, .f32⟩
  | 14 => ⟨S1024x10x24x24, .f32⟩
  | 15 => ⟨S1024x10x24x24, .f32⟩
  | 16 => ⟨S1024x1x24x24, .f32⟩
  | 17 => ⟨S1024x1x1x24x24, .f32⟩
  | 18 => ⟨S10x1x1x1, .f32⟩
  | 19 => ⟨S10x1, .f32⟩
  | 20 => ⟨S1x10x1, .f32⟩
  | 21 => ⟨S1x10x1x1x1, .f32⟩
  | 22 => ⟨S1024x10x1x24x24, .f32⟩
  | 23 => ⟨S1024x10x1x24x24, .f32⟩
  | 24 => ⟨S1024x10x1x24x24, .f32⟩
  | 25 => ⟨S_, .f32⟩
  | 26 => ⟨S_, .f32⟩
  | 27 => ⟨S_, .f32⟩
  | 28 => ⟨S1024x10x1x24x24, .f32⟩
  | 29 => ⟨S1024x10x1x24x24, .f32⟩
  | 30 => ⟨S_, .f32⟩
  | 31 => ⟨S1024x10x1x24x24, .f32⟩
  | 32 => ⟨S1024x10x1x24x24, .f32⟩
  | 33 => ⟨S_, .f32⟩
  | 34 => ⟨S1024x10x24x24, .f32⟩
  | 35 => ⟨S1024x10x24x24, .f32⟩
  | 36 => ⟨S1024x1x24x24, .f32⟩
  | 37 => ⟨S1024x1x1x24x24, .f32⟩
  | 38 => ⟨S10x1x1x1, .f32⟩
  | 39 => ⟨S10x1, .f32⟩
  | 40 => ⟨S1x10x1, .f32⟩
  | 41 => ⟨S1x10x1x1x1, .f32⟩
  | 42 => ⟨S1024x10x1x24x24, .f32⟩
  | 43 => ⟨S1024x10x1x24x24, .f32⟩
  | 44 => ⟨S1024x10x1x24x24, .f32⟩
  | 45 => ⟨S_, .f32⟩
  | 46 => ⟨S_, .f32⟩
  | 47 => ⟨S_, .f32⟩
  | 48 => ⟨S1024x10x1x24x24, .f32⟩
  | 49 => ⟨S1024x10x1x24x24, .f32⟩
  | 50 => ⟨S_, .f32⟩
  | 51 => ⟨S1024x10x1x24x24, .f32⟩
  | 52 => ⟨S1024x10x1x24x24, .f32⟩
  | 53 => ⟨S_, .f32⟩
  | 54 => ⟨S1024x10x24x24, .f32⟩
  | 55 => ⟨S1024x10x24x24, .f32⟩
  | 56 => ⟨S1024x1x24x24, .f32⟩
  | 57 => ⟨S1024x1x1x24x24, .f32⟩
  | 58 => ⟨S10x1x1x1, .f32⟩
  | 59 => ⟨S10x1, .f32⟩
  | 60 => ⟨S1x10x1, .f32⟩
  | 61 => ⟨S1x10x1x1x1, .f32⟩
  | 62 => ⟨S1024x10x1x24x24, .f32⟩
  | 63 => ⟨S1024x10x1x24x24, .f32⟩
  | 64 => ⟨S1024x10x1x24x24, .f32⟩
  | 65 => ⟨S_, .f32⟩
  | 66 => ⟨S_, .f32⟩
  | 67 => ⟨S_, .f32⟩
  | 68 => ⟨S1024x10x1x24x24, .f32⟩
  | 69 => ⟨S1024x10x1x24x24, .f32⟩
  | 70 => ⟨S_, .f32⟩
  | 71 => ⟨S1024x10x1x24x24, .f32⟩
  | 72 => ⟨S1024x10x1x24x24, .f32⟩
  | 73 => ⟨S_, .f32⟩
  | 74 => ⟨S1024x10x24x24, .f32⟩
  | 75 => ⟨S1024x10x24x24, .f32⟩
  | 76 => ⟨S1024x1x24x24, .f32⟩
  | 77 => ⟨S1024x1x1x24x24, .f32⟩
  | 78 => ⟨S10x1x1x1, .f32⟩
  | 79 => ⟨S10x1, .f32⟩
  | 80 => ⟨S1x10x1, .f32⟩
  | 81 => ⟨S1x10x1x1x1, .f32⟩
  | 82 => ⟨S1024x10x1x24x24, .f32⟩
  | 83 => ⟨S1024x10x1x24x24, .f32⟩
  | 84 => ⟨S1024x10x1x24x24, .f32⟩
  | 85 => ⟨S_, .f32⟩
  | 86 => ⟨S_, .f32⟩
  | 87 => ⟨S_, .f32⟩
  | 88 => ⟨S1024x10x1x24x24, .f32⟩
  | 89 => ⟨S1024x10x1x24x24, .f32⟩
  | 90 => ⟨S_, .f32⟩
  | 91 => ⟨S1024x10x1x24x24, .f32⟩
  | 92 => ⟨S1024x10x1x24x24, .f32⟩
  | 93 => ⟨S_, .f32⟩
  | 94 => ⟨S1024x10x24x24, .f32⟩
  | 95 => ⟨S1024x10x24x24, .f32⟩
  | 96 => ⟨S1024x1x24x24, .f32⟩
  | 97 => ⟨S1024x1x1x24x24, .f32⟩
  | 98 => ⟨S10x1x1x1, .f32⟩
  | 99 => ⟨S10x1, .f32⟩
  | 100 => ⟨S1x10x1, .f32⟩
  | 101 => ⟨S1x10x1x1x1, .f32⟩
  | 102 => ⟨S1024x10x1x24x24, .f32⟩
  | 103 => ⟨S1024x10x1x24x24, .f32⟩
  | 104 => ⟨S1024x10x1x24x24, .f32⟩
  | 105 => ⟨S_, .f32⟩
  | 106 => ⟨S_, .f32⟩
  | 107 => ⟨S_, .f32⟩
  | 108 => ⟨S1024x10x1x24x24, .f32⟩
  | 109 => ⟨S1024x10x1x24x24, .f32⟩
  | 110 => ⟨S_, .f32⟩
  | 111 => ⟨S1024x10x1x24x24, .f32⟩
  | 112 => ⟨S1024x10x1x24x24, .f32⟩
  | 113 => ⟨S_, .f32⟩
  | 114 => ⟨S1024x10x24x24, .f32⟩
  | 115 => ⟨S1024x10x24x24, .f32⟩
  | 116 => ⟨S1024x1x24x24, .f32⟩
  | 117 => ⟨S1024x1x1x24x24, .f32⟩
  | 118 => ⟨S10x1x1x1, .f32⟩
  | 119 => ⟨S10x1, .f32⟩
  | 120 => ⟨S1x10x1, .f32⟩
  | 121 => ⟨S1x10x1x1x1, .f32⟩
  | 122 => ⟨S1024x10x1x24x24, .f32⟩
  | 123 => ⟨S1024x10x1x24x24, .f32⟩
  | 124 => ⟨S1024x10x1x24x24, .f32⟩
  | 125 => ⟨S_, .f32⟩
  | 126 => ⟨S_, .f32⟩
  | 127 => ⟨S_, .f32⟩
  | _ => ⟨S1024x1x28x28, .f32⟩

abbrev hbmTy0_3 (i : Nat) : BufTy := match i % 128 with
  | 0 => ⟨S1024x10x1x24x24, .f32⟩
  | 1 => ⟨S1024x10x1x24x24, .f32⟩
  | 2 => ⟨S_, .f32⟩
  | 3 => ⟨S1024x10x1x24x24, .f32⟩
  | 4 => ⟨S1024x10x1x24x24, .f32⟩
  | 5 => ⟨S_, .f32⟩
  | 6 => ⟨S1024x10x24x24, .f32⟩
  | 7 => ⟨S1024x10x24x24, .f32⟩
  | 8 => ⟨S1024x1x24x24, .f32⟩
  | 9 => ⟨S1024x1x1x24x24, .f32⟩
  | 10 => ⟨S10x1x1x1, .f32⟩
  | 11 => ⟨S10x1, .f32⟩
  | 12 => ⟨S1x10x1, .f32⟩
  | 13 => ⟨S1x10x1x1x1, .f32⟩
  | 14 => ⟨S1024x10x1x24x24, .f32⟩
  | 15 => ⟨S1024x10x1x24x24, .f32⟩
  | 16 => ⟨S1024x10x1x24x24, .f32⟩
  | 17 => ⟨S_, .f32⟩
  | 18 => ⟨S_, .f32⟩
  | 19 => ⟨S_, .f32⟩
  | 20 => ⟨S1024x10x1x24x24, .f32⟩
  | 21 => ⟨S1024x10x1x24x24, .f32⟩
  | 22 => ⟨S_, .f32⟩
  | 23 => ⟨S1024x10x1x24x24, .f32⟩
  | 24 => ⟨S1024x10x1x24x24, .f32⟩
  | 25 => ⟨S_, .f32⟩
  | 26 => ⟨S1024x10x24x24, .f32⟩
  | 27 => ⟨S1024x10x24x24, .f32⟩
  | 28 => ⟨S1024x1x24x24, .f32⟩
  | 29 => ⟨S1024x1x1x24x24, .f32⟩
  | 30 => ⟨S10x1x1x1, .f32⟩
  | 31 => ⟨S10x1, .f32⟩
  | 32 => ⟨S1x10x1, .f32⟩
  | 33 => ⟨S1x10x1x1x1, .f32⟩
  | 34 => ⟨S1024x10x1x24x24, .f32⟩
  | 35 => ⟨S1024x10x1x24x24, .f32⟩
  | 36 => ⟨S1024x10x1x24x24, .f32⟩
  | 37 => ⟨S_, .f32⟩
  | 38 => ⟨S_, .f32⟩
  | 39 => ⟨S_, .f32⟩
  | 40 => ⟨S1024x10x1x24x24, .f32⟩
  | 41 => ⟨S1024x10x1x24x24, .f32⟩
  | 42 => ⟨S_, .f32⟩
  | 43 => ⟨S1024x10x1x24x24, .f32⟩
  | 44 => ⟨S1024x10x1x24x24, .f32⟩
  | 45 => ⟨S_, .f32⟩
  | 46 => ⟨S1024x10x24x24, .f32⟩
  | 47 => ⟨S1024x10x24x24, .f32⟩
  | 48 => ⟨S1024x1x24x24, .f32⟩
  | 49 => ⟨S1024x1x1x24x24, .f32⟩
  | 50 => ⟨S10x1x1x1, .f32⟩
  | 51 => ⟨S10x1, .f32⟩
  | 52 => ⟨S1x10x1, .f32⟩
  | 53 => ⟨S1x10x1x1x1, .f32⟩
  | 54 => ⟨S1024x10x1x24x24, .f32⟩
  | 55 => ⟨S1024x10x1x24x24, .f32⟩
  | 56 => ⟨S1024x10x1x24x24, .f32⟩
  | 57 => ⟨S_, .f32⟩
  | 58 => ⟨S_, .f32⟩
  | 59 => ⟨S_, .f32⟩
  | 60 => ⟨S1024x10x1x24x24, .f32⟩
  | 61 => ⟨S1024x10x1x24x24, .f32⟩
  | 62 => ⟨S_, .f32⟩
  | 63 => ⟨S1024x10x1x24x24, .f32⟩
  | 64 => ⟨S1024x10x1x24x24, .f32⟩
  | 65 => ⟨S_, .f32⟩
  | 66 => ⟨S1024x10x24x24, .f32⟩
  | 67 => ⟨S1024x10x24x24, .f32⟩
  | 68 => ⟨S1024x1x24x24, .f32⟩
  | 69 => ⟨S1024x1x1x24x24, .f32⟩
  | 70 => ⟨S10x1x1x1, .f32⟩
  | 71 => ⟨S10x1, .f32⟩
  | 72 => ⟨S1x10x1, .f32⟩
  | 73 => ⟨S1x10x1x1x1, .f32⟩
  | 74 => ⟨S1024x10x1x24x24, .f32⟩
  | 75 => ⟨S1024x10x1x24x24, .f32⟩
  | 76 => ⟨S1024x10x1x24x24, .f32⟩
  | 77 => ⟨S_, .f32⟩
  | 78 => ⟨S_, .f32⟩
  | 79 => ⟨S_, .f32⟩
  | 80 => ⟨S1024x10x1x24x24, .f32⟩
  | 81 => ⟨S1024x10x1x24x24, .f32⟩
  | 82 => ⟨S_, .f32⟩
  | 83 => ⟨S1024x10x1x24x24, .f32⟩
  | 84 => ⟨S1024x10x1x24x24, .f32⟩
  | 85 => ⟨S_, .f32⟩
  | 86 => ⟨S1024x10x24x24, .f32⟩
  | 87 => ⟨S1024x10x24x24, .f32⟩
  | 88 => ⟨S1024x1x24x24, .f32⟩
  | 89 => ⟨S1024x1x1x24x24, .f32⟩
  | 90 => ⟨S10x1x1x1, .f32⟩
  | 91 => ⟨S10x1, .f32⟩
  | 92 => ⟨S1x10x1, .f32⟩
  | 93 => ⟨S1x10x1x1x1, .f32⟩
  | 94 => ⟨S1024x10x1x24x24, .f32⟩
  | 95 => ⟨S1024x10x1x24x24, .f32⟩
  | 96 => ⟨S1024x10x1x24x24, .f32⟩
  | 97 => ⟨S_, .f32⟩
  | 98 => ⟨S_, .f32⟩
  | 99 => ⟨S_, .f32⟩
  | 100 => ⟨S1024x10x1x24x24, .f32⟩
  | 101 => ⟨S1024x10x1x24x24, .f32⟩
  | 102 => ⟨S_, .f32⟩
  | 103 => ⟨S1024x10x1x24x24, .f32⟩
  | 104 => ⟨S1024x10x1x24x24, .f32⟩
  | 105 => ⟨S_, .f32⟩
  | 106 => ⟨S1024x10x24x24, .f32⟩
  | 107 => ⟨S1024x10x24x24, .f32⟩
  | 108 => ⟨S1024x1x24x24, .f32⟩
  | 109 => ⟨S1024x1x1x24x24, .f32⟩
  | 110 => ⟨S10x1x1x1, .f32⟩
  | 111 => ⟨S10x1, .f32⟩
  | 112 => ⟨S1x10x1, .f32⟩
  | 113 => ⟨S1x10x1x1x1, .f32⟩
  | 114 => ⟨S1024x10x1x24x24, .f32⟩
  | 115 => ⟨S1024x10x1x24x24, .f32⟩
  | 116 => ⟨S1024x10x1x24x24, .f32⟩
  | 117 => ⟨S_, .f32⟩
  | 118 => ⟨S_, .f32⟩
  | 119 => ⟨S_, .f32⟩
  | 120 => ⟨S1024x10x1x24x24, .f32⟩
  | 121 => ⟨S1024x10x1x24x24, .f32⟩
  | 122 => ⟨S_, .f32⟩
  | 123 => ⟨S1024x10x1x24x24, .f32⟩
  | 124 => ⟨S1024x10x1x24x24, .f32⟩
  | 125 => ⟨S_, .f32⟩
  | 126 => ⟨S1024x10x24x24, .f32⟩
  | 127 => ⟨S1024x10x24x24, .f32⟩
  | _ => ⟨S1024x1x28x28, .f32⟩

abbrev hbmTy0_4 (i : Nat) : BufTy := match i % 128 with
  | 0 => ⟨S1024x1x24x24, .f32⟩
  | 1 => ⟨S1024x1x1x24x24, .f32⟩
  | 2 => ⟨S10x1x1x1, .f32⟩
  | 3 => ⟨S10x1, .f32⟩
  | 4 => ⟨S1x10x1, .f32⟩
  | 5 => ⟨S1x10x1x1x1, .f32⟩
  | 6 => ⟨S1024x10x1x24x24, .f32⟩
  | 7 => ⟨S1024x10x1x24x24, .f32⟩
  | 8 => ⟨S1024x10x1x24x24, .f32⟩
  | 9 => ⟨S_, .f32⟩
  | 10 => ⟨S_, .f32⟩
  | 11 => ⟨S_, .f32⟩
  | 12 => ⟨S1024x10x1x24x24, .f32⟩
  | 13 => ⟨S1024x10x1x24x24, .f32⟩
  | 14 => ⟨S_, .f32⟩
  | 15 => ⟨S1024x10x1x24x24, .f32⟩
  | 16 => ⟨S1024x10x1x24x24, .f32⟩
  | 17 => ⟨S_, .f32⟩
  | 18 => ⟨S1024x10x24x24, .f32⟩
  | 19 => ⟨S1024x10x24x24, .f32⟩
  | 20 => ⟨S1x10x1x1, .f32⟩
  | 21 => ⟨S1024x10x24x24, .f32⟩
  | 22 => ⟨S1024x10x24x24, .f32⟩
  | 23 => ⟨S_, .f32⟩
  | 24 => ⟨S_, .f32⟩
  | 25 => ⟨S1024x10x12x12, .f32⟩
  | 26 => ⟨S_, .f32⟩
  | 27 => ⟨S1024x10x12x12, .f32⟩
  | 28 => ⟨S1024x10x12x12, .f32⟩
  | 29 => ⟨S_, .f32⟩
  | 30 => ⟨S20x10x5x5, .f32⟩
  | 31 => ⟨S20x10x5x5, .f32⟩
  | 32 => ⟨S20x10x5x5, .f32⟩
  | 33 => ⟨S_, .f32⟩
  | 34 => ⟨S20x10x5x5, .f32⟩
  | 35 => ⟨S20x10x5x5, .f32⟩
  | 36 => ⟨S_, .f32⟩
  | 37 => ⟨S20, .f32⟩
  | 38 => ⟨S20, .f32⟩
  | 39 => ⟨S20, .f32⟩
  | 40 => ⟨S_, .f32⟩
  | 41 => ⟨S20, .f32⟩
  | 42 => ⟨S20, .f32⟩
  | 43 => ⟨S_, .f32⟩
  | 44 => ⟨S1024x20x8x8, .f32⟩
  | 45 => ⟨S1024x10x8x8, .f32⟩
  | 46 => ⟨S1024x1x10x8x8, .f32⟩
  | 47 => ⟨S20x10x1x1, .f32⟩
  | 48 => ⟨S20x10, .f32⟩
  | 49 => ⟨S1x20x10, .f32⟩
  | 50 => ⟨S1x20x10x1x1, .f32⟩
  | 51 => ⟨S1024x20x10x8x8, .f32⟩
  | 52 => ⟨S1024x20x10x8x8, .f32⟩
  | 53 => ⟨S1024x20x10x8x8, .f32⟩
  | 54 => ⟨S_, .f32⟩
  | 55 => ⟨S_, .f32⟩
  | 56 => ⟨S_, .f32⟩
  | 57 => ⟨S1024x20x10x8x8, .f32⟩
  | 58 => ⟨S1024x20x10x8x8, .f32⟩
  | 59 => ⟨S_, .f32⟩
  | 60 => ⟨S1024x20x10x8x8, .f32⟩
  | 61 => ⟨S1024x20x10x8x8, .f32⟩
  | 62 => ⟨S_, .f32⟩
  | 63 => ⟨S1024x20x8x8, .f32⟩
  | 64 => ⟨S1024x20x8x8, .f32⟩
  | 65 => ⟨S1024x10x8x8, .f32⟩
  | 66 => ⟨S1024x1x10x8x8, .f32⟩
  | 67 => ⟨S20x10x1x1, .f32⟩
  | 68 => ⟨S20x10, .f32⟩
  | 69 => ⟨S1x20x10, .f32⟩
  | 70 => ⟨S1x20x10x1x1, .f32⟩
  | 71 => ⟨S1024x20x10x8x8, .f32⟩
  | 72 => ⟨S1024x20x10x8x8, .f32⟩
  | 73 => ⟨S1024x20x10x8x8, .f32⟩
  | 74 => ⟨S_, .f32⟩
  | 75 => ⟨S_, .f32⟩
  | 76 => ⟨S_, .f32⟩
  | 77 => ⟨S1024x20x10x8x8, .f32⟩
  | 78 => ⟨S1024x20x10x8x8, .f32⟩
  | 79 => ⟨S_, .f32⟩
  | 80 => ⟨S1024x20x10x8x8, .f32⟩
  | 81 => ⟨S1024x20x10x8x8, .f32⟩
  | 82 => ⟨S_, .f32⟩
  | 83 => ⟨S1024x20x8x8, .f32⟩
  | 84 => ⟨S1024x20x8x8, .f32⟩
  | 85 => ⟨S1024x10x8x8, .f32⟩
  | 86 => ⟨S1024x1x10x8x8, .f32⟩
  | 87 => ⟨S20x10x1x1, .f32⟩
  | 88 => ⟨S20x10, .f32⟩
  | 89 => ⟨S1x20x10, .f32⟩
  | 90 => ⟨S1x20x10x1x1, .f32⟩
  | 91 => ⟨S1024x20x10x8x8, .f32⟩
  | 92 => ⟨S1024x20x10x8x8, .f32⟩
  | 93 => ⟨S1024x20x10x8x8, .f32⟩
  | 94 => ⟨S_, .f32⟩
  | 95 => ⟨S_, .f32⟩
  | 96 => ⟨S_, .f32⟩
  | 97 => ⟨S1024x20x10x8x8, .f32⟩
  | 98 => ⟨S1024x20x10x8x8, .f32⟩
  | 99 => ⟨S_, .f32⟩
  | 100 => ⟨S1024x20x10x8x8, .f32⟩
  | 101 => ⟨S1024x20x10x8x8, .f32⟩
  | 102 => ⟨S_, .f32⟩
  | 103 => ⟨S1024x20x8x8, .f32⟩
  | 104 => ⟨S1024x20x8x8, .f32⟩
  | 105 => ⟨S1024x10x8x8, .f32⟩
  | 106 => ⟨S1024x1x10x8x8, .f32⟩
  | 107 => ⟨S20x10x1x1, .f32⟩
  | 108 => ⟨S20x10, .f32⟩
  | 109 => ⟨S1x20x10, .f32⟩
  | 110 => ⟨S1x20x10x1x1, .f32⟩
  | 111 => ⟨S1024x20x10x8x8, .f32⟩
  | 112 => ⟨S1024x20x10x8x8, .f32⟩
  | 113 => ⟨S1024x20x10x8x8, .f32⟩
  | 114 => ⟨S_, .f32⟩
  | 115 => ⟨S_, .f32⟩
  | 116 => ⟨S_, .f32⟩
  | 117 => ⟨S1024x20x10x8x8, .f32⟩
  | 118 => ⟨S1024x20x10x8x8, .f32⟩
  | 119 => ⟨S_, .f32⟩
  | 120 => ⟨S1024x20x10x8x8, .f32⟩
  | 121 => ⟨S1024x20x10x8x8, .f32⟩
  | 122 => ⟨S_, .f32⟩
  | 123 => ⟨S1024x20x8x8, .f32⟩
  | 124 => ⟨S1024x20x8x8, .f32⟩
  | 125 => ⟨S1024x10x8x8, .f32⟩
  | 126 => ⟨S1024x1x10x8x8, .f32⟩
  | 127 => ⟨S20x10x1x1, .f32⟩
  | _ => ⟨S1024x1x28x28, .f32⟩

abbrev hbmTy0_5 (i : Nat) : BufTy := match i % 128 with
  | 0 => ⟨S20x10, .f32⟩
  | 1 => ⟨S1x20x10, .f32⟩
  | 2 => ⟨S1x20x10x1x1, .f32⟩
  | 3 => ⟨S1024x20x10x8x8, .f32⟩
  | 4 => ⟨S1024x20x10x8x8, .f32⟩
  | 5 => ⟨S1024x20x10x8x8, .f32⟩
  | 6 => ⟨S_, .f32⟩
  | 7 => ⟨S_, .f32⟩
  | 8 => ⟨S_, .f32⟩
  | 9 => ⟨S1024x20x10x8x8, .f32⟩
  | 10 => ⟨S1024x20x10x8x8, .f32⟩
  | 11 => ⟨S_, .f32⟩
  | 12 => ⟨S1024x20x10x8x8, .f32⟩
  | 13 => ⟨S1024x20x10x8x8, .f32⟩
  | 14 => ⟨S_, .f32⟩
  | 15 => ⟨S1024x20x8x8, .f32⟩
  | 16 => ⟨S1024x20x8x8, .f32⟩
  | 17 => ⟨S1024x10x8x8, .f32⟩
  | 18 => ⟨S1024x1x10x8x8, .f32⟩
  | 19 => ⟨S20x10x1x1, .f32⟩
  | 20 => ⟨S20x10, .f32⟩
  | 21 => ⟨S1x20x10, .f32⟩
  | 22 => ⟨S1x20x10x1x1, .f32⟩
  | 23 => ⟨S1024x20x10x8x8, .f32⟩
  | 24 => ⟨S1024x20x10x8x8, .f32⟩
  | 25 => ⟨S1024x20x10x8x8, .f32⟩
  | 26 => ⟨S_, .f32⟩
  | 27 => ⟨S_, .f32⟩
  | 28 => ⟨S_, .f32⟩
  | 29 => ⟨S1024x20x10x8x8, .f32⟩
  | 30 => ⟨S1024x20x10x8x8, .f32⟩
  | 31 => ⟨S_, .f32⟩
  | 32 => ⟨S1024x20x10x8x8, .f32⟩
  | 33 => ⟨S1024x20x10x8x8, .f32⟩
  | 34 => ⟨S_, .f32⟩
  | 35 => ⟨S1024x20x8x8, .f32⟩
  | 36 => ⟨S1024x20x8x8, .f32⟩
  | 37 => ⟨S1024x10x8x8, .f32⟩
  | 38 => ⟨S1024x1x10x8x8, .f32⟩
  | 39 => ⟨S20x10x1x1, .f32⟩
  | 40 => ⟨S20x10, .f32⟩
  | 41 => ⟨S1x20x10, .f32⟩
  | 42 => ⟨S1x20x10x1x1, .f32⟩
  | 43 => ⟨S1024x20x10x8x8, .f32⟩
  | 44 => ⟨S1024x20x10x8x8, .f32⟩
  | 45 => ⟨S1024x20x10x8x8, .f32⟩
  | 46 => ⟨S_, .f32⟩
  | 47 => ⟨S_, .f32⟩
  | 48 => ⟨S_, .f32⟩
  | 49 => ⟨S1024x20x10x8x8, .f32⟩
  | 50 => ⟨S1024x20x10x8x8, .f32⟩
  | 51 => ⟨S_, .f32⟩
  | 52 => ⟨S1024x20x10x8x8, .f32⟩
  | 53 => ⟨S1024x20x10x8x8, .f32⟩
  | 54 => ⟨S_, .f32⟩
  | 55 => ⟨S1024x20x8x8, .f32⟩
  | 56 => ⟨S1024x20x8x8, .f32⟩
  | 57 => ⟨S1024x10x8x8, .f32⟩
  | 58 => ⟨S1024x1x10x8x8, .f32⟩
  | 59 => ⟨S20x10x1x1, .f32⟩
  | 60 => ⟨S20x10, .f32⟩
  | 61 => ⟨S1x20x10, .f32⟩
  | 62 => ⟨S1x20x10x1x1, .f32⟩
  | 63 => ⟨S1024x20x10x8x8, .f32⟩
  | 64 => ⟨S1024x20x10x8x8, .f32⟩
  | 65 => ⟨S1024x20x10x8x8, .f32⟩
  | 66 => ⟨S_, .f32⟩
  | 67 => ⟨S_, .f32⟩
  | 68 => ⟨S_, .f32⟩
  | 69 => ⟨S1024x20x10x8x8, .f32⟩
  | 70 => ⟨S1024x20x10x8x8, .f32⟩
  | 71 => ⟨S_, .f32⟩
  | 72 => ⟨S1024x20x10x8x8, .f32⟩
  | 73 => ⟨S1024x20x10x8x8, .f32⟩
  | 74 => ⟨S_, .f32⟩
  | 75 => ⟨S1024x20x8x8, .f32⟩
  | 76 => ⟨S1024x20x8x8, .f32⟩
  | 77 => ⟨S1024x10x8x8, .f32⟩
  | 78 => ⟨S1024x1x10x8x8, .f32⟩
  | 79 => ⟨S20x10x1x1, .f32⟩
  | 80 => ⟨S20x10, .f32⟩
  | 81 => ⟨S1x20x10, .f32⟩
  | 82 => ⟨S1x20x10x1x1, .f32⟩
  | 83 => ⟨S1024x20x10x8x8, .f32⟩
  | 84 => ⟨S1024x20x10x8x8, .f32⟩
  | 85 => ⟨S1024x20x10x8x8, .f32⟩
  | 86 => ⟨S_, .f32⟩
  | 87 => ⟨S_, .f32⟩
  | 88 => ⟨S_, .f32⟩
  | 89 => ⟨S1024x20x10x8x8, .f32⟩
  | 90 => ⟨S1024x20x10x8x8, .f32⟩
  | 91 => ⟨S_, .f32⟩
  | 92 => ⟨S1024x20x10x8x8, .f32⟩
  | 93 => ⟨S1024x20x10x8x8, .f32⟩
  | 94 => ⟨S_, .f32⟩
  | 95 => ⟨S1024x20x8x8, .f32⟩
  | 96 => ⟨S1024x20x8x8, .f32⟩
  | 97 => ⟨S1024x10x8x8, .f32⟩
  | 98 => ⟨S1024x1x10x8x8, .f32⟩
  | 99 => ⟨S20x10x1x1, .f32⟩
  | 100 => ⟨S20x10, .f32⟩
  | 101 => ⟨S1x20x10, .f32⟩
  | 102 => ⟨S1x20x10x1x1, .f32⟩
  | 103 => ⟨S1024x20x10x8x8, .f32⟩
  | 104 => ⟨S1024x20x10x8x8, .f32⟩
  | 105 => ⟨S1024x20x10x8x8, .f32⟩
  | 106 => ⟨S_, .f32⟩
  | 107 => ⟨S_, .f32⟩
  | 108 => ⟨S_, .f32⟩
  | 109 => ⟨S1024x20x10x8x8, .f32⟩
  | 110 => ⟨S1024x20x10x8x8, .f32⟩
  | 111 => ⟨S_, .f32⟩
  | 112 => ⟨S1024x20x10x8x8, .f32⟩
  | 113 => ⟨S1024x20x10x8x8, .f32⟩
  | 114 => ⟨S_, .f32⟩
  | 115 => ⟨S1024x20x8x8, .f32⟩
  | 116 => ⟨S1024x20x8x8, .f32⟩
  | 117 => ⟨S1024x10x8x8, .f32⟩
  | 118 => ⟨S1024x1x10x8x8, .f32⟩
  | 119 => ⟨S20x10x1x1, .f32⟩
  | 120 => ⟨S20x10, .f32⟩
  | 121 => ⟨S1x20x10, .f32⟩
  | 122 => ⟨S1x20x10x1x1, .f32⟩
  | 123 => ⟨S1024x20x10x8x8, .f32⟩
  | 124 => ⟨S1024x20x10x8x8, .f32⟩
  | 125 => ⟨S1024x20x10x8x8, .f32⟩
  | 126 => ⟨S_, .f32⟩
  | 127 => ⟨S_, .f32⟩
  | _ => ⟨S1024x1x28x28, .f32⟩

abbrev hbmTy0_6 (i : Nat) : BufTy := match i % 128 with
  | 0 => ⟨S_, .f32⟩
  | 1 => ⟨S1024x20x10x8x8, .f32⟩
  | 2 => ⟨S1024x20x10x8x8, .f32⟩
  | 3 => ⟨S_, .f32⟩
  | 4 => ⟨S1024x20x10x8x8, .f32⟩
  | 5 => ⟨S1024x20x10x8x8, .f32⟩
  | 6 => ⟨S_, .f32⟩
  | 7 => ⟨S1024x20x8x8, .f32⟩
  | 8 => ⟨S1024x20x8x8, .f32⟩
  | 9 => ⟨S1024x10x8x8, .f32⟩
  | 10 => ⟨S1024x1x10x8x8, .f32⟩
  | 11 => ⟨S20x10x1x1, .f32⟩
  | 12 => ⟨S20x10, .f32⟩
  | 13 => ⟨S1x20x10, .f32⟩
  | 14 => ⟨S1x20x10x1x1, .f32⟩
  | 15 => ⟨S1024x20x10x8x8, .f32⟩
  | 16 => ⟨S1024x20x10x8x8, .f32⟩
  | 17 => ⟨S1024x20x10x8x8, .f32⟩
  | 18 => ⟨S_, .f32⟩
  | 19 => ⟨S_, .f32⟩
  | 20 => ⟨S_, .f32⟩
  | 21 => ⟨S1024x20x10x8x8, .f32⟩
  | 22 => ⟨S1024x20x10x8x8, .f32⟩
  | 23 => ⟨S_, .f32⟩
  | 24 => ⟨S1024x20x10x8x8, .f32⟩
  | 25 => ⟨S1024x20x10x8x8, .f32⟩
  | 26 => ⟨S_, .f32⟩
  | 27 => ⟨S1024x20x8x8, .f32⟩
  | 28 => ⟨S1024x20x8x8, .f32⟩
  | 29 => ⟨S1024x10x8x8, .f32⟩
  | 30 => ⟨S1024x1x10x8x8, .f32⟩
  | 31 => ⟨S20x10x1x1, .f32⟩
  | 32 => ⟨S20x10, .f32⟩
  | 33 => ⟨S1x20x10, .f32⟩
  | 34 => ⟨S1x20x10x1x1, .f32⟩
  | 35 => ⟨S1024x20x10x8x8, .f32⟩
  | 36 => ⟨S1024x20x10x8x8, .f32⟩
  | 37 => ⟨S1024x20x10x8x8, .f32⟩
  | 38 => ⟨S_, .f32⟩
  | 39 => ⟨S_, .f32⟩
  | 40 => ⟨S_, .f32⟩
  | 41 => ⟨S1024x20x10x8x8, .f32⟩
  | 42 => ⟨S1024x20x10x8x8, .f32⟩
  | 43 => ⟨S_, .f32⟩
  | 44 => ⟨S1024x20x10x8x8, .f32⟩
  | 45 => ⟨S1024x20x10x8x8, .f32⟩
  | 46 => ⟨S_, .f32⟩
  | 47 => ⟨S1024x20x8x8, .f32⟩
  | 48 => ⟨S1024x20x8x8, .f32⟩
  | 49 => ⟨S1024x10x8x8, .f32⟩
  | 50 => ⟨S1024x1x10x8x8, .f32⟩
  | 51 => ⟨S20x10x1x1, .f32⟩
  | 52 => ⟨S20x10, .f32⟩
  | 53 => ⟨S1x20x10, .f32⟩
  | 54 => ⟨S1x20x10x1x1, .f32⟩
  | 55 => ⟨S1024x20x10x8x8, .f32⟩
  | 56 => ⟨S1024x20x10x8x8, .f32⟩
  | 57 => ⟨S1024x20x10x8x8, .f32⟩
  | 58 => ⟨S_, .f32⟩
  | 59 => ⟨S_, .f32⟩
  | 60 => ⟨S_, .f32⟩
  | 61 => ⟨S1024x20x10x8x8, .f32⟩
  | 62 => ⟨S1024x20x10x8x8, .f32⟩
  | 63 => ⟨S_, .f32⟩
  | 64 => ⟨S1024x20x10x8x8, .f32⟩
  | 65 => ⟨S1024x20x10x8x8, .f32⟩
  | 66 => ⟨S_, .f32⟩
  | 67 => ⟨S1024x20x8x8, .f32⟩
  | 68 => ⟨S1024x20x8x8, .f32⟩
  | 69 => ⟨S1024x10x8x8, .f32⟩
  | 70 => ⟨S1024x1x10x8x8, .f32⟩
  | 71 => ⟨S20x10x1x1, .f32⟩
  | 72 => ⟨S20x10, .f32⟩
  | 73 => ⟨S1x20x10, .f32⟩
  | 74 => ⟨S1x20x10x1x1, .f32⟩
  | 75 => ⟨S1024x20x10x8x8, .f32⟩
  | 76 => ⟨S1024x20x10x8x8, .f32⟩
  | 77 => ⟨S1024x20x10x8x8, .f32⟩
  | 78 => ⟨S_, .f32⟩
  | 79 => ⟨S_, .f32⟩
  | 80 => ⟨S_, .f32⟩
  | 81 => ⟨S1024x20x10x8x8, .f32⟩
  | 82 => ⟨S1024x20x10x8x8, .f32⟩
  | 83 => ⟨S_, .f32⟩
  | 84 => ⟨S1024x20x10x8x8, .f32⟩
  | 85 => ⟨S1024x20x10x8x8, .f32⟩
  | 86 => ⟨S_, .f32⟩
  | 87 => ⟨S1024x20x8x8, .f32⟩
  | 88 => ⟨S1024x20x8x8, .f32⟩
  | 89 => ⟨S1024x10x8x8, .f32⟩
  | 90 => ⟨S1024x1x10x8x8, .f32⟩
  | 91 => ⟨S20x10x1x1, .f32⟩
  | 92 => ⟨S20x10, .f32⟩
  | 93 => ⟨S1x20x10, .f32⟩
  | 94 => ⟨S1x20x10x1x1, .f32⟩
  | 95 => ⟨S1024x20x10x8x8, .f32⟩
  | 96 => ⟨S1024x20x10x8x8, .f32⟩
  | 97 => ⟨S1024x20x10x8x8, .f32⟩
  | 98 => ⟨S_, .f32⟩
  | 99 => ⟨S_, .f32⟩
  | 100 => ⟨S_, .f32⟩
  | 101 => ⟨S1024x20x10x8x8, .f32⟩
  | 102 => ⟨S1024x20x10x8x8, .f32⟩
  | 103 => ⟨S_, .f32⟩
  | 104 => ⟨S1024x20x10x8x8, .f32⟩
  | 105 => ⟨S1024x20x10x8x8, .f32⟩
  | 106 => ⟨S_, .f32⟩
  | 107 => ⟨S1024x20x8x8, .f32⟩
  | 108 => ⟨S1024x20x8x8, .f32⟩
  | 109 => ⟨S1024x10x8x8, .f32⟩
  | 110 => ⟨S1024x1x10x8x8, .f32⟩
  | 111 => ⟨S20x10x1x1, .f32⟩
  | 112 => ⟨S20x10, .f32⟩
  | 113 => ⟨S1x20x10, .f32⟩
  | 114 => ⟨S1x20x10x1x1, .f32⟩
  | 115 => ⟨S1024x20x10x8x8, .f32⟩
  | 116 => ⟨S1024x20x10x8x8, .f32⟩
  | 117 => ⟨S1024x20x10x8x8, .f32⟩
  | 118 => ⟨S_, .f32⟩
  | 119 => ⟨S_, .f32⟩
  | 120 => ⟨S_, .f32⟩
  | 121 => ⟨S1024x20x10x8x8, .f32⟩
  | 122 => ⟨S1024x20x10x8x8, .f32⟩
  | 123 => ⟨S_, .f32⟩
  | 124 => ⟨S1024x20x10x8x8, .f32⟩
  | 125 => ⟨S1024x20x10x8x8, .f32⟩
  | 126 => ⟨S_, .f32⟩
  | 127 => ⟨S1024x20x8x8, .f32⟩
  | _ => ⟨S1024x1x28x28, .f32⟩

abbrev hbmTy0_7 (i : Nat) : BufTy := match i % 128 with
  | 0 => ⟨S1024x20x8x8, .f32⟩
  | 1 => ⟨S1024x10x8x8, .f32⟩
  | 2 => ⟨S1024x1x10x8x8, .f32⟩
  | 3 => ⟨S20x10x1x1, .f32⟩
  | 4 => ⟨S20x10, .f32⟩
  | 5 => ⟨S1x20x10, .f32⟩
  | 6 => ⟨S1x20x10x1x1, .f32⟩
  | 7 => ⟨S1024x20x10x8x8, .f32⟩
  | 8 => ⟨S1024x20x10x8x8, .f32⟩
  | 9 => ⟨S1024x20x10x8x8, .f32⟩
  | 10 => ⟨S_, .f32⟩
  | 11 => ⟨S_, .f32⟩
  | 12 => ⟨S_, .f32⟩
  | 13 => ⟨S1024x20x10x8x8, .f32⟩
  | 14 => ⟨S1024x20x10x8x8, .f32⟩
  | 15 => ⟨S_, .f32⟩
  | 16 => ⟨S1024x20x10x8x8, .f32⟩
  | 17 => ⟨S1024x20x10x8x8, .f32⟩
  | 18 => ⟨S_, .f32⟩
  | 19 => ⟨S1024x20x8x8, .f32⟩
  | 20 => ⟨S1024x20x8x8, .f32⟩
  | 21 => ⟨S1024x10x8x8, .f32⟩
  | 22 => ⟨S1024x1x10x8x8, .f32⟩
  | 23 => ⟨S20x10x1x1, .f32⟩
  | 24 => ⟨S20x10, .f32⟩
  | 25 => ⟨S1x20x10, .f32⟩
  | 26 => ⟨S1x20x10x1x1, .f32⟩
  | 27 => ⟨S1024x20x10x8x8, .f32⟩
  | 28 => ⟨S1024x20x10x8x8, .f32⟩
  | 29 => ⟨S1024x20x10x8x8, .f32⟩
  | 30 => ⟨S_, .f32⟩
  | 31 => ⟨S_, .f32⟩
  | 32 => ⟨S_, .f32⟩
  | 33 => ⟨S1024x20x10x8x8, .f32⟩
  | 34 => ⟨S1024x20x10x8x8, .f32⟩
  | 35 => ⟨S_, .f32⟩
  | 36 => ⟨S1024x20x10x8x8, .f32⟩
  | 37 => ⟨S1024x20x10x8x8, .f32⟩
  | 38 => ⟨S_, .f32⟩
  | 39 => ⟨S1024x20x8x8, .f32⟩
  | 40 => ⟨S1024x20x8x8, .f32⟩
  | 41 => ⟨S1024x10x8x8, .f32⟩
  | 42 => ⟨S1024x1x10x8x8, .f32⟩
  | 43 => ⟨S20x10x1x1, .f32⟩
  | 44 => ⟨S20x10, .f32⟩
  | 45 => ⟨S1x20x10, .f32⟩
  | 46 => ⟨S1x20x10x1x1, .f32⟩
  | 47 => ⟨S1024x20x10x8x8, .f32⟩
  | 48 => ⟨S1024x20x10x8x8, .f32⟩
  | 49 => ⟨S1024x20x10x8x8, .f32⟩
  | 50 => ⟨S_, .f32⟩
  | 51 => ⟨S_, .f32⟩
  | 52 => ⟨S_, .f32⟩
  | 53 => ⟨S1024x20x10x8x8, .f32⟩
  | 54 => ⟨S1024x20x10x8x8, .f32⟩
  | 55 => ⟨S_, .f32⟩
  | 56 => ⟨S1024x20x10x8x8, .f32⟩
  | 57 => ⟨S1024x20x10x8x8, .f32⟩
  | 58 => ⟨S_, .f32⟩
  | 59 => ⟨S1024x20x8x8, .f32⟩
  | 60 => ⟨S1024x20x8x8, .f32⟩
  | 61 => ⟨S1024x10x8x8, .f32⟩
  | 62 => ⟨S1024x1x10x8x8, .f32⟩
  | 63 => ⟨S20x10x1x1, .f32⟩
  | 64 => ⟨S20x10, .f32⟩
  | 65 => ⟨S1x20x10, .f32⟩
  | 66 => ⟨S1x20x10x1x1, .f32⟩
  | 67 => ⟨S1024x20x10x8x8, .f32⟩
  | 68 => ⟨S1024x20x10x8x8, .f32⟩
  | 69 => ⟨S1024x20x10x8x8, .f32⟩
  | 70 => ⟨S_, .f32⟩
  | 71 => ⟨S_, .f32⟩
  | 72 => ⟨S_, .f32⟩
  | 73 => ⟨S1024x20x10x8x8, .f32⟩
  | 74 => ⟨S1024x20x10x8x8, .f32⟩
  | 75 => ⟨S_, .f32⟩
  | 76 => ⟨S1024x20x10x8x8, .f32⟩
  | 77 => ⟨S1024x20x10x8x8, .f32⟩
  | 78 => ⟨S_, .f32⟩
  | 79 => ⟨S1024x20x8x8, .f32⟩
  | 80 => ⟨S1024x20x8x8, .f32⟩
  | 81 => ⟨S1024x10x8x8, .f32⟩
  | 82 => ⟨S1024x1x10x8x8, .f32⟩
  | 83 => ⟨S20x10x1x1, .f32⟩
  | 84 => ⟨S20x10, .f32⟩
  | 85 => ⟨S1x20x10, .f32⟩
  | 86 => ⟨S1x20x10x1x1, .f32⟩
  | 87 => ⟨S1024x20x10x8x8, .f32⟩
  | 88 => ⟨S1024x20x10x8x8, .f32⟩
  | 89 => ⟨S1024x20x10x8x8, .f32⟩
  | 90 => ⟨S_, .f32⟩
  | 91 => ⟨S_, .f32⟩
  | 92 => ⟨S_, .f32⟩
  | 93 => ⟨S1024x20x10x8x8, .f32⟩
  | 94 => ⟨S1024x20x10x8x8, .f32⟩
  | 95 => ⟨S_, .f32⟩
  | 96 => ⟨S1024x20x10x8x8, .f32⟩
  | 97 => ⟨S1024x20x10x8x8, .f32⟩
  | 98 => ⟨S_, .f32⟩
  | 99 => ⟨S1024x20x8x8, .f32⟩
  | 100 => ⟨S1024x20x8x8, .f32⟩
  | 101 => ⟨S1024x10x8x8, .f32⟩
  | 102 => ⟨S1024x1x10x8x8, .f32⟩
  | 103 => ⟨S20x10x1x1, .f32⟩
  | 104 => ⟨S20x10, .f32⟩
  | 105 => ⟨S1x20x10, .f32⟩
  | 106 => ⟨S1x20x10x1x1, .f32⟩
  | 107 => ⟨S1024x20x10x8x8, .f32⟩
  | 108 => ⟨S1024x20x10x8x8, .f32⟩
  | 109 => ⟨S1024x20x10x8x8, .f32⟩
  | 110 => ⟨S_, .f32⟩
  | 111 => ⟨S_, .f32⟩
  | 112 => ⟨S_, .f32⟩
  | 113 => ⟨S1024x20x10x8x8, .f32⟩
  | 114 => ⟨S1024x20x10x8x8, .f32⟩
  | 115 => ⟨S_, .f32⟩
  | 116 => ⟨S1024x20x10x8x8, .f32⟩
  | 117 => ⟨S1024x20x10x8x8, .f32⟩
  | 118 => ⟨S_, .f32⟩
  | 119 => ⟨S1024x20x8x8, .f32⟩
  | 120 => ⟨S1024x20x8x8, .f32⟩
  | 121 => ⟨S1024x10x8x8, .f32⟩
  | 122 => ⟨S1024x1x10x8x8, .f32⟩
  | 123 => ⟨S20x10x1x1, .f32⟩
  | 124 => ⟨S20x10, .f32⟩
  | 125 => ⟨S1x20x10, .f32⟩
  | 126 => ⟨S1x20x10x1x1, .f32⟩
  | 127 => ⟨S1024x20x10x8x8, .f32⟩
  | _ => ⟨S1024x1x28x28, .f32⟩

abbrev hbmTy0_8 (i : Nat) : BufTy := match i % 128 with
  | 0 => ⟨S1024x20x10x8x8, .f32⟩
  | 1 => ⟨S1024x20x10x8x8, .f32⟩
  | 2 => ⟨S_, .f32⟩
  | 3 => ⟨S_, .f32⟩
  | 4 => ⟨S_, .f32⟩
  | 5 => ⟨S1024x20x10x8x8, .f32⟩
  | 6 => ⟨S1024x20x10x8x8, .f32⟩
  | 7 => ⟨S_, .f32⟩
  | 8 => ⟨S1024x20x10x8x8, .f32⟩
  | 9 => ⟨S1024x20x10x8x8, .f32⟩
  | 10 => ⟨S_, .f32⟩
  | 11 => ⟨S1024x20x8x8, .f32⟩
  | 12 => ⟨S1024x20x8x8, .f32⟩
  | 13 => ⟨S1024x10x8x8, .f32⟩
  | 14 => ⟨S1024x1x10x8x8, .f32⟩
  | 15 => ⟨S20x10x1x1, .f32⟩
  | 16 => ⟨S20x10, .f32⟩
  | 17 => ⟨S1x20x10, .f32⟩
  | 18 => ⟨S1x20x10x1x1, .f32⟩
  | 19 => ⟨S1024x20x10x8x8, .f32⟩
  | 20 => ⟨S1024x20x10x8x8, .f32⟩
  | 21 => ⟨S1024x20x10x8x8, .f32⟩
  | 22 => ⟨S_, .f32⟩
  | 23 => ⟨S_, .f32⟩
  | 24 => ⟨S_, .f32⟩
  | 25 => ⟨S1024x20x10x8x8, .f32⟩
  | 26 => ⟨S1024x20x10x8x8, .f32⟩
  | 27 => ⟨S_, .f32⟩
  | 28 => ⟨S1024x20x10x8x8, .f32⟩
  | 29 => ⟨S1024x20x10x8x8, .f32⟩
  | 30 => ⟨S_, .f32⟩
  | 31 => ⟨S1024x20x8x8, .f32⟩
  | 32 => ⟨S1024x20x8x8, .f32⟩
  | 33 => ⟨S1x20x1x1, .f32⟩
  | 34 => ⟨S1024x20x8x8, .f32⟩
  | 35 => ⟨S1024x20x8x8, .f32⟩
  | 36 => ⟨S_, .f32⟩
  | 37 => ⟨S_, .f32⟩
  | 38 => ⟨S1024x20x4x4, .f32⟩
  | 39 => ⟨S_, .f32⟩
  | 40 => ⟨S1024x20x4x4, .f32⟩
  | 41 => ⟨S1024x20x4x4, .f32⟩
  | 42 => ⟨S1024x320, .f32⟩
  | 43 => ⟨S_, .f32⟩
  | 44 => ⟨S50x320, .f32⟩
  | 45 => ⟨S50x320, .f32⟩
  | 46 => ⟨S50x320, .f32⟩
  | 47 => ⟨S_, .f32⟩
  | 48 => ⟨S50x320, .f32⟩
  | 49 => ⟨S50x320, .f32⟩
  | 50 => ⟨S_, .f32⟩
  | 51 => ⟨S_, .f32⟩
  | 52 => ⟨S_, .f32⟩
  | 53 => ⟨S50x320, .f32⟩
  | 54 => ⟨S50x320, .f32⟩
  | 55 => ⟨S_, .f32⟩
  | 56 => ⟨S50x320, .f32⟩
  | 57 => ⟨S50x320, .f32⟩
  | 58 => ⟨S_, .f32⟩
  | 59 => ⟨S50, .f32⟩
  | 60 => ⟨S50, .f32⟩
  | 61 => ⟨S50, .f32⟩
  | 62 => ⟨S_, .f32⟩
  | 63 => ⟨S50, .f32⟩
  | 64 => ⟨S50, .f32⟩
  | 65 => ⟨S_, .f32⟩
  | 66 => ⟨S_, .f32⟩
  | 67 => ⟨S_, .f32⟩
  | 68 => ⟨S50, .f32⟩
  | 69 => ⟨S50, .f32⟩
  | 70 => ⟨S_, .f32⟩
  | 71 => ⟨S50, .f32⟩
  | 72 => ⟨S50, .f32⟩
  | 73 => ⟨S_, .f32⟩
  | 74 => ⟨S1024x320, .f32⟩
  | 75 => ⟨S1024x320, .f32⟩
  | 76 => ⟨S1024x320, .f32⟩
  | 77 => ⟨S_, .f32⟩
  | 78 => ⟨S1024x320, .f32⟩
  | 79 => ⟨S1024x320, .f32⟩
  | 80 => ⟨S320x50, .f32⟩
  | 81 => ⟨S1024x50, .f32⟩
  | 82 => ⟨S1x50, .f32⟩
  | 83 => ⟨S1024x50, .f32⟩
  | 84 => ⟨S1024x50, .f32⟩
  | 85 => ⟨S_, .f32⟩
  | 86 => ⟨S_, .f32⟩
  | 87 => ⟨S_, .f32⟩
  | 88 => ⟨S1024x50, .f32⟩
  | 89 => ⟨S1024x50, .f32⟩
  | 90 => ⟨S_, .f32⟩
  | 91 => ⟨S1024x50, .f32⟩
  | 92 => ⟨S1024x50, .f32⟩
  | 93 => ⟨S_, .f32⟩
  | 94 => ⟨S1024x50, .f32⟩
  | 95 => ⟨S1024x50, .f32⟩
  | 96 => ⟨S_, .f32⟩
  | 97 => ⟨S10x50, .f32⟩
  | 98 => ⟨S10x50, .f32⟩
  | 99 => ⟨S10x50, .f32⟩
  | 100 => ⟨S_, .f32⟩
  | 101 => ⟨S10x50, .f32⟩
  | 102 => ⟨S10x50, .f32⟩
  | 103 => ⟨S_, .f32⟩
  | 104 => ⟨S_, .f32⟩
  | 105 => ⟨S_, .f32⟩
  | 106 => ⟨S10x50, .f32⟩
  | 107 => ⟨S10x50, .f32⟩
  | 108 => ⟨S_, .f32⟩
  | 109 => ⟨S10x50, .f32⟩
  | 110 => ⟨S10x50, .f32⟩
  | 111 => ⟨S_, .f32⟩
  | 112 => ⟨S10, .f32⟩
  | 113 => ⟨S10, .f32⟩
  | 114 => ⟨S10, .f32⟩
  | 115 => ⟨S_, .f32⟩
  | 116 => ⟨S10, .f32⟩
  | 117 => ⟨S10, .f32⟩
  | 118 => ⟨S_, .f32⟩
  | 119 => ⟨S_, .f32⟩
  | 120 => ⟨S_, .f32⟩
  | 121 => ⟨S10, .f32⟩
  | 122 => ⟨S10, .f32⟩
  | 123 => ⟨S_, .f32⟩
  | 124 => ⟨S10, .f32⟩
  | 125 => ⟨S10, .f32⟩
  | 126 => ⟨S_, .f32⟩
  | 127 => ⟨S1024x50, .f32⟩
  | _ => ⟨S1024x1x28x28, .f32⟩

abbrev hbmTy0_9 (i : Nat) : BufTy := match i % 128 with
  | 0 => ⟨S1024x50, .f32⟩
  | 1 => ⟨S1024x50, .f32⟩
  | 2 => ⟨S_, .f32⟩
  | 3 => ⟨S1024x50, .f32⟩
  | 4 => ⟨S1024x50, .f32⟩
  | 5 => ⟨S50x10, .f32⟩
  | 6 => ⟨S1024x10, .f32⟩
  | 7 => ⟨S1x10, .f32⟩
  | 8 => ⟨S1024x10, .f32⟩
  | 9 => ⟨S1024x10, .f32⟩
  | 10 => ⟨S_, .f32⟩
  | 11 => ⟨S_, .f32⟩
  | 12 => ⟨S_, .f32⟩
  | 13 => ⟨S1024x10, .f32⟩
  | 14 => ⟨S1024x10, .f32⟩
  | 15 => ⟨S_, .f32⟩
  | 16 => ⟨S1024x10, .f32⟩
  | 17 => ⟨S1024x10, .f32⟩
  | 18 => ⟨S_, .f32⟩
  | 19 => ⟨S1024, .f32⟩
  | 20 => ⟨S_, .f32⟩
  | 21 => ⟨S1024, .f32⟩
  | 22 => ⟨S1024, .f32⟩
  | 23 => ⟨S1024x1, .f32⟩
  | 24 => ⟨S1024x10, .f32⟩
  | 25 => ⟨S1024x10, .f32⟩
  | 26 => ⟨S1024x10, .f32⟩
  | 27 => ⟨S_, .f32⟩
  | 28 => ⟨S1024, .f32⟩
  | 29 => ⟨S1024x1, .f32⟩
  | 30 => ⟨S1024x1, .f32⟩
  | 31 => ⟨S1024x10, .f32⟩
  | 32 => ⟨S1024x10, .f32⟩
  | _ => ⟨S1024x1x28x28, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S1024x1x28x28, .f32⟩

abbrev bufTy : (tb : Table) → Fin (tcTables nBuf tb) → BufTy
  | .hbm, ⟨i, _⟩ => hbmTy i
  | _, _ => ⟨S1024x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_cst_7 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_9 : Ref sig .tc := ⟨.hbm, 61, rfl⟩
abbrev main_cst_10 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v37 : Ref sig .tc := ⟨.hbm, 68, rfl⟩
abbrev main_cst_11 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_12 : Ref sig .tc := ⟨.hbm, 81, rfl⟩
abbrev main_cst_13 : Ref sig .tc := ⟨.hbm, 82, rfl⟩
abbrev main_call5_v0 : Ref sig .tc := ⟨.hbm, 83, rfl⟩
abbrev main_call5_v1 : Ref sig .tc := ⟨.hbm, 84, rfl⟩
abbrev main_call5_v2 : Ref sig .tc := ⟨.hbm, 85, rfl⟩
abbrev main_call5_v3 : Ref sig .tc := ⟨.hbm, 86, rfl⟩
abbrev main_call5_v4 : Ref sig .tc := ⟨.hbm, 87, rfl⟩
abbrev main_v49 : Ref sig .tc := ⟨.hbm, 88, rfl⟩
abbrev main_cst_14 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_15 : Ref sig .tc := ⟨.hbm, 101, rfl⟩
abbrev main_cst_16 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v61 : Ref sig .tc := ⟨.hbm, 108, rfl⟩
abbrev main_cst_17 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_18 : Ref sig .tc := ⟨.hbm, 121, rfl⟩
abbrev main_cst_19 : Ref sig .tc := ⟨.hbm, 122, rfl⟩
abbrev main_call7_v0 : Ref sig .tc := ⟨.hbm, 123, rfl⟩
abbrev main_call7_v1 : Ref sig .tc := ⟨.hbm, 124, rfl⟩
abbrev main_call7_v2 : Ref sig .tc := ⟨.hbm, 125, rfl⟩
abbrev main_call7_v3 : Ref sig .tc := ⟨.hbm, 126, rfl⟩
abbrev main_call7_v4 : Ref sig .tc := ⟨.hbm, 127, rfl⟩
abbrev main_v73 : Ref sig .tc := ⟨.hbm, 128, rfl⟩
abbrev main_cst_20 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_21 : Ref sig .tc := ⟨.hbm, 141, rfl⟩
abbrev main_cst_22 : Ref sig .tc := ⟨.hbm, 142, rfl⟩
abbrev main_call8_v0 : Ref sig .tc := ⟨.hbm, 143, rfl⟩
abbrev main_call8_v1 : Ref sig .tc := ⟨.hbm, 144, rfl⟩
abbrev main_call8_v2 : Ref sig .tc := ⟨.hbm, 145, rfl⟩
abbrev main_call8_v3 : Ref sig .tc := ⟨.hbm, 146, rfl⟩
abbrev main_call8_v4 : Ref sig .tc := ⟨.hbm, 147, rfl⟩
abbrev main_v85 : Ref sig .tc := ⟨.hbm, 148, rfl⟩
abbrev main_cst_23 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_24 : Ref sig .tc := ⟨.hbm, 161, rfl⟩
abbrev main_cst_25 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_call9_v3 : Ref sig .tc := ⟨.hbm, 166, rfl⟩
abbrev main_call9_v4 : Ref sig .tc := ⟨.hbm, 167, rfl⟩
abbrev main_v97 : Ref sig .tc := ⟨.hbm, 168, rfl⟩
abbrev main_cst_26 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_27 : Ref sig .tc := ⟨.hbm, 181, rfl⟩
abbrev main_cst_28 : Ref sig .tc := ⟨.hbm, 182, rfl⟩
abbrev main_call10_v0 : Ref sig .tc := ⟨.hbm, 183, rfl⟩
abbrev main_call10_v1 : Ref sig .tc := ⟨.hbm, 184, rfl⟩
abbrev main_call10_v2 : Ref sig .tc := ⟨.hbm, 185, rfl⟩
abbrev main_call10_v3 : Ref sig .tc := ⟨.hbm, 186, rfl⟩
abbrev main_call10_v4 : Ref sig .tc := ⟨.hbm, 187, rfl⟩
abbrev main_v109 : Ref sig .tc := ⟨.hbm, 188, rfl⟩
abbrev main_cst_29 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_cst_30 : Ref sig .tc := ⟨.hbm, 201, rfl⟩
abbrev main_cst_31 : Ref sig .tc := ⟨.hbm, 202, rfl⟩
abbrev main_call11_v0 : Ref sig .tc := ⟨.hbm, 203, rfl⟩
abbrev main_call11_v1 : Ref sig .tc := ⟨.hbm, 204, rfl⟩
abbrev main_call11_v2 : Ref sig .tc := ⟨.hbm, 205, rfl⟩
abbrev main_call11_v3 : Ref sig .tc := ⟨.hbm, 206, rfl⟩
abbrev main_call11_v4 : Ref sig .tc := ⟨.hbm, 207, rfl⟩
abbrev main_v121 : Ref sig .tc := ⟨.hbm, 208, rfl⟩
abbrev main_cst_32 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_cst_33 : Ref sig .tc := ⟨.hbm, 221, rfl⟩
abbrev main_cst_34 : Ref sig .tc := ⟨.hbm, 222, rfl⟩
abbrev main_call12_v0 : Ref sig .tc := ⟨.hbm, 223, rfl⟩
abbrev main_call12_v1 : Ref sig .tc := ⟨.hbm, 224, rfl⟩
abbrev main_call12_v2 : Ref sig .tc := ⟨.hbm, 225, rfl⟩
abbrev main_call12_v3 : Ref sig .tc := ⟨.hbm, 226, rfl⟩
abbrev main_call12_v4 : Ref sig .tc := ⟨.hbm, 227, rfl⟩
abbrev main_v133 : Ref sig .tc := ⟨.hbm, 228, rfl⟩
abbrev main_cst_35 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_cst_36 : Ref sig .tc := ⟨.hbm, 241, rfl⟩
abbrev main_cst_37 : Ref sig .tc := ⟨.hbm, 242, rfl⟩
abbrev main_call13_v0 : Ref sig .tc := ⟨.hbm, 243, rfl⟩
abbrev main_call13_v1 : Ref sig .tc := ⟨.hbm, 244, rfl⟩
abbrev main_call13_v2 : Ref sig .tc := ⟨.hbm, 245, rfl⟩
abbrev main_call13_v3 : Ref sig .tc := ⟨.hbm, 246, rfl⟩
abbrev main_call13_v4 : Ref sig .tc := ⟨.hbm, 247, rfl⟩
abbrev main_v145 : Ref sig .tc := ⟨.hbm, 248, rfl⟩
abbrev main_cst_38 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_cst_39 : Ref sig .tc := ⟨.hbm, 261, rfl⟩
abbrev main_cst_40 : Ref sig .tc := ⟨.hbm, 262, rfl⟩
abbrev main_call14_v0 : Ref sig .tc := ⟨.hbm, 263, rfl⟩
abbrev main_call14_v1 : Ref sig .tc := ⟨.hbm, 264, rfl⟩
abbrev main_call14_v2 : Ref sig .tc := ⟨.hbm, 265, rfl⟩
abbrev main_call14_v3 : Ref sig .tc := ⟨.hbm, 266, rfl⟩
abbrev main_call14_v4 : Ref sig .tc := ⟨.hbm, 267, rfl⟩
abbrev main_v157 : Ref sig .tc := ⟨.hbm, 268, rfl⟩
abbrev main_cst_41 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_cst_42 : Ref sig .tc := ⟨.hbm, 281, rfl⟩
abbrev main_cst_43 : Ref sig .tc := ⟨.hbm, 282, rfl⟩
abbrev main_call15_v0 : Ref sig .tc := ⟨.hbm, 283, rfl⟩
abbrev main_call15_v1 : Ref sig .tc := ⟨.hbm, 284, rfl⟩
abbrev main_call15_v2 : Ref sig .tc := ⟨.hbm, 285, rfl⟩
abbrev main_call15_v3 : Ref sig .tc := ⟨.hbm, 286, rfl⟩
abbrev main_call15_v4 : Ref sig .tc := ⟨.hbm, 287, rfl⟩
abbrev main_v169 : Ref sig .tc := ⟨.hbm, 288, rfl⟩
abbrev main_cst_44 : Ref sig .tc := ⟨.hbm, 289, rfl⟩
abbrev main_v170 : Ref sig .tc := ⟨.hbm, 290, rfl⟩
abbrev main_v171 : Ref sig .tc := ⟨.hbm, 291, rfl⟩
abbrev main_v172 : Ref sig .tc := ⟨.hbm, 292, rfl⟩
abbrev main_v173 : Ref sig .tc := ⟨.hbm, 293, rfl⟩
abbrev main_v174 : Ref sig .tc := ⟨.hbm, 294, rfl⟩
abbrev main_v175 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_cst_45 : Ref sig .tc := ⟨.hbm, 301, rfl⟩
abbrev main_cst_46 : Ref sig .tc := ⟨.hbm, 302, rfl⟩
abbrev main_call16_v0 : Ref sig .tc := ⟨.hbm, 303, rfl⟩
abbrev main_call16_v1 : Ref sig .tc := ⟨.hbm, 304, rfl⟩
abbrev main_call16_v2 : Ref sig .tc := ⟨.hbm, 305, rfl⟩
abbrev main_call16_v3 : Ref sig .tc := ⟨.hbm, 306, rfl⟩
abbrev main_call16_v4 : Ref sig .tc := ⟨.hbm, 307, rfl⟩
abbrev main_v181 : Ref sig .tc := ⟨.hbm, 308, rfl⟩
abbrev main_cst_47 : Ref sig .tc := ⟨.hbm, 309, rfl⟩
abbrev main_v182 : Ref sig .tc := ⟨.hbm, 310, rfl⟩
abbrev main_v183 : Ref sig .tc := ⟨.hbm, 311, rfl⟩
abbrev main_v184 : Ref sig .tc := ⟨.hbm, 312, rfl⟩
abbrev main_v185 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_cst_48 : Ref sig .tc := ⟨.hbm, 321, rfl⟩
abbrev main_cst_49 : Ref sig .tc := ⟨.hbm, 322, rfl⟩
abbrev main_call17_v0 : Ref sig .tc := ⟨.hbm, 323, rfl⟩
abbrev main_call17_v1 : Ref sig .tc := ⟨.hbm, 324, rfl⟩
abbrev main_call17_v2 : Ref sig .tc := ⟨.hbm, 325, rfl⟩
abbrev main_call17_v3 : Ref sig .tc := ⟨.hbm, 326, rfl⟩
abbrev main_call17_v4 : Ref sig .tc := ⟨.hbm, 327, rfl⟩
abbrev main_v193 : Ref sig .tc := ⟨.hbm, 328, rfl⟩
abbrev main_cst_50 : Ref sig .tc := ⟨.hbm, 329, rfl⟩
abbrev main_v194 : Ref sig .tc := ⟨.hbm, 330, rfl⟩
abbrev main_v195 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_v200 : Ref sig .tc := ⟨.hbm, 336, rfl⟩
abbrev main_v201 : Ref sig .tc := ⟨.hbm, 337, rfl⟩
abbrev main_v202 : Ref sig .tc := ⟨.hbm, 338, rfl⟩
abbrev main_v203 : Ref sig .tc := ⟨.hbm, 339, rfl⟩
abbrev main_v204 : Ref sig .tc := ⟨.hbm, 340, rfl⟩
abbrev main_cst_51 : Ref sig .tc := ⟨.hbm, 341, rfl⟩
abbrev main_cst_52 : Ref sig .tc := ⟨.hbm, 342, rfl⟩
abbrev main_call18_v0 : Ref sig .tc := ⟨.hbm, 343, rfl⟩
abbrev main_call18_v1 : Ref sig .tc := ⟨.hbm, 344, rfl⟩
abbrev main_call18_v2 : Ref sig .tc := ⟨.hbm, 345, rfl⟩
abbrev main_call18_v3 : Ref sig .tc := ⟨.hbm, 346, rfl⟩
abbrev main_call18_v4 : Ref sig .tc := ⟨.hbm, 347, rfl⟩
abbrev main_v205 : Ref sig .tc := ⟨.hbm, 348, rfl⟩
abbrev main_cst_53 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_cst_54 : Ref sig .tc := ⟨.hbm, 361, rfl⟩
abbrev main_cst_55 : Ref sig .tc := ⟨.hbm, 362, rfl⟩
abbrev main_call19_v0 : Ref sig .tc := ⟨.hbm, 363, rfl⟩
abbrev main_call19_v1 : Ref sig .tc := ⟨.hbm, 364, rfl⟩
abbrev main_call19_v2 : Ref sig .tc := ⟨.hbm, 365, rfl⟩
abbrev main_call19_v3 : Ref sig .tc := ⟨.hbm, 366, rfl⟩
abbrev main_call19_v4 : Ref sig .tc := ⟨.hbm, 367, rfl⟩
abbrev main_v217 : Ref sig .tc := ⟨.hbm, 368, rfl⟩
abbrev main_cst_56 : Ref sig .tc := ⟨.hbm, 369, rfl⟩
abbrev main_v218 : Ref sig .tc := ⟨.hbm, 370, rfl⟩
abbrev main_v219 : Ref sig .tc := ⟨.hbm, 371, rfl⟩
abbrev main_v220 : Ref sig .tc := ⟨.hbm, 372, rfl⟩
abbrev main_v221 : Ref sig .tc := ⟨.hbm, 373, rfl⟩
abbrev main_v222 : Ref sig .tc := ⟨.hbm, 374, rfl⟩
abbrev main_v223 : Ref sig .tc := ⟨.hbm, 375, rfl⟩
abbrev main_v224 : Ref sig .tc := ⟨.hbm, 376, rfl⟩
abbrev main_v225 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_cst_57 : Ref sig .tc := ⟨.hbm, 381, rfl⟩
abbrev main_cst_58 : Ref sig .tc := ⟨.hbm, 382, rfl⟩
abbrev main_call20_v0 : Ref sig .tc := ⟨.hbm, 383, rfl⟩
abbrev main_call20_v1 : Ref sig .tc := ⟨.hbm, 384, rfl⟩
abbrev main_call20_v2 : Ref sig .tc := ⟨.hbm, 385, rfl⟩
abbrev main_call20_v3 : Ref sig .tc := ⟨.hbm, 386, rfl⟩
abbrev main_call20_v4 : Ref sig .tc := ⟨.hbm, 387, rfl⟩
abbrev main_v229 : Ref sig .tc := ⟨.hbm, 388, rfl⟩
abbrev main_cst_59 : Ref sig .tc := ⟨.hbm, 389, rfl⟩
abbrev main_v230 : Ref sig .tc := ⟨.hbm, 390, rfl⟩
abbrev main_v231 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_v238 : Ref sig .tc := ⟨.hbm, 398, rfl⟩
abbrev main_v239 : Ref sig .tc := ⟨.hbm, 399, rfl⟩
abbrev main_v240 : Ref sig .tc := ⟨.hbm, 400, rfl⟩
abbrev main_cst_60 : Ref sig .tc := ⟨.hbm, 401, rfl⟩
abbrev main_cst_61 : Ref sig .tc := ⟨.hbm, 402, rfl⟩
abbrev main_call21_v0 : Ref sig .tc := ⟨.hbm, 403, rfl⟩
abbrev main_call21_v1 : Ref sig .tc := ⟨.hbm, 404, rfl⟩
abbrev main_call21_v2 : Ref sig .tc := ⟨.hbm, 405, rfl⟩
abbrev main_call21_v3 : Ref sig .tc := ⟨.hbm, 406, rfl⟩
abbrev main_call21_v4 : Ref sig .tc := ⟨.hbm, 407, rfl⟩
abbrev main_v241 : Ref sig .tc := ⟨.hbm, 408, rfl⟩
abbrev main_cst_62 : Ref sig .tc := ⟨.hbm, 409, rfl⟩
abbrev main_v242 : Ref sig .tc := ⟨.hbm, 410, rfl⟩
abbrev main_v243 : Ref sig .tc := ⟨.hbm, 411, rfl⟩
abbrev main_v244 : Ref sig .tc := ⟨.hbm, 412, rfl⟩
abbrev main_v245 : Ref sig .tc := ⟨.hbm, 413, rfl⟩
abbrev main_v246 : Ref sig .tc := ⟨.hbm, 414, rfl⟩
abbrev main_v247 : Ref sig .tc := ⟨.hbm, 415, rfl⟩
abbrev main_v248 : Ref sig .tc := ⟨.hbm, 416, rfl⟩
abbrev main_v249 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_cst_63 : Ref sig .tc := ⟨.hbm, 421, rfl⟩
abbrev main_cst_64 : Ref sig .tc := ⟨.hbm, 422, rfl⟩
abbrev main_call22_v0 : Ref sig .tc := ⟨.hbm, 423, rfl⟩
abbrev main_call22_v1 : Ref sig .tc := ⟨.hbm, 424, rfl⟩
abbrev main_call22_v2 : Ref sig .tc := ⟨.hbm, 425, rfl⟩
abbrev main_call22_v3 : Ref sig .tc := ⟨.hbm, 426, rfl⟩
abbrev main_call22_v4 : Ref sig .tc := ⟨.hbm, 427, rfl⟩
abbrev main_v253 : Ref sig .tc := ⟨.hbm, 428, rfl⟩
abbrev main_cst_65 : Ref sig .tc := ⟨.hbm, 429, rfl⟩
abbrev main_v254 : Ref sig .tc := ⟨.hbm, 430, rfl⟩
abbrev main_v255 : Ref sig .tc := ⟨.hbm, 431, rfl⟩
abbrev main_v256 : Ref sig .tc := ⟨.hbm, 432, rfl⟩
abbrev main_v257 : Ref sig .tc := ⟨.hbm, 433, rfl⟩
abbrev main_v258 : Ref sig .tc := ⟨.hbm, 434, rfl⟩
abbrev main_v259 : Ref sig .tc := ⟨.hbm, 435, rfl⟩
abbrev main_v260 : Ref sig .tc := ⟨.hbm, 436, rfl⟩
abbrev main_v261 : Ref sig .tc := ⟨.hbm, 437, rfl⟩
abbrev main_v262 : Ref sig .tc := ⟨.hbm, 438, rfl⟩
abbrev main_v263 : Ref sig .tc := ⟨.hbm, 439, rfl⟩
abbrev main_v264 : Ref sig .tc := ⟨.hbm, 440, rfl⟩
abbrev main_cst_66 : Ref sig .tc := ⟨.hbm, 441, rfl⟩
abbrev main_cst_67 : Ref sig .tc := ⟨.hbm, 442, rfl⟩
abbrev main_call23_v0 : Ref sig .tc := ⟨.hbm, 443, rfl⟩
abbrev main_call23_v1 : Ref sig .tc := ⟨.hbm, 444, rfl⟩
abbrev main_call23_v2 : Ref sig .tc := ⟨.hbm, 445, rfl⟩
abbrev main_call23_v3 : Ref sig .tc := ⟨.hbm, 446, rfl⟩
abbrev main_call23_v4 : Ref sig .tc := ⟨.hbm, 447, rfl⟩
abbrev main_v265 : Ref sig .tc := ⟨.hbm, 448, rfl⟩
abbrev main_cst_68 : Ref sig .tc := ⟨.hbm, 449, rfl⟩
abbrev main_v266 : Ref sig .tc := ⟨.hbm, 450, rfl⟩
abbrev main_v267 : Ref sig .tc := ⟨.hbm, 451, rfl⟩
abbrev main_v268 : Ref sig .tc := ⟨.hbm, 452, rfl⟩
abbrev main_v269 : Ref sig .tc := ⟨.hbm, 453, rfl⟩
abbrev main_v270 : Ref sig .tc := ⟨.hbm, 454, rfl⟩
abbrev main_v271 : Ref sig .tc := ⟨.hbm, 455, rfl⟩
abbrev main_v272 : Ref sig .tc := ⟨.hbm, 456, rfl⟩
abbrev main_v273 : Ref sig .tc := ⟨.hbm, 457, rfl⟩
abbrev main_v274 : Ref sig .tc := ⟨.hbm, 458, rfl⟩
abbrev main_v275 : Ref sig .tc := ⟨.hbm, 459, rfl⟩
abbrev main_v276 : Ref sig .tc := ⟨.hbm, 460, rfl⟩
abbrev main_cst_69 : Ref sig .tc := ⟨.hbm, 461, rfl⟩
abbrev main_cst_70 : Ref sig .tc := ⟨.hbm, 462, rfl⟩
abbrev main_call24_v0 : Ref sig .tc := ⟨.hbm, 463, rfl⟩
abbrev main_call24_v1 : Ref sig .tc := ⟨.hbm, 464, rfl⟩
abbrev main_call24_v2 : Ref sig .tc := ⟨.hbm, 465, rfl⟩
abbrev main_call24_v3 : Ref sig .tc := ⟨.hbm, 466, rfl⟩
abbrev main_call24_v4 : Ref sig .tc := ⟨.hbm, 467, rfl⟩
abbrev main_v277 : Ref sig .tc := ⟨.hbm, 468, rfl⟩
abbrev main_cst_71 : Ref sig .tc := ⟨.hbm, 469, rfl⟩
abbrev main_v278 : Ref sig .tc := ⟨.hbm, 470, rfl⟩
abbrev main_v279 : Ref sig .tc := ⟨.hbm, 471, rfl⟩
abbrev main_v280 : Ref sig .tc := ⟨.hbm, 472, rfl⟩
abbrev main_v281 : Ref sig .tc := ⟨.hbm, 473, rfl⟩
abbrev main_v282 : Ref sig .tc := ⟨.hbm, 474, rfl⟩
abbrev main_v283 : Ref sig .tc := ⟨.hbm, 475, rfl⟩
abbrev main_v284 : Ref sig .tc := ⟨.hbm, 476, rfl⟩
abbrev main_v285 : Ref sig .tc := ⟨.hbm, 477, rfl⟩
abbrev main_v286 : Ref sig .tc := ⟨.hbm, 478, rfl⟩
abbrev main_v287 : Ref sig .tc := ⟨.hbm, 479, rfl⟩
abbrev main_v288 : Ref sig .tc := ⟨.hbm, 480, rfl⟩
abbrev main_cst_72 : Ref sig .tc := ⟨.hbm, 481, rfl⟩
abbrev main_cst_73 : Ref sig .tc := ⟨.hbm, 482, rfl⟩
abbrev main_call25_v0 : Ref sig .tc := ⟨.hbm, 483, rfl⟩
abbrev main_call25_v1 : Ref sig .tc := ⟨.hbm, 484, rfl⟩
abbrev main_call25_v2 : Ref sig .tc := ⟨.hbm, 485, rfl⟩
abbrev main_call25_v3 : Ref sig .tc := ⟨.hbm, 486, rfl⟩
abbrev main_call25_v4 : Ref sig .tc := ⟨.hbm, 487, rfl⟩
abbrev main_v289 : Ref sig .tc := ⟨.hbm, 488, rfl⟩
abbrev main_cst_74 : Ref sig .tc := ⟨.hbm, 489, rfl⟩
abbrev main_v290 : Ref sig .tc := ⟨.hbm, 490, rfl⟩
abbrev main_v291 : Ref sig .tc := ⟨.hbm, 491, rfl⟩
abbrev main_v292 : Ref sig .tc := ⟨.hbm, 492, rfl⟩
abbrev main_v293 : Ref sig .tc := ⟨.hbm, 493, rfl⟩
abbrev main_v294 : Ref sig .tc := ⟨.hbm, 494, rfl⟩
abbrev main_v295 : Ref sig .tc := ⟨.hbm, 495, rfl⟩
abbrev main_v296 : Ref sig .tc := ⟨.hbm, 496, rfl⟩
abbrev main_v297 : Ref sig .tc := ⟨.hbm, 497, rfl⟩
abbrev main_v298 : Ref sig .tc := ⟨.hbm, 498, rfl⟩
abbrev main_v299 : Ref sig .tc := ⟨.hbm, 499, rfl⟩
abbrev main_v300 : Ref sig .tc := ⟨.hbm, 500, rfl⟩
abbrev main_cst_75 : Ref sig .tc := ⟨.hbm, 501, rfl⟩
abbrev main_cst_76 : Ref sig .tc := ⟨.hbm, 502, rfl⟩
abbrev main_call26_v0 : Ref sig .tc := ⟨.hbm, 503, rfl⟩
abbrev main_call26_v1 : Ref sig .tc := ⟨.hbm, 504, rfl⟩
abbrev main_call26_v2 : Ref sig .tc := ⟨.hbm, 505, rfl⟩
abbrev main_call26_v3 : Ref sig .tc := ⟨.hbm, 506, rfl⟩
abbrev main_call26_v4 : Ref sig .tc := ⟨.hbm, 507, rfl⟩
abbrev main_v301 : Ref sig .tc := ⟨.hbm, 508, rfl⟩
abbrev main_cst_77 : Ref sig .tc := ⟨.hbm, 509, rfl⟩
abbrev main_v302 : Ref sig .tc := ⟨.hbm, 510, rfl⟩
abbrev main_v303 : Ref sig .tc := ⟨.hbm, 511, rfl⟩
abbrev main_v304 : Ref sig .tc := ⟨.hbm, 512, rfl⟩
abbrev main_v305 : Ref sig .tc := ⟨.hbm, 513, rfl⟩
abbrev main_v306 : Ref sig .tc := ⟨.hbm, 514, rfl⟩
abbrev main_v307 : Ref sig .tc := ⟨.hbm, 515, rfl⟩
abbrev main_v308 : Ref sig .tc := ⟨.hbm, 516, rfl⟩
abbrev main_v309 : Ref sig .tc := ⟨.hbm, 517, rfl⟩
abbrev main_v310 : Ref sig .tc := ⟨.hbm, 518, rfl⟩
abbrev main_v311 : Ref sig .tc := ⟨.hbm, 519, rfl⟩
abbrev main_v312 : Ref sig .tc := ⟨.hbm, 520, rfl⟩
abbrev main_cst_78 : Ref sig .tc := ⟨.hbm, 521, rfl⟩
abbrev main_cst_79 : Ref sig .tc := ⟨.hbm, 522, rfl⟩
abbrev main_call27_v0 : Ref sig .tc := ⟨.hbm, 523, rfl⟩
abbrev main_call27_v1 : Ref sig .tc := ⟨.hbm, 524, rfl⟩
abbrev main_call27_v2 : Ref sig .tc := ⟨.hbm, 525, rfl⟩
abbrev main_call27_v3 : Ref sig .tc := ⟨.hbm, 526, rfl⟩
abbrev main_call27_v4 : Ref sig .tc := ⟨.hbm, 527, rfl⟩
abbrev main_v313 : Ref sig .tc := ⟨.hbm, 528, rfl⟩
abbrev main_cst_80 : Ref sig .tc := ⟨.hbm, 529, rfl⟩
abbrev main_v314 : Ref sig .tc := ⟨.hbm, 530, rfl⟩
abbrev main_v315 : Ref sig .tc := ⟨.hbm, 531, rfl⟩
abbrev main_v316 : Ref sig .tc := ⟨.hbm, 532, rfl⟩
abbrev main_v317 : Ref sig .tc := ⟨.hbm, 533, rfl⟩
abbrev main_v318 : Ref sig .tc := ⟨.hbm, 534, rfl⟩
abbrev main_cst_81 : Ref sig .tc := ⟨.hbm, 535, rfl⟩
abbrev main_v319 : Ref sig .tc := ⟨.hbm, 536, rfl⟩
abbrev main_v320 : Ref sig .tc := ⟨.hbm, 537, rfl⟩
abbrev main_call28_cst : Ref sig .tc := ⟨.hbm, 538, rfl⟩
abbrev main_call28_v0 : Ref sig .tc := ⟨.hbm, 539, rfl⟩
abbrev main_v321 : Ref sig .tc := ⟨.hbm, 540, rfl⟩
abbrev main_cst_82 : Ref sig .tc := ⟨.hbm, 541, rfl⟩
abbrev main_v322 : Ref sig .tc := ⟨.hbm, 542, rfl⟩
abbrev main_v323 : Ref sig .tc := ⟨.hbm, 543, rfl⟩
abbrev main_v324 : Ref sig .tc := ⟨.hbm, 544, rfl⟩
abbrev main_cst_83 : Ref sig .tc := ⟨.hbm, 545, rfl⟩
abbrev main_v325 : Ref sig .tc := ⟨.hbm, 546, rfl⟩
abbrev main_v326 : Ref sig .tc := ⟨.hbm, 547, rfl⟩
abbrev main_cst_84 : Ref sig .tc := ⟨.hbm, 548, rfl⟩
abbrev main_v327 : Ref sig .tc := ⟨.hbm, 549, rfl⟩
abbrev main_v328 : Ref sig .tc := ⟨.hbm, 550, rfl⟩
abbrev main_v329 : Ref sig .tc := ⟨.hbm, 551, rfl⟩
abbrev main_cst_85 : Ref sig .tc := ⟨.hbm, 552, rfl⟩
abbrev main_v330 : Ref sig .tc := ⟨.hbm, 553, rfl⟩
abbrev main_v331 : Ref sig .tc := ⟨.hbm, 554, rfl⟩
abbrev main_cst_86 : Ref sig .tc := ⟨.hbm, 555, rfl⟩
abbrev main_v332 : Ref sig .tc := ⟨.hbm, 556, rfl⟩
abbrev main_v333 : Ref sig .tc := ⟨.hbm, 557, rfl⟩
abbrev main_v334 : Ref sig .tc := ⟨.hbm, 558, rfl⟩
abbrev main_v335 : Ref sig .tc := ⟨.hbm, 559, rfl⟩
abbrev main_v336 : Ref sig .tc := ⟨.hbm, 560, rfl⟩
abbrev main_v337 : Ref sig .tc := ⟨.hbm, 561, rfl⟩
abbrev main_v338 : Ref sig .tc := ⟨.hbm, 562, rfl⟩
abbrev main_v339 : Ref sig .tc := ⟨.hbm, 563, rfl⟩
abbrev main_v340 : Ref sig .tc := ⟨.hbm, 564, rfl⟩
abbrev main_v341 : Ref sig .tc := ⟨.hbm, 565, rfl⟩
abbrev main_cst_87 : Ref sig .tc := ⟨.hbm, 566, rfl⟩
abbrev main_cst_88 : Ref sig .tc := ⟨.hbm, 567, rfl⟩
abbrev main_call31_v0 : Ref sig .tc := ⟨.hbm, 568, rfl⟩
abbrev main_call31_v1 : Ref sig .tc := ⟨.hbm, 569, rfl⟩
abbrev main_call31_v2 : Ref sig .tc := ⟨.hbm, 570, rfl⟩
abbrev main_call31_v3 : Ref sig .tc := ⟨.hbm, 571, rfl⟩
abbrev main_call31_v4 : Ref sig .tc := ⟨.hbm, 572, rfl⟩
abbrev main_v342 : Ref sig .tc := ⟨.hbm, 573, rfl⟩
abbrev main_cst_89 : Ref sig .tc := ⟨.hbm, 574, rfl⟩
abbrev main_v343 : Ref sig .tc := ⟨.hbm, 575, rfl⟩
abbrev main_v344 : Ref sig .tc := ⟨.hbm, 576, rfl⟩
abbrev main_v345 : Ref sig .tc := ⟨.hbm, 577, rfl⟩
abbrev main_v346 : Ref sig .tc := ⟨.hbm, 578, rfl⟩
abbrev main_v347 : Ref sig .tc := ⟨.hbm, 579, rfl⟩
abbrev main_v348 : Ref sig .tc := ⟨.hbm, 580, rfl⟩
abbrev main_v349 : Ref sig .tc := ⟨.hbm, 581, rfl⟩
abbrev main_v350 : Ref sig .tc := ⟨.hbm, 582, rfl⟩
abbrev main_v351 : Ref sig .tc := ⟨.hbm, 583, rfl⟩
abbrev main_v352 : Ref sig .tc := ⟨.hbm, 584, rfl⟩
abbrev main_v353 : Ref sig .tc := ⟨.hbm, 585, rfl⟩
abbrev main_cst_90 : Ref sig .tc := ⟨.hbm, 586, rfl⟩
abbrev main_cst_91 : Ref sig .tc := ⟨.hbm, 587, rfl⟩
abbrev main_call32_v0 : Ref sig .tc := ⟨.hbm, 588, rfl⟩
abbrev main_call32_v1 : Ref sig .tc := ⟨.hbm, 589, rfl⟩
abbrev main_call32_v2 : Ref sig .tc := ⟨.hbm, 590, rfl⟩
abbrev main_call32_v3 : Ref sig .tc := ⟨.hbm, 591, rfl⟩
abbrev main_call32_v4 : Ref sig .tc := ⟨.hbm, 592, rfl⟩
abbrev main_v354 : Ref sig .tc := ⟨.hbm, 593, rfl⟩
abbrev main_cst_92 : Ref sig .tc := ⟨.hbm, 594, rfl⟩
abbrev main_v355 : Ref sig .tc := ⟨.hbm, 595, rfl⟩
abbrev main_v356 : Ref sig .tc := ⟨.hbm, 596, rfl⟩
abbrev main_v357 : Ref sig .tc := ⟨.hbm, 597, rfl⟩
abbrev main_v358 : Ref sig .tc := ⟨.hbm, 598, rfl⟩
abbrev main_v359 : Ref sig .tc := ⟨.hbm, 599, rfl⟩
abbrev main_v360 : Ref sig .tc := ⟨.hbm, 600, rfl⟩
abbrev main_v361 : Ref sig .tc := ⟨.hbm, 601, rfl⟩
abbrev main_v362 : Ref sig .tc := ⟨.hbm, 602, rfl⟩
abbrev main_v363 : Ref sig .tc := ⟨.hbm, 603, rfl⟩
abbrev main_v364 : Ref sig .tc := ⟨.hbm, 604, rfl⟩
abbrev main_v365 : Ref sig .tc := ⟨.hbm, 605, rfl⟩
abbrev main_cst_93 : Ref sig .tc := ⟨.hbm, 606, rfl⟩
abbrev main_cst_94 : Ref sig .tc := ⟨.hbm, 607, rfl⟩
abbrev main_call33_v0 : Ref sig .tc := ⟨.hbm, 608, rfl⟩
abbrev main_call33_v1 : Ref sig .tc := ⟨.hbm, 609, rfl⟩
abbrev main_call33_v2 : Ref sig .tc := ⟨.hbm, 610, rfl⟩
abbrev main_call33_v3 : Ref sig .tc := ⟨.hbm, 611, rfl⟩
abbrev main_call33_v4 : Ref sig .tc := ⟨.hbm, 612, rfl⟩
abbrev main_v366 : Ref sig .tc := ⟨.hbm, 613, rfl⟩
abbrev main_cst_95 : Ref sig .tc := ⟨.hbm, 614, rfl⟩
abbrev main_v367 : Ref sig .tc := ⟨.hbm, 615, rfl⟩
abbrev main_v368 : Ref sig .tc := ⟨.hbm, 616, rfl⟩
abbrev main_v369 : Ref sig .tc := ⟨.hbm, 617, rfl⟩
abbrev main_v370 : Ref sig .tc := ⟨.hbm, 618, rfl⟩
abbrev main_v371 : Ref sig .tc := ⟨.hbm, 619, rfl⟩
abbrev main_v372 : Ref sig .tc := ⟨.hbm, 620, rfl⟩
abbrev main_v373 : Ref sig .tc := ⟨.hbm, 621, rfl⟩
abbrev main_v374 : Ref sig .tc := ⟨.hbm, 622, rfl⟩
abbrev main_v375 : Ref sig .tc := ⟨.hbm, 623, rfl⟩
abbrev main_v376 : Ref sig .tc := ⟨.hbm, 624, rfl⟩
abbrev main_v377 : Ref sig .tc := ⟨.hbm, 625, rfl⟩
abbrev main_cst_96 : Ref sig .tc := ⟨.hbm, 626, rfl⟩
abbrev main_cst_97 : Ref sig .tc := ⟨.hbm, 627, rfl⟩
abbrev main_call34_v0 : Ref sig .tc := ⟨.hbm, 628, rfl⟩
abbrev main_call34_v1 : Ref sig .tc := ⟨.hbm, 629, rfl⟩
abbrev main_call34_v2 : Ref sig .tc := ⟨.hbm, 630, rfl⟩
abbrev main_call34_v3 : Ref sig .tc := ⟨.hbm, 631, rfl⟩
abbrev main_call34_v4 : Ref sig .tc := ⟨.hbm, 632, rfl⟩
abbrev main_v378 : Ref sig .tc := ⟨.hbm, 633, rfl⟩
abbrev main_cst_98 : Ref sig .tc := ⟨.hbm, 634, rfl⟩
abbrev main_v379 : Ref sig .tc := ⟨.hbm, 635, rfl⟩
abbrev main_v380 : Ref sig .tc := ⟨.hbm, 636, rfl⟩
abbrev main_v381 : Ref sig .tc := ⟨.hbm, 637, rfl⟩
abbrev main_v382 : Ref sig .tc := ⟨.hbm, 638, rfl⟩
abbrev main_v383 : Ref sig .tc := ⟨.hbm, 639, rfl⟩
abbrev main_v384 : Ref sig .tc := ⟨.hbm, 640, rfl⟩
abbrev main_v385 : Ref sig .tc := ⟨.hbm, 641, rfl⟩
abbrev main_v386 : Ref sig .tc := ⟨.hbm, 642, rfl⟩
abbrev main_v387 : Ref sig .tc := ⟨.hbm, 643, rfl⟩
abbrev main_v388 : Ref sig .tc := ⟨.hbm, 644, rfl⟩
abbrev main_v389 : Ref sig .tc := ⟨.hbm, 645, rfl⟩
abbrev main_cst_99 : Ref sig .tc := ⟨.hbm, 646, rfl⟩
abbrev main_cst_100 : Ref sig .tc := ⟨.hbm, 647, rfl⟩
abbrev main_call35_v0 : Ref sig .tc := ⟨.hbm, 648, rfl⟩
abbrev main_call35_v1 : Ref sig .tc := ⟨.hbm, 649, rfl⟩
abbrev main_call35_v2 : Ref sig .tc := ⟨.hbm, 650, rfl⟩
abbrev main_call35_v3 : Ref sig .tc := ⟨.hbm, 651, rfl⟩
abbrev main_call35_v4 : Ref sig .tc := ⟨.hbm, 652, rfl⟩
abbrev main_v390 : Ref sig .tc := ⟨.hbm, 653, rfl⟩
abbrev main_cst_101 : Ref sig .tc := ⟨.hbm, 654, rfl⟩
abbrev main_v391 : Ref sig .tc := ⟨.hbm, 655, rfl⟩
abbrev main_v392 : Ref sig .tc := ⟨.hbm, 656, rfl⟩
abbrev main_v393 : Ref sig .tc := ⟨.hbm, 657, rfl⟩
abbrev main_v394 : Ref sig .tc := ⟨.hbm, 658, rfl⟩
abbrev main_v395 : Ref sig .tc := ⟨.hbm, 659, rfl⟩
abbrev main_v396 : Ref sig .tc := ⟨.hbm, 660, rfl⟩
abbrev main_v397 : Ref sig .tc := ⟨.hbm, 661, rfl⟩
abbrev main_v398 : Ref sig .tc := ⟨.hbm, 662, rfl⟩
abbrev main_v399 : Ref sig .tc := ⟨.hbm, 663, rfl⟩
abbrev main_v400 : Ref sig .tc := ⟨.hbm, 664, rfl⟩
abbrev main_v401 : Ref sig .tc := ⟨.hbm, 665, rfl⟩
abbrev main_cst_102 : Ref sig .tc := ⟨.hbm, 666, rfl⟩
abbrev main_cst_103 : Ref sig .tc := ⟨.hbm, 667, rfl⟩
abbrev main_call36_v0 : Ref sig .tc := ⟨.hbm, 668, rfl⟩
abbrev main_call36_v1 : Ref sig .tc := ⟨.hbm, 669, rfl⟩
abbrev main_call36_v2 : Ref sig .tc := ⟨.hbm, 670, rfl⟩
abbrev main_call36_v3 : Ref sig .tc := ⟨.hbm, 671, rfl⟩
abbrev main_call36_v4 : Ref sig .tc := ⟨.hbm, 672, rfl⟩
abbrev main_v402 : Ref sig .tc := ⟨.hbm, 673, rfl⟩
abbrev main_cst_104 : Ref sig .tc := ⟨.hbm, 674, rfl⟩
abbrev main_v403 : Ref sig .tc := ⟨.hbm, 675, rfl⟩
abbrev main_v404 : Ref sig .tc := ⟨.hbm, 676, rfl⟩
abbrev main_v405 : Ref sig .tc := ⟨.hbm, 677, rfl⟩
abbrev main_v406 : Ref sig .tc := ⟨.hbm, 678, rfl⟩
abbrev main_v407 : Ref sig .tc := ⟨.hbm, 679, rfl⟩
abbrev main_v408 : Ref sig .tc := ⟨.hbm, 680, rfl⟩
abbrev main_v409 : Ref sig .tc := ⟨.hbm, 681, rfl⟩
abbrev main_v410 : Ref sig .tc := ⟨.hbm, 682, rfl⟩
abbrev main_v411 : Ref sig .tc := ⟨.hbm, 683, rfl⟩
abbrev main_v412 : Ref sig .tc := ⟨.hbm, 684, rfl⟩
abbrev main_v413 : Ref sig .tc := ⟨.hbm, 685, rfl⟩
abbrev main_cst_105 : Ref sig .tc := ⟨.hbm, 686, rfl⟩
abbrev main_cst_106 : Ref sig .tc := ⟨.hbm, 687, rfl⟩
abbrev main_call37_v0 : Ref sig .tc := ⟨.hbm, 688, rfl⟩
abbrev main_call37_v1 : Ref sig .tc := ⟨.hbm, 689, rfl⟩
abbrev main_call37_v2 : Ref sig .tc := ⟨.hbm, 690, rfl⟩
abbrev main_call37_v3 : Ref sig .tc := ⟨.hbm, 691, rfl⟩
abbrev main_call37_v4 : Ref sig .tc := ⟨.hbm, 692, rfl⟩
abbrev main_v414 : Ref sig .tc := ⟨.hbm, 693, rfl⟩
abbrev main_cst_107 : Ref sig .tc := ⟨.hbm, 694, rfl⟩
abbrev main_v415 : Ref sig .tc := ⟨.hbm, 695, rfl⟩
abbrev main_v416 : Ref sig .tc := ⟨.hbm, 696, rfl⟩
abbrev main_v417 : Ref sig .tc := ⟨.hbm, 697, rfl⟩
abbrev main_v418 : Ref sig .tc := ⟨.hbm, 698, rfl⟩
abbrev main_v419 : Ref sig .tc := ⟨.hbm, 699, rfl⟩
abbrev main_v420 : Ref sig .tc := ⟨.hbm, 700, rfl⟩
abbrev main_v421 : Ref sig .tc := ⟨.hbm, 701, rfl⟩
abbrev main_v422 : Ref sig .tc := ⟨.hbm, 702, rfl⟩
abbrev main_v423 : Ref sig .tc := ⟨.hbm, 703, rfl⟩
abbrev main_v424 : Ref sig .tc := ⟨.hbm, 704, rfl⟩
abbrev main_v425 : Ref sig .tc := ⟨.hbm, 705, rfl⟩
abbrev main_cst_108 : Ref sig .tc := ⟨.hbm, 706, rfl⟩
abbrev main_cst_109 : Ref sig .tc := ⟨.hbm, 707, rfl⟩
abbrev main_call38_v0 : Ref sig .tc := ⟨.hbm, 708, rfl⟩
abbrev main_call38_v1 : Ref sig .tc := ⟨.hbm, 709, rfl⟩
abbrev main_call38_v2 : Ref sig .tc := ⟨.hbm, 710, rfl⟩
abbrev main_call38_v3 : Ref sig .tc := ⟨.hbm, 711, rfl⟩
abbrev main_call38_v4 : Ref sig .tc := ⟨.hbm, 712, rfl⟩
abbrev main_v426 : Ref sig .tc := ⟨.hbm, 713, rfl⟩
abbrev main_cst_110 : Ref sig .tc := ⟨.hbm, 714, rfl⟩
abbrev main_v427 : Ref sig .tc := ⟨.hbm, 715, rfl⟩
abbrev main_v428 : Ref sig .tc := ⟨.hbm, 716, rfl⟩
abbrev main_v429 : Ref sig .tc := ⟨.hbm, 717, rfl⟩
abbrev main_v430 : Ref sig .tc := ⟨.hbm, 718, rfl⟩
abbrev main_v431 : Ref sig .tc := ⟨.hbm, 719, rfl⟩
abbrev main_v432 : Ref sig .tc := ⟨.hbm, 720, rfl⟩
abbrev main_v433 : Ref sig .tc := ⟨.hbm, 721, rfl⟩
abbrev main_v434 : Ref sig .tc := ⟨.hbm, 722, rfl⟩
abbrev main_v435 : Ref sig .tc := ⟨.hbm, 723, rfl⟩
abbrev main_v436 : Ref sig .tc := ⟨.hbm, 724, rfl⟩
abbrev main_v437 : Ref sig .tc := ⟨.hbm, 725, rfl⟩
abbrev main_cst_111 : Ref sig .tc := ⟨.hbm, 726, rfl⟩
abbrev main_cst_112 : Ref sig .tc := ⟨.hbm, 727, rfl⟩
abbrev main_call39_v0 : Ref sig .tc := ⟨.hbm, 728, rfl⟩
abbrev main_call39_v1 : Ref sig .tc := ⟨.hbm, 729, rfl⟩
abbrev main_call39_v2 : Ref sig .tc := ⟨.hbm, 730, rfl⟩
abbrev main_call39_v3 : Ref sig .tc := ⟨.hbm, 731, rfl⟩
abbrev main_call39_v4 : Ref sig .tc := ⟨.hbm, 732, rfl⟩
abbrev main_v438 : Ref sig .tc := ⟨.hbm, 733, rfl⟩
abbrev main_cst_113 : Ref sig .tc := ⟨.hbm, 734, rfl⟩
abbrev main_v439 : Ref sig .tc := ⟨.hbm, 735, rfl⟩
abbrev main_v440 : Ref sig .tc := ⟨.hbm, 736, rfl⟩
abbrev main_v441 : Ref sig .tc := ⟨.hbm, 737, rfl⟩
abbrev main_v442 : Ref sig .tc := ⟨.hbm, 738, rfl⟩
abbrev main_v443 : Ref sig .tc := ⟨.hbm, 739, rfl⟩
abbrev main_v444 : Ref sig .tc := ⟨.hbm, 740, rfl⟩
abbrev main_v445 : Ref sig .tc := ⟨.hbm, 741, rfl⟩
abbrev main_v446 : Ref sig .tc := ⟨.hbm, 742, rfl⟩
abbrev main_v447 : Ref sig .tc := ⟨.hbm, 743, rfl⟩
abbrev main_v448 : Ref sig .tc := ⟨.hbm, 744, rfl⟩
abbrev main_v449 : Ref sig .tc := ⟨.hbm, 745, rfl⟩
abbrev main_cst_114 : Ref sig .tc := ⟨.hbm, 746, rfl⟩
abbrev main_cst_115 : Ref sig .tc := ⟨.hbm, 747, rfl⟩
abbrev main_call40_v0 : Ref sig .tc := ⟨.hbm, 748, rfl⟩
abbrev main_call40_v1 : Ref sig .tc := ⟨.hbm, 749, rfl⟩
abbrev main_call40_v2 : Ref sig .tc := ⟨.hbm, 750, rfl⟩
abbrev main_call40_v3 : Ref sig .tc := ⟨.hbm, 751, rfl⟩
abbrev main_call40_v4 : Ref sig .tc := ⟨.hbm, 752, rfl⟩
abbrev main_v450 : Ref sig .tc := ⟨.hbm, 753, rfl⟩
abbrev main_cst_116 : Ref sig .tc := ⟨.hbm, 754, rfl⟩
abbrev main_v451 : Ref sig .tc := ⟨.hbm, 755, rfl⟩
abbrev main_v452 : Ref sig .tc := ⟨.hbm, 756, rfl⟩
abbrev main_v453 : Ref sig .tc := ⟨.hbm, 757, rfl⟩
abbrev main_v454 : Ref sig .tc := ⟨.hbm, 758, rfl⟩
abbrev main_v455 : Ref sig .tc := ⟨.hbm, 759, rfl⟩
abbrev main_v456 : Ref sig .tc := ⟨.hbm, 760, rfl⟩
abbrev main_v457 : Ref sig .tc := ⟨.hbm, 761, rfl⟩
abbrev main_v458 : Ref sig .tc := ⟨.hbm, 762, rfl⟩
abbrev main_v459 : Ref sig .tc := ⟨.hbm, 763, rfl⟩
abbrev main_v460 : Ref sig .tc := ⟨.hbm, 764, rfl⟩
abbrev main_v461 : Ref sig .tc := ⟨.hbm, 765, rfl⟩
abbrev main_cst_117 : Ref sig .tc := ⟨.hbm, 766, rfl⟩
abbrev main_cst_118 : Ref sig .tc := ⟨.hbm, 767, rfl⟩
abbrev main_call41_v0 : Ref sig .tc := ⟨.hbm, 768, rfl⟩
abbrev main_call41_v1 : Ref sig .tc := ⟨.hbm, 769, rfl⟩
abbrev main_call41_v2 : Ref sig .tc := ⟨.hbm, 770, rfl⟩
abbrev main_call41_v3 : Ref sig .tc := ⟨.hbm, 771, rfl⟩
abbrev main_call41_v4 : Ref sig .tc := ⟨.hbm, 772, rfl⟩
abbrev main_v462 : Ref sig .tc := ⟨.hbm, 773, rfl⟩
abbrev main_cst_119 : Ref sig .tc := ⟨.hbm, 774, rfl⟩
abbrev main_v463 : Ref sig .tc := ⟨.hbm, 775, rfl⟩
abbrev main_v464 : Ref sig .tc := ⟨.hbm, 776, rfl⟩
abbrev main_v465 : Ref sig .tc := ⟨.hbm, 777, rfl⟩
abbrev main_v466 : Ref sig .tc := ⟨.hbm, 778, rfl⟩
abbrev main_v467 : Ref sig .tc := ⟨.hbm, 779, rfl⟩
abbrev main_v468 : Ref sig .tc := ⟨.hbm, 780, rfl⟩
abbrev main_v469 : Ref sig .tc := ⟨.hbm, 781, rfl⟩
abbrev main_v470 : Ref sig .tc := ⟨.hbm, 782, rfl⟩
abbrev main_v471 : Ref sig .tc := ⟨.hbm, 783, rfl⟩
abbrev main_v472 : Ref sig .tc := ⟨.hbm, 784, rfl⟩
abbrev main_v473 : Ref sig .tc := ⟨.hbm, 785, rfl⟩
abbrev main_cst_120 : Ref sig .tc := ⟨.hbm, 786, rfl⟩
abbrev main_cst_121 : Ref sig .tc := ⟨.hbm, 787, rfl⟩
abbrev main_call42_v0 : Ref sig .tc := ⟨.hbm, 788, rfl⟩
abbrev main_call42_v1 : Ref sig .tc := ⟨.hbm, 789, rfl⟩
abbrev main_call42_v2 : Ref sig .tc := ⟨.hbm, 790, rfl⟩
abbrev main_call42_v3 : Ref sig .tc := ⟨.hbm, 791, rfl⟩
abbrev main_call42_v4 : Ref sig .tc := ⟨.hbm, 792, rfl⟩
abbrev main_v474 : Ref sig .tc := ⟨.hbm, 793, rfl⟩
abbrev main_cst_122 : Ref sig .tc := ⟨.hbm, 794, rfl⟩
abbrev main_v475 : Ref sig .tc := ⟨.hbm, 795, rfl⟩
abbrev main_v476 : Ref sig .tc := ⟨.hbm, 796, rfl⟩
abbrev main_v477 : Ref sig .tc := ⟨.hbm, 797, rfl⟩
abbrev main_v478 : Ref sig .tc := ⟨.hbm, 798, rfl⟩
abbrev main_v479 : Ref sig .tc := ⟨.hbm, 799, rfl⟩
abbrev main_v480 : Ref sig .tc := ⟨.hbm, 800, rfl⟩
abbrev main_v481 : Ref sig .tc := ⟨.hbm, 801, rfl⟩
abbrev main_v482 : Ref sig .tc := ⟨.hbm, 802, rfl⟩
abbrev main_v483 : Ref sig .tc := ⟨.hbm, 803, rfl⟩
abbrev main_v484 : Ref sig .tc := ⟨.hbm, 804, rfl⟩
abbrev main_v485 : Ref sig .tc := ⟨.hbm, 805, rfl⟩
abbrev main_cst_123 : Ref sig .tc := ⟨.hbm, 806, rfl⟩
abbrev main_cst_124 : Ref sig .tc := ⟨.hbm, 807, rfl⟩
abbrev main_call43_v0 : Ref sig .tc := ⟨.hbm, 808, rfl⟩
abbrev main_call43_v1 : Ref sig .tc := ⟨.hbm, 809, rfl⟩
abbrev main_call43_v2 : Ref sig .tc := ⟨.hbm, 810, rfl⟩
abbrev main_call43_v3 : Ref sig .tc := ⟨.hbm, 811, rfl⟩
abbrev main_call43_v4 : Ref sig .tc := ⟨.hbm, 812, rfl⟩
abbrev main_v486 : Ref sig .tc := ⟨.hbm, 813, rfl⟩
abbrev main_cst_125 : Ref sig .tc := ⟨.hbm, 814, rfl⟩
abbrev main_v487 : Ref sig .tc := ⟨.hbm, 815, rfl⟩
abbrev main_v488 : Ref sig .tc := ⟨.hbm, 816, rfl⟩
abbrev main_v489 : Ref sig .tc := ⟨.hbm, 817, rfl⟩
abbrev main_v490 : Ref sig .tc := ⟨.hbm, 818, rfl⟩
abbrev main_v491 : Ref sig .tc := ⟨.hbm, 819, rfl⟩
abbrev main_v492 : Ref sig .tc := ⟨.hbm, 820, rfl⟩
abbrev main_v493 : Ref sig .tc := ⟨.hbm, 821, rfl⟩
abbrev main_v494 : Ref sig .tc := ⟨.hbm, 822, rfl⟩
abbrev main_v495 : Ref sig .tc := ⟨.hbm, 823, rfl⟩
abbrev main_v496 : Ref sig .tc := ⟨.hbm, 824, rfl⟩
abbrev main_v497 : Ref sig .tc := ⟨.hbm, 825, rfl⟩
abbrev main_cst_126 : Ref sig .tc := ⟨.hbm, 826, rfl⟩
abbrev main_cst_127 : Ref sig .tc := ⟨.hbm, 827, rfl⟩
abbrev main_call44_v0 : Ref sig .tc := ⟨.hbm, 828, rfl⟩
abbrev main_call44_v1 : Ref sig .tc := ⟨.hbm, 829, rfl⟩
abbrev main_call44_v2 : Ref sig .tc := ⟨.hbm, 830, rfl⟩
abbrev main_call44_v3 : Ref sig .tc := ⟨.hbm, 831, rfl⟩
abbrev main_call44_v4 : Ref sig .tc := ⟨.hbm, 832, rfl⟩
abbrev main_v498 : Ref sig .tc := ⟨.hbm, 833, rfl⟩
abbrev main_cst_128 : Ref sig .tc := ⟨.hbm, 834, rfl⟩
abbrev main_v499 : Ref sig .tc := ⟨.hbm, 835, rfl⟩
abbrev main_v500 : Ref sig .tc := ⟨.hbm, 836, rfl⟩
abbrev main_v501 : Ref sig .tc := ⟨.hbm, 837, rfl⟩
abbrev main_v502 : Ref sig .tc := ⟨.hbm, 838, rfl⟩
abbrev main_v503 : Ref sig .tc := ⟨.hbm, 839, rfl⟩
abbrev main_v504 : Ref sig .tc := ⟨.hbm, 840, rfl⟩
abbrev main_v505 : Ref sig .tc := ⟨.hbm, 841, rfl⟩
abbrev main_v506 : Ref sig .tc := ⟨.hbm, 842, rfl⟩
abbrev main_v507 : Ref sig .tc := ⟨.hbm, 843, rfl⟩
abbrev main_v508 : Ref sig .tc := ⟨.hbm, 844, rfl⟩
abbrev main_v509 : Ref sig .tc := ⟨.hbm, 845, rfl⟩
abbrev main_cst_129 : Ref sig .tc := ⟨.hbm, 846, rfl⟩
abbrev main_cst_130 : Ref sig .tc := ⟨.hbm, 847, rfl⟩
abbrev main_call45_v0 : Ref sig .tc := ⟨.hbm, 848, rfl⟩
abbrev main_call45_v1 : Ref sig .tc := ⟨.hbm, 849, rfl⟩
abbrev main_call45_v2 : Ref sig .tc := ⟨.hbm, 850, rfl⟩
abbrev main_call45_v3 : Ref sig .tc := ⟨.hbm, 851, rfl⟩
abbrev main_call45_v4 : Ref sig .tc := ⟨.hbm, 852, rfl⟩
abbrev main_v510 : Ref sig .tc := ⟨.hbm, 853, rfl⟩
abbrev main_cst_131 : Ref sig .tc := ⟨.hbm, 854, rfl⟩
abbrev main_v511 : Ref sig .tc := ⟨.hbm, 855, rfl⟩
abbrev main_v512 : Ref sig .tc := ⟨.hbm, 856, rfl⟩
abbrev main_v513 : Ref sig .tc := ⟨.hbm, 857, rfl⟩
abbrev main_v514 : Ref sig .tc := ⟨.hbm, 858, rfl⟩
abbrev main_v515 : Ref sig .tc := ⟨.hbm, 859, rfl⟩
abbrev main_v516 : Ref sig .tc := ⟨.hbm, 860, rfl⟩
abbrev main_v517 : Ref sig .tc := ⟨.hbm, 861, rfl⟩
abbrev main_v518 : Ref sig .tc := ⟨.hbm, 862, rfl⟩
abbrev main_v519 : Ref sig .tc := ⟨.hbm, 863, rfl⟩
abbrev main_v520 : Ref sig .tc := ⟨.hbm, 864, rfl⟩
abbrev main_v521 : Ref sig .tc := ⟨.hbm, 865, rfl⟩
abbrev main_cst_132 : Ref sig .tc := ⟨.hbm, 866, rfl⟩
abbrev main_cst_133 : Ref sig .tc := ⟨.hbm, 867, rfl⟩
abbrev main_call46_v0 : Ref sig .tc := ⟨.hbm, 868, rfl⟩
abbrev main_call46_v1 : Ref sig .tc := ⟨.hbm, 869, rfl⟩
abbrev main_call46_v2 : Ref sig .tc := ⟨.hbm, 870, rfl⟩
abbrev main_call46_v3 : Ref sig .tc := ⟨.hbm, 871, rfl⟩
abbrev main_call46_v4 : Ref sig .tc := ⟨.hbm, 872, rfl⟩
abbrev main_v522 : Ref sig .tc := ⟨.hbm, 873, rfl⟩
abbrev main_cst_134 : Ref sig .tc := ⟨.hbm, 874, rfl⟩
abbrev main_v523 : Ref sig .tc := ⟨.hbm, 875, rfl⟩
abbrev main_v524 : Ref sig .tc := ⟨.hbm, 876, rfl⟩
abbrev main_v525 : Ref sig .tc := ⟨.hbm, 877, rfl⟩
abbrev main_v526 : Ref sig .tc := ⟨.hbm, 878, rfl⟩
abbrev main_v527 : Ref sig .tc := ⟨.hbm, 879, rfl⟩
abbrev main_v528 : Ref sig .tc := ⟨.hbm, 880, rfl⟩
abbrev main_v529 : Ref sig .tc := ⟨.hbm, 881, rfl⟩
abbrev main_v530 : Ref sig .tc := ⟨.hbm, 882, rfl⟩
abbrev main_v531 : Ref sig .tc := ⟨.hbm, 883, rfl⟩
abbrev main_v532 : Ref sig .tc := ⟨.hbm, 884, rfl⟩
abbrev main_v533 : Ref sig .tc := ⟨.hbm, 885, rfl⟩
abbrev main_cst_135 : Ref sig .tc := ⟨.hbm, 886, rfl⟩
abbrev main_cst_136 : Ref sig .tc := ⟨.hbm, 887, rfl⟩
abbrev main_call47_v0 : Ref sig .tc := ⟨.hbm, 888, rfl⟩
abbrev main_call47_v1 : Ref sig .tc := ⟨.hbm, 889, rfl⟩
abbrev main_call47_v2 : Ref sig .tc := ⟨.hbm, 890, rfl⟩
abbrev main_call47_v3 : Ref sig .tc := ⟨.hbm, 891, rfl⟩
abbrev main_call47_v4 : Ref sig .tc := ⟨.hbm, 892, rfl⟩
abbrev main_v534 : Ref sig .tc := ⟨.hbm, 893, rfl⟩
abbrev main_cst_137 : Ref sig .tc := ⟨.hbm, 894, rfl⟩
abbrev main_v535 : Ref sig .tc := ⟨.hbm, 895, rfl⟩
abbrev main_v536 : Ref sig .tc := ⟨.hbm, 896, rfl⟩
abbrev main_v537 : Ref sig .tc := ⟨.hbm, 897, rfl⟩
abbrev main_v538 : Ref sig .tc := ⟨.hbm, 898, rfl⟩
abbrev main_v539 : Ref sig .tc := ⟨.hbm, 899, rfl⟩
abbrev main_v540 : Ref sig .tc := ⟨.hbm, 900, rfl⟩
abbrev main_v541 : Ref sig .tc := ⟨.hbm, 901, rfl⟩
abbrev main_v542 : Ref sig .tc := ⟨.hbm, 902, rfl⟩
abbrev main_v543 : Ref sig .tc := ⟨.hbm, 903, rfl⟩
abbrev main_v544 : Ref sig .tc := ⟨.hbm, 904, rfl⟩
abbrev main_v545 : Ref sig .tc := ⟨.hbm, 905, rfl⟩
abbrev main_cst_138 : Ref sig .tc := ⟨.hbm, 906, rfl⟩
abbrev main_cst_139 : Ref sig .tc := ⟨.hbm, 907, rfl⟩
abbrev main_call48_v0 : Ref sig .tc := ⟨.hbm, 908, rfl⟩
abbrev main_call48_v1 : Ref sig .tc := ⟨.hbm, 909, rfl⟩
abbrev main_call48_v2 : Ref sig .tc := ⟨.hbm, 910, rfl⟩
abbrev main_call48_v3 : Ref sig .tc := ⟨.hbm, 911, rfl⟩
abbrev main_call48_v4 : Ref sig .tc := ⟨.hbm, 912, rfl⟩
abbrev main_v546 : Ref sig .tc := ⟨.hbm, 913, rfl⟩
abbrev main_cst_140 : Ref sig .tc := ⟨.hbm, 914, rfl⟩
abbrev main_v547 : Ref sig .tc := ⟨.hbm, 915, rfl⟩
abbrev main_v548 : Ref sig .tc := ⟨.hbm, 916, rfl⟩
abbrev main_v549 : Ref sig .tc := ⟨.hbm, 917, rfl⟩
abbrev main_v550 : Ref sig .tc := ⟨.hbm, 918, rfl⟩
abbrev main_v551 : Ref sig .tc := ⟨.hbm, 919, rfl⟩
abbrev main_v552 : Ref sig .tc := ⟨.hbm, 920, rfl⟩
abbrev main_v553 : Ref sig .tc := ⟨.hbm, 921, rfl⟩
abbrev main_v554 : Ref sig .tc := ⟨.hbm, 922, rfl⟩
abbrev main_v555 : Ref sig .tc := ⟨.hbm, 923, rfl⟩
abbrev main_v556 : Ref sig .tc := ⟨.hbm, 924, rfl⟩
abbrev main_v557 : Ref sig .tc := ⟨.hbm, 925, rfl⟩
abbrev main_cst_141 : Ref sig .tc := ⟨.hbm, 926, rfl⟩
abbrev main_cst_142 : Ref sig .tc := ⟨.hbm, 927, rfl⟩
abbrev main_call49_v0 : Ref sig .tc := ⟨.hbm, 928, rfl⟩
abbrev main_call49_v1 : Ref sig .tc := ⟨.hbm, 929, rfl⟩
abbrev main_call49_v2 : Ref sig .tc := ⟨.hbm, 930, rfl⟩
abbrev main_call49_v3 : Ref sig .tc := ⟨.hbm, 931, rfl⟩
abbrev main_call49_v4 : Ref sig .tc := ⟨.hbm, 932, rfl⟩
abbrev main_v558 : Ref sig .tc := ⟨.hbm, 933, rfl⟩
abbrev main_cst_143 : Ref sig .tc := ⟨.hbm, 934, rfl⟩
abbrev main_v559 : Ref sig .tc := ⟨.hbm, 935, rfl⟩
abbrev main_v560 : Ref sig .tc := ⟨.hbm, 936, rfl⟩
abbrev main_v561 : Ref sig .tc := ⟨.hbm, 937, rfl⟩
abbrev main_v562 : Ref sig .tc := ⟨.hbm, 938, rfl⟩
abbrev main_v563 : Ref sig .tc := ⟨.hbm, 939, rfl⟩
abbrev main_v564 : Ref sig .tc := ⟨.hbm, 940, rfl⟩
abbrev main_v565 : Ref sig .tc := ⟨.hbm, 941, rfl⟩
abbrev main_v566 : Ref sig .tc := ⟨.hbm, 942, rfl⟩
abbrev main_v567 : Ref sig .tc := ⟨.hbm, 943, rfl⟩
abbrev main_v568 : Ref sig .tc := ⟨.hbm, 944, rfl⟩
abbrev main_v569 : Ref sig .tc := ⟨.hbm, 945, rfl⟩
abbrev main_cst_144 : Ref sig .tc := ⟨.hbm, 946, rfl⟩
abbrev main_cst_145 : Ref sig .tc := ⟨.hbm, 947, rfl⟩
abbrev main_call50_v0 : Ref sig .tc := ⟨.hbm, 948, rfl⟩
abbrev main_call50_v1 : Ref sig .tc := ⟨.hbm, 949, rfl⟩
abbrev main_call50_v2 : Ref sig .tc := ⟨.hbm, 950, rfl⟩
abbrev main_call50_v3 : Ref sig .tc := ⟨.hbm, 951, rfl⟩
abbrev main_call50_v4 : Ref sig .tc := ⟨.hbm, 952, rfl⟩
abbrev main_v570 : Ref sig .tc := ⟨.hbm, 953, rfl⟩
abbrev main_cst_146 : Ref sig .tc := ⟨.hbm, 954, rfl⟩
abbrev main_v571 : Ref sig .tc := ⟨.hbm, 955, rfl⟩
abbrev main_v572 : Ref sig .tc := ⟨.hbm, 956, rfl⟩
abbrev main_v573 : Ref sig .tc := ⟨.hbm, 957, rfl⟩
abbrev main_v574 : Ref sig .tc := ⟨.hbm, 958, rfl⟩
abbrev main_v575 : Ref sig .tc := ⟨.hbm, 959, rfl⟩
abbrev main_v576 : Ref sig .tc := ⟨.hbm, 960, rfl⟩
abbrev main_v577 : Ref sig .tc := ⟨.hbm, 961, rfl⟩
abbrev main_v578 : Ref sig .tc := ⟨.hbm, 962, rfl⟩
abbrev main_v579 : Ref sig .tc := ⟨.hbm, 963, rfl⟩
abbrev main_v580 : Ref sig .tc := ⟨.hbm, 964, rfl⟩
abbrev main_v581 : Ref sig .tc := ⟨.hbm, 965, rfl⟩
abbrev main_cst_147 : Ref sig .tc := ⟨.hbm, 966, rfl⟩
abbrev main_cst_148 : Ref sig .tc := ⟨.hbm, 967, rfl⟩
abbrev main_call51_v0 : Ref sig .tc := ⟨.hbm, 968, rfl⟩
abbrev main_call51_v1 : Ref sig .tc := ⟨.hbm, 969, rfl⟩
abbrev main_call51_v2 : Ref sig .tc := ⟨.hbm, 970, rfl⟩
abbrev main_call51_v3 : Ref sig .tc := ⟨.hbm, 971, rfl⟩
abbrev main_call51_v4 : Ref sig .tc := ⟨.hbm, 972, rfl⟩
abbrev main_v582 : Ref sig .tc := ⟨.hbm, 973, rfl⟩
abbrev main_cst_149 : Ref sig .tc := ⟨.hbm, 974, rfl⟩
abbrev main_v583 : Ref sig .tc := ⟨.hbm, 975, rfl⟩
abbrev main_v584 : Ref sig .tc := ⟨.hbm, 976, rfl⟩
abbrev main_v585 : Ref sig .tc := ⟨.hbm, 977, rfl⟩
abbrev main_v586 : Ref sig .tc := ⟨.hbm, 978, rfl⟩
abbrev main_v587 : Ref sig .tc := ⟨.hbm, 979, rfl⟩
abbrev main_v588 : Ref sig .tc := ⟨.hbm, 980, rfl⟩
abbrev main_v589 : Ref sig .tc := ⟨.hbm, 981, rfl⟩
abbrev main_v590 : Ref sig .tc := ⟨.hbm, 982, rfl⟩
abbrev main_v591 : Ref sig .tc := ⟨.hbm, 983, rfl⟩
abbrev main_v592 : Ref sig .tc := ⟨.hbm, 984, rfl⟩
abbrev main_v593 : Ref sig .tc := ⟨.hbm, 985, rfl⟩
abbrev main_cst_150 : Ref sig .tc := ⟨.hbm, 986, rfl⟩
abbrev main_cst_151 : Ref sig .tc := ⟨.hbm, 987, rfl⟩
abbrev main_call52_v0 : Ref sig .tc := ⟨.hbm, 988, rfl⟩
abbrev main_call52_v1 : Ref sig .tc := ⟨.hbm, 989, rfl⟩
abbrev main_call52_v2 : Ref sig .tc := ⟨.hbm, 990, rfl⟩
abbrev main_call52_v3 : Ref sig .tc := ⟨.hbm, 991, rfl⟩
abbrev main_call52_v4 : Ref sig .tc := ⟨.hbm, 992, rfl⟩
abbrev main_v594 : Ref sig .tc := ⟨.hbm, 993, rfl⟩
abbrev main_cst_152 : Ref sig .tc := ⟨.hbm, 994, rfl⟩
abbrev main_v595 : Ref sig .tc := ⟨.hbm, 995, rfl⟩
abbrev main_v596 : Ref sig .tc := ⟨.hbm, 996, rfl⟩
abbrev main_v597 : Ref sig .tc := ⟨.hbm, 997, rfl⟩
abbrev main_v598 : Ref sig .tc := ⟨.hbm, 998, rfl⟩
abbrev main_v599 : Ref sig .tc := ⟨.hbm, 999, rfl⟩
abbrev main_v600 : Ref sig .tc := ⟨.hbm, 1000, rfl⟩
abbrev main_v601 : Ref sig .tc := ⟨.hbm, 1001, rfl⟩
abbrev main_v602 : Ref sig .tc := ⟨.hbm, 1002, rfl⟩
abbrev main_v603 : Ref sig .tc := ⟨.hbm, 1003, rfl⟩
abbrev main_v604 : Ref sig .tc := ⟨.hbm, 1004, rfl⟩
abbrev main_v605 : Ref sig .tc := ⟨.hbm, 1005, rfl⟩
abbrev main_cst_153 : Ref sig .tc := ⟨.hbm, 1006, rfl⟩
abbrev main_cst_154 : Ref sig .tc := ⟨.hbm, 1007, rfl⟩
abbrev main_call53_v0 : Ref sig .tc := ⟨.hbm, 1008, rfl⟩
abbrev main_call53_v1 : Ref sig .tc := ⟨.hbm, 1009, rfl⟩
abbrev main_call53_v2 : Ref sig .tc := ⟨.hbm, 1010, rfl⟩
abbrev main_call53_v3 : Ref sig .tc := ⟨.hbm, 1011, rfl⟩
abbrev main_call53_v4 : Ref sig .tc := ⟨.hbm, 1012, rfl⟩
abbrev main_v606 : Ref sig .tc := ⟨.hbm, 1013, rfl⟩
abbrev main_cst_155 : Ref sig .tc := ⟨.hbm, 1014, rfl⟩
abbrev main_v607 : Ref sig .tc := ⟨.hbm, 1015, rfl⟩
abbrev main_v608 : Ref sig .tc := ⟨.hbm, 1016, rfl⟩
abbrev main_v609 : Ref sig .tc := ⟨.hbm, 1017, rfl⟩
abbrev main_v610 : Ref sig .tc := ⟨.hbm, 1018, rfl⟩
abbrev main_v611 : Ref sig .tc := ⟨.hbm, 1019, rfl⟩
abbrev main_v612 : Ref sig .tc := ⟨.hbm, 1020, rfl⟩
abbrev main_v613 : Ref sig .tc := ⟨.hbm, 1021, rfl⟩
abbrev main_v614 : Ref sig .tc := ⟨.hbm, 1022, rfl⟩
abbrev main_v615 : Ref sig .tc := ⟨.hbm, 1023, rfl⟩
abbrev main_v616 : Ref sig .tc := ⟨.hbm, 1024, rfl⟩
abbrev main_v617 : Ref sig .tc := ⟨.hbm, 1025, rfl⟩
abbrev main_cst_156 : Ref sig .tc := ⟨.hbm, 1026, rfl⟩
abbrev main_cst_157 : Ref sig .tc := ⟨.hbm, 1027, rfl⟩
abbrev main_call54_v0 : Ref sig .tc := ⟨.hbm, 1028, rfl⟩
abbrev main_call54_v1 : Ref sig .tc := ⟨.hbm, 1029, rfl⟩
abbrev main_call54_v2 : Ref sig .tc := ⟨.hbm, 1030, rfl⟩
abbrev main_call54_v3 : Ref sig .tc := ⟨.hbm, 1031, rfl⟩
abbrev main_call54_v4 : Ref sig .tc := ⟨.hbm, 1032, rfl⟩
abbrev main_v618 : Ref sig .tc := ⟨.hbm, 1033, rfl⟩
abbrev main_cst_158 : Ref sig .tc := ⟨.hbm, 1034, rfl⟩
abbrev main_v619 : Ref sig .tc := ⟨.hbm, 1035, rfl⟩
abbrev main_v620 : Ref sig .tc := ⟨.hbm, 1036, rfl⟩
abbrev main_v621 : Ref sig .tc := ⟨.hbm, 1037, rfl⟩
abbrev main_v622 : Ref sig .tc := ⟨.hbm, 1038, rfl⟩
abbrev main_v623 : Ref sig .tc := ⟨.hbm, 1039, rfl⟩
abbrev main_v624 : Ref sig .tc := ⟨.hbm, 1040, rfl⟩
abbrev main_v625 : Ref sig .tc := ⟨.hbm, 1041, rfl⟩
abbrev main_v626 : Ref sig .tc := ⟨.hbm, 1042, rfl⟩
abbrev main_v627 : Ref sig .tc := ⟨.hbm, 1043, rfl⟩
abbrev main_v628 : Ref sig .tc := ⟨.hbm, 1044, rfl⟩
abbrev main_v629 : Ref sig .tc := ⟨.hbm, 1045, rfl⟩
abbrev main_cst_159 : Ref sig .tc := ⟨.hbm, 1046, rfl⟩
abbrev main_cst_160 : Ref sig .tc := ⟨.hbm, 1047, rfl⟩
abbrev main_call55_v0 : Ref sig .tc := ⟨.hbm, 1048, rfl⟩
abbrev main_call55_v1 : Ref sig .tc := ⟨.hbm, 1049, rfl⟩
abbrev main_call55_v2 : Ref sig .tc := ⟨.hbm, 1050, rfl⟩
abbrev main_call55_v3 : Ref sig .tc := ⟨.hbm, 1051, rfl⟩
abbrev main_call55_v4 : Ref sig .tc := ⟨.hbm, 1052, rfl⟩
abbrev main_v630 : Ref sig .tc := ⟨.hbm, 1053, rfl⟩
abbrev main_cst_161 : Ref sig .tc := ⟨.hbm, 1054, rfl⟩
abbrev main_v631 : Ref sig .tc := ⟨.hbm, 1055, rfl⟩
abbrev main_v632 : Ref sig .tc := ⟨.hbm, 1056, rfl⟩
abbrev main_v633 : Ref sig .tc := ⟨.hbm, 1057, rfl⟩
abbrev main_v634 : Ref sig .tc := ⟨.hbm, 1058, rfl⟩
abbrev main_v635 : Ref sig .tc := ⟨.hbm, 1059, rfl⟩
abbrev main_cst_162 : Ref sig .tc := ⟨.hbm, 1060, rfl⟩
abbrev main_v636 : Ref sig .tc := ⟨.hbm, 1061, rfl⟩
abbrev main_v637 : Ref sig .tc := ⟨.hbm, 1062, rfl⟩
abbrev main_call56_cst : Ref sig .tc := ⟨.hbm, 1063, rfl⟩
abbrev main_call56_v0 : Ref sig .tc := ⟨.hbm, 1064, rfl⟩
abbrev main_v638 : Ref sig .tc := ⟨.hbm, 1065, rfl⟩
abbrev main_v639 : Ref sig .tc := ⟨.hbm, 1066, rfl⟩
abbrev main_cst_163 : Ref sig .tc := ⟨.hbm, 1067, rfl⟩
abbrev main_v640 : Ref sig .tc := ⟨.hbm, 1068, rfl⟩
abbrev main_v641 : Ref sig .tc := ⟨.hbm, 1069, rfl⟩
abbrev main_v642 : Ref sig .tc := ⟨.hbm, 1070, rfl⟩
abbrev main_cst_164 : Ref sig .tc := ⟨.hbm, 1071, rfl⟩
abbrev main_v643 : Ref sig .tc := ⟨.hbm, 1072, rfl⟩
abbrev main_v644 : Ref sig .tc := ⟨.hbm, 1073, rfl⟩
abbrev main_cst_165 : Ref sig .tc := ⟨.hbm, 1074, rfl⟩
abbrev main_cst_166 : Ref sig .tc := ⟨.hbm, 1075, rfl⟩
abbrev main_call58_v0 : Ref sig .tc := ⟨.hbm, 1076, rfl⟩
abbrev main_call58_v1 : Ref sig .tc := ⟨.hbm, 1077, rfl⟩
abbrev main_call58_v2 : Ref sig .tc := ⟨.hbm, 1078, rfl⟩
abbrev main_call58_v3 : Ref sig .tc := ⟨.hbm, 1079, rfl⟩
abbrev main_call58_v4 : Ref sig .tc := ⟨.hbm, 1080, rfl⟩
abbrev main_v645 : Ref sig .tc := ⟨.hbm, 1081, rfl⟩
abbrev main_cst_167 : Ref sig .tc := ⟨.hbm, 1082, rfl⟩
abbrev main_v646 : Ref sig .tc := ⟨.hbm, 1083, rfl⟩
abbrev main_v647 : Ref sig .tc := ⟨.hbm, 1084, rfl⟩
abbrev main_v648 : Ref sig .tc := ⟨.hbm, 1085, rfl⟩
abbrev main_cst_168 : Ref sig .tc := ⟨.hbm, 1086, rfl⟩
abbrev main_v649 : Ref sig .tc := ⟨.hbm, 1087, rfl⟩
abbrev main_v650 : Ref sig .tc := ⟨.hbm, 1088, rfl⟩
abbrev main_cst_169 : Ref sig .tc := ⟨.hbm, 1089, rfl⟩
abbrev main_cst_170 : Ref sig .tc := ⟨.hbm, 1090, rfl⟩
abbrev main_call60_v0 : Ref sig .tc := ⟨.hbm, 1091, rfl⟩
abbrev main_call60_v1 : Ref sig .tc := ⟨.hbm, 1092, rfl⟩
abbrev main_call60_v2 : Ref sig .tc := ⟨.hbm, 1093, rfl⟩
abbrev main_call60_v3 : Ref sig .tc := ⟨.hbm, 1094, rfl⟩
abbrev main_call60_v4 : Ref sig .tc := ⟨.hbm, 1095, rfl⟩
abbrev main_v651 : Ref sig .tc := ⟨.hbm, 1096, rfl⟩
abbrev main_cst_171 : Ref sig .tc := ⟨.hbm, 1097, rfl⟩
abbrev main_v652 : Ref sig .tc := ⟨.hbm, 1098, rfl⟩
abbrev main_v653 : Ref sig .tc := ⟨.hbm, 1099, rfl⟩
abbrev main_v654 : Ref sig .tc := ⟨.hbm, 1100, rfl⟩
abbrev main_cst_172 : Ref sig .tc := ⟨.hbm, 1101, rfl⟩
abbrev main_v655 : Ref sig .tc := ⟨.hbm, 1102, rfl⟩
abbrev main_v656 : Ref sig .tc := ⟨.hbm, 1103, rfl⟩
abbrev main_v657 : Ref sig .tc := ⟨.hbm, 1104, rfl⟩
abbrev main_v658 : Ref sig .tc := ⟨.hbm, 1105, rfl⟩
abbrev main_v659 : Ref sig .tc := ⟨.hbm, 1106, rfl⟩
abbrev main_v660 : Ref sig .tc := ⟨.hbm, 1107, rfl⟩
abbrev main_v661 : Ref sig .tc := ⟨.hbm, 1108, rfl⟩
abbrev main_cst_173 : Ref sig .tc := ⟨.hbm, 1109, rfl⟩
abbrev main_cst_174 : Ref sig .tc := ⟨.hbm, 1110, rfl⟩
abbrev main_call62_v0 : Ref sig .tc := ⟨.hbm, 1111, rfl⟩
abbrev main_call62_v1 : Ref sig .tc := ⟨.hbm, 1112, rfl⟩
abbrev main_call62_v2 : Ref sig .tc := ⟨.hbm, 1113, rfl⟩
abbrev main_call62_v3 : Ref sig .tc := ⟨.hbm, 1114, rfl⟩
abbrev main_call62_v4 : Ref sig .tc := ⟨.hbm, 1115, rfl⟩
abbrev main_v662 : Ref sig .tc := ⟨.hbm, 1116, rfl⟩
abbrev main_call63_cst : Ref sig .tc := ⟨.hbm, 1117, rfl⟩
abbrev main_call63_v0 : Ref sig .tc := ⟨.hbm, 1118, rfl⟩
abbrev main_v663 : Ref sig .tc := ⟨.hbm, 1119, rfl⟩
abbrev main_cst_175 : Ref sig .tc := ⟨.hbm, 1120, rfl⟩
abbrev main_v664 : Ref sig .tc := ⟨.hbm, 1121, rfl⟩
abbrev main_v665 : Ref sig .tc := ⟨.hbm, 1122, rfl⟩
abbrev main_v666 : Ref sig .tc := ⟨.hbm, 1123, rfl⟩
abbrev main_cst_176 : Ref sig .tc := ⟨.hbm, 1124, rfl⟩
abbrev main_v667 : Ref sig .tc := ⟨.hbm, 1125, rfl⟩
abbrev main_v668 : Ref sig .tc := ⟨.hbm, 1126, rfl⟩
abbrev main_cst_177 : Ref sig .tc := ⟨.hbm, 1127, rfl⟩
abbrev main_cst_178 : Ref sig .tc := ⟨.hbm, 1128, rfl⟩
abbrev main_call65_v0 : Ref sig .tc := ⟨.hbm, 1129, rfl⟩
abbrev main_call65_v1 : Ref sig .tc := ⟨.hbm, 1130, rfl⟩
abbrev main_call65_v2 : Ref sig .tc := ⟨.hbm, 1131, rfl⟩
abbrev main_call65_v3 : Ref sig .tc := ⟨.hbm, 1132, rfl⟩
abbrev main_call65_v4 : Ref sig .tc := ⟨.hbm, 1133, rfl⟩
abbrev main_v669 : Ref sig .tc := ⟨.hbm, 1134, rfl⟩
abbrev main_cst_179 : Ref sig .tc := ⟨.hbm, 1135, rfl⟩
abbrev main_v670 : Ref sig .tc := ⟨.hbm, 1136, rfl⟩
abbrev main_v671 : Ref sig .tc := ⟨.hbm, 1137, rfl⟩
abbrev main_v672 : Ref sig .tc := ⟨.hbm, 1138, rfl⟩
abbrev main_cst_180 : Ref sig .tc := ⟨.hbm, 1139, rfl⟩
abbrev main_v673 : Ref sig .tc := ⟨.hbm, 1140, rfl⟩
abbrev main_v674 : Ref sig .tc := ⟨.hbm, 1141, rfl⟩
abbrev main_cst_181 : Ref sig .tc := ⟨.hbm, 1142, rfl⟩
abbrev main_cst_182 : Ref sig .tc := ⟨.hbm, 1143, rfl⟩
abbrev main_call67_v0 : Ref sig .tc := ⟨.hbm, 1144, rfl⟩
abbrev main_call67_v1 : Ref sig .tc := ⟨.hbm, 1145, rfl⟩
abbrev main_call67_v2 : Ref sig .tc := ⟨.hbm, 1146, rfl⟩
abbrev main_call67_v3 : Ref sig .tc := ⟨.hbm, 1147, rfl⟩
abbrev main_call67_v4 : Ref sig .tc := ⟨.hbm, 1148, rfl⟩
abbrev main_v675 : Ref sig .tc := ⟨.hbm, 1149, rfl⟩
abbrev main_cst_183 : Ref sig .tc := ⟨.hbm, 1150, rfl⟩
abbrev main_v676 : Ref sig .tc := ⟨.hbm, 1151, rfl⟩
abbrev main_v677 : Ref sig .tc := ⟨.hbm, 1152, rfl⟩
abbrev main_v678 : Ref sig .tc := ⟨.hbm, 1153, rfl⟩
abbrev main_cst_184 : Ref sig .tc := ⟨.hbm, 1154, rfl⟩
abbrev main_v679 : Ref sig .tc := ⟨.hbm, 1155, rfl⟩
abbrev main_v680 : Ref sig .tc := ⟨.hbm, 1156, rfl⟩
abbrev main_v681 : Ref sig .tc := ⟨.hbm, 1157, rfl⟩
abbrev main_v682 : Ref sig .tc := ⟨.hbm, 1158, rfl⟩
abbrev main_v683 : Ref sig .tc := ⟨.hbm, 1159, rfl⟩
abbrev main_v684 : Ref sig .tc := ⟨.hbm, 1160, rfl⟩
abbrev main_v685 : Ref sig .tc := ⟨.hbm, 1161, rfl⟩
abbrev main_cst_185 : Ref sig .tc := ⟨.hbm, 1162, rfl⟩
abbrev main_cst_186 : Ref sig .tc := ⟨.hbm, 1163, rfl⟩
abbrev main_call69_v0 : Ref sig .tc := ⟨.hbm, 1164, rfl⟩
abbrev main_call69_v1 : Ref sig .tc := ⟨.hbm, 1165, rfl⟩
abbrev main_call69_v2 : Ref sig .tc := ⟨.hbm, 1166, rfl⟩
abbrev main_call69_v3 : Ref sig .tc := ⟨.hbm, 1167, rfl⟩
abbrev main_call69_v4 : Ref sig .tc := ⟨.hbm, 1168, rfl⟩
abbrev main_v686 : Ref sig .tc := ⟨.hbm, 1169, rfl⟩
abbrev main_call70_cst : Ref sig .tc := ⟨.hbm, 1170, rfl⟩
abbrev main_call70_v0 : Ref sig .tc := ⟨.hbm, 1171, rfl⟩
abbrev main_call70_cst_0 : Ref sig .tc := ⟨.hbm, 1172, rfl⟩
abbrev main_call70_v1 : Ref sig .tc := ⟨.hbm, 1173, rfl⟩
abbrev main_call70_v2 : Ref sig .tc := ⟨.hbm, 1174, rfl⟩
abbrev main_call70_v3 : Ref sig .tc := ⟨.hbm, 1175, rfl⟩
abbrev main_call70_v4 : Ref sig .tc := ⟨.hbm, 1176, rfl⟩
abbrev main_call70_v5 : Ref sig .tc := ⟨.hbm, 1177, rfl⟩
abbrev main_call70_v6 : Ref sig .tc := ⟨.hbm, 1178, rfl⟩
abbrev main_call70_cst_1 : Ref sig .tc := ⟨.hbm, 1179, rfl⟩
abbrev main_call70_v7 : Ref sig .tc := ⟨.hbm, 1180, rfl⟩
abbrev main_call70_v8 : Ref sig .tc := ⟨.hbm, 1181, rfl⟩
abbrev main_call70_v9 : Ref sig .tc := ⟨.hbm, 1182, rfl⟩
abbrev main_call70_v10 : Ref sig .tc := ⟨.hbm, 1183, rfl⟩
abbrev main_v687 : Ref sig .tc := ⟨.hbm, 1184, rfl⟩

abbrev nD : Nat := 1
abbrev τ : Topo := Topo.v7x

variable {F : FTy → Type} [FloatOps F]

class Facts₀ : Prop where
  bcast_S_S1024x1x28x28 : S_.BroadcastsInDim S1024x1x28x28 (![] : Fin 0 → Fin S1024x1x28x28.rank)
  bcast_S_S10x1x5x5 : S_.BroadcastsInDim S10x1x5x5 (![] : Fin 0 → Fin S10x1x5x5.rank)
  bcast_S_S10 : S_.BroadcastsInDim S10 (![] : Fin 0 → Fin S10.rank)
  bcast_S_S1024x10x24x24 : S_.BroadcastsInDim S1024x10x24x24 (![] : Fin 0 → Fin S1024x10x24x24.rank)
  slices_S1024x1x28x28_S1024x1x24x24_0_0_0_0 : S1024x1x28x28.Slices ![0, 0, 0, 0] S1024x1x24x24
  bcast_S1024x1x24x24_S1024x1x1x24x24_0_2_3_4 : S1024x1x24x24.BroadcastsInDim S1024x1x1x24x24 (![0, 2, 3, 4] : Fin 4 → Fin S1024x1x1x24x24.rank)
  slices_S10x1x5x5_S10x1x1x1_0_0_0_0 : S10x1x5x5.Slices ![0, 0, 0, 0] S10x1x1x1
  shapeCasts_S10x1x1x1_S10x1 : S10x1x1x1.ShapeCasts S10x1
  bcast_S10x1_S1x10x1_1_2 : S10x1.BroadcastsInDim S1x10x1 (![1, 2] : Fin 2 → Fin S1x10x1.rank)
  bcast_S1x10x1_S1x10x1x1x1_0_1_2 : S1x10x1.BroadcastsInDim S1x10x1x1x1 (![0, 1, 2] : Fin 3 → Fin S1x10x1x1x1.rank)
  bcast_S1024x1x1x24x24_S1024x10x1x24x24_0_1_2_3_4 : S1024x1x1x24x24.BroadcastsInDim S1024x10x1x24x24 (![0, 1, 2, 3, 4] : Fin 5 → Fin S1024x10x1x24x24.rank)
  bcast_S1x10x1x1x1_S1024x10x1x24x24_0_1_2_3_4 : S1x10x1x1x1.BroadcastsInDim S1024x10x1x24x24 (![0, 1, 2, 3, 4] : Fin 5 → Fin S1024x10x1x24x24.rank)
  bcast_S_S1024x10x1x24x24 : S_.BroadcastsInDim S1024x10x1x24x24 (![] : Fin 0 → Fin S1024x10x1x24x24.rank)
  reducesTo_S1024x10x1x24x24_S1024x10x24x24_d2 : S1024x10x1x24x24.ReducesTo [2] S1024x10x24x24
  h_S_ : 0 < S_.numel
  slices_S1024x1x28x28_S1024x1x24x24_0_0_0_1 : S1024x1x28x28.Slices ![0, 0, 0, 1] S1024x1x24x24
  slices_S10x1x5x5_S10x1x1x1_0_0_0_1 : S10x1x5x5.Slices ![0, 0, 0, 1] S10x1x1x1
  slices_S1024x1x28x28_S1024x1x24x24_0_0_0_2 : S1024x1x28x28.Slices ![0, 0, 0, 2] S1024x1x24x24
  slices_S10x1x5x5_S10x1x1x1_0_0_0_2 : S10x1x5x5.Slices ![0, 0, 0, 2] S10x1x1x1
  slices_S1024x1x28x28_S1024x1x24x24_0_0_0_3 : S1024x1x28x28.Slices ![0, 0, 0, 3] S1024x1x24x24
  slices_S10x1x5x5_S10x1x1x1_0_0_0_3 : S10x1x5x5.Slices ![0, 0, 0, 3] S10x1x1x1
  slices_S1024x1x28x28_S1024x1x24x24_0_0_0_4 : S1024x1x28x28.Slices ![0, 0, 0, 4] S1024x1x24x24
  slices_S10x1x5x5_S10x1x1x1_0_0_0_4 : S10x1x5x5.Slices ![0, 0, 0, 4] S10x1x1x1
  slices_S1024x1x28x28_S1024x1x24x24_0_0_1_0 : S1024x1x28x28.Slices ![0, 0, 1, 0] S1024x1x24x24
  slices_S10x1x5x5_S10x1x1x1_0_0_1_0 : S10x1x5x5.Slices ![0, 0, 1, 0] S10x1x1x1
  slices_S1024x1x28x28_S1024x1x24x24_0_0_1_1 : S1024x1x28x28.Slices ![0, 0, 1, 1] S1024x1x24x24
  slices_S10x1x5x5_S10x1x1x1_0_0_1_1 : S10x1x5x5.Slices ![0, 0, 1, 1] S10x1x1x1
  slices_S1024x1x28x28_S1024x1x24x24_0_0_1_2 : S1024x1x28x28.Slices ![0, 0, 1, 2] S1024x1x24x24
  slices_S10x1x5x5_S10x1x1x1_0_0_1_2 : S10x1x5x5.Slices ![0, 0, 1, 2] S10x1x1x1
  slices_S1024x1x28x28_S1024x1x24x24_0_0_1_3 : S1024x1x28x28.Slices ![0, 0, 1, 3] S1024x1x24x24
  slices_S10x1x5x5_S10x1x1x1_0_0_1_3 : S10x1x5x5.Slices ![0, 0, 1, 3] S10x1x1x1
  slices_S1024x1x28x28_S1024x1x24x24_0_0_1_4 : S1024x1x28x28.Slices ![0, 0, 1, 4] S1024x1x24x24
  slices_S10x1x5x5_S10x1x1x1_0_0_1_4 : S10x1x5x5.Slices ![0, 0, 1, 4] S10x1x1x1
  slices_S1024x1x28x28_S1024x1x24x24_0_0_2_0 : S1024x1x28x28.Slices ![0, 0, 2, 0] S1024x1x24x24
  slices_S10x1x5x5_S10x1x1x1_0_0_2_0 : S10x1x5x5.Slices ![0, 0, 2, 0] S10x1x1x1
  slices_S1024x1x28x28_S1024x1x24x24_0_0_2_1 : S1024x1x28x28.Slices ![0, 0, 2, 1] S1024x1x24x24
  slices_S10x1x5x5_S10x1x1x1_0_0_2_1 : S10x1x5x5.Slices ![0, 0, 2, 1] S10x1x1x1
  slices_S1024x1x28x28_S1024x1x24x24_0_0_2_2 : S1024x1x28x28.Slices ![0, 0, 2, 2] S1024x1x24x24
  slices_S10x1x5x5_S10x1x1x1_0_0_2_2 : S10x1x5x5.Slices ![0, 0, 2, 2] S10x1x1x1
  slices_S1024x1x28x28_S1024x1x24x24_0_0_2_3 : S1024x1x28x28.Slices ![0, 0, 2, 3] S1024x1x24x24
  slices_S10x1x5x5_S10x1x1x1_0_0_2_3 : S10x1x5x5.Slices ![0, 0, 2, 3] S10x1x1x1
  slices_S1024x1x28x28_S1024x1x24x24_0_0_2_4 : S1024x1x28x28.Slices ![0, 0, 2, 4] S1024x1x24x24
  slices_S10x1x5x5_S10x1x1x1_0_0_2_4 : S10x1x5x5.Slices ![0, 0, 2, 4] S10x1x1x1
  slices_S1024x1x28x28_S1024x1x24x24_0_0_3_0 : S1024x1x28x28.Slices ![0, 0, 3, 0] S1024x1x24x24
  slices_S10x1x5x5_S10x1x1x1_0_0_3_0 : S10x1x5x5.Slices ![0, 0, 3, 0] S10x1x1x1
  slices_S1024x1x28x28_S1024x1x24x24_0_0_3_1 : S1024x1x28x28.Slices ![0, 0, 3, 1] S1024x1x24x24
  slices_S10x1x5x5_S10x1x1x1_0_0_3_1 : S10x1x5x5.Slices ![0, 0, 3, 1] S10x1x1x1
  slices_S1024x1x28x28_S1024x1x24x24_0_0_3_2 : S1024x1x28x28.Slices ![0, 0, 3, 2] S1024x1x24x24
  slices_S10x1x5x5_S10x1x1x1_0_0_3_2 : S10x1x5x5.Slices ![0, 0, 3, 2] S10x1x1x1
  slices_S1024x1x28x28_S1024x1x24x24_0_0_3_3 : S1024x1x28x28.Slices ![0, 0, 3, 3] S1024x1x24x24
  slices_S10x1x5x5_S10x1x1x1_0_0_3_3 : S10x1x5x5.Slices ![0, 0, 3, 3] S10x1x1x1
  slices_S1024x1x28x28_S1024x1x24x24_0_0_3_4 : S1024x1x28x28.Slices ![0, 0, 3, 4] S1024x1x24x24
  slices_S10x1x5x5_S10x1x1x1_0_0_3_4 : S10x1x5x5.Slices ![0, 0, 3, 4] S10x1x1x1
  slices_S1024x1x28x28_S1024x1x24x24_0_0_4_0 : S1024x1x28x28.Slices ![0, 0, 4, 0] S1024x1x24x24
  slices_S10x1x5x5_S10x1x1x1_0_0_4_0 : S10x1x5x5.Slices ![0, 0, 4, 0] S10x1x1x1
  slices_S1024x1x28x28_S1024x1x24x24_0_0_4_1 : S1024x1x28x28.Slices ![0, 0, 4, 1] S1024x1x24x24
  slices_S10x1x5x5_S10x1x1x1_0_0_4_1 : S10x1x5x5.Slices ![0, 0, 4, 1] S10x1x1x1
  slices_S1024x1x28x28_S1024x1x24x24_0_0_4_2 : S1024x1x28x28.Slices ![0, 0, 4, 2] S1024x1x24x24
  slices_S10x1x5x5_S10x1x1x1_0_0_4_2 : S10x1x5x5.Slices ![0, 0, 4, 2] S10x1x1x1
  slices_S1024x1x28x28_S1024x1x24x24_0_0_4_3 : S1024x1x28x28.Slices ![0, 0, 4, 3] S1024x1x24x24
  slices_S10x1x5x5_S10x1x1x1_0_0_4_3 : S10x1x5x5.Slices ![0, 0, 4, 3] S10x1x1x1
  slices_S1024x1x28x28_S1024x1x24x24_0_0_4_4 : S1024x1x28x28.Slices ![0, 0, 4, 4] S1024x1x24x24
  slices_S10x1x5x5_S10x1x1x1_0_0_4_4 : S10x1x5x5.Slices ![0, 0, 4, 4] S10x1x1x1
  bcast_S10_S1x10x1x1_1 : S10.BroadcastsInDim S1x10x1x1 (![1] : Fin 1 → Fin S1x10x1x1.rank)
  bcast_S1x10x1x1_S1024x10x24x24_0_1_2_3 : S1x10x1x1.BroadcastsInDim S1024x10x24x24 (![0, 1, 2, 3] : Fin 4 → Fin S1024x10x24x24.rank)
  bcast_S_S_ : S_.BroadcastsInDim S_ (![] : Fin 0 → Fin S_.rank)
  reduceWindows_S1024x10x24x24_S1024x10x12x12_w1s1p0_0_w1s1p0_0_w2s2p0_0_w2s2p0_0 : S1024x10x24x24.ReduceWindows (![1, 1, 2, 2] : Fin 4 → Nat) ![1, 1, 2, 2] ![0, 0, 0, 0] ![0, 0, 0, 0] S1024x10x12x12
  bcast_S_S1024x10x12x12 : S_.BroadcastsInDim S1024x10x12x12 (![] : Fin 0 → Fin S1024x10x12x12.rank)
  bcast_S_S20x10x5x5 : S_.BroadcastsInDim S20x10x5x5 (![] : Fin 0 → Fin S20x10x5x5.rank)
  bcast_S_S20 : S_.BroadcastsInDim S20 (![] : Fin 0 → Fin S20.rank)
  bcast_S_S1024x20x8x8 : S_.BroadcastsInDim S1024x20x8x8 (![] : Fin 0 → Fin S1024x20x8x8.rank)
  slices_S1024x10x12x12_S1024x10x8x8_0_0_0_0 : S1024x10x12x12.Slices ![0, 0, 0, 0] S1024x10x8x8
  bcast_S1024x10x8x8_S1024x1x10x8x8_0_2_3_4 : S1024x10x8x8.BroadcastsInDim S1024x1x10x8x8 (![0, 2, 3, 4] : Fin 4 → Fin S1024x1x10x8x8.rank)
  slices_S20x10x5x5_S20x10x1x1_0_0_0_0 : S20x10x5x5.Slices ![0, 0, 0, 0] S20x10x1x1
  shapeCasts_S20x10x1x1_S20x10 : S20x10x1x1.ShapeCasts S20x10
  bcast_S20x10_S1x20x10_1_2 : S20x10.BroadcastsInDim S1x20x10 (![1, 2] : Fin 2 → Fin S1x20x10.rank)
  bcast_S1x20x10_S1x20x10x1x1_0_1_2 : S1x20x10.BroadcastsInDim S1x20x10x1x1 (![0, 1, 2] : Fin 3 → Fin S1x20x10x1x1.rank)
  bcast_S1024x1x10x8x8_S1024x20x10x8x8_0_1_2_3_4 : S1024x1x10x8x8.BroadcastsInDim S1024x20x10x8x8 (![0, 1, 2, 3, 4] : Fin 5 → Fin S1024x20x10x8x8.rank)
  bcast_S1x20x10x1x1_S1024x20x10x8x8_0_1_2_3_4 : S1x20x10x1x1.BroadcastsInDim S1024x20x10x8x8 (![0, 1, 2, 3, 4] : Fin 5 → Fin S1024x20x10x8x8.rank)
  bcast_S_S1024x20x10x8x8 : S_.BroadcastsInDim S1024x20x10x8x8 (![] : Fin 0 → Fin S1024x20x10x8x8.rank)
  reducesTo_S1024x20x10x8x8_S1024x20x8x8_d2 : S1024x20x10x8x8.ReducesTo [2] S1024x20x8x8
  slices_S1024x10x12x12_S1024x10x8x8_0_0_0_1 : S1024x10x12x12.Slices ![0, 0, 0, 1] S1024x10x8x8
  slices_S20x10x5x5_S20x10x1x1_0_0_0_1 : S20x10x5x5.Slices ![0, 0, 0, 1] S20x10x1x1
  slices_S1024x10x12x12_S1024x10x8x8_0_0_0_2 : S1024x10x12x12.Slices ![0, 0, 0, 2] S1024x10x8x8
  slices_S20x10x5x5_S20x10x1x1_0_0_0_2 : S20x10x5x5.Slices ![0, 0, 0, 2] S20x10x1x1
  slices_S1024x10x12x12_S1024x10x8x8_0_0_0_3 : S1024x10x12x12.Slices ![0, 0, 0, 3] S1024x10x8x8
  slices_S20x10x5x5_S20x10x1x1_0_0_0_3 : S20x10x5x5.Slices ![0, 0, 0, 3] S20x10x1x1
  slices_S1024x10x12x12_S1024x10x8x8_0_0_0_4 : S1024x10x12x12.Slices ![0, 0, 0, 4] S1024x10x8x8
  slices_S20x10x5x5_S20x10x1x1_0_0_0_4 : S20x10x5x5.Slices ![0, 0, 0, 4] S20x10x1x1
  slices_S1024x10x12x12_S1024x10x8x8_0_0_1_0 : S1024x10x12x12.Slices ![0, 0, 1, 0] S1024x10x8x8
  slices_S20x10x5x5_S20x10x1x1_0_0_1_0 : S20x10x5x5.Slices ![0, 0, 1, 0] S20x10x1x1
  slices_S1024x10x12x12_S1024x10x8x8_0_0_1_1 : S1024x10x12x12.Slices ![0, 0, 1, 1] S1024x10x8x8
  slices_S20x10x5x5_S20x10x1x1_0_0_1_1 : S20x10x5x5.Slices ![0, 0, 1, 1] S20x10x1x1
  slices_S1024x10x12x12_S1024x10x8x8_0_0_1_2 : S1024x10x12x12.Slices ![0, 0, 1, 2] S1024x10x8x8
  slices_S20x10x5x5_S20x10x1x1_0_0_1_2 : S20x10x5x5.Slices ![0, 0, 1, 2] S20x10x1x1
  slices_S1024x10x12x12_S1024x10x8x8_0_0_1_3 : S1024x10x12x12.Slices ![0, 0, 1, 3] S1024x10x8x8
  slices_S20x10x5x5_S20x10x1x1_0_0_1_3 : S20x10x5x5.Slices ![0, 0, 1, 3] S20x10x1x1
  slices_S1024x10x12x12_S1024x10x8x8_0_0_1_4 : S1024x10x12x12.Slices ![0, 0, 1, 4] S1024x10x8x8
  slices_S20x10x5x5_S20x10x1x1_0_0_1_4 : S20x10x5x5.Slices ![0, 0, 1, 4] S20x10x1x1
  slices_S1024x10x12x12_S1024x10x8x8_0_0_2_0 : S1024x10x12x12.Slices ![0, 0, 2, 0] S1024x10x8x8
  slices_S20x10x5x5_S20x10x1x1_0_0_2_0 : S20x10x5x5.Slices ![0, 0, 2, 0] S20x10x1x1
  slices_S1024x10x12x12_S1024x10x8x8_0_0_2_1 : S1024x10x12x12.Slices ![0, 0, 2, 1] S1024x10x8x8
  slices_S20x10x5x5_S20x10x1x1_0_0_2_1 : S20x10x5x5.Slices ![0, 0, 2, 1] S20x10x1x1
  slices_S1024x10x12x12_S1024x10x8x8_0_0_2_2 : S1024x10x12x12.Slices ![0, 0, 2, 2] S1024x10x8x8
  slices_S20x10x5x5_S20x10x1x1_0_0_2_2 : S20x10x5x5.Slices ![0, 0, 2, 2] S20x10x1x1
  slices_S1024x10x12x12_S1024x10x8x8_0_0_2_3 : S1024x10x12x12.Slices ![0, 0, 2, 3] S1024x10x8x8
  slices_S20x10x5x5_S20x10x1x1_0_0_2_3 : S20x10x5x5.Slices ![0, 0, 2, 3] S20x10x1x1
  slices_S1024x10x12x12_S1024x10x8x8_0_0_2_4 : S1024x10x12x12.Slices ![0, 0, 2, 4] S1024x10x8x8
  slices_S20x10x5x5_S20x10x1x1_0_0_2_4 : S20x10x5x5.Slices ![0, 0, 2, 4] S20x10x1x1
  slices_S1024x10x12x12_S1024x10x8x8_0_0_3_0 : S1024x10x12x12.Slices ![0, 0, 3, 0] S1024x10x8x8
  slices_S20x10x5x5_S20x10x1x1_0_0_3_0 : S20x10x5x5.Slices ![0, 0, 3, 0] S20x10x1x1
  slices_S1024x10x12x12_S1024x10x8x8_0_0_3_1 : S1024x10x12x12.Slices ![0, 0, 3, 1] S1024x10x8x8
  slices_S20x10x5x5_S20x10x1x1_0_0_3_1 : S20x10x5x5.Slices ![0, 0, 3, 1] S20x10x1x1
  slices_S1024x10x12x12_S1024x10x8x8_0_0_3_2 : S1024x10x12x12.Slices ![0, 0, 3, 2] S1024x10x8x8
  slices_S20x10x5x5_S20x10x1x1_0_0_3_2 : S20x10x5x5.Slices ![0, 0, 3, 2] S20x10x1x1
  slices_S1024x10x12x12_S1024x10x8x8_0_0_3_3 : S1024x10x12x12.Slices ![0, 0, 3, 3] S1024x10x8x8
  slices_S20x10x5x5_S20x10x1x1_0_0_3_3 : S20x10x5x5.Slices ![0, 0, 3, 3] S20x10x1x1
  slices_S1024x10x12x12_S1024x10x8x8_0_0_3_4 : S1024x10x12x12.Slices ![0, 0, 3, 4] S1024x10x8x8
  slices_S20x10x5x5_S20x10x1x1_0_0_3_4 : S20x10x5x5.Slices ![0, 0, 3, 4] S20x10x1x1
  slices_S1024x10x12x12_S1024x10x8x8_0_0_4_0 : S1024x10x12x12.Slices ![0, 0, 4, 0] S1024x10x8x8
  slices_S20x10x5x5_S20x10x1x1_0_0_4_0 : S20x10x5x5.Slices ![0, 0, 4, 0] S20x10x1x1
  slices_S1024x10x12x12_S1024x10x8x8_0_0_4_1 : S1024x10x12x12.Slices ![0, 0, 4, 1] S1024x10x8x8
  slices_S20x10x5x5_S20x10x1x1_0_0_4_1 : S20x10x5x5.Slices ![0, 0, 4, 1] S20x10x1x1
  slices_S1024x10x12x12_S1024x10x8x8_0_0_4_2 : S1024x10x12x12.Slices ![0, 0, 4, 2] S1024x10x8x8
  slices_S20x10x5x5_S20x10x1x1_0_0_4_2 : S20x10x5x5.Slices ![0, 0, 4, 2] S20x10x1x1
  slices_S1024x10x12x12_S1024x10x8x8_0_0_4_3 : S1024x10x12x12.Slices ![0, 0, 4, 3] S1024x10x8x8
  slices_S20x10x5x5_S20x10x1x1_0_0_4_3 : S20x10x5x5.Slices ![0, 0, 4, 3] S20x10x1x1
  slices_S1024x10x12x12_S1024x10x8x8_0_0_4_4 : S1024x10x12x12.Slices ![0, 0, 4, 4] S1024x10x8x8
  slices_S20x10x5x5_S20x10x1x1_0_0_4_4 : S20x10x5x5.Slices ![0, 0, 4, 4] S20x10x1x1
  bcast_S20_S1x20x1x1_1 : S20.BroadcastsInDim S1x20x1x1 (![1] : Fin 1 → Fin S1x20x1x1.rank)
  bcast_S1x20x1x1_S1024x20x8x8_0_1_2_3 : S1x20x1x1.BroadcastsInDim S1024x20x8x8 (![0, 1, 2, 3] : Fin 4 → Fin S1024x20x8x8.rank)
  reduceWindows_S1024x20x8x8_S1024x20x4x4_w1s1p0_0_w1s1p0_0_w2s2p0_0_w2s2p0_0 : S1024x20x8x8.ReduceWindows (![1, 1, 2, 2] : Fin 4 → Nat) ![1, 1, 2, 2] ![0, 0, 0, 0] ![0, 0, 0, 0] S1024x20x4x4
  bcast_S_S1024x20x4x4 : S_.BroadcastsInDim S1024x20x4x4 (![] : Fin 0 → Fin S1024x20x4x4.rank)
  shapeCasts_S1024x20x4x4_S1024x320 : S1024x20x4x4.ShapeCasts S1024x320
  bcast_S_S50x320 : S_.BroadcastsInDim S50x320 (![] : Fin 0 → Fin S50x320.rank)
  bcast_S_S50 : S_.BroadcastsInDim S50 (![] : Fin 0 → Fin S50.rank)
  bcast_S_S1024x320 : S_.BroadcastsInDim S1024x320 (![] : Fin 0 → Fin S1024x320.rank)
  transposes_S50x320_S320x50_1_0 : S50x320.Transposes [1, 0] S320x50
  bcast_S50_S1x50_1 : S50.BroadcastsInDim S1x50 (![1] : Fin 1 → Fin S1x50.rank)
  bcast_S1x50_S1024x50_0_1 : S1x50.BroadcastsInDim S1024x50 (![0, 1] : Fin 2 → Fin S1024x50.rank)
  bcast_S_S1024x50 : S_.BroadcastsInDim S1024x50 (![] : Fin 0 → Fin S1024x50.rank)
  bcast_S_S10x50 : S_.BroadcastsInDim S10x50 (![] : Fin 0 → Fin S10x50.rank)
  transposes_S10x50_S50x10_1_0 : S10x50.Transposes [1, 0] S50x10
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  reducesTo_S1024x10_S1024_d1 : S1024x10.ReducesTo [1] S1024
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x10_0_1 : S1024x1.BroadcastsInDim S1024x10 (![0, 1] : Fin 2 → Fin S1024x10.rank)
  dot_S1024x320_S320x50_S1024x50_1_0_0_1_n_n_wf : DotDims.WF S1024x320 S320x50 S1024x50 [1] [0] [0] [1] [] []
  dot_S1024x50_S50x10_S1024x10_1_0_0_1_n_n_wf : DotDims.WF S1024x50 S50x10 S1024x10 [1] [0] [0] [1] [] []

variable [Facts₀]

def dot_S1024x320_S320x50_S1024x50_1_0_0_1_n_n : DotDims S1024x320 S320x50 S1024x50 where
  lhsContracting := [1]
  rhsContracting := [0]
  lhsNonContracting := [0]
  rhsNonContracting := [1]
  lhsBatch := []
  rhsBatch := []
  wf := dot_S1024x320_S320x50_S1024x50_1_0_0_1_n_n_wf
def dot_S1024x50_S50x10_S1024x10_1_0_0_1_n_n : DotDims S1024x50 S50x10 S1024x10 where
  lhsContracting := [1]
  rhsContracting := [0]
  lhsNonContracting := [0]
  rhsNonContracting := [1]
  lhsBatch := []
  rhsBatch := []
  wf := dot_S1024x50_S50x10_S1024x10_1_0_0_1_n_n_wf

class Facts : Prop extends Facts₀ where

variable [Facts]
-- ==== Proof.Spec.lean ====
import Idealize.ShloMosaic.PureOps.Ideal
import Idealize.ShloMosaic.Lib.ValueIdx
import Mathlib.Algebra.BigOperators.Fin

noncomputable section

namespace Cert.QNet

open Idealize.ShloMosaic Idealize.ShloMosaic.ValueIdx

/-- The grid step 2⁻⁸. -/
def step : EReal := Ideal.ofBits .f32 0x3B800000#32
/-- The clip's bounds, -256 and 255. -/
def lo : EReal := Ideal.ofBits .f32 0xC3800000#32
def hi : EReal := Ideal.ofBits .f32 0x437F0000#32
/-- The word of -∞, from which a maximum is folded. -/
def ninf : EReal := Ideal.ofBits .f32 0xFF800000#32

/-- Rounding to the grid: the quotient by the step rounded half to even, times the step. -/
def Q (t : EReal) : EReal := Ideal.liftRound Ideal.roundHalfEven (Ideal.div t step) * step
/-- Clipping to [-256, 255]. -/
def Cl (t : EReal) : EReal := min hi (max lo t)

/-- The 25 offsets of a 5×5 window in the order the running sum takes them. -/
def taps : List (Fin 5 × Fin 5) :=
  [(0, 0), (0, 1), (0, 2), (0, 3), (0, 4),
   (1, 0), (1, 1), (1, 2), (1, 3), (1, 4),
   (2, 0), (2, 1), (2, 2), (2, 3), (2, 4),
   (3, 0), (3, 1), (3, 2), (3, 3), (3, 4),
   (4, 0), (4, 1), (4, 2), (4, 3), (4, 4)]

/-- Output row i under offset u is input row u + i. -/
def s24 (u : Fin 5) (i : Fin 24) : Fin 28 := ⟨u.val + i.val, by omega⟩
def s8 (u : Fin 5) (i : Fin 8) : Fin 12 := ⟨u.val + i.val, by omega⟩
/-- The even and the odd row of pooling window i. -/
def e12 (i : Fin 12) : Fin 24 := ⟨2 * i.val, by omega⟩
def o12 (i : Fin 12) : Fin 24 := ⟨2 * i.val + 1, by omega⟩
def e4 (i : Fin 4) : Fin 8 := ⟨2 * i.val, by omega⟩
def o4 (i : Fin 4) : Fin 8 := ⟨2 * i.val + 1, by omega⟩

/-- First convolution: each product is clipped before it is added; the taps are added from 0 in order, then the bias. -/
def C1 (x : Fin 28 → Fin 28 → EReal) (w : Fin 10 → Fin 5 → Fin 5 → EReal) (b : Fin 10 → EReal)
    (j : Fin 10) (h v : Fin 24) : EReal :=
  taps.foldl (fun acc uv => acc + Cl (x (s24 uv.1 h) (s24 uv.2 v) * w j uv.1 uv.2)) 0 + b j

/-- The maximum over a 2×2 window, then the positive part. -/
def P1 (c : Fin 10 → Fin 24 → Fin 24 → EReal) (j : Fin 10) (h v : Fin 12) : EReal :=
  max (max (max (c j (e12 h) (e12 v)) (c j (o12 h) (e12 v))) (max (c j (e12 h) (o12 v)) (c j (o12 h) (o12 v)))) 0

/-- Second convolution: per tap the clipped products are summed over the ten input channels. -/
def C2 (p : Fin 10 → Fin 12 → Fin 12 → EReal) (w : Fin 20 → Fin 10 → Fin 5 → Fin 5 → EReal) (b : Fin 20 → EReal)
    (j : Fin 20) (h v : Fin 8) : EReal :=
  taps.foldl (fun acc uv => acc + ∑ c : Fin 10, Cl (p c (s8 uv.1 h) (s8 uv.2 v) * w j c uv.1 uv.2)) 0 + b j

/-- The maximum over a 2×2 window, the positive part, rounding to the grid. -/
def P2q (c : Fin 20 → Fin 8 → Fin 8 → EReal) (j : Fin 20) (h v : Fin 4) : EReal :=
  Q (max (max (max (c j (e4 h) (e4 v)) (c j (o4 h) (e4 v))) (max (c j (e4 h) (o4 v)) (c j (o4 h) (o4 v)))) 0)

/-- Channel, row and column of flattened position k = c·16 + h·4 + v. -/
def ck (k : Fin 320) : Fin 20 := ⟨k.val / 16, by omega⟩
def hk (k : Fin 320) : Fin 4 := ⟨k.val % 16 / 4, by omega⟩
def vk (k : Fin 320) : Fin 4 := ⟨k.val % 4, by omega⟩
def flat (p : Fin 20 → Fin 4 → Fin 4 → EReal) (k : Fin 320) : EReal := p (ck k) (hk k) (vk k)

/-- First dense layer before its clip. -/
def A1 (x : Fin 320 → EReal) (w : Fin 50 → Fin 320 → EReal) (b : Fin 50 → EReal) (j : Fin 50) : EReal :=
  (∑ k : Fin 320, x k * w j k) + b j

/-- The first dense layer clipped, made positive and rounded, then the second dense layer, clipped. -/
def Z (a : Fin 50 → EReal) (w : Fin 10 → Fin 50 → EReal) (b : Fin 10 → EReal) (j : Fin 10) : EReal :=
  Cl ((∑ k : Fin 50, Q (max (Cl (a k)) 0) * w j k) + b j)

def M (z : Fin 10 → EReal) : EReal := (Finset.univ : Finset (Fin 10)).fold max ninf z
/-- Log-softmax: the shifted logit minus the log of the sum of the shifted exponentials. -/
def LS (z : Fin 10 → EReal) (j : Fin 10) : EReal :=
  (z j - M z) - Ideal.log (∑ i : Fin 10, Ideal.exp (z i - M z))

/-- The network on one image, from the raw image and parameters. -/
def Net (img : Fin 28 → Fin 28 → EReal) (w1 : Fin 10 → Fin 5 → Fin 5 → EReal) (b1 : Fin 10 → EReal)
    (w2 : Fin 20 → Fin 10 → Fin 5 → Fin 5 → EReal) (b2 : Fin 20 → EReal)
    (w3 : Fin 50 → Fin 320 → EReal) (b3 : Fin 50 → EReal) (w4 : Fin 10 → Fin 50 → EReal) (b4 : Fin 10 → EReal) :
    Fin 10 → EReal :=
  LS (Z (A1 (flat (P2q (C2 (P1 (C1 (fun a b => Q (img a b)) (fun j u v => Q (w1 j u v)) (fun j => Q (b1 j))))
              (fun j c u v => Q (w2 j c u v)) (fun j => Q (b2 j)))))
            (fun j k => Cl (Q (w3 j k))) (fun j => Cl (Q (b3 j))))
        (fun j k => Cl (Q (w4 j k))) (fun j => Cl (Q (b4 j))))

/-- Row b of the result is the network on image b. -/
def G (x0 : (⟨4, ![1024, 1, 28, 28]⟩ : Shape).Idx → EReal) (x1 : (⟨4, ![10, 1, 5, 5]⟩ : Shape).Idx → EReal)
    (x2 : (⟨1, ![10]⟩ : Shape).Idx → EReal) (x3 : (⟨4, ![20, 10, 5, 5]⟩ : Shape).Idx → EReal)
    (x4 : (⟨1, ![20]⟩ : Shape).Idx → EReal) (x5 : (⟨2, ![50, 320]⟩ : Shape).Idx → EReal)
    (x6 : (⟨1, ![50]⟩ : Shape).Idx → EReal) (x7 : (⟨2, ![10, 50]⟩ : Shape).Idx → EReal)
    (x8 : (⟨1, ![10]⟩ : Shape).Idx → EReal) : (⟨2, ![1024, 10]⟩ : Shape).Idx → EReal :=
  fun i => Net (fun a b => x0 (ix4 (i 0) 0 a b)) (fun j u v => x1 (ix4 j 0 u v)) (fun j => x2 (ix1 j))
    (fun j c u v => x3 (ix4 j c u v)) (fun j => x4 (ix1 j)) (fun j k => x5 (ix2 j k)) (fun j => x6 (ix1 j))
    (fun j k => x7 (ix2 j k)) (fun j => x8 (ix1 j)) (i 1)

end Cert.QNet

end
-- ==== Proof.KTerm.lean ====
import proofs.«413587_j61040075211437_3_alg».proof.Proof.Gen.KernelIdeal.Frame
import proofs.«413587_j61040075211437_3_alg».proof.Proof.Spec

noncomputable section

namespace Cert.KernelIdeal.KV

open Idealize.ShloMosaic Idealize.ShloMosaic.TcCoe Cert.KernelIdeal Cert.KernelIdeal.Gen

abbrev loS : Ideal .f32 := Scalar.ofBits .f32 0xC3800000#32
abbrev hiS : Ideal .f32 := Scalar.ofBits .f32 0x437F0000#32

variable (x0 : Vec Ideal S28x28x1x128 .f32) (x1 : Vec Ideal S10x1x5x5 .f32) (x2 : Vec Ideal S10 .f32)
  (x3 : Vec Ideal S20x10x5x5 .f32) (x4 : Vec Ideal S20 .f32) (x5 : Vec Ideal S4x4x50x20 .f32)
  (x6 : Vec Ideal S50 .f32) (x7 : Vec Ideal S10x50 .f32) (x8 : Vec Ideal S10 .f32)

def t2 : FVec Ideal S28x28x1x128 .f32 := k0_pay2 (View.ld x0 r0_0)
def t3 : FVec Ideal S10x1x5x5 .f32 := k0_pay3 (View.ld x1 r0_1)
def t4 : FVec Ideal S10 .f32 := k0_pay4 (View.ld x2 r0_2)
def t5 : FVec Ideal S24x24x10x128 .f32 := k0_pay5 (View.ld x0 r0_0) (View.ld x1 r0_1)
def t6 : FVec Ideal S24x24x1x128 .f32 := k0_pay6 (View.ld x0 r0_0)
def t7 : FVec Ideal S24x24x10x128 .f32 := k0_pay7 (t2 x0) (t3 x1) (t5 x0 x1) (t6 x0)
def t8 : FVec Ideal S24x24x10x128 .f32 := k0_pay8 (t2 x0) (t3 x1)
def t9 : FVec Ideal S24x24x10x128 .f32 := k0_pay9 (t2 x0) (t3 x1) (t7 x0 x1) (t8 x0 x1)
def t10 : FVec Ideal S24x24x1x128 .f32 := k0_pay10 (t2 x0)
def t11 : FVec Ideal S10x1x1x1 .f32 := k0_pay11 (t3 x1)
def t12 : FVec Ideal S24x24x10x128 .f32 := k0_pay12 (t2 x0) (t3 x1) (t9 x0 x1) (t10 x0) (t11 x1)
def t13 : FVec Ideal S24x24x10x128 .f32 := k0_pay13 (t2 x0) (t3 x1)
def t14 : FVec Ideal S24x24x10x128 .f32 := k0_pay14 (t2 x0) (t3 x1) (t12 x0 x1) (t13 x0 x1) loS
def t15 : FVec Ideal S24x24x1x128 .f32 := k0_pay15 (t2 x0)
def t16 : FVec Ideal S10x1 .f32 := k0_pay16 (t3 x1)
def t17 : FVec Ideal S24x24x10x128 .f32 := k0_pay17 (t2 x0) (t3 x1) (t14 x0 x1) (t15 x0) (t16 x1)
def t18 : FVec Ideal S24x24x10x128 .f32 := k0_pay18 (t2 x0) (t3 x1)
def t19 : FVec Ideal S24x24x10x128 .f32 := k0_pay19 (t2 x0) (t3 x1) (t17 x0 x1) (t18 x0 x1) loS hiS
def t20 : FVec Ideal S24x24x1x128 .f32 := k0_pay20 (t2 x0)
def t21 : FVec Ideal S10 .f32 := k0_pay21 (t3 x1)
def t22 : FVec Ideal S12x12x10x128 .f32 := k0_pay22 (t2 x0) (t3 x1) (t4 x2) (t19 x0 x1) (t20 x0) (t21 x1)
def t26 : FVec Ideal S8x8x10x128 .f32 := k0_pay26 (t2 x0) (t3 x1) (t4 x2) (t19 x0 x1) (t20 x0) (t21 x1)

variable (p : FVec Ideal S12x12x10x128 .f32) (s : FVec Ideal S8x8x10x128 .f32)
def t23 : FVec Ideal S20x10x5x5 .f32 := k0_pay23 (View.ld x3 r0_3)
def t24 : FVec Ideal S20 .f32 := k0_pay24 (View.ld x4 r0_4)
def t27 : FVec Ideal S8x8x20x128 .f32 := k0_pay27 p (t23 x3) (k0_pay25 (F := Ideal)) s
def t28 : FVec Ideal S1x1x10x20x1 .f32 := k0_pay28 (t23 x3)
def t29 : FVec Ideal S8x8x10x20x128 .f32 := k0_pay29 p
def t30 : FVec Ideal S8x8x20x128 .f32 := k0_pay30 p (t23 x3) (t27 x3 p s) (t28 x3) (t29 p)
def t31 : FVec Ideal S8x8x10x20x128 .f32 := k0_pay31 p (t23 x3)
def t32 : FVec Ideal S8x8x20x128 .f32 := k0_pay32 p (t23 x3) (t30 x3 p s) hiS (t31 x3 p)
def t33 : FVec Ideal S8x8x10x128 .f32 := k0_pay33 p
def t34 : FVec Ideal S8x8x20x128 .f32 := k0_pay34 p (t23 x3) (t32 x3 p s) (t33 p)
def t35 : FVec Ideal S1x1x10x20x1 .f32 := k0_pay35 (t23 x3)
def t36 : FVec Ideal S8x8x10x20x128 .f32 := k0_pay36 p
def t37 : FVec Ideal S8x8x20x128 .f32 := k0_pay37 p (t23 x3) (t34 x3 p s) (t35 x3) (t36 p)
def t38 : FVec Ideal S8x8x10x20x128 .f32 := k0_pay38 p (t23 x3)
def t39 : FVec Ideal S8x8x20x128 .f32 := k0_pay39 p (t23 x3) (t37 x3 p s) hiS (t38 x3 p)
def t40 : FVec Ideal S8x8x10x128 .f32 := k0_pay40 p
def t41 : FVec Ideal S8x8x20x128 .f32 := k0_pay41 p (t23 x3) (t39 x3 p s) (t40 p)
def t42 : FVec Ideal S1x1x10x20x1 .f32 := k0_pay42 (t23 x3)
def t43 : FVec Ideal S8x8x10x20x128 .f32 := k0_pay43 p
def t44 : FVec Ideal S4x4x20x128 .f32 := k0_pay44 p (t23 x3) (t24 x4) (t41 x3 p s) (t42 x3) (t43 p)

variable (q : FVec Ideal S4x4x20x128 .f32)
def t45 : FVec Ideal S4x4x50x20 .f32 := k0_pay45 (View.ld x5 r0_5)
def t46 : FVec Ideal S50 .f32 := k0_pay46 (View.ld x6 r0_6)
def t47 : FVec Ideal S50x128 .f32 := k0_pay47 q (t45 x5)
def t48 : FVec Ideal S50x128 .f32 := k0_pay48 q (t45 x5)
def t49 : FVec Ideal S50x128 .f32 := k0_pay49 q (t45 x5) (t46 x6) (t47 x5 q) (t48 x5 q)

variable (a : FVec Ideal S50x128 .f32)
def t50 : FVec Ideal S10x128 .f32 := k0_pay50 a (View.ld x7 r0_7) (View.ld x8 r0_2)
def t51 : FVec Ideal S128 .f32 := k0_pay51 a (View.ld x7 r0_7) (View.ld x8 r0_2)
def t1 : FVec Ideal S10x128 .f32 := k0_pay1 (t50 x7 x8 a) (t51 x7 x8 a)

/-- The value one grid point stores, as the composition of the layers. -/
def tOut : FVec Ideal S10x128 .f32 :=
  t1 x7 x8 (t49 x5 x6 (t44 x3 x4 (t22 x0 x1 x2) (t26 x0 x1 x2)))

/-- The body's stored value is that composition. -/
theorem out_eq : out0_9 (F := Ideal) x0 x1 x2 x3 x4 x5 x6 x7 x8 = View.canon [⟨r0_8, tOut x0 x1 x2 x3 x4 x5 x6 x7 x8⟩] := rfl

end Cert.KernelIdeal.KV

end
-- ==== Proof.KConv1Tap.lean ====
import proofs.«413587_j61040075211437_3_alg».proof.Proof.KTerm
import Idealize.ShloMosaic.Lib.Pipeline.Value
import Idealize.ShloMosaic.Lib.ValueLayout
import Idealize.ShloMosaic.PureOps.Ideal.Laws

noncomputable section

namespace Cert.KernelIdeal.KV.Conv1

open Idealize.ShloMosaic Idealize.ShloMosaic.TcCoe Idealize.ShloMosaic.ValueIdx Cert.KernelIdeal Cert.KernelIdeal.Gen Cert.QNet

theorem patch_read (u v : Nat) (X : FVec Ideal S28x28x1x128 .f32) (hs : S28x28x1x128.Slices ![u, v, 0, 0] S24x24x1x128)
    (h w : Fin 24) (n : Fin 128) (a b : Fin 28) (ha : a.val = u + h.val) (hb : b.val = v + w.val) :
    extractStridedSlice S24x24x1x128 ![u, v, 0, 0] X hs (ix4 h w 0 n) = X (ix4 a b 0 n) :=
  extractStridedSlice_apply _ _ _ _ _ (fun ax => by
    match ax with
    | ⟨0, _⟩ => exact ha
    | ⟨1, _⟩ => exact hb
    | ⟨2, _⟩ => rfl
    | ⟨3, _⟩ => exact (Nat.zero_add _).symm)

theorem wslice_read (u v : Nat) (Wt : FVec Ideal S10x1x5x5 .f32) (hs : S10x1x5x5.Slices ![0, 0, u, v] S10x1x1x1)
    (j : Fin 10) (a b : Fin 5) (ha : a.val = u) (hb : b.val = v) :
    extractStridedSlice S10x1x1x1 ![0, 0, u, v] Wt hs (ix4 j 0 0 0) = Wt (ix4 j 0 a b) :=
  extractStridedSlice_apply _ _ _ _ _ (fun ax => by
    match ax with
    | ⟨0, _⟩ => exact (Nat.zero_add _).symm
    | ⟨1, _⟩ => rfl
    | ⟨2, _⟩ => exact ha
    | ⟨3, _⟩ => exact hb)

theorem wcast2_read (W : FVec Ideal S10x1x1x1 .f32) (hc : S10x1x1x1.ShapeCasts S10x1) (j : Fin 10) :
    shapeCast S10x1 W hc (ix2 j 0) = W (ix4 j 0 0 0) :=
  shapeCast_apply _ _ _ _ (by
    rw [Shape.rowMajor_val_four, Shape.rowMajor_val_two]
    show ((j.val * 1 + 0) * 1 + 0) * 1 + 0 = j.val * 1 + 0
    omega)

theorem wcast1_read (W : FVec Ideal S10x1 .f32) (hc : S10x1.ShapeCasts S10) (j : Fin 10) :
    shapeCast S10 W hc (ix1 j) = W (ix2 j 0) :=
  shapeCast_apply _ _ _ _ (by
    rw [Shape.rowMajor_val_two, Shape.rowMajor_val_one]
    show j.val * 1 + 0 = j.val
    omega)

theorem wcast4_read (W : FVec Ideal S10 .f32) (hc : S10.ShapeCasts S1x1x10x1) (j : Fin 10) :
    shapeCast S1x1x10x1 W hc (ix4 0 0 j 0) = W (ix1 j) :=
  shapeCast_apply _ _ _ _ (by
    rw [Shape.rowMajor_val_one, Shape.rowMajor_val_four]
    show j.val = ((0 * 1 + 0) * 10 + j.val) * 1 + 0
    omega)

theorem pbc_read (P : FVec Ideal S24x24x1x128 .f32) (hb : S24x24x1x128.Broadcasts S24x24x10x128)
    (h w : Fin 24) (j : Fin 10) (n : Fin 128) :
    broadcastTo S24x24x10x128 P hb (ix4 h w j n) = P (ix4 h w 0 n) :=
  broadcastTo_apply _ _ _ _ (fun ax => by
    match ax with
    | ⟨0, _⟩ => rfl
    | ⟨1, _⟩ => rfl
    | ⟨2, _⟩ => rfl
    | ⟨3, _⟩ => rfl)

theorem wbc_read (W : FVec Ideal S1x1x10x1 .f32) (hb : S1x1x10x1.Broadcasts S24x24x10x128)
    (h w : Fin 24) (j : Fin 10) (n : Fin 128) :
    broadcastTo S24x24x10x128 W hb (ix4 h w j n) = W (ix4 0 0 j 0) :=
  broadcastTo_apply _ _ _ _ (fun ax => by
    match ax with
    | ⟨0, _⟩ => rfl
    | ⟨1, _⟩ => rfl
    | ⟨2, _⟩ => rfl
    | ⟨3, _⟩ => rfl)

theorem patch_eq (u v : Nat) (X : FVec Ideal S28x28x1x128 .f32) (hs : S28x28x1x128.Slices ![u, v, 0, 0] S24x24x1x128)
    (h w : Fin 24) (n : Fin 128) :
    extractStridedSlice S24x24x1x128 ![u, v, 0, 0] X hs (ix4 h w 0 n)
      = X (ix4 ⟨u + h.val, Nat.lt_of_lt_of_le (Nat.add_lt_add_left h.isLt u) (hs.2 0)⟩
              ⟨v + w.val, Nat.lt_of_lt_of_le (Nat.add_lt_add_left w.isLt v) (hs.2 1)⟩ 0 n) :=
  patch_read u v X hs h w n _ _ rfl rfl

theorem wslice_eq (u v : Nat) (Wt : FVec Ideal S10x1x5x5 .f32) (hs : S10x1x5x5.Slices ![0, 0, u, v] S10x1x1x1)
    (j : Fin 10) :
    extractStridedSlice S10x1x1x1 ![0, 0, u, v] Wt hs (ix4 j 0 0 0)
      = Wt (ix4 j 0 ⟨u, Nat.lt_of_lt_of_le (Nat.lt_succ_self u) (hs.2 2)⟩ ⟨v, Nat.lt_of_lt_of_le (Nat.lt_succ_self v) (hs.2 3)⟩) :=
  wslice_read u v Wt hs j _ _ rfl rfl

theorem pay2_read (v0 : Vec Ideal S28x28x1x128 .f32) (i : S28x28x1x128.Idx) : k0_pay2 v0 i = Q (v0 i) := by
  unfold k0_pay2
  simp only [shapeCast_self]
  rfl

/-- The clipped product of tap (u, v): pixel (u + h, v + w) times weight (j, u, v). -/
def tap (X : FVec Ideal S28x28x1x128 .f32) (Wt : FVec Ideal S10x1x5x5 .f32) (u v : Fin 5) (h w : Fin 24) (j : Fin 10)
    (n : Fin 128) : EReal :=
  Cl (X (ix4 (s24 u h) (s24 v w) 0 n) * Wt (ix4 j 0 u v))

end Cert.KernelIdeal.KV.Conv1

end
-- ==== Proof.KConv1Sum.lean ====
import proofs.«413587_j61040075211437_3_alg».proof.Proof.KConv1Tap

noncomputable section

namespace Cert.KernelIdeal.KV.Conv1

open Idealize.ShloMosaic Idealize.ShloMosaic.TcCoe Idealize.ShloMosaic.ValueIdx Cert.KernelIdeal Cert.KernelIdeal.Gen Cert.QNet

theorem pay5_read (v0 : Vec Ideal S28x28x1x128 .f32) (v7 : Vec Ideal S10x1x5x5 .f32) (h w : Fin 24) (j : Fin 10) (n : Fin 128) :
    k0_pay5 v0 v7 (ix4 h w j n)
      = 0 + tap (k0_pay2 v0) (k0_pay3 v7) 0 0 h w j n + tap (k0_pay2 v0) (k0_pay3 v7) 0 1 h w j n := by
  unfold k0_pay5
  simp only [addf_apply, minimumf_apply, maximumf_apply, mulf_apply, broadcast_apply, pbc_read, wbc_read, wcast4_read,
    wcast1_read, wcast2_read, shapeCast_shapeCast, patch_eq, wslice_eq]
  rw [Ideal.ofBits_def, Ideal.ofBits_zero_f32]
  rfl

theorem pay6_read (v0 : Vec Ideal S28x28x1x128 .f32) (h w : Fin 24) (n : Fin 128) :
    k0_pay6 v0 (ix4 h w 0 n) = k0_pay2 v0 (ix4 (s24 0 h) (s24 2 w) 0 n) := by
  unfold k0_pay6
  simp only [patch_eq]
  rfl

theorem pay7_read (X : FVec Ideal S28x28x1x128 .f32) (Wt : FVec Ideal S10x1x5x5 .f32) (acc : FVec Ideal S24x24x10x128 .f32)
    (P : FVec Ideal S24x24x1x128 .f32) (h w : Fin 24) (j : Fin 10) (n : Fin 128) :
    k0_pay7 X Wt acc P (ix4 h w j n)
      = acc (ix4 h w j n) + Cl (P (ix4 h w 0 n) * Wt (ix4 j 0 0 2)) + tap X Wt 0 3 h w j n + tap X Wt 0 4 h w j n := by
  unfold k0_pay7
  simp only [addf_apply, minimumf_apply, maximumf_apply, mulf_apply, broadcast_apply, pbc_read, wbc_read, wcast4_read,
    wcast1_read, wcast2_read, shapeCast_shapeCast, patch_eq, wslice_eq]
  rfl

theorem pay8_read (X : FVec Ideal S28x28x1x128 .f32) (Wt : FVec Ideal S10x1x5x5 .f32) (h w : Fin 24) (j : Fin 10) (n : Fin 128) :
    k0_pay8 X Wt (ix4 h w j n) = X (ix4 (s24 1 h) (s24 0 w) 0 n) * Wt (ix4 j 0 1 0) := by
  unfold k0_pay8
  simp only [addf_apply, minimumf_apply, maximumf_apply, mulf_apply, broadcast_apply, pbc_read, wbc_read, wcast4_read,
    wcast1_read, wcast2_read, shapeCast_shapeCast, patch_eq, wslice_eq]
  rfl

theorem pay9_read (X : FVec Ideal S28x28x1x128 .f32) (Wt : FVec Ideal S10x1x5x5 .f32) (acc M : FVec Ideal S24x24x10x128 .f32)
    (h w : Fin 24) (j : Fin 10) (n : Fin 128) :
    k0_pay9 X Wt acc M (ix4 h w j n)
      = acc (ix4 h w j n) + Cl (M (ix4 h w j n)) + tap X Wt 1 1 h w j n + tap X Wt 1 2 h w j n + tap X Wt 1 3 h w j n := by
  unfold k0_pay9
  simp only [addf_apply, minimumf_apply, maximumf_apply, mulf_apply, broadcast_apply, pbc_read, wbc_read, wcast4_read,
    wcast1_read, wcast2_read, shapeCast_shapeCast, patch_eq, wslice_eq]
  rfl

theorem pay10_read (X : FVec Ideal S28x28x1x128 .f32) (h w : Fin 24) (n : Fin 128) :
    k0_pay10 X (ix4 h w 0 n) = X (ix4 (s24 1 h) (s24 4 w) 0 n) := by
  unfold k0_pay10
  simp only [patch_eq]
  rfl

theorem pay11_read (Wt : FVec Ideal S10x1x5x5 .f32) (j : Fin 10) : k0_pay11 Wt (ix4 j 0 0 0) = Wt (ix4 j 0 1 4) := by
  unfold k0_pay11
  simp only [wslice_eq]
  rfl

theorem pay12_read (X : FVec Ideal S28x28x1x128 .f32) (Wt : FVec Ideal S10x1x5x5 .f32) (acc : FVec Ideal S24x24x10x128 .f32)
    (P : FVec Ideal S24x24x1x128 .f32) (W : FVec Ideal S10x1x1x1 .f32) (h w : Fin 24) (j : Fin 10) (n : Fin 128) :
    k0_pay12 X Wt acc P W (ix4 h w j n)
      = acc (ix4 h w j n) + Cl (P (ix4 h w 0 n) * W (ix4 j 0 0 0)) + tap X Wt 2 0 h w j n + tap X Wt 2 1 h w j n := by
  unfold k0_pay12
  simp only [addf_apply, minimumf_apply, maximumf_apply, mulf_apply, broadcast_apply, pbc_read, wbc_read, wcast4_read,
    wcast1_read, wcast2_read, shapeCast_shapeCast, patch_eq, wslice_eq]
  rfl

theorem pay13_read (X : FVec Ideal S28x28x1x128 .f32) (Wt : FVec Ideal S10x1x5x5 .f32) (h w : Fin 24) (j : Fin 10) (n : Fin 128) :
    k0_pay13 X Wt (ix4 h w j n) = X (ix4 (s24 2 h) (s24 2 w) 0 n) * Wt (ix4 j 0 2 2) := by
  unfold k0_pay13
  simp only [addf_apply, minimumf_apply, maximumf_apply, mulf_apply, broadcast_apply, pbc_read, wbc_read, wcast4_read,
    wcast1_read, wcast2_read, shapeCast_shapeCast, patch_eq, wslice_eq]
  rfl

theorem pay14_read (X : FVec Ideal S28x28x1x128 .f32) (Wt : FVec Ideal S10x1x5x5 .f32) (acc M : FVec Ideal S24x24x10x128 .f32)
    (lo' : Ideal .f32) (h w : Fin 24) (j : Fin 10) (n : Fin 128) :
    k0_pay14 X Wt acc M lo' (ix4 h w j n)
      = acc (ix4 h w j n) + min hi (max lo' (M (ix4 h w j n))) + tap X Wt 2 3 h w j n + tap X Wt 2 4 h w j n
          + tap X Wt 3 0 h w j n := by
  unfold k0_pay14
  simp only [addf_apply, minimumf_apply, maximumf_apply, mulf_apply, broadcast_apply, pbc_read, wbc_read, wcast4_read,
    wcast1_read, wcast2_read, shapeCast_shapeCast, patch_eq, wslice_eq]
  rfl

theorem pay15_read (X : FVec Ideal S28x28x1x128 .f32) (h w : Fin 24) (n : Fin 128) :
    k0_pay15 X (ix4 h w 0 n) = X (ix4 (s24 3 h) (s24 1 w) 0 n) := by
  unfold k0_pay15
  simp only [patch_eq]
  rfl

theorem pay16_read (Wt : FVec Ideal S10x1x5x5 .f32) (j : Fin 10) : k0_pay16 Wt (ix2 j 0) = Wt (ix4 j 0 3 1) := by
  unfold k0_pay16
  simp only [wcast2_read, wslice_eq]
  rfl

theorem pay17_read (X : FVec Ideal S28x28x1x128 .f32) (Wt : FVec Ideal S10x1x5x5 .f32) (acc : FVec Ideal S24x24x10x128 .f32)
    (P : FVec Ideal S24x24x1x128 .f32) (W : FVec Ideal S10x1 .f32) (h w : Fin 24) (j : Fin 10) (n : Fin 128) :
    k0_pay17 X Wt acc P W (ix4 h w j n)
      = acc (ix4 h w j n) + Cl (P (ix4 h w 0 n) * W (ix2 j 0)) + tap X Wt 3 2 h w j n + tap X Wt 3 3 h w j n := by
  unfold k0_pay17
  simp only [addf_apply, minimumf_apply, maximumf_apply, mulf_apply, broadcast_apply, pbc_read, wbc_read, wcast4_read,
    wcast1_read, wcast2_read, shapeCast_shapeCast, patch_eq, wslice_eq]
  rfl

theorem pay18_read (X : FVec Ideal S28x28x1x128 .f32) (Wt : FVec Ideal S10x1x5x5 .f32) (h w : Fin 24) (j : Fin 10) (n : Fin 128) :
    k0_pay18 X Wt (ix4 h w j n) = X (ix4 (s24 3 h) (s24 4 w) 0 n) * Wt (ix4 j 0 3 4) := by
  unfold k0_pay18
  simp only [addf_apply, minimumf_apply, maximumf_apply, mulf_apply, broadcast_apply, pbc_read, wbc_read, wcast4_read,
    wcast1_read, wcast2_read, shapeCast_shapeCast, patch_eq, wslice_eq]
  rfl

theorem pay19_read (X : FVec Ideal S28x28x1x128 .f32) (Wt : FVec Ideal S10x1x5x5 .f32) (acc M : FVec Ideal S24x24x10x128 .f32)
    (lo' hi' : Ideal .f32) (h w : Fin 24) (j : Fin 10) (n : Fin 128) :
    k0_pay19 X Wt acc M lo' hi' (ix4 h w j n)
      = acc (ix4 h w j n) + min hi' (max lo' (M (ix4 h w j n))) + tap X Wt 4 0 h w j n + tap X Wt 4 1 h w j n
          + tap X Wt 4 2 h w j n := by
  unfold k0_pay19
  simp only [addf_apply, minimumf_apply, maximumf_apply, mulf_apply, broadcast_apply, pbc_read, wbc_read, wcast4_read,
    wcast1_read, wcast2_read, shapeCast_shapeCast, patch_eq, wslice_eq]
  rfl

theorem pay20_read (X : FVec Ideal S28x28x1x128 .f32) (h w : Fin 24) (n : Fin 128) :
    k0_pay20 X (ix4 h w 0 n) = X (ix4 (s24 4 h) (s24 3 w) 0 n) := by
  unfold k0_pay20
  simp only [patch_eq]
  rfl

theorem pay21_read (Wt : FVec Ideal S10x1x5x5 .f32) (j : Fin 10) : k0_pay21 Wt (ix1 j) = Wt (ix4 j 0 4 3) := by
  unfold k0_pay21
  simp only [wcast1_read, wcast2_read, wslice_eq]
  rfl

end Cert.KernelIdeal.KV.Conv1

end
-- ==== Proof.KConv1Pool.lean ====
import proofs.«413587_j61040075211437_3_alg».proof.Proof.KConv1Tap

noncomputable section

namespace Cert.KernelIdeal.KV.Conv1

open Idealize.ShloMosaic Idealize.ShloMosaic.TcCoe Idealize.ShloMosaic.ValueIdx Cert.KernelIdeal Cert.KernelIdeal.Gen Cert.QNet

theorem rows_cast_read (A : FVec Ideal S24x24x10x128 .f32) (hc : S24x24x10x128.ShapeCasts S12x2x24x10x128)
    (i : Fin 12) (r : Fin 2) (c : Fin 24) (j : Fin 10) (n : Fin 128) (a : Fin 24) (ha : a.val = 2 * i.val + r.val) :
    shapeCast S12x2x24x10x128 A hc (ix5 i r c j n) = A (ix4 a c j n) :=
  shapeCast_apply _ _ _ _ (by
    rw [Shape.rowMajor_val_four, Shape.rowMajor_val_five]
    show ((a.val * 24 + c.val) * 10 + j.val) * 128 + n.val
      = (((i.val * 2 + r.val) * 24 + c.val) * 10 + j.val) * 128 + n.val
    omega)

theorem rows_cast_eq (A : FVec Ideal S24x24x10x128 .f32) (hc : S24x24x10x128.ShapeCasts S12x2x24x10x128)
    (i : Fin 12) (r : Fin 2) (c : Fin 24) (j : Fin 10) (n : Fin 128) :
    shapeCast S12x2x24x10x128 A hc (ix5 i r c j n)
      = A (ix4 ⟨2 * i.val + r.val, by have := i.isLt; have := r.isLt; omega⟩ c j n) :=
  rows_cast_read A hc i r c j n _ rfl

theorem rows_slice_read (o : Nat) (B : FVec Ideal S12x2x24x10x128 .f32)
    (hs : S12x2x24x10x128.Slices ![0, o, 0, 0, 0] S12x1x24x10x128)
    (i : Fin 12) (c : Fin 24) (j : Fin 10) (n : Fin 128) (r : Fin 2) (hr : r.val = o) :
    extractStridedSlice S12x1x24x10x128 ![0, o, 0, 0, 0] B hs (ix5 i 0 c j n) = B (ix5 i r c j n) :=
  extractStridedSlice_apply _ _ _ _ _ (fun ax => by
    match ax with
    | ⟨0, _⟩ => exact (Nat.zero_add _).symm
    | ⟨1, _⟩ => exact hr
    | ⟨2, _⟩ => exact (Nat.zero_add _).symm
    | ⟨3, _⟩ => exact (Nat.zero_add _).symm
    | ⟨4, _⟩ => exact (Nat.zero_add _).symm)

theorem rows_slice_eq (o : Nat) (B : FVec Ideal S12x2x24x10x128 .f32)
    (hs : S12x2x24x10x128.Slices ![0, o, 0, 0, 0] S12x1x24x10x128)
    (i : Fin 12) (c : Fin 24) (j : Fin 10) (n : Fin 128) :
    extractStridedSlice S12x1x24x10x128 ![0, o, 0, 0, 0] B hs (ix5 i 0 c j n)
      = B (ix5 i ⟨o, Nat.lt_of_lt_of_le (Nat.lt_succ_self o) (hs.2 1)⟩ c j n) :=
  rows_slice_read o B hs i c j n _ rfl

theorem rows_drop_read (C : FVec Ideal S12x1x24x10x128 .f32) (hc : S12x1x24x10x128.ShapeCasts S12x24x10x128)
    (i : Fin 12) (c : Fin 24) (j : Fin 10) (n : Fin 128) :
    shapeCast S12x24x10x128 C hc (ix4 i c j n) = C (ix5 i 0 c j n) :=
  shapeCast_apply _ _ _ _ (by
    rw [Shape.rowMajor_val_five, Shape.rowMajor_val_four]
    show (((i.val * 1 + 0) * 24 + c.val) * 10 + j.val) * 128 + n.val = ((i.val * 24 + c.val) * 10 + j.val) * 128 + n.val
    omega)

theorem cols_cast_read (D : FVec Ideal S12x24x10x128 .f32) (hc : S12x24x10x128.ShapeCasts S12x12x2x10x128)
    (i k : Fin 12) (r : Fin 2) (j : Fin 10) (n : Fin 128) (b : Fin 24) (hb : b.val = 2 * k.val + r.val) :
    shapeCast S12x12x2x10x128 D hc (ix5 i k r j n) = D (ix4 i b j n) :=
  shapeCast_apply _ _ _ _ (by
    rw [Shape.rowMajor_val_four, Shape.rowMajor_val_five]
    show ((i.val * 24 + b.val) * 10 + j.val) * 128 + n.val
      = (((i.val * 12 + k.val) * 2 + r.val) * 10 + j.val) * 128 + n.val
    omega)

theorem cols_cast_eq (D : FVec Ideal S12x24x10x128 .f32) (hc : S12x24x10x128.ShapeCasts S12x12x2x10x128)
    (i k : Fin 12) (r : Fin 2) (j : Fin 10) (n : Fin 128) :
    shapeCast S12x12x2x10x128 D hc (ix5 i k r j n)
      = D (ix4 i ⟨2 * k.val + r.val, by have := k.isLt; have := r.isLt; omega⟩ j n) :=
  cols_cast_read D hc i k r j n _ rfl

theorem cols_slice_read (o : Nat) (E : FVec Ideal S12x12x2x10x128 .f32)
    (hs : S12x12x2x10x128.Slices ![0, 0, o, 0, 0] S12x12x1x10x128)
    (i k : Fin 12) (j : Fin 10) (n : Fin 128) (r : Fin 2) (hr : r.val = o) :
    extractStridedSlice S12x12x1x10x128 ![0, 0, o, 0, 0] E hs (ix5 i k 0 j n) = E (ix5 i k r j n) :=
  extractStridedSlice_apply _ _ _ _ _ (fun ax => by
    match ax with
    | ⟨0, _⟩ => exact (Nat.zero_add _).symm
    | ⟨1, _⟩ => exact (Nat.zero_add _).symm
    | ⟨2, _⟩ => exact hr
    | ⟨3, _⟩ => exact (Nat.zero_add _).symm
    | ⟨4, _⟩ => exact (Nat.zero_add _).symm)

theorem cols_slice_eq (o : Nat) (E : FVec Ideal S12x12x2x10x128 .f32)
    (hs : S12x12x2x10x128.Slices ![0, 0, o, 0, 0] S12x12x1x10x128)
    (i k : Fin 12) (j : Fin 10) (n : Fin 128) :
    extractStridedSlice S12x12x1x10x128 ![0, 0, o, 0, 0] E hs (ix5 i k 0 j n)
      = E (ix5 i k ⟨o, Nat.lt_of_lt_of_le (Nat.lt_succ_self o) (hs.2 2)⟩ j n) :=
  cols_slice_read o E hs i k j n _ rfl

theorem cols_drop_read (G : FVec Ideal S12x12x1x10x128 .f32) (hc : S12x12x1x10x128.ShapeCasts S12x12x10x128)
    (i k : Fin 12) (j : Fin 10) (n : Fin 128) :
    shapeCast S12x12x10x128 G hc (ix4 i k j n) = G (ix5 i k 0 j n) :=
  shapeCast_apply _ _ _ _ (by
    rw [Shape.rowMajor_val_five, Shape.rowMajor_val_four]
    show ((((i.val * 12 + k.val) * 1 + 0) * 10 + j.val) * 128 + n.val) = ((i.val * 12 + k.val) * 10 + j.val) * 128 + n.val
    omega)

theorem pay22_read (X : FVec Ideal S28x28x1x128 .f32) (Wt : FVec Ideal S10x1x5x5 .f32) (b : FVec Ideal S10 .f32)
    (acc : FVec Ideal S24x24x10x128 .f32) (P : FVec Ideal S24x24x1x128 .f32) (W : FVec Ideal S10 .f32)
    (h v : Fin 12) (j : Fin 10) (n : Fin 128) :
    k0_pay22 X Wt b acc P W (ix4 h v j n)
      = P1 (fun j a c => acc (ix4 a c j n) + Cl (P (ix4 a c 0 n) * W (ix1 j)) + tap X Wt 4 4 a c j n + b (ix1 j)) j h v := by
  unfold k0_pay22
  simp only [addf_apply, minimumf_apply, maximumf_apply, mulf_apply, broadcast_apply, pbc_read, wbc_read, wcast4_read,
    wcast1_read, wcast2_read, shapeCast_shapeCast, patch_eq, wslice_eq, rows_cast_eq, rows_slice_eq, rows_drop_read, cols_cast_eq, cols_slice_eq, cols_drop_read]
  simp only [Ideal.ofBits_def, Ideal.ofBits_zero_f32]
  rfl

end Cert.KernelIdeal.KV.Conv1

end
-- ==== Proof.KConv1.lean ====
import proofs.«413587_j61040075211437_3_alg».proof.Proof.KConv1Sum
import proofs.«413587_j61040075211437_3_alg».proof.Proof.KConv1Pool

noncomputable section

namespace Cert.KernelIdeal.KV

open Idealize.ShloMosaic Idealize.ShloMosaic.TcCoe Idealize.ShloMosaic.ValueIdx Cert.KernelIdeal Cert.KernelIdeal.Gen Cert.QNet

variable (x0 : Vec Ideal S28x28x1x128 .f32) (x1 : Vec Ideal S10x1x5x5 .f32) (x2 : Vec Ideal S10 .f32)

namespace Conv1

theorem offs4_zero : (![0, 0, 0, 0] : Fin 4 → Nat) = fun _ => 0 :=
  funext fun a => match a with | ⟨0, _⟩ => rfl | ⟨1, _⟩ => rfl | ⟨2, _⟩ => rfl | ⟨3, _⟩ => rfl

theorem offs1_zero : (![0] : Fin 1 → Nat) = fun _ => 0 :=
  funext fun a => match a with | ⟨0, _⟩ => rfl

theorem ld_x0 : View.ld x0 r0_0 = x0 := View.ld_unit_zero (S := S28x28x1x128) offs4_zero _ x0
theorem ld_x1 : View.ld x1 r0_1 = x1 := View.ld_unit_zero (S := S10x1x5x5) offs4_zero _ x1
theorem ld_x2 : View.ld x2 r0_2 = x2 := View.ld_unit_zero (S := S10) offs1_zero _ x2

theorem t2_read (i : S28x28x1x128.Idx) : t2 x0 i = Q (x0 i) := by
  unfold t2
  rw [pay2_read, ld_x0]

theorem t3_eq : t3 x1 = x1 := by
  unfold t3 k0_pay3
  rw [ld_x1]
  exact shapeCast_self _ _

theorem t4_eq : t4 x2 = x2 := by
  unfold t4 k0_pay4
  rw [ld_x2]
  exact shapeCast_self _ _

theorem tap_eq (u v : Fin 5) (h w : Fin 24) (j : Fin 10) (n : Fin 128) :
    tap (t2 x0) (t3 x1) u v h w j n = Cl (Q (x0 (ix4 (s24 u h) (s24 v w) 0 n)) * x1 (ix4 j 0 u v)) := by
  unfold tap
  rw [t2_read, t3_eq]

/-- The clipped products of a list of taps summed from 0 in the list's order. -/
def tapSum (l : List (Fin 5 × Fin 5)) (h w : Fin 24) (j : Fin 10) (n : Fin 128) : EReal :=
  l.foldl (fun acc uv => acc + Cl (Q (x0 (ix4 (s24 uv.1 h) (s24 uv.2 w) 0 n)) * x1 (ix4 j 0 uv.1 uv.2))) 0

section At
variable (h w : Fin 24) (j : Fin 10) (n : Fin 128)

theorem t5_read : t5 x0 x1 (ix4 h w j n) = tapSum x0 x1 (taps.take 2) h w j n := by
  unfold t5
  rw [pay5_read]
  show 0 + tap (t2 x0) (t3 x1) 0 0 h w j n + tap (t2 x0) (t3 x1) 0 1 h w j n = _
  rw [tap_eq, tap_eq]
  rfl

theorem t6_read : t6 x0 (ix4 h w 0 n) = Q (x0 (ix4 (s24 0 h) (s24 2 w) 0 n)) := by
  unfold t6
  rw [pay6_read]
  exact t2_read x0 _

theorem t7_read : t7 x0 x1 (ix4 h w j n) = tapSum x0 x1 (taps.take 5) h w j n := by
  unfold t7
  rw [pay7_read, tap_eq, tap_eq, t5_read, t6_read, t3_eq]
  rfl

theorem t8_read : t8 x0 x1 (ix4 h w j n) = Q (x0 (ix4 (s24 1 h) (s24 0 w) 0 n)) * x1 (ix4 j 0 1 0) := by
  unfold t8
  rw [pay8_read, t2_read, t3_eq]

theorem t9_read : t9 x0 x1 (ix4 h w j n) = tapSum x0 x1 (taps.take 9) h w j n := by
  unfold t9
  rw [pay9_read, tap_eq, tap_eq, tap_eq, t7_read, t8_read]
  rfl

theorem t10_read : t10 x0 (ix4 h w 0 n) = Q (x0 (ix4 (s24 1 h) (s24 4 w) 0 n)) := by
  unfold t10
  rw [pay10_read, t2_read]

theorem t11_read : t11 x1 (ix4 j 0 0 0) = x1 (ix4 j 0 1 4) := by
  unfold t11
  rw [pay11_read, t3_eq]

theorem t12_read : t12 x0 x1 (ix4 h w j n) = tapSum x0 x1 (taps.take 12) h w j n := by
  unfold t12
  rw [pay12_read, tap_eq, tap_eq, t9_read, t10_read, t11_read]
  rfl

theorem t13_read : t13 x0 x1 (ix4 h w j n) = Q (x0 (ix4 (s24 2 h) (s24 2 w) 0 n)) * x1 (ix4 j 0 2 2) := by
  unfold t13
  rw [pay13_read, t2_read, t3_eq]

theorem t14_read : t14 x0 x1 (ix4 h w j n) = tapSum x0 x1 (taps.take 16) h w j n := by
  unfold t14
  rw [pay14_read, tap_eq, tap_eq, tap_eq, t12_read, t13_read]
  rfl

theorem t15_read : t15 x0 (ix4 h w 0 n) = Q (x0 (ix4 (s24 3 h) (s24 1 w) 0 n)) := by
  unfold t15
  rw [pay15_read, t2_read]

theorem t16_read : t16 x1 (ix2 j 0) = x1 (ix4 j 0 3 1) := by
  unfold t16
  rw [pay16_read, t3_eq]

theorem t17_read : t17 x0 x1 (ix4 h w j n) = tapSum x0 x1 (taps.take 19) h w j n := by
  unfold t17
  rw [pay17_read, tap_eq, tap_eq, t14_read, t15_read, t16_read]
  rfl

theorem t18_read : t18 x0 x1 (ix4 h w j n) = Q (x0 (ix4 (s24 3 h) (s24 4 w) 0 n)) * x1 (ix4 j 0 3 4) := by
  unfold t18
  rw [pay18_read, t2_read, t3_eq]

theorem t19_read : t19 x0 x1 (ix4 h w j n) = tapSum x0 x1 (taps.take 23) h w j n := by
  unfold t19
  rw [pay19_read, tap_eq, tap_eq, tap_eq, t17_read, t18_read]
  rfl

theorem t20_read : t20 x0 (ix4 h w 0 n) = Q (x0 (ix4 (s24 4 h) (s24 3 w) 0 n)) := by
  unfold t20
  rw [pay20_read, t2_read]

theorem t21_read : t21 x1 (ix1 j) = x1 (ix4 j 0 4 3) := by
  unfold t21
  rw [pay21_read, t3_eq]

/-- All 25 taps and the bias: the first convolution before the pool. -/
theorem conv_read :
    t19 x0 x1 (ix4 h w j n) + Cl (t20 x0 (ix4 h w 0 n) * t21 x1 (ix1 j)) + tap (t2 x0) (t3 x1) 4 4 h w j n + t4 x2 (ix1 j)
      = C1 (fun a b => Q (x0 (ix4 a b 0 n))) (fun j u w => x1 (ix4 j 0 u w)) (fun j => x2 (ix1 j)) j h w := by
  rw [tap_eq, t19_read, t20_read, t21_read, t4_eq]
  rfl

end At

end Conv1

open Conv1

/-- The first convolution pooled and rectified, at an index. -/
theorem t22_read (h v : Fin 12) (j : Fin 10) (n : Fin 128) :
    t22 x0 x1 x2 (ix4 h v j n)
      = P1 (C1 (fun a b => Q (x0 (ix4 a b 0 n))) (fun j u w => x1 (ix4 j 0 u w)) (fun j => x2 (ix1 j))) j h v := by
  unfold t22
  rw [pay22_read]
  exact congrArg (fun f => P1 f j h v)
    (funext fun j' => funext fun a => funext fun c => conv_read x0 x1 x2 a c j' n)

/-- The patch the second convolution first slices is the top-left 8×8 corner of the pooled layer. -/
theorem t26_read (h v : Fin 8) (c : Fin 10) (n : Fin 128) :
    t26 x0 x1 x2 (ix4 h v c n) = t22 x0 x1 x2 (ix4 (s8 0 h) (s8 0 v) c n) := by
  unfold t26 k0_pay26
  show extractStridedSlice S8x8x10x128 ![0, 0, 0, 0] (t22 x0 x1 x2) _ (ix4 h v c n) = _
  exact extractStridedSlice_apply _ _ _ _ _ (fun ax => by
    match ax with
    | ⟨0, _⟩ => rfl
    | ⟨1, _⟩ => rfl
    | ⟨2, _⟩ => exact (Nat.zero_add _).symm
    | ⟨3, _⟩ => exact (Nat.zero_add _).symm)

end Cert.KernelIdeal.KV

end
-- ==== Proof.KConv2.lean ====
import proofs.«413587_j61040075211437_3_alg».proof.Proof.KTerm
import Idealize.ShloMosaic.Lib.Pipeline.Value
import Idealize.ShloMosaic.Lib.ValueLayout
import Idealize.ShloMosaic.PureOps.Ideal.Laws

set_option Elab.async false

noncomputable section

namespace Cert.KernelIdeal.KV

open Idealize.ShloMosaic Idealize.ShloMosaic.TcCoe Idealize.ShloMosaic.ValueIdx Cert.KernelIdeal Cert.KernelIdeal.Gen Cert.QNet

namespace Conv2

theorem t23_eq (x3 : Vec Ideal S20x10x5x5 .f32) : t23 x3 = x3 := by
  unfold t23 k0_pay23
  rw [shapeCast_self]
  exact View.ld_unit_zero (by funext a; match a with | ⟨0, _⟩ => rfl | ⟨1, _⟩ => rfl | ⟨2, _⟩ => rfl | ⟨3, _⟩ => rfl) _ x3

theorem t24_eq (x4 : Vec Ideal S20 .f32) : t24 x4 = x4 := by
  unfold t24 k0_pay24
  rw [shapeCast_self]
  exact View.ld_unit_zero (by funext a; match a with | ⟨0, _⟩ => rfl) _ x4

theorem patch_row_lt {ou ov : Nat} (hp : S12x12x10x128.Slices ![ou, ov, 0, 0] S8x8x10x128) (h : Fin 8) : ou + h.val < 12 :=
  Nat.lt_of_lt_of_le (Nat.add_lt_add_left h.isLt ou) (hp.2 0)
theorem patch_col_lt {ou ov : Nat} (hp : S12x12x10x128.Slices ![ou, ov, 0, 0] S8x8x10x128) (v : Fin 8) : ov + v.val < 12 :=
  Nat.lt_of_lt_of_le (Nat.add_lt_add_left v.isLt ov) (hp.2 1)
theorem wslice_u_lt {ou ov : Nat} (hw : S20x10x5x5.Slices ![0, 0, ou, ov] S20x10x1x1) : ou < 5 :=
  Nat.lt_of_lt_of_le (Nat.lt_succ_self ou) (hw.2 2)
theorem wslice_v_lt {ou ov : Nat} (hw : S20x10x5x5.Slices ![0, 0, ou, ov] S20x10x1x1) : ov < 5 :=
  Nat.lt_of_lt_of_le (Nat.lt_succ_self ov) (hw.2 3)

theorem patch_apply (p : FVec Ideal S12x12x10x128 .f32) (ou ov : Nat)
    (hp : S12x12x10x128.Slices ![ou, ov, 0, 0] S8x8x10x128) (h v : Fin 8) (c : Fin 10) (n : Fin 128) :
    extractStridedSlice S8x8x10x128 ![ou, ov, 0, 0] p hp (ix4 h v c n)
      = p (ix4 ⟨ou + h.val, patch_row_lt hp h⟩ ⟨ov + v.val, patch_col_lt hp v⟩ c n) :=
  extractStridedSlice_apply _ p hp _ _ fun a => match a with
    | ⟨0, _⟩ => rfl
    | ⟨1, _⟩ => rfl
    | ⟨2, _⟩ => by show c.val = 0 + c.val; omega
    | ⟨3, _⟩ => by show n.val = 0 + n.val; omega

theorem patch5_apply (x : FVec Ideal S8x8x10x128 .f32) (h v : Fin 8) (c : Fin 10) (z : Fin 1) (n : Fin 128) :
    shapeCast S8x8x10x1x128 x shapeCasts_S8x8x10x128_S8x8x10x1x128 (ix5 h v c z n) = x (ix4 h v c n) :=
  shapeCast_apply x _ _ _ (by
    have hz : z.val = 0 := by omega
    rw [Shape.rowMajor_val_four, Shape.rowMajor_val_five]
    show ((h.val * 8 + v.val) * 10 + c.val) * 128 + n.val = (((h.val * 8 + v.val) * 10 + c.val) * 1 + z.val) * 128 + n.val
    rw [hz]; omega)

theorem patchB_apply (x : FVec Ideal S8x8x10x1x128 .f32) (h v : Fin 8) (c : Fin 10) (j : Fin 20) (n : Fin 128) :
    broadcastTo S8x8x10x20x128 x broadcasts_S8x8x10x1x128_S8x8x10x20x128 (ix5 h v c j n) = x (ix5 h v c (0 : Fin 1) n) :=
  broadcastTo_apply x _ _ _ fun a => match a with
    | ⟨0, _⟩ => rfl
    | ⟨1, _⟩ => rfl
    | ⟨2, _⟩ => rfl
    | ⟨3, _⟩ => rfl
    | ⟨4, _⟩ => rfl

theorem wslice_apply (w : FVec Ideal S20x10x5x5 .f32) (ou ov : Nat)
    (hw : S20x10x5x5.Slices ![0, 0, ou, ov] S20x10x1x1) (j : Fin 20) (c : Fin 10) (a b : Fin 1) :
    extractStridedSlice S20x10x1x1 ![0, 0, ou, ov] w hw (ix4 j c a b)
      = w (ix4 j c ⟨ou, wslice_u_lt hw⟩ ⟨ov, wslice_v_lt hw⟩) :=
  extractStridedSlice_apply _ w hw _ _ fun e => match e with
    | ⟨0, _⟩ => by show j.val = 0 + j.val; omega
    | ⟨1, _⟩ => by show c.val = 0 + c.val; omega
    | ⟨2, _⟩ => by show ou = ou + a.val; omega
    | ⟨3, _⟩ => by show ov = ov + b.val; omega

theorem wmat_apply (y : FVec Ideal S20x10x1x1 .f32) (j : Fin 20) (c : Fin 10) :
    shapeCast S20x10 y shapeCasts_S20x10x1x1_S20x10 (ix2 j c) = y (ix4 j c (0 : Fin 1) (0 : Fin 1)) :=
  shapeCast_apply y _ _ _ (by
    rw [Shape.rowMajor_val_four, Shape.rowMajor_val_two]
    show ((j.val * 10 + c.val) * 1 + 0) * 1 + 0 = j.val * 10 + c.val
    omega)

def WT (y : FVec Ideal S20x10 .f32) : FVec Ideal S10x20 .f32 := transpose S10x20 [1, 0] y transposes_S20x10_p1_0_S10x20
theorem wT_fold (y : FVec Ideal S20x10 .f32) : transpose S10x20 [1, 0] y transposes_S20x10_p1_0_S10x20 = WT y := rfl
theorem wT_apply (y : FVec Ideal S20x10 .f32) (c : Fin 10) (j : Fin 20) : WT y (ix2 c j) = y (ix2 j c) :=
  transpose_ix2_apply y _ c j

theorem w5_apply (y : FVec Ideal S10x20 .f32) (a b e : Fin 1) (c : Fin 10) (j : Fin 20) :
    shapeCast S1x1x10x20x1 y shapeCasts_S10x20_S1x1x10x20x1 (ix5 a b c j e) = y (ix2 c j) :=
  shapeCast_apply y _ _ _ (by
    have ha : a.val = 0 := by omega
    have hb : b.val = 0 := by omega
    have he : e.val = 0 := by omega
    rw [Shape.rowMajor_val_two, Shape.rowMajor_val_five]
    show c.val * 20 + j.val = (((a.val * 1 + b.val) * 10 + c.val) * 20 + j.val) * 1 + e.val
    rw [ha, hb, he]; omega)

theorem wB_apply (y : FVec Ideal S1x1x10x20x1 .f32) (h v : Fin 8) (c : Fin 10) (j : Fin 20) (n : Fin 128) :
    broadcastTo S8x8x10x20x128 y broadcasts_S1x1x10x20x1_S8x8x10x20x128 (ix5 h v c j n)
      = y (ix5 (0 : Fin 1) (0 : Fin 1) c j (0 : Fin 1)) :=
  broadcastTo_apply y _ _ _ fun a => match a with
    | ⟨0, _⟩ => rfl
    | ⟨1, _⟩ => rfl
    | ⟨2, _⟩ => rfl
    | ⟨3, _⟩ => rfl
    | ⟨4, _⟩ => rfl

theorem wpath_apply (w : FVec Ideal S20x10x5x5 .f32) (ou ov : Nat)
    (hw : S20x10x5x5.Slices ![0, 0, ou, ov] S20x10x1x1) (a b e : Fin 1) (c : Fin 10) (j : Fin 20) :
    shapeCast S1x1x10x20x1 (WT (shapeCast S20x10 (extractStridedSlice S20x10x1x1 ![0, 0, ou, ov] w hw)
        shapeCasts_S20x10x1x1_S20x10)) shapeCasts_S10x20_S1x1x10x20x1 (ix5 a b c j e)
      = w (ix4 j c ⟨ou, wslice_u_lt hw⟩ ⟨ov, wslice_v_lt hw⟩) := by
  rw [w5_apply, wT_apply, wmat_apply, wslice_apply]

theorem csum_apply (src : FVec Ideal S8x8x10x20x128 .f32) (hφ : FKind.Formats .f32)
    (hacc : (0x00000000#32 : BitVec 32) = 0x00000000#32) (h v : Fin 8) (j : Fin 20) (n : Fin 128) :
    multiReduction (F := Ideal) .add [2] S8x8x20x128 src 0x00000000#32 reduces_S8x8x10x20x128_S8x8x20x128 hφ hacc (ix4 h v j n)
      = ∑ c : Fin 10, src (ix5 h v c j n) := by
  refine (Ideal.multiReduction_add_single src 0x00000000#32 reduces_S8x8x10x20x128_S8x8x20x128 hφ hacc (ix4 h v j n)).trans ?_
  refine Finset.sum_congr rfl fun c _ => congrArg src ?_
  funext a
  match a with
  | ⟨0, _⟩ => rfl
  | ⟨1, _⟩ => rfl
  | ⟨2, _⟩ => rfl
  | ⟨3, _⟩ => rfl
  | ⟨4, _⟩ => rfl

/-- One tap's contribution: the clipped products with weight (j, c, u, v) of the input at (u + h, v + r, c), summed over c. -/
def T (p : FVec Ideal S12x12x10x128 .f32) (w : FVec Ideal S20x10x5x5 .f32) (u v : Fin 5) (h r : Fin 8) (j : Fin 20) (n : Fin 128) : EReal :=
  ∑ c : Fin 10, Cl (p (ix4 (s8 u h) (s8 v r) c n) * w (ix4 j c u v))

variable (x3 : Vec Ideal S20x10x5x5 .f32) (x4 : Vec Ideal S20 .f32)
  (p : FVec Ideal S12x12x10x128 .f32) (s : FVec Ideal S8x8x10x128 .f32)

theorem t27_read (hs : ∀ (h v : Fin 8) (c : Fin 10) (n : Fin 128), s (ix4 h v c n) = p (ix4 (s8 0 h) (s8 0 v) c n))
    (h r : Fin 8) (j : Fin 20) (n : Fin 128) :
    t27 x3 p s (ix4 h r j n) = 0 + T p x3 0 0 h r j n + T p x3 0 1 h r j n + T p x3 0 2 h r j n := by
  unfold t27 k0_pay27 k0_pay25
  simp only [t23_eq, addf_apply]
  repeat rw [csum_apply]
  repeat rw [wT_fold]
  simp only [minimumf_apply, maximumf_apply, mulf_apply, broadcast_apply, patchB_apply, wB_apply,
    patch5_apply, wpath_apply, patch_apply, hs, Ideal.ofBits_def, Ideal.ofBits_zero_f32]
  rfl

theorem bias_apply (b : FVec Ideal S20 .f32) (h r : Fin 8) (j : Fin 20) (n : Fin 128) :
    broadcastTo S8x8x20x128 (shapeCast S1x1x20x1 b shapeCasts_S20_S1x1x20x1) broadcasts_S1x1x20x1_S8x8x20x128 (ix4 h r j n)
      = b (ix1 j) := by
  refine (broadcastTo_apply _ _ (ix4 h r j n) (ix4 (0 : Fin 1) (0 : Fin 1) j (0 : Fin 1)) fun a => match a with
    | ⟨0, _⟩ => rfl
    | ⟨1, _⟩ => rfl
    | ⟨2, _⟩ => rfl
    | ⟨3, _⟩ => rfl).trans ?_
  exact shapeCast_apply b _ _ _ (by
    rw [Shape.rowMajor_val_one, Shape.rowMajor_val_four]
    show j.val = ((0 * 1 + 0) * 20 + j.val) * 1 + 0
    omega)

theorem poolRow_apply (x : FVec Ideal S8x8x20x128 .f32) (o : Nat)
    (hsl : S4x2x8x20x128.Slices ![0, o, 0, 0, 0] S4x1x8x20x128) (h : Fin 4) (r : Fin 8) (j : Fin 20) (n : Fin 128) :
    shapeCast S4x8x20x128 (extractStridedSlice S4x1x8x20x128 ![0, o, 0, 0, 0]
        (shapeCast S4x2x8x20x128 x shapeCasts_S8x8x20x128_S4x2x8x20x128) hsl) shapeCasts_S4x1x8x20x128_S4x8x20x128 (ix4 h r j n)
      = x (ix4 ⟨2 * h.val + o, by have h2 : o + 1 ≤ 2 := hsl.2 1; omega⟩ r j n) := by
  have h2 : o + 1 ≤ 2 := hsl.2 1
  refine (shapeCast_apply _ _ (ix4 h r j n) (ix5 h (0 : Fin 1) r j n) ?_).trans ?_
  · rw [Shape.rowMajor_val_five, Shape.rowMajor_val_four]
    show (((h.val * 1 + 0) * 8 + r.val) * 20 + j.val) * 128 + n.val = ((h.val * 8 + r.val) * 20 + j.val) * 128 + n.val
    omega
  refine (extractStridedSlice_apply _ _ hsl _ (ix5 h (⟨o, by omega⟩ : Fin 2) r j n) fun a => match a with
    | ⟨0, _⟩ => by show h.val = 0 + h.val; omega
    | ⟨1, _⟩ => by show o = o + 0; omega
    | ⟨2, _⟩ => by show r.val = 0 + r.val; omega
    | ⟨3, _⟩ => by show j.val = 0 + j.val; omega
    | ⟨4, _⟩ => by show n.val = 0 + n.val; omega).trans ?_
  exact shapeCast_apply x _ _ _ (by
    rw [Shape.rowMajor_val_four, Shape.rowMajor_val_five]
    show (((2 * h.val + o) * 8 + r.val) * 20 + j.val) * 128 + n.val = (((h.val * 2 + o) * 8 + r.val) * 20 + j.val) * 128 + n.val
    omega)

theorem poolCol_apply (y : FVec Ideal S4x8x20x128 .f32) (o : Nat)
    (hsl : S4x4x2x20x128.Slices ![0, 0, o, 0, 0] S4x4x1x20x128) (h v : Fin 4) (j : Fin 20) (n : Fin 128) :
    shapeCast S4x4x20x128 (extractStridedSlice S4x4x1x20x128 ![0, 0, o, 0, 0]
        (shapeCast S4x4x2x20x128 y shapeCasts_S4x8x20x128_S4x4x2x20x128) hsl) shapeCasts_S4x4x1x20x128_S4x4x20x128 (ix4 h v j n)
      = y (ix4 h ⟨2 * v.val + o, by have h2 : o + 1 ≤ 2 := hsl.2 2; omega⟩ j n) := by
  have h2 : o + 1 ≤ 2 := hsl.2 2
  refine (shapeCast_apply _ _ (ix4 h v j n) (ix5 h v (0 : Fin 1) j n) ?_).trans ?_
  · rw [Shape.rowMajor_val_five, Shape.rowMajor_val_four]
    show (((h.val * 4 + v.val) * 1 + 0) * 20 + j.val) * 128 + n.val = ((h.val * 4 + v.val) * 20 + j.val) * 128 + n.val
    omega
  refine (extractStridedSlice_apply _ _ hsl _ (ix5 h v (⟨o, by omega⟩ : Fin 2) j n) fun a => match a with
    | ⟨0, _⟩ => by show h.val = 0 + h.val; omega
    | ⟨1, _⟩ => by show v.val = 0 + v.val; omega
    | ⟨2, _⟩ => by show o = o + 0; omega
    | ⟨3, _⟩ => by show j.val = 0 + j.val; omega
    | ⟨4, _⟩ => by show n.val = 0 + n.val; omega).trans ?_
  exact shapeCast_apply y _ _ _ (by
    rw [Shape.rowMajor_val_four, Shape.rowMajor_val_five]
    show ((h.val * 8 + (2 * v.val + o)) * 20 + j.val) * 128 + n.val = (((h.val * 4 + v.val) * 2 + o) * 20 + j.val) * 128 + n.val
    omega)

theorem t30_read (h r : Fin 8) (j : Fin 20) (n : Fin 128) :
    t30 x3 p s (ix4 h r j n) = t27 x3 p s (ix4 h r j n) + T p x3 0 3 h r j n + T p x3 0 4 h r j n + T p x3 1 0 h r j n := by
  unfold t30 k0_pay30 t28 k0_pay28 t29 k0_pay29
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem t32_read (h r : Fin 8) (j : Fin 20) (n : Fin 128) :
    t32 x3 p s (ix4 h r j n) = t30 x3 p s (ix4 h r j n) + T p x3 1 1 h r j n + T p x3 1 2 h r j n + T p x3 1 3 h r j n + T p x3 1 4 h r j n := by
  unfold t32 k0_pay32 t31 k0_pay31
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem t34_read (h r : Fin 8) (j : Fin 20) (n : Fin 128) :
    t34 x3 p s (ix4 h r j n) = t32 x3 p s (ix4 h r j n) + T p x3 2 0 h r j n + T p x3 2 1 h r j n + T p x3 2 2 h r j n := by
  unfold t34 k0_pay34 t33 k0_pay33
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem t37_read (h r : Fin 8) (j : Fin 20) (n : Fin 128) :
    t37 x3 p s (ix4 h r j n) = t34 x3 p s (ix4 h r j n) + T p x3 2 3 h r j n + T p x3 2 4 h r j n + T p x3 3 0 h r j n := by
  unfold t37 k0_pay37 t35 k0_pay35 t36 k0_pay36
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem t39_read (h r : Fin 8) (j : Fin 20) (n : Fin 128) :
    t39 x3 p s (ix4 h r j n) = t37 x3 p s (ix4 h r j n) + T p x3 3 1 h r j n + T p x3 3 2 h r j n + T p x3 3 3 h r j n + T p x3 3 4 h r j n := by
  unfold t39 k0_pay39 t38 k0_pay38
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem t41_read (h r : Fin 8) (j : Fin 20) (n : Fin 128) :
    t41 x3 p s (ix4 h r j n) = t39 x3 p s (ix4 h r j n) + T p x3 4 0 h r j n + T p x3 4 1 h r j n + T p x3 4 2 h r j n := by
  unfold t41 k0_pay41 t40 k0_pay40
  simp only [t23_eq, addf_apply]
  repeat rw [csum_apply]
  repeat rw [wT_fold]
  simp only [minimumf_apply, maximumf_apply, mulf_apply, broadcast_apply, patchB_apply, wB_apply,
    patch5_apply, wpath_apply, patch_apply]
  rfl

theorem roundeven_apply {s : Shape} {φ : FTy} (a : FVec Ideal s φ) (i : s.Idx) :
    roundeven a i = Ideal.liftRound Ideal.roundHalfEven (a i) := rfl

/-- The 25 taps in order from 0, then the bias: the specification's second convolution. -/
theorem conv_eq (hs : ∀ (h v : Fin 8) (c : Fin 10) (n : Fin 128), s (ix4 h v c n) = p (ix4 (s8 0 h) (s8 0 v) c n))
    (a b : Fin 8) (j : Fin 20) (n : Fin 128) :
    t41 x3 p s (ix4 a b j n) + T p x3 4 3 a b j n + T p x3 4 4 a b j n + x4 (ix1 j)
      = C2 (fun c a b => p (ix4 a b c n)) (fun j c u w => x3 (ix4 j c u w)) (fun j => x4 (ix1 j)) j a b := by
  rw [t41_read, t39_read, t37_read, t34_read, t32_read, t30_read, t27_read x3 p s hs]
  rfl

theorem pool_finish (G : FVec Ideal S8x8x20x128 .f32) (C : Fin 20 → Fin 8 → Fin 8 → EReal) (h v : Fin 4) (j : Fin 20) (n : Fin 128)
    (hG : ∀ a b : Fin 8, G (ix4 a b j n) = C j a b) (a0 a1 b0 b1 : Fin 8)
    (ha0 : a0.val = 2 * h.val + 0) (ha1 : a1.val = 2 * h.val + 1) (hb0 : b0.val = 2 * v.val + 0) (hb1 : b1.val = 2 * v.val + 1) :
    Ideal.liftRound Ideal.roundHalfEven
        (Ideal.div (max (max (max (G (ix4 a0 b0 j n)) (G (ix4 a1 b0 j n))) (max (G (ix4 a0 b1 j n)) (G (ix4 a1 b1 j n))))
          (Ideal.ofBits .f32 0x00000000#32)) (Ideal.ofBits .f32 0x3B800000#32)) * Ideal.ofBits .f32 0x3B800000#32
      = P2q C j h v := by
  obtain rfl : a0 = e4 h := Fin.ext (by show a0.val = 2 * h.val; omega)
  obtain rfl : a1 = o4 h := Fin.ext (by show a1.val = 2 * h.val + 1; omega)
  obtain rfl : b0 = e4 v := Fin.ext (by show b0.val = 2 * v.val; omega)
  obtain rfl : b1 = o4 v := Fin.ext (by show b1.val = 2 * v.val + 1; omega)
  rw [hG, hG, hG, hG, Ideal.ofBits_zero_f32]
  rfl

end Conv2

open Conv2

variable (x3 : Vec Ideal S20x10x5x5 .f32) (x4 : Vec Ideal S20 .f32)
  (p : FVec Ideal S12x12x10x128 .f32) (s : FVec Ideal S8x8x10x128 .f32)

/-- The second convolution pooled, rectified and rounded, at an index. -/
theorem t44_read (hs : ∀ (h v : Fin 8) (c : Fin 10) (n : Fin 128), s (ix4 h v c n) = p (ix4 (s8 0 h) (s8 0 v) c n))
    (h v : Fin 4) (j : Fin 20) (n : Fin 128) :
    t44 x3 x4 p s (ix4 h v j n)
      = P2q (C2 (fun c a b => p (ix4 a b c n)) (fun j c u w => x3 (ix4 j c u w)) (fun j => x4 (ix1 j))) j h v := by
  unfold t44 k0_pay44 t42 k0_pay42 t43 k0_pay43
  simp only [mulf_apply, roundeven_apply, divf_apply, maximumf_apply, broadcast_apply, poolCol_apply, poolRow_apply]
  refine pool_finish _ _ h v j n (fun a b => ?_) _ _ _ _ rfl rfl rfl rfl
  simp only [t23_eq, t24_eq, addf_apply, bias_apply]
  repeat rw [csum_apply]
  repeat rw [wT_fold]
  simp only [minimumf_apply, maximumf_apply, mulf_apply, broadcast_apply, patchB_apply, wB_apply,
    patch5_apply, wpath_apply, patch_apply]
  exact conv_eq x3 x4 p s hs a b j n

end Cert.KernelIdeal.KV

end
-- ==== Proof.KDense.lean ====
import proofs.«413587_j61040075211437_3_alg».proof.Proof.KTerm
import Idealize.ShloMosaic.Lib.Pipeline.Value
import Idealize.ShloMosaic.Lib.ValueLayout
import Idealize.ShloMosaic.PureOps.Ideal.Laws
import Mathlib.Algebra.BigOperators.Fin
import Mathlib.Data.Fintype.BigOperators

noncomputable section

namespace Cert.KernelIdeal.KV

open Idealize.ShloMosaic Idealize.ShloMosaic.TcCoe Idealize.ShloMosaic.ValueIdx Cert.KernelIdeal Cert.KernelIdeal.Gen Cert.QNet

namespace Dense

section Layout
variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

theorem slab_apply {n0 n1 a b : ℕ} (w : (⟨4, ![n0, n1, a, b]⟩ : Shape).Idx → α)
    (off : Fin (⟨4, ![n0, n1, a, b]⟩ : Shape).rank → ℕ)
    (hs : (⟨4, ![n0, n1, a, b]⟩ : Shape).Slices off ⟨4, ![1, 1, a, b]⟩)
    (hc : (⟨4, ![1, 1, a, b]⟩ : Shape).ShapeCasts ⟨2, ![a, b]⟩)
    (h : Fin n0) (v : Fin n1) (e0 : off 0 = h.val) (e1 : off 1 = v.val) (e2 : off 2 = 0) (e3 : off 3 = 0)
    (i : Fin a) (j : Fin b) :
    shapeCast ⟨2, ![a, b]⟩ (extractStridedSlice ⟨4, ![1, 1, a, b]⟩ off w hs) hc (ix2 i j) = w (ix4 h v i j) := by
  rw [shapeCast_11ab_ab_apply]
  exact extractStridedSlice_apply off w hs _ (ix4 h v i j) (fun ax => match ax with
    | ⟨0, _⟩ => by show h.val = off 0 + 0; rw [e0, Nat.add_zero]
    | ⟨1, _⟩ => by show v.val = off 1 + 0; rw [e1, Nat.add_zero]
    | ⟨2, _⟩ => by show i.val = off 2 + i.val; rw [e2, Nat.zero_add]
    | ⟨3, _⟩ => by show j.val = off 3 + j.val; rw [e3, Nat.zero_add])

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (x : (⟨2, ![a, 1]⟩ : Shape).Idx → α) (h : (⟨2, ![a, 1]⟩ : Shape).Broadcasts ⟨2, ![a, b]⟩)
    (i : Fin a) (n : Fin b) : broadcastTo ⟨2, ![a, b]⟩ x h (ix2 i n) = x (ix2 i (0 : Fin 1)) := by
  refine broadcastTo_apply x h (ix2 i n) (ix2 i (0 : Fin 1)) fun ax => ?_
  match ax with
  | ⟨0, _⟩ =>
    show i.val = if a = 1 then 0 else i.val
    split
    · have := i.isLt; omega
    · rfl
  | ⟨1, _⟩ => rfl

theorem colBias_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (n : Fin b) :
    broadcastTo ⟨2, ![a, b]⟩ (shapeCast ⟨2, ![a, 1]⟩ x h1) h2 (ix2 i n) = x (ix1 i) := by
  rw [broadcastTo_a1_ab_apply, shapeCast_a_a1_apply]

theorem rowBcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (n : Fin b) :
    broadcastTo ⟨2, ![a, b]⟩ (shapeCast ⟨2, ![1, b]⟩ x h1) h2 (ix2 i n) = x (ix1 n) := by
  rw [broadcastTo_1b_ab_apply, shapeCast_a_1a_apply]

end Layout

theorem mmA_lhs_0 (i : S50x128.Idx) (q : dot_S50x20_S20x128_S50x128_1_0_0_1_n_n.contr.Idx) :
    (dot_S50x20_S20x128_S50x128_1_0_0_1_n_n.lhsIdx i q 0).val = (i 0).val := by
  unfold DotDims.lhsIdx
  rw [dif_neg (show ¬(0 : Fin S50x20.rank) ∈ dot_S50x20_S20x128_S50x128_1_0_0_1_n_n.lhsBatch by decide), dif_pos (show (0 : Fin S50x20.rank) ∈ dot_S50x20_S20x128_S50x128_1_0_0_1_n_n.lhsNonContracting by decide)]
  rfl
theorem mmA_lhs_1 (i : S50x128.Idx) (q : dot_S50x20_S20x128_S50x128_1_0_0_1_n_n.contr.Idx) :
    (dot_S50x20_S20x128_S50x128_1_0_0_1_n_n.lhsIdx i q 1).val = (q ⟨0, by decide⟩).val :=
  dot_S50x20_S20x128_S50x128_1_0_0_1_n_n.lhsIdx_val_of_single rfl i q
theorem mmA_rhs_0 (i : S50x128.Idx) (q : dot_S50x20_S20x128_S50x128_1_0_0_1_n_n.contr.Idx) :
    (dot_S50x20_S20x128_S50x128_1_0_0_1_n_n.rhsIdx i q 0).val = (q ⟨0, by decide⟩).val :=
  dot_S50x20_S20x128_S50x128_1_0_0_1_n_n.rhsIdx_val_of_single rfl i q
theorem mmA_rhs_1 (i : S50x128.Idx) (q : dot_S50x20_S20x128_S50x128_1_0_0_1_n_n.contr.Idx) :
    (dot_S50x20_S20x128_S50x128_1_0_0_1_n_n.rhsIdx i q 1).val = (i 1).val := by
  unfold DotDims.rhsIdx
  rw [dif_neg (show ¬(1 : Fin S20x128.rank) ∈ dot_S50x20_S20x128_S50x128_1_0_0_1_n_n.rhsBatch by decide), dif_pos (show (1 : Fin S20x128.rank) ∈ dot_S50x20_S20x128_S50x128_1_0_0_1_n_n.rhsNonContracting by decide)]
  rfl

theorem mmA_apply (W : FVec Ideal S50x20 .f32) (X : FVec Ideal S20x128 .f32) (j : Fin 50) (n : Fin 128) :
    matmul dot_S50x20_S20x128_S50x128_1_0_0_1_n_n (some .fp32) W X (constant (F := Ideal) S50x128 .f32 0x00000000#32) (ix2 j n)
      = ∑ c : Fin 20, W (ix2 j c) * X (ix2 c n) := by
  simp only [matmul]
  rw [Ideal.matmul_constant_zero_apply, ← Equiv.sum_comp (contrEquiv1 dot_S50x20_S20x128_S50x128_1_0_0_1_n_n 20 rfl rfl).symm]
  refine Finset.sum_congr rfl fun k _ => ?_
  have hk := contrEquiv1_symm_val dot_S50x20_S20x128_S50x128_1_0_0_1_n_n 20 rfl rfl k
  have el : dot_S50x20_S20x128_S50x128_1_0_0_1_n_n.lhsIdx (ix2 j n) ((contrEquiv1 dot_S50x20_S20x128_S50x128_1_0_0_1_n_n 20 rfl rfl).symm k) = ix2 j k := funext fun a => Fin.ext (by
    match a with
    | ⟨0, _⟩ => exact mmA_lhs_0 _ _
    | ⟨1, _⟩ => exact (mmA_lhs_1 _ _).trans hk)
  have er : dot_S50x20_S20x128_S50x128_1_0_0_1_n_n.rhsIdx (ix2 j n) ((contrEquiv1 dot_S50x20_S20x128_S50x128_1_0_0_1_n_n 20 rfl rfl).symm k) = ix2 k n := funext fun a => Fin.ext (by
    match a with
    | ⟨0, _⟩ => exact (mmA_rhs_0 _ _).trans hk
    | ⟨1, _⟩ => exact mmA_rhs_1 _ _)
  rw [el, er]

theorem mmB_lhs_0 (i : S10x128.Idx) (q : dot_S10x50_S50x128_S10x128_1_0_0_1_n_n.contr.Idx) :
    (dot_S10x50_S50x128_S10x128_1_0_0_1_n_n.lhsIdx i q 0).val = (i 0).val := by
  unfold DotDims.lhsIdx
  rw [dif_neg (show ¬(0 : Fin S10x50.rank) ∈ dot_S10x50_S50x128_S10x128_1_0_0_1_n_n.lhsBatch by decide), dif_pos (show (0 : Fin S10x50.rank) ∈ dot_S10x50_S50x128_S10x128_1_0_0_1_n_n.lhsNonContracting by decide)]
  rfl
theorem mmB_lhs_1 (i : S10x128.Idx) (q : dot_S10x50_S50x128_S10x128_1_0_0_1_n_n.contr.Idx) :
    (dot_S10x50_S50x128_S10x128_1_0_0_1_n_n.lhsIdx i q 1).val = (q ⟨0, by decide⟩).val :=
  dot_S10x50_S50x128_S10x128_1_0_0_1_n_n.lhsIdx_val_of_single rfl i q
theorem mmB_rhs_0 (i : S10x128.Idx) (q : dot_S10x50_S50x128_S10x128_1_0_0_1_n_n.contr.Idx) :
    (dot_S10x50_S50x128_S10x128_1_0_0_1_n_n.rhsIdx i q 0).val = (q ⟨0, by decide⟩).val :=
  dot_S10x50_S50x128_S10x128_1_0_0_1_n_n.rhsIdx_val_of_single rfl i q
theorem mmB_rhs_1 (i : S10x128.Idx) (q : dot_S10x50_S50x128_S10x128_1_0_0_1_n_n.contr.Idx) :
    (dot_S10x50_S50x128_S10x128_1_0_0_1_n_n.rhsIdx i q 1).val = (i 1).val := by
  unfold DotDims.rhsIdx
  rw [dif_neg (show ¬(1 : Fin S50x128.rank) ∈ dot_S10x50_S50x128_S10x128_1_0_0_1_n_n.rhsBatch by decide), dif_pos (show (1 : Fin S50x128.rank) ∈ dot_S10x50_S50x128_S10x128_1_0_0_1_n_n.rhsNonContracting by decide)]
  rfl

theorem mmB_apply (W : FVec Ideal S10x50 .f32) (X : FVec Ideal S50x128 .f32) (j : Fin 10) (n : Fin 128) :
    matmul dot_S10x50_S50x128_S10x128_1_0_0_1_n_n (some .fp32) W X (constant (F := Ideal) S10x128 .f32 0x00000000#32) (ix2 j n)
      = ∑ k : Fin 50, W (ix2 j k) * X (ix2 k n) := by
  simp only [matmul]
  rw [Ideal.matmul_constant_zero_apply, ← Equiv.sum_comp (contrEquiv1 dot_S10x50_S50x128_S10x128_1_0_0_1_n_n 50 rfl rfl).symm]
  refine Finset.sum_congr rfl fun k _ => ?_
  have hk := contrEquiv1_symm_val dot_S10x50_S50x128_S10x128_1_0_0_1_n_n 50 rfl rfl k
  have el : dot_S10x50_S50x128_S10x128_1_0_0_1_n_n.lhsIdx (ix2 j n) ((contrEquiv1 dot_S10x50_S50x128_S10x128_1_0_0_1_n_n 50 rfl rfl).symm k) = ix2 j k := funext fun a => Fin.ext (by
    match a with
    | ⟨0, _⟩ => exact mmB_lhs_0 _ _
    | ⟨1, _⟩ => exact (mmB_lhs_1 _ _).trans hk)
  have er : dot_S10x50_S50x128_S10x128_1_0_0_1_n_n.rhsIdx (ix2 j n) ((contrEquiv1 dot_S10x50_S50x128_S10x128_1_0_0_1_n_n 50 rfl rfl).symm k) = ix2 k n := funext fun a => Fin.ext (by
    match a with
    | ⟨0, _⟩ => exact (mmB_rhs_0 _ _).trans hk
    | ⟨1, _⟩ => exact mmB_rhs_1 _ _)
  rw [el, er]

/-- Pooled position and channel name the flattened position c·16 + h·4 + v, one to one. -/
def posEquiv : Fin 4 × Fin 4 × Fin 20 ≃ Fin 320 where
  toFun p := ⟨p.2.2.val * 16 + p.1.val * 4 + p.2.1.val, by
    have h1 := p.1.isLt; have h2 := p.2.1.isLt; have h3 := p.2.2.isLt; omega⟩
  invFun k := (hk k, vk k, ck k)
  left_inv p := by
    obtain ⟨h, v, c⟩ := p
    have h1 := h.isLt; have h2 := v.isLt; have h3 := c.isLt
    refine Prod.ext (Fin.ext ?_) (Prod.ext (Fin.ext ?_) (Fin.ext ?_))
    · show (c.val * 16 + h.val * 4 + v.val) % 16 / 4 = h.val; omega
    · show (c.val * 16 + h.val * 4 + v.val) % 4 = v.val; omega
    · show (c.val * 16 + h.val * 4 + v.val) / 16 = c.val; omega
  right_inv k := by
    refine Fin.ext ?_
    show k.val / 16 * 16 + k.val % 16 / 4 * 4 + k.val % 4 = k.val
    omega

theorem sum_flat_eq_triple (f : Fin 20 → Fin 4 → Fin 4 → EReal) :
    ∑ k : Fin 320, f (ck k) (hk k) (vk k) = ∑ h : Fin 4, ∑ v : Fin 4, ∑ c : Fin 20, f c h v := by
  have e := Equiv.sum_comp posEquiv.symm (fun p : Fin 4 × Fin 4 × Fin 20 => f p.2.2 p.1 p.2.1)
  rw [Fintype.sum_prod_type] at e
  simp only [Fintype.sum_prod_type] at e
  exact e

/-- The 320-term sum is sixteen 20-term sums, one per pooled position: addition is commutative and associative. -/
theorem sum_flat_eq_sixteen (f : Fin 20 → Fin 4 → Fin 4 → EReal) :
    ∑ k : Fin 320, f (ck k) (hk k) (vk k)
      = 0 + (∑ c, f c 0 0) + (∑ c, f c 0 1) + (∑ c, f c 0 2) + (∑ c, f c 0 3)
          + (∑ c, f c 1 0) + (∑ c, f c 1 1) + (∑ c, f c 1 2) + (∑ c, f c 1 3)
          + (∑ c, f c 2 0) + (∑ c, f c 2 1) + (∑ c, f c 2 2) + (∑ c, f c 2 3)
          + (∑ c, f c 3 0) + (∑ c, f c 3 1) + (∑ c, f c 3 2) + (∑ c, f c 3 3) := by
  rw [sum_flat_eq_triple]
  simp only [Fin.sum_univ_four, zero_add, add_assoc]

theorem off4_zero : (![0, 0, 0, 0] : Fin 4 → ℕ) = fun _ => 0 :=
  funext fun a => match a with | ⟨0, _⟩ => rfl | ⟨1, _⟩ => rfl | ⟨2, _⟩ => rfl | ⟨3, _⟩ => rfl
theorem off2_zero : (![0, 0] : Fin 2 → ℕ) = fun _ => 0 :=
  funext fun a => match a with | ⟨0, _⟩ => rfl | ⟨1, _⟩ => rfl
theorem off1_zero : (![0] : Fin 1 → ℕ) = fun _ => 0 :=
  funext fun a => match a with | ⟨0, _⟩ => rfl

theorem t45_apply (x5 : Vec Ideal S4x4x50x20 .f32) (i : S4x4x50x20.Idx) : t45 x5 i = x5 i := by
  unfold t45 k0_pay45
  simp only [shapeCast_self]
  rw [View.ld_unit_zero off4_zero]
theorem t46_apply (x6 : Vec Ideal S50 .f32) (i : S50.Idx) : t46 x6 i = x6 i := by
  unfold t46 k0_pay46
  simp only [shapeCast_self]
  rw [View.ld_unit_zero off1_zero]

theorem posTerm_apply (w : FVec Ideal S4x4x50x20 .f32) (q : FVec Ideal S4x4x20x128 .f32)
    (ow : Fin S4x4x50x20.rank → ℕ) (hw : S4x4x50x20.Slices ow S1x1x50x20)
    (oq : Fin S4x4x20x128.rank → ℕ) (hq : S4x4x20x128.Slices oq S1x1x20x128)
    (h v : Fin 4) (w0 : ow 0 = h.val) (w1 : ow 1 = v.val) (w2 : ow 2 = 0) (w3 : ow 3 = 0)
    (q0 : oq 0 = h.val) (q1 : oq 1 = v.val) (q2 : oq 2 = 0) (q3 : oq 3 = 0) (j : Fin 50) (n : Fin 128) :
    matmul dot_S50x20_S20x128_S50x128_1_0_0_1_n_n (some .fp32)
        (shapeCast S50x20 (extractStridedSlice S1x1x50x20 ow w hw) shapeCasts_S1x1x50x20_S50x20)
        (shapeCast S20x128 (extractStridedSlice S1x1x20x128 oq q hq) shapeCasts_S1x1x20x128_S20x128)
        (constant (F := Ideal) S50x128 .f32 0x00000000#32) (ix2 j n)
      = ∑ c : Fin 20, w (ix4 h v j c) * q (ix4 h v c n) := by
  rw [mmA_apply]
  refine Finset.sum_congr rfl fun c _ => ?_
  rw [slab_apply w ow hw _ h v w0 w1 w2 w3, slab_apply q oq hq _ h v q0 q1 q2 q3]

section Pointwise
variable {s : Shape} {φ : FTy}
theorem roundeven_apply (x : FVec Ideal s φ) (i : s.Idx) : roundeven x i = Ideal.liftRound Ideal.roundHalfEven (x i) := rfl
theorem exp_apply (x : FVec Ideal s φ) (i : s.Idx) : exp x i = Ideal.exp (x i) := rfl
theorem log_apply (x : FVec Ideal s φ) (i : s.Idx) : log x i = Ideal.log (x i) := rfl
end Pointwise

theorem lift_S10x128 (n : Fin 128) (i : Fin 10) : reduces_S10x128_S128.lift (ix1 n) i = ix2 i n :=
  funext fun a => Fin.ext (match a with | ⟨0, _⟩ => rfl | ⟨1, _⟩ => rfl)

theorem colMax_apply (z : FVec Ideal S10x128 .f32) (hφ : FKind.Formats .f32)
    (hacc : (0xFF800000#32 : BitVec 32) = 0xFF800000#32) (n : Fin 128) :
    multiReduction .maximumf [0] S128 z 0xFF800000#32 reduces_S10x128_S128 hφ hacc (ix1 n) = M (fun i => z (ix2 i n)) := by
  refine (Ideal.multiReduction_maximumf_single z 0xFF800000#32 reduces_S10x128_S128 hφ hacc (ix1 n)).trans ?_
  have e : (z ∘ reduces_S10x128_S128.lift (ix1 n)) = fun i : Fin 10 => z (ix2 i n) :=
    funext fun i => congrArg z (lift_S10x128 n i)
  rw [e]
  rfl

theorem colSum_apply (e : FVec Ideal S10x128 .f32) (hφ : FKind.Formats .f32)
    (hacc : (0x00000000#32 : BitVec 32) = 0x00000000#32) (n : Fin 128) :
    multiReduction .add [0] S128 e 0x00000000#32 reduces_S10x128_S128 hφ hacc (ix1 n) = ∑ i : Fin 10, e (ix2 i n) := by
  refine (Ideal.multiReduction_add_single e 0x00000000#32 reduces_S10x128_S128 hφ hacc (ix1 n)).trans ?_
  exact Finset.sum_congr rfl fun i _ => congrArg e (lift_S10x128 n i)

theorem Z_weight_first (a : Fin 50 → EReal) (w : Fin 10 → Fin 50 → EReal) (b : Fin 10 → EReal) :
    Z a w b = fun j => Cl ((∑ k : Fin 50, w j k * Q (max (Cl (a k)) 0)) + b j) := by
  funext j
  unfold Z
  exact congrArg (fun t => Cl (t + b j)) (Finset.sum_congr rfl fun k _ => mul_comm _ _)

end Dense

open Dense

variable (x5 : Vec Ideal S4x4x50x20 .f32) (x6 : Vec Ideal S50 .f32) (x7 : Vec Ideal S10x50 .f32) (x8 : Vec Ideal S10 .f32)
  (q : FVec Ideal S4x4x20x128 .f32) (a : FVec Ideal S50x128 .f32)

/-- The first dense layer before its clip, at an index. -/
theorem t49_read (j : Fin 50) (n : Fin 128) :
    t49 x5 x6 q (ix2 j n)
      = A1 (flat (fun c h v => q (ix4 h v c n))) (fun j k => x5 (ix4 (hk k) (vk k) j (ck k))) (fun j => x6 (ix1 j)) j := by
  unfold t49 t47 t48 k0_pay49 k0_pay47 k0_pay48
  simp only [addf_apply, broadcast_apply, colBias_apply,
    posTerm_apply (t45 x5) q ![0, 0, 0, 0] slices_S4x4x50x20_o0_0_0_0_S1x1x50x20 ![0, 0, 0, 0] slices_S4x4x20x128_o0_0_0_0_S1x1x20x128 0 0 rfl rfl rfl rfl rfl rfl rfl rfl j n,
    posTerm_apply (t45 x5) q ![0, 1, 0, 0] slices_S4x4x50x20_o0_1_0_0_S1x1x50x20 ![0, 1, 0, 0] slices_S4x4x20x128_o0_1_0_0_S1x1x20x128 0 1 rfl rfl rfl rfl rfl rfl rfl rfl j n,
    posTerm_apply (t45 x5) q ![0, 2, 0, 0] slices_S4x4x50x20_o0_2_0_0_S1x1x50x20 ![0, 2, 0, 0] slices_S4x4x20x128_o0_2_0_0_S1x1x20x128 0 2 rfl rfl rfl rfl rfl rfl rfl rfl j n,
    posTerm_apply (t45 x5) q ![0, 3, 0, 0] slices_S4x4x50x20_o0_3_0_0_S1x1x50x20 ![0, 3, 0, 0] slices_S4x4x20x128_o0_3_0_0_S1x1x20x128 0 3 rfl rfl rfl rfl rfl rfl rfl rfl j n,
    posTerm_apply (t45 x5) q ![1, 0, 0, 0] slices_S4x4x50x20_o1_0_0_0_S1x1x50x20 ![1, 0, 0, 0] slices_S4x4x20x128_o1_0_0_0_S1x1x20x128 1 0 rfl rfl rfl rfl rfl rfl rfl rfl j n,
    posTerm_apply (t45 x5) q ![1, 1, 0, 0] slices_S4x4x50x20_o1_1_0_0_S1x1x50x20 ![1, 1, 0, 0] slices_S4x4x20x128_o1_1_0_0_S1x1x20x128 1 1 rfl rfl rfl rfl rfl rfl rfl rfl j n,
    posTerm_apply (t45 x5) q ![1, 2, 0, 0] slices_S4x4x50x20_o1_2_0_0_S1x1x50x20 ![1, 2, 0, 0] slices_S4x4x20x128_o1_2_0_0_S1x1x20x128 1 2 rfl rfl rfl rfl rfl rfl rfl rfl j n,
    posTerm_apply (t45 x5) q ![1, 3, 0, 0] slices_S4x4x50x20_o1_3_0_0_S1x1x50x20 ![1, 3, 0, 0] slices_S4x4x20x128_o1_3_0_0_S1x1x20x128 1 3 rfl rfl rfl rfl rfl rfl rfl rfl j n,
    posTerm_apply (t45 x5) q ![2, 0, 0, 0] slices_S4x4x50x20_o2_0_0_0_S1x1x50x20 ![2, 0, 0, 0] slices_S4x4x20x128_o2_0_0_0_S1x1x20x128 2 0 rfl rfl rfl rfl rfl rfl rfl rfl j n,
    posTerm_apply (t45 x5) q ![2, 1, 0, 0] slices_S4x4x50x20_o2_1_0_0_S1x1x50x20 ![2, 1, 0, 0] slices_S4x4x20x128_o2_1_0_0_S1x1x20x128 2 1 rfl rfl rfl rfl rfl rfl rfl rfl j n,
    posTerm_apply (t45 x5) q ![2, 2, 0, 0] slices_S4x4x50x20_o2_2_0_0_S1x1x50x20 ![2, 2, 0, 0] slices_S4x4x20x128_o2_2_0_0_S1x1x20x128 2 2 rfl rfl rfl rfl rfl rfl rfl rfl j n,
    posTerm_apply (t45 x5) q ![2, 3, 0, 0] slices_S4x4x50x20_o2_3_0_0_S1x1x50x20 ![2, 3, 0, 0] slices_S4x4x20x128_o2_3_0_0_S1x1x20x128 2 3 rfl rfl rfl rfl rfl rfl rfl rfl j n,
    posTerm_apply (t45 x5) q ![3, 0, 0, 0] slices_S4x4x50x20_o3_0_0_0_S1x1x50x20 ![3, 0, 0, 0] slices_S4x4x20x128_o3_0_0_0_S1x1x20x128 3 0 rfl rfl rfl rfl rfl rfl rfl rfl j n,
    posTerm_apply (t45 x5) q ![3, 1, 0, 0] slices_S4x4x50x20_o3_1_0_0_S1x1x50x20 ![3, 1, 0, 0] slices_S4x4x20x128_o3_1_0_0_S1x1x20x128 3 1 rfl rfl rfl rfl rfl rfl rfl rfl j n,
    posTerm_apply (t45 x5) q ![3, 2, 0, 0] slices_S4x4x50x20_o3_2_0_0_S1x1x50x20 ![3, 2, 0, 0] slices_S4x4x20x128_o3_2_0_0_S1x1x20x128 3 2 rfl rfl rfl rfl rfl rfl rfl rfl j n,
    posTerm_apply (t45 x5) q ![3, 3, 0, 0] slices_S4x4x50x20_o3_3_0_0_S1x1x50x20 ![3, 3, 0, 0] slices_S4x4x20x128_o3_3_0_0_S1x1x20x128 3 3 rfl rfl rfl rfl rfl rfl rfl rfl j n]
  simp only [t45_apply, t46_apply, Ideal.ofBits_def, Ideal.ofBits_zero_f32]
  have hs : ∑ k : Fin 320, q (ix4 (hk k) (vk k) (ck k) n) * x5 (ix4 (hk k) (vk k) j (ck k))
      = ∑ k : Fin 320, x5 (ix4 (hk k) (vk k) j (ck k)) * q (ix4 (hk k) (vk k) (ck k) n) :=
    Finset.sum_congr rfl fun k _ => mul_comm _ _
  show _ = (∑ k : Fin 320, q (ix4 (hk k) (vk k) (ck k) n) * x5 (ix4 (hk k) (vk k) j (ck k))) + x6 (ix1 j)
  rw [hs, sum_flat_eq_sixteen (fun c h v => x5 (ix4 h v j c) * q (ix4 h v c n))]

/-- The log-softmax of the second dense layer, at an index. -/
theorem t1_read (j : Fin 10) (n : Fin 128) :
    t1 x7 x8 a (ix2 j n) = LS (Z (fun k => a (ix2 k n)) (fun j k => x7 (ix2 j k)) (fun j => x8 (ix1 j))) j := by
  rw [Z_weight_first]
  unfold t1 t51 t50 k0_pay1 k0_pay51 k0_pay50
  simp only [subf_apply, broadcastTo_1b_ab_apply, log_apply, shapeCast_a_1a_apply, exp_apply, rowBcast_apply,
    minimumf_apply, maximumf_apply, addf_apply, mmB_apply, colBias_apply, mulf_apply, roundeven_apply,
    divf_apply, broadcast_apply, shapeCast_self, View.ld_unit_zero (S := S10x50) off2_zero, View.ld_unit_zero (S := S10) off1_zero,
    Ideal.ofBits_def, Ideal.ofBits_zero_f32]
  rw [colMax_apply, colSum_apply]
  simp only [subf_apply, broadcastTo_1b_ab_apply, log_apply, shapeCast_a_1a_apply, exp_apply, rowBcast_apply,
    minimumf_apply, maximumf_apply, addf_apply, mmB_apply, colBias_apply, mulf_apply, roundeven_apply,
    divf_apply, broadcast_apply, shapeCast_self, View.ld_unit_zero (S := S10x50) off2_zero, View.ld_unit_zero (S := S10) off1_zero,
    Ideal.ofBits_def, Ideal.ofBits_zero_f32]
  rw [colMax_apply]
  simp only [subf_apply, broadcastTo_1b_ab_apply, log_apply, shapeCast_a_1a_apply, exp_apply, rowBcast_apply,
    minimumf_apply, maximumf_apply, addf_apply, mmB_apply, colBias_apply, mulf_apply, roundeven_apply,
    divf_apply, broadcast_apply, shapeCast_self, View.ld_unit_zero (S := S10x50) off2_zero, View.ld_unit_zero (S := S10) off1_zero,
    Ideal.ofBits_def, Ideal.ofBits_zero_f32]
  simp only [LS, Cl, Q, lo, hi, step]

end Cert.KernelIdeal.KV

end
-- ==== Proof.KPayload.lean ====
import proofs.«413587_j61040075211437_3_alg».proof.Proof.KConv1
import proofs.«413587_j61040075211437_3_alg».proof.Proof.KConv2
import proofs.«413587_j61040075211437_3_alg».proof.Proof.KDense

noncomputable section

namespace Cert.KernelIdeal.KV

open Idealize.ShloMosaic Idealize.ShloMosaic.TcCoe Idealize.ShloMosaic.ValueIdx Cert.KernelIdeal Cert.KernelIdeal.Gen Cert.QNet

variable (x0 : Vec Ideal S28x28x1x128 .f32) (x1 : Vec Ideal S10x1x5x5 .f32) (x2 : Vec Ideal S10 .f32)
  (x3 : Vec Ideal S20x10x5x5 .f32) (x4 : Vec Ideal S20 .f32) (x5 : Vec Ideal S4x4x50x20 .f32)
  (x6 : Vec Ideal S50 .f32) (x7 : Vec Ideal S10x50 .f32) (x8 : Vec Ideal S10 .f32)

/-- The network on the image in lane n, with the weights as the blocks hold them. -/
def blockNet (n : Fin 128) : Fin 10 → EReal :=
  LS (Z (A1 (flat (P2q (C2 (P1 (C1 (fun a b => Q (x0 (ix4 a b 0 n))) (fun j u w => x1 (ix4 j 0 u w)) (fun j => x2 (ix1 j))))
              (fun j c u w => x3 (ix4 j c u w)) (fun j => x4 (ix1 j)))))
            (fun j k => x5 (ix4 (hk k) (vk k) j (ck k))) (fun j => x6 (ix1 j)))
        (fun j k => x7 (ix2 j k)) (fun j => x8 (ix1 j)))

/-- What a grid point stores at (j, n) is that network's class-j output. -/
theorem tOut_read (j : Fin 10) (n : Fin 128) :
    tOut x0 x1 x2 x3 x4 x5 x6 x7 x8 (ix2 j n) = blockNet x0 x1 x2 x3 x4 x5 x6 x7 x8 n j := by
  unfold tOut blockNet
  rw [t1_read]
  simp only [t49_read, t44_read x3 x4 _ _ (t26_read x0 x1 x2), t22_read]

end Cert.KernelIdeal.KV

end
-- ==== Proof.KHost.lean ====
import proofs.«413587_j61040075211437_3_alg».proof.Proof.KTerm
import Idealize.ShloMosaic.Lib.Pipeline.Value
import Idealize.ShloMosaic.Lib.ValueLayout
import Idealize.ShloMosaic.Lib.StableHlo.Run

noncomputable section

namespace Cert.KernelIdeal.KV

open Idealize.ShloMosaic Idealize.ShloMosaic.TcCoe Idealize.ShloMosaic.ValueIdx Idealize.SL.Sem Cert.KernelIdeal Cert.KernelIdeal.Gen Cert.QNet

variable (m : (ℓ : Loc nD τ sig) → Buf (Elt Ideal) ℓ) (c : Dev nD) (t : Fin cfg0.N)

abbrev b0 : Vec Ideal S28x28x1x128 .f32 := iblk m c 0 t
abbrev b1 : Vec Ideal S10x1x5x5 .f32 := iblk m c 1 t
abbrev b2 : Vec Ideal S10 .f32 := iblk m c 2 t
abbrev b3 : Vec Ideal S20x10x5x5 .f32 := iblk m c 3 t
abbrev b4 : Vec Ideal S20 .f32 := iblk m c 4 t
abbrev b5 : Vec Ideal S4x4x50x20 .f32 := iblk m c 5 t
abbrev b6 : Vec Ideal S50 .f32 := iblk m c 6 t
abbrev b7 : Vec Ideal S10x50 .f32 := iblk m c 7 t
abbrev b8 : Vec Ideal S10 .f32 := iblk m c 8 t

abbrev a0 : FVec Ideal S1024x1x28x28 .f32 := m ((c.tc : Thread nD τ).loc main_arg0)
abbrev a1 : FVec Ideal S10x1x5x5 .f32 := m ((c.tc : Thread nD τ).loc main_arg1)
abbrev a2 : FVec Ideal S10 .f32 := m ((c.tc : Thread nD τ).loc main_arg2)
abbrev a3 : FVec Ideal S20x10x5x5 .f32 := m ((c.tc : Thread nD τ).loc main_arg3)
abbrev a4 : FVec Ideal S20 .f32 := m ((c.tc : Thread nD τ).loc main_arg4)
abbrev a5 : FVec Ideal S50x320 .f32 := m ((c.tc : Thread nD τ).loc main_arg5)
abbrev a6 : FVec Ideal S50 .f32 := m ((c.tc : Thread nD τ).loc main_arg6)
abbrev a7 : FVec Ideal S10x50 .f32 := m ((c.tc : Thread nD τ).loc main_arg7)
abbrev a8 : FVec Ideal S10 .f32 := m ((c.tc : Thread nD τ).loc main_arg8)

/-- Image 128·t + n of the batch. -/
def img (t : Fin cfg0.N) (n : Fin 128) : Fin 1024 := ⟨128 * t.val + n.val, by have := t.isLt; have : cfg0.N = 8 := rfl; omega⟩

/-- Flattened position c·16 + h·4 + v. -/
def pos (h v : Fin 4) (ch : Fin 20) : Fin 320 := ⟨ch.val * 16 + h.val * 4 + v.val, by omega⟩

def qArr {s : Shape} (h : S_.BroadcastsInDim s (![] : Fin 0 → Fin s.rank)) (x : FVec Ideal s .f32) : FVec Ideal s .f32 :=
  mulf (Host.roundeven (Host.divf x (broadcastInDim s ![] h (constant (F := Ideal) S_ .f32 0x3B800000#32))))
    (broadcastInDim s ![] h (constant (F := Ideal) S_ .f32 0x3B800000#32))

def clArr {s : Shape} (h : S_.BroadcastsInDim s (![] : Fin 0 → Fin s.rank)) (y : FVec Ideal s .f32) : FVec Ideal s .f32 :=
  minimumf (broadcastInDim s ![] h (constant (F := Ideal) S_ .f32 0x437F0000#32))
    (maximumf (broadcastInDim s ![] h (constant (F := Ideal) S_ .f32 0xC3800000#32)) y)

theorem qArr_apply {s : Shape} (h : S_.BroadcastsInDim s (![] : Fin 0 → Fin s.rank)) (x : FVec Ideal s .f32) (i : s.Idx) :
    qArr h x i = Q (x i) := rfl

theorem clArr_apply {s : Shape} (h : S_.BroadcastsInDim s (![] : Fin 0 → Fin s.rank)) (y : FVec Ideal s .f32) (i : s.Idx) :
    clArr h y i = Cl (y i) := rfl

theorem V0_eq : (V m c main_v0 : S28x28x1x1024.Idx → EReal) =
    transpose S28x28x1x1024 [2, 3, 1, 0] (a0 m c) transposes_S1024x1x28x28_S28x28x1x1024_2_3_1_0 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp

theorem V5_eq : (V m c main_v5 : S10x1x5x5.Idx → EReal) = qArr bcast_S_S10x1x5x5 (a1 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V10_eq : (V m c main_v10 : S10.Idx → EReal) = qArr bcast_S_S10 (a2 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V15_eq : (V m c main_v15 : S20x10x5x5.Idx → EReal) = qArr bcast_S_S20x10x5x5 (a3 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V20_eq : (V m c main_v20 : S20.Idx → EReal) = qArr bcast_S_S20 (a4 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V46_eq : (V m c main_v46 : S4x4x50x20.Idx → EReal) =
    transpose S4x4x50x20 [2, 3, 0, 1]
      (shapeCast S50x20x4x4 (clArr bcast_S_S50x320 (qArr bcast_S_S50x320 (a5 m c))) shapeCasts_S50x320_S50x20x4x4)
      transposes_S50x20x4x4_S4x4x50x20_2_3_0_1 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V32_eq : (V m c main_v32 : S50.Idx → EReal) = clArr bcast_S_S50 (qArr bcast_S_S50 (a6 m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V38_eq : (V m c main_v38 : S10x50.Idx → EReal) = clArr bcast_S_S10x50 (qArr bcast_S_S10x50 (a7 m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem V44_eq : (V m c main_v44 : S10.Idx → EReal) = clArr bcast_S_S10 (qArr bcast_S_S10 (a8 m c)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, Gen.hostOps0_20, Gen.hostOps0_21, Gen.hostOps0_22, Gen.hostOps0_23, Gen.hostOps0_24, List.flatten_cons, List.flatten_nil, List.append_nil, List.cons_append, List.nil_append]
  after_results_simp
  rfl

theorem idx0 : ∀ t : Fin cfg0.N, win0_0.index t (0 : Fin 4) = 0 ∧ win0_0.index t (1 : Fin 4) = 0
    ∧ win0_0.index t (2 : Fin 4) = 0 ∧ win0_0.index t (3 : Fin 4) = t.val :=
  (by decide : ∀ t : Fin grid0.N, _)

theorem read0 (A : S28x28x1x1024.Idx → EReal) (r s : Fin 28) (n : Fin 128) :
    ((cfg0.win 0).blk t).view.read (Elt Ideal) A (ix4 r s 0 n) = A (ix4 r s 0 (img t n)) := by
  show A (((cfg0.win 0).blk t).view.emb (ix4 r s 0 n)) = _
  obtain ⟨e0, e1, e2, e3⟩ := idx0 t
  refine congrArg A (funext fun a => Fin.ext ?_)
  match a with
  | ⟨0, _⟩ => show win0_0.index t (0 : Fin 4) * 28 + 1 * r.val = r.val; omega
  | ⟨1, _⟩ => show win0_0.index t (1 : Fin 4) * 28 + 1 * s.val = s.val; omega
  | ⟨2, _⟩ => show win0_0.index t (2 : Fin 4) * 1 + 1 * 0 = 0; omega
  | ⟨3, _⟩ => show win0_0.index t (3 : Fin 4) * 128 + 1 * n.val = 128 * t.val + n.val; omega

theorem read1 (A : S10x1x5x5.Idx → EReal) (i : S10x1x5x5.Idx) :
    ((cfg0.win 1).blk t).view.read (Elt Ideal) A i = A i := by
  show A (((cfg0.win 1).blk t).view.emb i) = _
  refine congrArg A (funext fun a => Fin.ext ?_)
  match a with
  | ⟨0, _⟩ => show 0 * 10 + 1 * (i 0).val = (i 0).val; omega
  | ⟨1, _⟩ => show 0 * 1 + 1 * (i 1).val = (i 1).val; omega
  | ⟨2, _⟩ => show 0 * 5 + 1 * (i 2).val = (i 2).val; omega
  | ⟨3, _⟩ => show 0 * 5 + 1 * (i 3).val = (i 3).val; omega

theorem read2 (A : S10.Idx → EReal) (i : S10.Idx) :
    ((cfg0.win 2).blk t).view.read (Elt Ideal) A i = A i := by
  show A (((cfg0.win 2).blk t).view.emb i) = _
  refine congrArg A (funext fun a => Fin.ext ?_)
  match a with
  | ⟨0, _⟩ => show 0 * 10 + 1 * (i 0).val = (i 0).val; omega

theorem read3 (A : S20x10x5x5.Idx → EReal) (i : S20x10x5x5.Idx) :
    ((cfg0.win 3).blk t).view.read (Elt Ideal) A i = A i := by
  show A (((cfg0.win 3).blk t).view.emb i) = _
  refine congrArg A (funext fun a => Fin.ext ?_)
  match a with
  | ⟨0, _⟩ => show 0 * 20 + 1 * (i 0).val = (i 0).val; omega
  | ⟨1, _⟩ => show 0 * 10 + 1 * (i 1).val = (i 1).val; omega
  | ⟨2, _⟩ => show 0 * 5 + 1 * (i 2).val = (i 2).val; omega
  | ⟨3, _⟩ => show 0 * 5 + 1 * (i 3).val = (i 3).val; omega

theorem read4 (A : S20.Idx → EReal) (i : S20.Idx) :
    ((cfg0.win 4).blk t).view.read (Elt Ideal) A i = A i := by
  show A (((cfg0.win 4).blk t).view.emb i) = _
  refine congrArg A (funext fun a => Fin.ext ?_)
  match a with
  | ⟨0, _⟩ => show 0 * 20 + 1 * (i 0).val = (i 0).val; omega

theorem read5 (A : S4x4x50x20.Idx → EReal) (i : S4x4x50x20.Idx) :
    ((cfg0.win 5).blk t).view.read (Elt Ideal) A i = A i := by
  show A (((cfg0.win 5).blk t).view.emb i) = _
  refine congrArg A (funext fun a => Fin.ext ?_)
  match a with
  | ⟨0, _⟩ => show 0 * 4 + 1 * (i 0).val = (i 0).val; omega
  | ⟨1, _⟩ => show 0 * 4 + 1 * (i 1).val = (i 1).val; omega
  | ⟨2, _⟩ => show 0 * 50 + 1 * (i 2).val = (i 2).val; omega
  | ⟨3, _⟩ => show 0 * 20 + 1 * (i 3).val = (i 3).val; omega

theorem read6 (A : S50.Idx → EReal) (i : S50.Idx) :
    ((cfg0.win 6).blk t).view.read (Elt Ideal) A i = A i := by
  show A (((cfg0.win 6).blk t).view.emb i) = _
  refine congrArg A (funext fun a => Fin.ext ?_)
  match a with
  | ⟨0, _⟩ => show 0 * 50 + 1 * (i 0).val = (i 0).val; omega

theorem read7 (A : S10x50.Idx → EReal) (i : S10x50.Idx) :
    ((cfg0.win 7).blk t).view.read (Elt Ideal) A i = A i := by
  show A (((cfg0.win 7).blk t).view.emb i) = _
  refine congrArg A (funext fun a => Fin.ext ?_)
  match a with
  | ⟨0, _⟩ => show 0 * 10 + 1 * (i 0).val = (i 0).val; omega
  | ⟨1, _⟩ => show 0 * 50 + 1 * (i 1).val = (i 1).val; omega

theorem read8 (A : S10.Idx → EReal) (i : S10.Idx) :
    ((cfg0.win 8).blk t).view.read (Elt Ideal) A i = A i := by
  show A (((cfg0.win 8).blk t).view.emb i) = _
  refine congrArg A (funext fun a => Fin.ext ?_)
  match a with
  | ⟨0, _⟩ => show 0 * 10 + 1 * (i 0).val = (i 0).val; omega

/-- Lane n of the image block at point t is image 128·t + n; the other blocks are the rounded (and for the dense layers clipped) parameters. -/
theorem blk0 (r s : Fin 28) (n : Fin 128) : b0 m c t (ix4 r s 0 n) = a0 m c (ix4 (img t n) 0 r s) :=
  (read0 t (V m c main_v0) r s n).trans ((congrFun (V0_eq m c) _).trans
    (transpose_apply _ _ _ (ix4 r s 0 (img t n)) (ix4 (img t n) 0 r s)
      fun b => match b with | ⟨0, _⟩ => rfl | ⟨1, _⟩ => rfl | ⟨2, _⟩ => rfl | ⟨3, _⟩ => rfl))
theorem blk1 (j : Fin 10) (u w : Fin 5) : b1 m c t (ix4 j 0 u w) = Q (a1 m c (ix4 j 0 u w)) :=
  (read1 t (V m c main_v5) _).trans ((congrFun (V5_eq m c) _).trans (qArr_apply _ _ _))
theorem blk2 (j : Fin 10) : b2 m c t (ix1 j) = Q (a2 m c (ix1 j)) :=
  (read2 t (V m c main_v10) _).trans ((congrFun (V10_eq m c) _).trans (qArr_apply _ _ _))
theorem blk3 (j : Fin 20) (ch : Fin 10) (u w : Fin 5) : b3 m c t (ix4 j ch u w) = Q (a3 m c (ix4 j ch u w)) :=
  (read3 t (V m c main_v15) _).trans ((congrFun (V15_eq m c) _).trans (qArr_apply _ _ _))
theorem blk4 (j : Fin 20) : b4 m c t (ix1 j) = Q (a4 m c (ix1 j)) :=
  (read4 t (V m c main_v20) _).trans ((congrFun (V20_eq m c) _).trans (qArr_apply _ _ _))
theorem blk5 (h v : Fin 4) (j : Fin 50) (ch : Fin 20) : b5 m c t (ix4 h v j ch) = Cl (Q (a5 m c (ix2 j (pos h v ch)))) := by
  refine (read5 t (V m c main_v46) _).trans ((congrFun (V46_eq m c) _).trans ?_)
  refine (transpose_apply _ _ _ (ix4 h v j ch) (ix4 j ch h v)
    fun b => match b with | ⟨0, _⟩ => rfl | ⟨1, _⟩ => rfl | ⟨2, _⟩ => rfl | ⟨3, _⟩ => rfl).trans ?_
  refine (shapeCast_apply _ _ (ix4 j ch h v) (ix2 j (pos h v ch)) ?_).trans ?_
  · rw [Shape.rowMajor_val_two, Shape.rowMajor_val_four]
    show j.val * 320 + (ch.val * 16 + h.val * 4 + v.val) = ((j.val * 20 + ch.val) * 4 + h.val) * 4 + v.val
    omega
  · rw [clArr_apply, qArr_apply]
theorem blk6 (j : Fin 50) : b6 m c t (ix1 j) = Cl (Q (a6 m c (ix1 j))) :=
  (read6 t (V m c main_v32) _).trans ((congrFun (V32_eq m c) _).trans ((clArr_apply _ _ _).trans (congrArg Cl (qArr_apply _ _ _))))
theorem blk7 (j : Fin 10) (k : Fin 50) : b7 m c t (ix2 j k) = Cl (Q (a7 m c (ix2 j k))) :=
  (read7 t (V m c main_v38) _).trans ((congrFun (V38_eq m c) _).trans ((clArr_apply _ _ _).trans (congrArg Cl (qArr_apply _ _ _))))
theorem blk8 (j : Fin 10) : b8 m c t (ix1 j) = Cl (Q (a8 m c (ix1 j))) :=
  (read8 t (V m c main_v44) _).trans ((congrFun (V44_eq m c) _).trans ((clArr_apply _ _ _).trans (congrArg Cl (qArr_apply _ _ _))))

end Cert.KernelIdeal.KV

end
-- ==== Proof.KRun.lean ====
import proofs.«413587_j61040075211437_3_alg».proof.Proof.KPayload
import proofs.«413587_j61040075211437_3_alg».proof.Proof.KHost
import Idealize.ShloMosaic.Lib.Pipeline.Value
import Idealize.ShloMosaic.Lib.ValueLayout
import Idealize.ShloMosaic.Lib.StableHlo.Run

noncomputable section

namespace Cert.KernelIdeal.KV

open Idealize.ShloMosaic Idealize.ShloMosaic.TcCoe Idealize.ShloMosaic.ValueIdx Idealize.SL.Sem Cert.KernelIdeal Cert.KernelIdeal.Gen Cert.QNet

variable (m : (ℓ : Loc nD τ sig) → Buf (Elt Ideal) ℓ) (ρ : Dev nD → PrngReg)

theorem hz : (![0, 0] : Fin 2 → Nat) = fun _ => 0 := funext fun a => by fin_cases a <;> rfl

theorem pos_flat (k : Fin 320) : pos (hk k) (vk k) (ck k) = k := by
  apply Fin.ext
  show k.val / 16 * 16 + k.val % 16 / 4 * 4 + k.val % 4 = k.val
  omega

/-- The call's result array (class, image): column i is the network on image i. -/
def K (c : Dev nD) : FVec Ideal S10x1024 .f32 := fun i =>
  G (a0 m c) (a1 m c) (a2 m c) (a3 m c) (a4 m c) (a5 m c) (a6 m c) (a7 m c) (a8 m c) (ix2 (i 1) (i 0))

/-- What point t stores at (j, n) is the network's class-j output on image 128·t + n. -/
theorem point_eq (c : Dev nD) (t : Fin cfg0.N) (j : Fin 10) (n : Fin 128) :
    tOut (b0 m c t) (b1 m c t) (b2 m c t) (b3 m c t) (b4 m c t) (b5 m c t) (b6 m c t) (b7 m c t) (b8 m c t) (ix2 j n)
      = K m c (ix2 j (img t n)) := by
  rw [tOut_read]
  unfold blockNet K G Net
  simp only [blk0, blk1, blk2, blk3, blk4, blk5, blk6, blk7, blk8, pos_flat]

theorem idx9 : ∀ t : Fin cfg0.N, win0_9.index t (0 : Fin 2) = 0 ∧ win0_9.index t (1 : Fin 2) = t.val :=
  (by decide +kernel : ∀ t : Fin grid0.N, win0_9.index t (0 : Fin 2) = 0 ∧ win0_9.index t (1 : Fin 2) = t.val)

/-- Grid point t's block of the result is block t of K. -/
theorem flushed_eq (c : Dev nD) (t : Fin cfg0.N) :
    (dats m 0 c).flushed 9 t = ((cfg0.win 9).blk t).view.read (Elt Ideal) (K m c) := by
  show (cfg0.win 9).cut (grid0.coords t) ((dats m 0 c).after 9 t) = _
  rw [after0_9, out_eq]
  rw [View.canon_unit_zero hz]
  funext y
  obtain ⟨j, n, rfl⟩ : ∃ (j : Fin 10) (n : Fin 128), y = ix2 j n := ⟨y 0, y 1, eq_ix2 y⟩
  show tOut (b0 m c t) (b1 m c t) (b2 m c t) (b3 m c t) (b4 m c t) (b5 m c t) (b6 m c t) (b7 m c t) (b8 m c t) (ix2 j n)
    = K m c (((cfg0.win 9).blk t).view.emb (ix2 j n))
  rw [point_eq]
  obtain ⟨e0, e1⟩ := idx9 t
  refine congrArg (K m c) (funext fun a => Fin.ext ?_)
  match a with
  | ⟨0, _⟩ => show j.val = win0_9.index t (0 : Fin 2) * 10 + 1 * j.val; rw [e0]; omega
  | ⟨1, _⟩ => show 128 * t.val + n.val = win0_9.index t (1 : Fin 2) * 128 + 1 * n.val; rw [e1]; omega

theorem mem_blk (t : Fin cfg0.N) (i : S10x1024.Idx) :
    i ∈ ((cfg0.win 9).blk t).view.set ↔ ∀ a : Fin 2, win0_9.index t a * S10x128.size a ≤ (i a).val ∧ (i a).val < win0_9.index t a * S10x128.size a + S10x128.size a := by
  show i ∈ ((View.whole main_v47).slice (win0_9.rect t)).set ↔ _
  rw [View.set_slice_whole, Rect.mem_set_unit]
  exact Iff.rfl

/-- Column i lies in the block of point i / 128. -/
theorem cover (i : S10x1024.Idx) :
    ∃ t : Fin cfg0.N, (cfg0.win 9).flush t = true ∧ i ∈ ((cfg0.win 9).blk t).view.set := by
  have h0 : (i 0).val < 10 := (i 0).isLt
  have h1 : (i 1).val < 1024 := (i 1).isLt
  have hN : cfg0.N = 8 := N_0
  refine ⟨⟨(i 1).val / 128, by rw [hN]; omega⟩, flush0_9 _, ?_⟩
  rw [mem_blk]
  obtain ⟨e0, e1⟩ := idx9 ⟨(i 1).val / 128, by rw [hN]; omega⟩
  intro a
  match a with
  | ⟨0, _⟩ =>
    show win0_9.index _ (0 : Fin 2) * 10 ≤ (i 0).val ∧ (i 0).val < win0_9.index _ (0 : Fin 2) * 10 + 10
    rw [e0]; omega
  | ⟨1, _⟩ =>
    show win0_9.index _ (1 : Fin 2) * 128 ≤ (i 1).val ∧ (i 1).val < win0_9.index _ (1 : Fin 2) * 128 + 128
    rw [e1]; show (i 1).val / 128 * 128 ≤ (i 1).val ∧ (i 1).val < (i 1).val / 128 * 128 + 128; omega

/-- After the eight points the result array is K: the blocks tile it. -/
theorem final (c : Dev nD) : (dats m 0 c).arrAt 9 cfg0.N = K m c :=
  (dats m 0 c).arrAt_eq_of_cover 9 (K m c) (fun t _ => flushed_eq m c t) cover

/-- The transposition after the call turns (class, image) into (image, class). -/
theorem result_eq (c : Dev nD) :
    Pipeline.afterTail₀ cfgs (dats m) 0 (V0 m) [hostOps1] c main_v48
      = G (a0 m c) (a1 m c) (a2 m c) (a3 m c) (a4 m c) (a5 m c) (a6 m c) (a7 m c) (a8 m c) := by
  unfold Pipeline.afterTail₀
  show StableHlo.after hostOps1 _ (Proc.devRef .tc main_v48) = _
  after_results
  rw [show Pipeline.withArrays (cfgs 0).spec c (V0 m c) (fun w => (dats m 0 c).arrAt w (cfgs 0).N) (Proc.tc.devRef main_v47) = K m c from
    (Pipeline.withArrays_arr spec0 launch0.win.arr_inj c _ _ 9).trans (final m c)]
  funext i
  obtain ⟨b, j, rfl⟩ : ∃ (b : Fin 1024) (j : Fin 10), i = ix2 b j := ⟨i 0, i 1, eq_ix2 i⟩
  exact transpose_apply _ _ _ (ix2 b j) (ix2 j b) (fun a => match a with | ⟨0, _⟩ => rfl | ⟨1, _⟩ => rfl)

/-- From the frame's run: the result array is K by `final`, and the transposition makes it G. -/
theorem run : θ_run (defs (F := Ideal)) (onTc (τ := τ) (main (F := Ideal))) ⟨m, fun _ => 0, ρ⟩ (fun r => ∀ c : Dev nD,
      r.2.mem ((c.tc : Thread nD τ).loc main_v48) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  exact (θ_run defs _ _).mono (fun r h c =>
    ⟨((h c).2 main_v48 (Pipeline.mem_restRefs_of main_v48 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.KV

end
-- ==== Proof.RunOps0.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 0 of @main as a list of host operations (a called function's operations stand in its call's place). -/
abbrev ops0 : List (HloOp τ sig (Elt F)) :=
  [ nullary main_cst (constant S_ .f32 0x3B800000#32),
    unary main_cst main_v0 (broadcastInDim S1024x1x28x28 ![] bcast_S_S1024x1x28x28 : (⟨S_, .f32⟩ : BufTy).Contents (Elt F) → (⟨S1024x1x28x28, .f32⟩ : BufTy).Contents (Elt F)),
    binary main_arg0 main_v0 main_v1 (Host.divf : (⟨S1024x1x28x28, .f32⟩ : BufTy).Contents (Elt F) → (⟨S1024x1x28x28, .f32⟩ : BufTy).Contents (Elt F) → (⟨S1024x1x28x28, .f32⟩ : BufTy).Contents (Elt F)),
    TRef.unary (TRef.of (T := ⟨S1024x1x28x28, .f32⟩) main_v1) (TRef.of (T := ⟨S1024x1x28x28, .f32⟩) main_v2) Host.roundeven,
    nullary main_cst_0 (constant S_ .f32 0x3B800000#32),
    unary main_cst_0 main_v3 (broadcastInDim S1024x1x28x28 ![] bcast_S_S1024x1x28x28 : (⟨S_, .f32⟩ : BufTy).Contents (Elt F) → (⟨S1024x1x28x28, .f32⟩ : BufTy).Contents (Elt F)),
    binary main_v2 main_v3 main_v4 (mulf : (⟨S1024x1x28x28, .f32⟩ : BufTy).Contents (Elt F) → (⟨S1024x1x28x28, .f32⟩ : BufTy).Contents (Elt F) → (⟨S1024x1x28x28, .f32⟩ : BufTy).Contents (Elt F)),
    nullary main_cst_1 (constant S_ .f32 0x3B800000#32),
    unary main_cst_1 main_v5 (broadcastInDim S10x1x5x5 ![] bcast_S_S10x1x5x5 : (⟨S_, .f32⟩ : BufTy).Contents (Elt F) → (⟨S10x1x5x5, .f32⟩ : BufTy).Contents (Elt F)),
    binary main_arg1 main_v5 main_v6 (Host.divf : (⟨S10x1x5x5, .f32⟩ : BufTy).Contents (Elt F) → (⟨S10x1x5x5, .f32⟩ : BufTy).Contents (Elt F) → (⟨S10x1x5x5, .f32⟩ : BufTy).Contents (Elt F)),
    TRef.unary (TRef.of (T := ⟨S10x1x5x5, .f32⟩) main_v6) (TRef.of (T := ⟨S10x1x5x5, .f32⟩) main_v7) Host.roundeven,
    nullary main_cst_2 (constant S_ .f32 0x3B800000#32),
    unary main_cst_2 main_v8 (broadcastInDim S10x1x5x5 ![] bcast_S_S10x1x5x5 : (⟨S_, .f32⟩ : BufTy).Contents (Elt F) → (⟨S10x1x5x5, .f32⟩ : BufTy).Contents (Elt F)),
    binary main_v7 main_v8 main_v9 (mulf : (⟨S10x1x5x5, .f32⟩ : BufTy).Contents (Elt F) → (⟨S10x1x5x5, .f32⟩ : BufTy).Contents (Elt F) → (⟨S10x1x5x5, .f32⟩ : BufTy).Contents (Elt F)),
    nullary main_cst_3 (constant S_ .f32 0x3B800000#32),
    unary main_cst_3 main_v10 (broadcastInDim S10 ![] bcast_S_S10 : (⟨S_, .f32⟩ : BufTy).Contents (Elt F) → (⟨S10, .f32⟩ : BufTy).Contents (Elt F)),
    binary main_arg2 main_v10 main_v11 (Host.divf : (⟨S10, .f32⟩ : BufTy).Contents (Elt F) → (⟨S10, .f32⟩ : BufTy).Contents (Elt F) → (⟨S10, .f32⟩ : BufTy).Contents (Elt F)),
    TRef.unary (TRef.of (T := ⟨S10, .f32⟩) main_v11) (TRef.of (T := ⟨S10, .f32⟩) main_v12) Host.roundeven,
    nullary main_cst_4 (constant S_ .f32 0x3B800000#32),
    unary main_cst_4 main_v13 (broadcastInDim S10 ![] bcast_S_S10 : (⟨S_, .f32⟩ : BufTy).Contents (Elt F) → (⟨S10, .f32⟩ : BufTy).Contents (Elt F)),
    binary main_v12 main_v13 main_v14 (mulf : (⟨S10, .f32⟩ : BufTy).Contents (Elt F) → (⟨S10, .f32⟩ : BufTy).Contents (Elt F) → (⟨S10, .f32⟩ : BufTy).Contents (Elt F)),
    nullary main_cst_5 (constant S_ .f32 0x00000000#32),
    unary main_cst_5 main_v15 (broadcastInDim S1024x10x24x24 ![] bcast_S_S1024x10x24x24 : (⟨S_, .f32⟩ : BufTy).Contents (Elt F) → (⟨S1024x10x24x24, .f32⟩ : BufTy).Contents (Elt F)),
    unary main_v4 main_v16 ((extractStridedSlice S1024x1x24x24 ![0, 0, 0, 0] · slices_S1024x1x28x28_S1024x1x24x24_0_0_0_0) : (⟨S1024x1x28x28, .f32⟩ : BufTy).Contents (Elt F) → (⟨S1024x1x24x24, .f32⟩ : BufTy).Contents (Elt F)),
    unary main_v16 main_v17 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v18 ((extractStridedSlice S10x1x1x1 ![0, 0, 0, 0] · slices_S10x1x5x5_S10x1x1x1_0_0_0_0) : (⟨S10x1x5x5, .f32⟩ : BufTy).Contents (Elt F) → (⟨S10x1x1x1, .f32⟩ : BufTy).Contents (Elt F)),
    reshape main_v18 main_v19 rfl shapeCasts_S10x1x1x1_S10x1,
    unary main_v19 main_v20 (broadcastInDim S1x10x1 ![1, 2] bcast_S10x1_S1x10x1_1_2 : (⟨S10x1, .f32⟩ : BufTy).Contents (Elt F) → (⟨S1x10x1, .f32⟩ : BufTy).Contents (Elt F)),
    unary main_v20 main_v21 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v17 main_v22 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v21 main_v23 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v22 main_v23 main_v24 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_6 (constant S_ .f32 0xC3800000#32),
    nullary main_cst_7 (constant S_ .f32 0x437F0000#32),
    TRef.unary (TRef.of (T := ⟨S_, .f32⟩) main_cst_6) (TRef.of (T := ⟨S_, .f32⟩) main_call3_v0) id,
    TRef.unary (TRef.of (T := ⟨S_, .f32⟩) main_call3_v0) (TRef.of (T := ⟨S1024x10x1x24x24, .f32⟩) main_call3_v1) (broadcastInDim S1024x10x1x24x24 ![] bcast_S_S1024x10x1x24x24),
    TRef.binary (TRef.of (T := ⟨S1024x10x1x24x24, .f32⟩) main_call3_v1) (TRef.of (T := ⟨S1024x10x1x24x24, .f32⟩) main_v24) (TRef.of (T := ⟨S1024x10x1x24x24, .f32⟩) main_call3_v2) maximumf,
    TRef.unary (TRef.of (T := ⟨S_, .f32⟩) main_cst_7) (TRef.of (T := ⟨S_, .f32⟩) main_call3_v3) id,
    TRef.unary (TRef.of (T := ⟨S_, .f32⟩) main_call3_v3) (TRef.of (T := ⟨S1024x10x1x24x24, .f32⟩) main_call3_v4) (broadcastInDim S1024x10x1x24x24 ![] bcast_S_S1024x10x1x24x24),
    TRef.binary (TRef.of (T := ⟨S1024x10x1x24x24, .f32⟩) main_call3_v4) (TRef.of (T := ⟨S1024x10x1x24x24, .f32⟩) main_call3_v2) (TRef.of (T := ⟨S1024x10x1x24x24, .f32⟩) main_v25) minimumf,
    nullary main_cst_8 (constant S_ .f32 0x00000000#32),
    binary main_v25 main_cst_8 main_v26 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v15 main_v26 main_v27 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v28 ((extractStridedSlice S1024x1x24x24 ![0, 0, 0, 1] · slices_S1024x1x28x28_S1024x1x24x24_0_0_0_1) : (⟨S1024x1x28x28, .f32⟩ : BufTy).Contents (Elt F) → (⟨S1024x1x24x24, .f32⟩ : BufTy).Contents (Elt F)),
    unary main_v28 main_v29 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v30 ((extractStridedSlice S10x1x1x1 ![0, 0, 0, 1] · slices_S10x1x5x5_S10x1x1x1_0_0_0_1) : (⟨S10x1x5x5, .f32⟩ : BufTy).Contents (Elt F) → (⟨S10x1x1x1, .f32⟩ : BufTy).Contents (Elt F)),
    reshape main_v30 main_v31 rfl shapeCasts_S10x1x1x1_S10x1,
    unary main_v31 main_v32 (broadcastInDim S1x10x1 ![1, 2] bcast_S10x1_S1x10x1_1_2 : (⟨S10x1, .f32⟩ : BufTy).Contents (Elt F) → (⟨S1x10x1, .f32⟩ : BufTy).Contents (Elt F)),
    unary main_v32 main_v33 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v29 main_v34 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v33 main_v35 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v34 main_v35 main_v36 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_9 (constant S_ .f32 0xC3800000#32),
    nullary main_cst_10 (constant S_ .f32 0x437F0000#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S1024x10x1x24x24, .f32⟩) main_call4_v1) (broadcastInDim S1024x10x1x24x24 ![] bcast_S_S1024x10x1x24x24),
    TRef.binary (TRef.of (T := ⟨S1024x10x1x24x24, .f32⟩) main_call4_v1) (TRef.of (T := ⟨S1024x10x1x24x24, .f32⟩) main_v36) (TRef.of (T := ⟨S1024x10x1x24x24, .f32⟩) main_call4_v2) maximumf,
    TRef.unary (TRef.of (T := ⟨S_, .f32⟩) main_cst_10) (TRef.of (T := ⟨S_, .f32⟩) main_call4_v3) id,
    TRef.unary (TRef.of (T := ⟨S_, .f32⟩) main_call4_v3) (TRef.of (T := ⟨S1024x10x1x24x24, .f32⟩) main_call4_v4) (broadcastInDim S1024x10x1x24x24 ![] bcast_S_S1024x10x1x24x24),
    TRef.binary (TRef.of (T := ⟨S1024x10x1x24x24, .f32⟩) main_call4_v4) (TRef.of (T := ⟨S1024x10x1x24x24, .f32⟩) main_call4_v2) (TRef.of (T := ⟨S1024x10x1x24x24, .f32⟩) main_v37) minimumf,
    nullary main_cst_11 (constant S_ .f32 0x00000000#32),
    binary main_v37 main_cst_11 main_v38 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v27 main_v38 main_v39 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v40 ((extractStridedSlice S1024x1x24x24 ![0, 0, 0, 2] · slices_S1024x1x28x28_S1024x1x24x24_0_0_0_2) : (⟨S1024x1x28x28, .f32⟩ : BufTy).Contents (Elt F) → (⟨S1024x1x24x24, .f32⟩ : BufTy).Contents (Elt F)),
    unary main_v40 main_v41 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v42 ((extractStridedSlice S10x1x1x1 ![0, 0, 0, 2] · slices_S10x1x5x5_S10x1x1x1_0_0_0_2) : (⟨S10x1x5x5, .f32⟩ : BufTy).Contents (Elt F) → (⟨S10x1x1x1, .f32⟩ : BufTy).Contents (Elt F)),
    reshape main_v42 main_v43 rfl shapeCasts_S10x1x1x1_S10x1,
    unary main_v43 main_v44 (broadcastInDim S1x10x1 ![1, 2] bcast_S10x1_S1x10x1_1_2 : (⟨S10x1, .f32⟩ : BufTy).Contents (Elt F) → (⟨S1x10x1, .f32⟩ : BufTy).Contents (Elt F)),
    unary main_v44 main_v45 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v41 main_v46 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RStage.lean ====
import proofs.«413587_j61040075211437_3_alg».proof.Proof.RefReadA
import proofs.«413587_j61040075211437_3_alg».proof.Proof.Spec
import Idealize.ShloMosaic.Lib.StableHlo.Run

noncomputable section

namespace Cert.ReferenceIdeal.ReadP

open Cert.ReferenceIdeal Cert.ReferenceIdeal.Gen Idealize.ShloMosaic Idealize.ShloMosaic.TcCoe Idealize.SL.Sem Idealize.ShloMosaic.StableHlo Cert.QNet

variable {F : FTy → Type} [FloatOps F]

theorem sl1A (u v : Fin 5) : S1024x1x28x28.Slices ![0, 0, u.val, v.val] S1024x1x24x24 := by
  revert u v; decide
theorem sl1W (u v : Fin 5) : S10x1x5x5.Slices ![0, 0, u.val, v.val] S10x1x1x1 := by
  revert u v; decide
theorem sl2A (u v : Fin 5) : S1024x10x12x12.Slices ![0, 0, u.val, v.val] S1024x10x8x8 := by
  revert u v; decide
theorem sl2W (u v : Fin 5) : S20x10x5x5.Slices ![0, 0, u.val, v.val] S20x10x1x1 := by
  revert u v; decide

/-- The image factor of tap (u, v) of the first convolution: the slice at (u, v), laid out over (image, out, in, row, column). -/
def img1 (A : (⟨S1024x1x28x28, .f32⟩ : BufTy).Contents (Elt F)) (u v : Fin 5) : (⟨S1024x10x1x24x24, .f32⟩ : BufTy).Contents (Elt F) :=
  broadcastInDim S1024x10x1x24x24 ![0, 1, 2, 3, 4] bcast_S1024x1x1x24x24_S1024x10x1x24x24_0_1_2_3_4
    (broadcastInDim S1024x1x1x24x24 ![0, 2, 3, 4] bcast_S1024x1x24x24_S1024x1x1x24x24_0_2_3_4
      (extractStridedSlice S1024x1x24x24 ![0, 0, u.val, v.val] A (sl1A u v)))

/-- Its weight factor, before the last broadcast: the weights (·, 0, u, v) over (1, out, 1, 1, 1). -/
def wgt1 (W : (⟨S10x1x5x5, .f32⟩ : BufTy).Contents (Elt F)) (u v : Fin 5) : (⟨S1x10x1x1x1, .f32⟩ : BufTy).Contents (Elt F) :=
  broadcastInDim S1x10x1x1x1 ![0, 1, 2] bcast_S1x10x1_S1x10x1x1x1_0_1_2
    (broadcastInDim S1x10x1 ![1, 2] bcast_S10x1_S1x10x1_1_2
      (shapeCast _ (extractStridedSlice S10x1x1x1 ![0, 0, u.val, v.val] W (sl1W u v)) shapeCasts_S10x1x1x1_S10x1))

/-- One tap's summand: the product of the two factors, clipped, summed over the input channel. -/
def tap1 (A : (⟨S1024x1x28x28, .f32⟩ : BufTy).Contents (Elt F)) (W : (⟨S10x1x5x5, .f32⟩ : BufTy).Contents (Elt F)) (u v : Fin 5) :
    (⟨S1024x10x24x24, .f32⟩ : BufTy).Contents (Elt F) :=
  Host.reduceAdd
    (minimumf (broadcastInDim S1024x10x1x24x24 ![] bcast_S_S1024x10x1x24x24 (constant S_ .f32 0x437F0000#32))
      (maximumf (broadcastInDim S1024x10x1x24x24 ![] bcast_S_S1024x10x1x24x24 (constant S_ .f32 0xC3800000#32))
        (mulf (img1 A u v)
          (broadcastInDim S1024x10x1x24x24 ![0, 1, 2, 3, 4] bcast_S1x10x1x1x1_S1024x10x1x24x24_0_1_2_3_4 (wgt1 W u v)))))
    (constant S_ .f32 0x00000000#32) reducesTo_S1024x10x1x24x24_S1024x10x24x24_d2 h_S_

/-- The running sum after the first n taps, from the zero array. -/
def acc1 (A : (⟨S1024x1x28x28, .f32⟩ : BufTy).Contents (Elt F)) (W : (⟨S10x1x5x5, .f32⟩ : BufTy).Contents (Elt F)) (n : ℕ) :
    (⟨S1024x10x24x24, .f32⟩ : BufTy).Contents (Elt F) :=
  (taps.take n).foldl (fun a uv => addf a (tap1 A W uv.1 uv.2))
    (broadcastInDim S1024x10x24x24 ![] bcast_S_S1024x10x24x24 (constant S_ .f32 0x00000000#32))

/-- One tap's summand of the second convolution: ten input channels, 12×12 to 8×8. -/
def tap2 (A : (⟨S1024x10x12x12, .f32⟩ : BufTy).Contents (Elt F)) (W : (⟨S20x10x5x5, .f32⟩ : BufTy).Contents (Elt F)) (u v : Fin 5) :
    (⟨S1024x20x8x8, .f32⟩ : BufTy).Contents (Elt F) :=
  Host.reduceAdd
    (minimumf (broadcastInDim S1024x20x10x8x8 ![] bcast_S_S1024x20x10x8x8 (constant S_ .f32 0x437F0000#32))
      (maximumf (broadcastInDim S1024x20x10x8x8 ![] bcast_S_S1024x20x10x8x8 (constant S_ .f32 0xC3800000#32))
        (mulf
          (broadcastInDim S1024x20x10x8x8 ![0, 1, 2, 3, 4] bcast_S1024x1x10x8x8_S1024x20x10x8x8_0_1_2_3_4
            (broadcastInDim S1024x1x10x8x8 ![0, 2, 3, 4] bcast_S1024x10x8x8_S1024x1x10x8x8_0_2_3_4
              (extractStridedSlice S1024x10x8x8 ![0, 0, u.val, v.val] A (sl2A u v))))
          (broadcastInDim S1024x20x10x8x8 ![0, 1, 2, 3, 4] bcast_S1x20x10x1x1_S1024x20x10x8x8_0_1_2_3_4
            (broadcastInDim S1x20x10x1x1 ![0, 1, 2] bcast_S1x20x10_S1x20x10x1x1_0_1_2
              (broadcastInDim S1x20x10 ![1, 2] bcast_S20x10_S1x20x10_1_2
                (shapeCast _ (extractStridedSlice S20x10x1x1 ![0, 0, u.val, v.val] W (sl2W u v)) shapeCasts_S20x10x1x1_S20x10)))))))
    (constant S_ .f32 0x00000000#32) reducesTo_S1024x20x10x8x8_S1024x20x8x8_d2 h_S_

def acc2 (A : (⟨S1024x10x12x12, .f32⟩ : BufTy).Contents (Elt F)) (W : (⟨S20x10x5x5, .f32⟩ : BufTy).Contents (Elt F)) (n : ℕ) :
    (⟨S1024x20x8x8, .f32⟩ : BufTy).Contents (Elt F) :=
  (taps.take n).foldl (fun a uv => addf a (tap2 A W uv.1 uv.2))
    (broadcastInDim S1024x20x8x8 ![] bcast_S_S1024x20x8x8 (constant S_ .f32 0x00000000#32))

/-- Buffer %315, the first convolution's running sum after all 25 taps. -/
def val_main_v315 (x0 : (⟨S1024x1x28x28, .f32⟩ : BufTy).Contents (Elt F)) (x1 : (⟨S10x1x5x5, .f32⟩ : BufTy).Contents (Elt F)) :
    (⟨S1024x10x24x24, .f32⟩ : BufTy).Contents (Elt F) :=
  acc1 (val_main_v4 (F := F) x0) (val_main_v9 (F := F) x1) 25

end Cert.ReferenceIdeal.ReadP

end
-- ==== Proof.RStage2.lean ====
import proofs.«413587_j61040075211437_3_alg».proof.Proof.RefReadB

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- Buffer %632, the second convolution's running sum after all 25 taps, over the pooled first layer and the quantised weights. -/
def val_main_v632 (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F)) :
    (⟨S1024x20x8x8, .f32⟩ : BufTy).Contents (Elt F) :=
  acc2 (val_main_v321 (F := F) x0 x1 x2) (val_main_v326 (F := F) x3) 25

end Cert.ReferenceIdeal.ReadP

end
-- ==== Proof.RunLive.lean ====
import proofs.«413587_j61040075211437_3_alg».proof.Proof.RefRead
import Idealize.ShloMosaic.Lib.StableHlo.Run

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

variable (W : Valuation τ sig (Elt F))
  (x0 : (⟨S1024x1x28x28, .f32⟩ : BufTy).Contents (Elt F)) (x1 : (⟨S10x1x5x5, .f32⟩ : BufTy).Contents (Elt F))
  (x2 : (⟨S10, .f32⟩ : BufTy).Contents (Elt F)) (x3 : (⟨S20x10x5x5, .f32⟩ : BufTy).Contents (Elt F))
  (x4 : (⟨S20, .f32⟩ : BufTy).Contents (Elt F)) (x5 : (⟨S50x320, .f32⟩ : BufTy).Contents (Elt F))
  (x6 : (⟨S50, .f32⟩ : BufTy).Contents (Elt F)) (x7 : (⟨S10x50, .f32⟩ : BufTy).Contents (Elt F))
  (x8 : (⟨S10, .f32⟩ : BufTy).Contents (Elt F))

abbrev at' (b : Ref sig .tc) := W (Proc.devRef (τ := τ) .tc b)

/-- The nine argument buffers hold the argument arrays. -/
def ArgsAt : Prop :=
  at' W main_arg0 = x0 ∧ at' W main_arg1 = x1 ∧ at' W main_arg2 = x2 ∧ at' W main_arg3 = x3 ∧ at' W main_arg4 = x4
  ∧ at' W main_arg5 = x5 ∧ at' W main_arg6 = x6 ∧ at' W main_arg7 = x7 ∧ at' W main_arg8 = x8

def Conv1In : Prop :=
  at' W main_v4 = val_main_v4 (F := F) x0 ∧ at' W main_v9 = val_main_v9 (F := F) x1 ∧ at' W main_v14 = val_main_v14 (F := F) x2

def Conv2In : Prop :=
  at' W main_v321 = val_main_v321 (F := F) x0 x1 x2 ∧ at' W main_v326 = val_main_v326 (F := F) x3 ∧ at' W main_v331 = val_main_v331 (F := F) x4

def Live0 : Prop := ArgsAt W x0 x1 x2 x3 x4 x5 x6 x7 x8
/-- What the buffers that a later window reads hold at each boundary between windows: their stages of the argument arrays. -/
def Live1 : Prop := ArgsAt W x0 x1 x2 x3 x4 x5 x6 x7 x8 ∧ Conv1In W x0 x1 x2
  ∧ at' W main_v39 = acc1 (val_main_v4 (F := F) x0) (val_main_v9 (F := F) x1) 2 ∧ at' W main_v45 = wgt1 (val_main_v9 (F := F) x1) 0 2 ∧ at' W main_v46 = img1 (val_main_v4 (F := F) x0) 0 2
def Live2 : Prop := ArgsAt W x0 x1 x2 x3 x4 x5 x6 x7 x8 ∧ Conv1In W x0 x1 x2
  ∧ at' W main_v87 = acc1 (val_main_v4 (F := F) x0) (val_main_v9 (F := F) x1) 6 ∧ at' W main_v93 = wgt1 (val_main_v9 (F := F) x1) 1 1 ∧ at' W main_v94 = img1 (val_main_v4 (F := F) x0) 1 1
def Live3 : Prop := ArgsAt W x0 x1 x2 x3 x4 x5 x6 x7 x8 ∧ Conv1In W x0 x1 x2
  ∧ at' W main_v135 = acc1 (val_main_v4 (F := F) x0) (val_main_v9 (F := F) x1) 10 ∧ at' W main_v141 = wgt1 (val_main_v9 (F := F) x1) 2 0 ∧ at' W main_v142 = img1 (val_main_v4 (F := F) x0) 2 0
def Live4 : Prop := ArgsAt W x0 x1 x2 x3 x4 x5 x6 x7 x8 ∧ Conv1In W x0 x1 x2
  ∧ at' W main_v183 = acc1 (val_main_v4 (F := F) x0) (val_main_v9 (F := F) x1) 14 ∧ at' W main_v189 = wgt1 (val_main_v9 (F := F) x1) 2 4 ∧ at' W main_v190 = img1 (val_main_v4 (F := F) x0) 2 4
def Live5 : Prop := ArgsAt W x0 x1 x2 x3 x4 x5 x6 x7 x8 ∧ Conv1In W x0 x1 x2
  ∧ at' W main_v231 = acc1 (val_main_v4 (F := F) x0) (val_main_v9 (F := F) x1) 18 ∧ at' W main_v237 = wgt1 (val_main_v9 (F := F) x1) 3 3 ∧ at' W main_v238 = img1 (val_main_v4 (F := F) x0) 3 3
def Live6 : Prop := ArgsAt W x0 x1 x2 x3 x4 x5 x6 x7 x8 ∧ Conv1In W x0 x1 x2
  ∧ at' W main_v279 = acc1 (val_main_v4 (F := F) x0) (val_main_v9 (F := F) x1) 22 ∧ at' W main_v285 = wgt1 (val_main_v9 (F := F) x1) 4 2 ∧ at' W main_v286 = img1 (val_main_v4 (F := F) x0) 4 2
def Live7 : Prop := ArgsAt W x0 x1 x2 x3 x4 x5 x6 x7 x8 ∧ Conv2In W x0 x1 x2 x3 x4
  ∧ at' W main_cst_86 = val_main_cst_86 (F := F)
def Live8 : Prop := ArgsAt W x0 x1 x2 x3 x4 x5 x6 x7 x8 ∧ Conv2In W x0 x1 x2 x3 x4
  ∧ at' W main_v368 = acc2 (val_main_v321 (F := F) x0 x1 x2) (val_main_v326 (F := F) x3) 3 ∧ at' W main_v379 = tap2 (val_main_v321 (F := F) x0 x1 x2) (val_main_v326 (F := F) x3) 0 3
def Live9 : Prop := ArgsAt W x0 x1 x2 x3 x4 x5 x6 x7 x8 ∧ Conv2In W x0 x1 x2 x3 x4
  ∧ at' W main_v416 = acc2 (val_main_v321 (F := F) x0 x1 x2) (val_main_v326 (F := F) x3) 7 ∧ at' W main_v427 = tap2 (val_main_v321 (F := F) x0 x1 x2) (val_main_v326 (F := F) x3) 1 2
def Live10 : Prop := ArgsAt W x0 x1 x2 x3 x4 x5 x6 x7 x8 ∧ Conv2In W x0 x1 x2 x3 x4
  ∧ at' W main_v464 = acc2 (val_main_v321 (F := F) x0 x1 x2) (val_main_v326 (F := F) x3) 11 ∧ at' W main_v475 = tap2 (val_main_v321 (F := F) x0 x1 x2) (val_main_v326 (F := F) x3) 2 1
def Live11 : Prop := ArgsAt W x0 x1 x2 x3 x4 x5 x6 x7 x8 ∧ Conv2In W x0 x1 x2 x3 x4
  ∧ at' W main_v512 = acc2 (val_main_v321 (F := F) x0 x1 x2) (val_main_v326 (F := F) x3) 15 ∧ at' W main_v523 = tap2 (val_main_v321 (F := F) x0 x1 x2) (val_main_v326 (F := F) x3) 3 0
def Live12 : Prop := ArgsAt W x0 x1 x2 x3 x4 x5 x6 x7 x8 ∧ Conv2In W x0 x1 x2 x3 x4
  ∧ at' W main_v560 = acc2 (val_main_v321 (F := F) x0 x1 x2) (val_main_v326 (F := F) x3) 19 ∧ at' W main_v571 = tap2 (val_main_v321 (F := F) x0 x1 x2) (val_main_v326 (F := F) x3) 3 4
def Live13 : Prop := ArgsAt W x0 x1 x2 x3 x4 x5 x6 x7 x8 ∧ Conv2In W x0 x1 x2 x3 x4
  ∧ at' W main_v608 = acc2 (val_main_v321 (F := F) x0 x1 x2) (val_main_v326 (F := F) x3) 23 ∧ at' W main_v619 = tap2 (val_main_v321 (F := F) x0 x1 x2) (val_main_v326 (F := F) x3) 4 3
def Live14 : Prop := ArgsAt W x0 x1 x2 x3 x4 x5 x6 x7 x8
  ∧ at' W main_v663 = val_main_v663 (F := F) x0 x1 x2 x3 x4 x5 x6
def Live15 : Prop := ArgsAt W x0 x1 x2 x3 x4 x5 x6 x7 x8
  ∧ at' W main_v687 = val_main_v687 (F := F) x0 x1 x2 x3 x4 x5 x6 x7 x8

end Cert.ReferenceIdeal.RRun

end
-- ==== Proof.RunW0.lean ====
import proofs.«413587_j61040075211437_3_alg».proof.Proof.RunOps0
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part0_eq (c : Dev nD) : main_part0 (F := F) c = seq (ops0 (F := F)) := by
  rfl

set_option maxRecDepth 8192 in
theorem ops0_sub : (ops0 : List (HloOp τ sig (Elt F))).Forall fun op => op.bufs ⊆ tcRefs τ sig :=
  ⟨nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., unary_bufs_sub .., unary_bufs_sub .., reshape_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., binary_bufs_sub .., unary_bufs_sub .., unary_bufs_sub .., unary_bufs_sub .., reshape_bufs_sub .., unary_bufs_sub .., unary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., binary_bufs_sub .., binary_bufs_sub .., unary_bufs_sub .., unary_bufs_sub .., unary_bufs_sub .., reshape_bufs_sub .., unary_bufs_sub .., unary_bufs_sub .., unary_bufs_sub ..⟩

set_option maxRecDepth 8192 in
set_option maxHeartbeats 4000000 in
theorem ops0_fresh : ∀ op ∈ (ops0 : List (HloOp τ sig (Elt F))), op.fresh = ∅ := by
  intro _ h
  (repeat (cases h with | head => rfl | tail _ h => ?_))
  exact nomatch h

set_option maxRecDepth 8192 in
set_option maxHeartbeats 8000000 in
theorem ops0_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live0 W x0 x1 x2 x3 x4 x5 x6 x7 x8) : Live1 (after (ops0 (F := F)) W) x0 x1 x2 x3 x4 x5 x6 x7 x8 := by
  simp only [Live0, ArgsAt, at'] at h
  obtain ⟨h0, h1, h2, h3, h4, h5, h6, h7, h8⟩ := h
  unfold Live1 ArgsAt Conv1In at'
  refine ⟨⟨?_, ?_, ?_, ?_, ?_, ?_, ?_, ?_, ?_⟩, ⟨?_, ?_, ?_⟩, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; rw [h0]; rfl
  · after_results_simp; rw [h1]; rfl
  · after_results_simp; rw [h2]; rfl
  · after_results_simp; rw [h0, h1]; rfl
  · after_results_simp; rw [h1]; rfl
  · after_results_simp; rw [h0]; rfl

end Cert.ReferenceIdeal.RRun

end
-- ==== Proof.RunOps1.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 1 of @main as a list of host operations (a called function's operations stand in its call's place). -/
abbrev ops1 : List (HloOp τ sig (Elt F)) :=
  [ unary main_v45 main_v47 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v46 main_v47 main_v48 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_12 (constant S_ .f32 0xC3800000#32),
    nullary main_cst_13 (constant S_ .f32 0x437F0000#32),
    TRef.unary (TRef.of (T := ⟨S_, .f32⟩) main_cst_12) (TRef.of (T := ⟨S_, .f32⟩) main_call5_v0) id,
    TRef.unary (TRef.of (T := ⟨S_, .f32⟩) main_call5_v0) (TRef.of (T := ⟨S1024x10x1x24x24, .f32⟩) main_call5_v1) (broadcastInDim S1024x10x1x24x24 ![] bcast_S_S1024x10x1x24x24),
    TRef.binary (TRef.of (T := ⟨S1024x10x1x24x24, .f32⟩) main_call5_v1) (TRef.of (T := ⟨S1024x10x1x24x24, .f32⟩) main_v48) (TRef.of (T := ⟨S1024x10x1x24x24, .f32⟩) main_call5_v2) maximumf,
    TRef.unary (TRef.of (T := ⟨S_, .f32⟩) main_cst_13) (TRef.of (T := ⟨S_, .f32⟩) main_call5_v3) id,
    TRef.unary (TRef.of (T := ⟨S_, .f32⟩) main_call5_v3) (TRef.of (T := ⟨S1024x10x1x24x24, .f32⟩) main_call5_v4) (broadcastInDim S1024x10x1x24x24 ![] bcast_S_S1024x10x1x24x24),
    TRef.binary (TRef.of (T := ⟨S1024x10x1x24x24, .f32⟩) main_call5_v4) (TRef.of (T := ⟨S1024x10x1x24x24, .f32⟩) main_call5_v2) (TRef.of (T := ⟨S1024x10x1x24x24, .f32⟩) main_v49) minimumf,
    nullary main_cst_14 (constant S_ .f32 0x00000000#32),
    binary main_v49 main_cst_14 main_v50 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v39 main_v50 main_v51 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v52 ((extractStridedSlice S1024x1x24x24 ![0, 0, 0, 3] · slices_S1024x1x28x28_S1024x1x24x24_0_0_0_3) : (⟨S1024x1x28x28, .f32⟩ : BufTy).Contents (Elt F) → (⟨S1024x1x24x24, .f32⟩ : BufTy).Contents (Elt F)),
    unary main_v52 main_v53 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v54 ((extractStridedSlice S10x1x1x1 ![0, 0, 0, 3] · slices_S10x1x5x5_S10x1x1x1_0_0_0_3) : (⟨S10x1x5x5, .f32⟩ : BufTy).Contents (Elt F) → (⟨S10x1x1x1, .f32⟩ : BufTy).Contents (Elt F)),
    reshape main_v54 main_v55 rfl shapeCasts_S10x1x1x1_S10x1,
    unary main_v55 main_v56 (broadcastInDim S1x10x1 ![1, 2] bcast_S10x1_S1x10x1_1_2 : (⟨S10x1, .f32⟩ : BufTy).Contents (Elt F) → (⟨S1x10x1, .f32⟩ : BufTy).Contents (Elt F)),
    unary main_v56 main_v57 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v53 main_v58 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v57 main_v59 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v58 main_v59 main_v60 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_15 (constant S_ .f32 0xC3800000#32),
    nullary main_cst_16 (constant S_ .f32 0x437F0000#32),
    TRef.unary (TRef.of (T := ⟨S_, .f32⟩) main_cst_15) (TRef.of (T := ⟨S_, .f32⟩) main_call6_v0) id,
    TRef.unary (TRef.of (T := ⟨S_, .f32⟩) main_call6_v0) (TRef.of (T := ⟨S1024x10x1x24x24, .f32⟩) main_call6_v1) (broadcastInDim S1024x10x1x24x24 ![] bcast_S_S1024x10x1x24x24),
    TRef.binary (TRef.of (T := ⟨S1024x10x1x24x24, .f32⟩) main_call6_v1) (TRef.of (T := ⟨S1024x10x1x24x24, .f32⟩) main_v60) (TRef.of (T := ⟨S1024x10x1x24x24, .f32⟩) main_call6_v2) maximumf,
    TRef.unary (TRef.of (T := ⟨S_, .f32⟩) main_cst_16) (TRef.of (T := ⟨S_, .f32⟩) main_call6_v3) id,
    TRef.unary (TRef.of (T := ⟨S_, .f32⟩) main_call6_v3) (TRef.of (T := ⟨S1024x10x1x24x24, .f32⟩) main_call6_v4) (broadcastInDim S1024x10x1x24x24 ![] bcast_S_S1024x10x1x24x24),
    TRef.binary (TRef.of (T := ⟨S1024x10x1x24x24, .f32⟩) main_call6_v4) (TRef.of (T := ⟨S1024x10x1x24x24, .f32⟩) main_call6_v2) (TRef.of (T := ⟨S1024x10x1x24x24, .f32⟩) main_v61) minimumf,
    nullary main_cst_17 (constant S_ .f32 0x00000000#32),
    binary main_v61 main_cst_17 main_v62 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v51 main_v62 main_v63 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v64 ((extractStridedSlice S1024x1x24x24 ![0, 0, 0, 4] · slices_S1024x1x28x28_S1024x1x24x24_0_0_0_4) : (⟨S1024x1x28x28, .f32⟩ : BufTy).Contents (Elt F) → (⟨S1024x1x24x24, .f32⟩ : BufTy).Contents (Elt F)),
    unary main_v64 main_v65 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v66 ((extractStridedSlice S10x1x1x1 ![0, 0, 0, 4] · slices_S10x1x5x5_S10x1x1x1_0_0_0_4) : (⟨S10x1x5x5, .f32⟩ : BufTy).Contents (Elt F) → (⟨S10x1x1x1, .f32⟩ : BufTy).Contents (Elt F)),
    reshape main_v66 main_v67 rfl shapeCasts_S10x1x1x1_S10x1,
    unary main_v67 main_v68 (broadcastInDim S1x10x1 ![1, 2] bcast_S10x1_S1x10x1_1_2 : (⟨S10x1, .f32⟩ : BufTy).Contents (Elt F) → (⟨S1x10x1, .f32⟩ : BufTy).Contents (Elt F)),
    unary main_v68 main_v69 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v65 main_v70 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v69 main_v71 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v70 main_v71 main_v72 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_18 (constant S_ .f32 0xC3800000#32),
    nullary main_cst_19 (constant S_ .f32 0x437F0000#32),
    TRef.unary (TRef.of (T := ⟨S_, .f32⟩) main_cst_18) (TRef.of (T := ⟨S_, .f32⟩) main_call7_v0) id,
    TRef.unary (TRef.of (T := ⟨S_, .f32⟩) main_call7_v0) (TRef.of (T := ⟨S1024x10x1x24x24, .f32⟩) main_call7_v1) (broadcastInDim S1024x10x1x24x24 ![] bcast_S_S1024x10x1x24x24),
    TRef.binary (TRef.of (T := ⟨S1024x10x1x24x24, .f32⟩) main_call7_v1) (TRef.of (T := ⟨S1024x10x1x24x24, .f32⟩) main_v72) (TRef.of (T := ⟨S1024x10x1x24x24, .f32⟩) main_call7_v2) maximumf,
    TRef.unary (TRef.of (T := ⟨S_, .f32⟩) main_cst_19) (TRef.of (T := ⟨S_, .f32⟩) main_call7_v3) id,
    TRef.unary (TRef.of (T := ⟨S_, .f32⟩) main_call7_v3) (TRef.of (T := ⟨S1024x10x1x24x24, .f32⟩) main_call7_v4) (broadcastInDim S1024x10x1x24x24 ![] bcast_S_S1024x10x1x24x24),
    TRef.binary (TRef.of (T := ⟨S1024x10x1x24x24, .f32⟩) main_call7_v4) (TRef.of (T := ⟨S1024x10x1x24x24, .f32⟩) main_call7_v2) (TRef.of (T := ⟨S1024x10x1x24x24, .f32⟩) main_v73) minimumf,
    nullary main_cst_20 (constant S_ .f32 0x00000000#32),
    binary main_v73 main_cst_20 main_v74 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v63 main_v74 main_v75 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v76 ((extractStridedSlice S1024x1x24x24 ![0, 0, 1, 0] · slices_S1024x1x28x28_S1024x1x24x24_0_0_1_0) : (⟨S1024x1x28x28, .f32⟩ : BufTy).Contents (Elt F) → (⟨S1024x1x24x24, .f32⟩ : BufTy).Contents (Elt F)),
    unary main_v76 main_v77 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v78 ((extractStridedSlice S10x1x1x1 ![0, 0, 1, 0] · slices_S10x1x5x5_S10x1x1x1_0_0_1_0) : (⟨S10x1x5x5, .f32⟩ : BufTy).Contents (Elt F) → (⟨S10x1x1x1, .f32⟩ : BufTy).Contents (Elt F)),
    reshape main_v78 main_v79 rfl shapeCasts_S10x1x1x1_S10x1,
    unary main_v79 main_v80 (broadcastInDim S1x10x1 ![1, 2] bcast_S10x1_S1x10x1_1_2 : (⟨S10x1, .f32⟩ : BufTy).Contents (Elt F) → (⟨S1x10x1, .f32⟩ : BufTy).Contents (Elt F)),
    unary main_v80 main_v81 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v77 main_v82 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v81 main_v83 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v82 main_v83 main_v84 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_21 (constant S_ .f32 0xC3800000#32),
    nullary main_cst_22 (constant S_ .f32 0x437F0000#32),
    TRef.unary (TRef.of (T := ⟨S_, .f32⟩) main_cst_21) (TRef.of (T := ⟨S_, .f32⟩) main_call8_v0) id,
    TRef.unary (TRef.of (T := ⟨S_, .f32⟩) main_call8_v0) (TRef.of (T := ⟨S1024x10x1x24x24, .f32⟩) main_call8_v1) (broadcastInDim S1024x10x1x24x24 ![] bcast_S_S1024x10x1x24x24),
    TRef.binary (TRef.of (T := ⟨S1024x10x1x24x24, .f32⟩) main_call8_v1) (TRef.of (T := ⟨S1024x10x1x24x24, .f32⟩) main_v84) (TRef.of (T := ⟨S1024x10x1x24x24, .f32⟩) main_call8_v2) maximumf,
    TRef.unary (TRef.of (T := ⟨S_, .f32⟩) main_cst_22) (TRef.of (T := ⟨S_, .f32⟩) main_call8_v3) id,
    TRef.unary (TRef.of (T := ⟨S_, .f32⟩) main_call8_v3) (TRef.of (T := ⟨S1024x10x1x24x24, .f32⟩) main_call8_v4) (broadcastInDim S1024x10x1x24x24 ![] bcast_S_S1024x10x1x24x24),
    TRef.binary (TRef.of (T := ⟨S1024x10x1x24x24, .f32⟩) main_call8_v4) (TRef.of (T := ⟨S1024x10x1x24x24, .f32⟩) main_call8_v2) (TRef.of (T := ⟨S1024x10x1x24x24, .f32⟩) main_v85) minimumf,
    nullary main_cst_23 (constant S_ .f32 0x00000000#32),
    binary main_v85 main_cst_23 main_v86 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v75 main_v86 main_v87 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v88 ((extractStridedSlice S1024x1x24x24 ![0, 0, 1, 1] · slices_S1024x1x28x28_S1024x1x24x24_0_0_1_1) : (⟨S1024x1x28x28, .f32⟩ : BufTy).Contents (Elt F) → (⟨S1024x1x24x24, .f32⟩ : BufTy).Contents (Elt F)),
    unary main_v88 main_v89 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v90 ((extractStridedSlice S10x1x1x1 ![0, 0, 1, 1] · slices_S10x1x5x5_S10x1x1x1_0_0_1_1) : (⟨S10x1x5x5, .f32⟩ : BufTy).Contents (Elt F) → (⟨S10x1x1x1, .f32⟩ : BufTy).Contents (Elt F)),
    reshape main_v90 main_v91 rfl shapeCasts_S10x1x1x1_S10x1,
    unary main_v91 main_v92 (broadcastInDim S1x10x1 ![1, 2] bcast_S10x1_S1x10x1_1_2 : (⟨S10x1, .f32⟩ : BufTy).Contents (Elt F) → (⟨S1x10x1, .f32⟩ : BufTy).Contents (Elt F)),
    unary main_v92 main_v93 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v89 main_v94 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RunW1.lean ====
import proofs.«413587_j61040075211437_3_alg».proof.Proof.RunOps1
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part1_eq (c : Dev nD) : main_part1 (F := F) c = seq (ops1 (F := F)) := by
  rfl

set_option maxRecDepth 8192 in
set_option maxHeartbeats 4000000 in
theorem ops1_sub : (ops1 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops1_fresh : ∀ op ∈ (ops1 : List (HloOp τ sig (Elt F))), op.fresh = ∅ := by
  intro _ h
  (repeat (cases h with | head => rfl | tail _ h => ?_))
  exact nomatch h

set_option maxRecDepth 8192 in
set_option maxHeartbeats 8000000 in
theorem ops1_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live1 W x0 x1 x2 x3 x4 x5 x6 x7 x8) : Live2 (after (ops1 (F := F)) W) x0 x1 x2 x3 x4 x5 x6 x7 x8 := by
  simp only [Live1, ArgsAt, Conv1In, at'] at h
  obtain ⟨⟨h0, h1, h2, h3, h4, h5, h6, h7, h8⟩, ⟨hq0, hq1, hq2⟩, hs, hw, hx⟩ := h
  unfold Live2 ArgsAt Conv1In at'
  refine ⟨⟨?_, ?_, ?_, ?_, ?_, ?_, ?_, ?_, ?_⟩, ⟨?_, ?_, ?_⟩, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact hq0
  · after_results_simp; exact hq1
  · after_results_simp; exact hq2
  · after_results_simp; rw [hq0, hq1, hs, hw, hx]; rfl
  · after_results_simp; rw [hq1]; rfl
  · after_results_simp; rw [hq0]; rfl

end Cert.ReferenceIdeal.RRun

end
-- ==== Proof.RunOps2.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 2 of @main as a list of host operations (a called function's operations stand in its call's place). -/
abbrev ops2 : List (HloOp τ sig (Elt F)) :=
  [ unary main_v93 main_v95 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v94 main_v95 main_v96 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_24 (constant S_ .f32 0xC3800000#32),
    nullary main_cst_25 (constant S_ .f32 0x437F0000#32),
    TRef.unary (TRef.of (T := ⟨S_, .f32⟩) main_cst_24) (TRef.of (T := ⟨S_, .f32⟩) main_call9_v0) id,
    TRef.unary (TRef.of (T := ⟨S_, .f32⟩) main_call9_v0) (TRef.of (T := ⟨S1024x10x1x24x24, .f32⟩) main_call9_v1) (broadcastInDim S1024x10x1x24x24 ![] bcast_S_S1024x10x1x24x24),
    TRef.binary (TRef.of (T := ⟨S1024x10x1x24x24, .f32⟩) main_call9_v1) (TRef.of (T := ⟨S1024x10x1x24x24, .f32⟩) main_v96) (TRef.of (T := ⟨S1024x10x1x24x24, .f32⟩) main_call9_v2) maximumf,
    TRef.unary (TRef.of (T := ⟨S_, .f32⟩) main_cst_25) (TRef.of (T := ⟨S_, .f32⟩) main_call9_v3) id,
    TRef.unary (TRef.of (T := ⟨S_, .f32⟩) main_call9_v3) (TRef.of (T := ⟨S1024x10x1x24x24, .f32⟩) main_call9_v4) (broadcastInDim S1024x10x1x24x24 ![] bcast_S_S1024x10x1x24x24),
    TRef.binary (TRef.of (T := ⟨S1024x10x1x24x24, .f32⟩) main_call9_v4) (TRef.of (T := ⟨S1024x10x1x24x24, .f32⟩) main_call9_v2) (TRef.of (T := ⟨S1024x10x1x24x24, .f32⟩) main_v97) minimumf,
    nullary main_cst_26 (constant S_ .f32 0x00000000#32),
    binary main_v97 main_cst_26 main_v98 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v87 main_v98 main_v99 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v100 ((extractStridedSlice S1024x1x24x24 ![0, 0, 1, 2] · slices_S1024x1x28x28_S1024x1x24x24_0_0_1_2) : (⟨S1024x1x28x28, .f32⟩ : BufTy).Contents (Elt F) → (⟨S1024x1x24x24, .f32⟩ : BufTy).Contents (Elt F)),
    unary main_v100 main_v101 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v102 ((extractStridedSlice S10x1x1x1 ![0, 0, 1, 2] · slices_S10x1x5x5_S10x1x1x1_0_0_1_2) : (⟨S10x1x5x5, .f32⟩ : BufTy).Contents (Elt F) → (⟨S10x1x1x1, .f32⟩ : BufTy).Contents (Elt F)),
    reshape main_v102 main_v103 rfl shapeCasts_S10x1x1x1_S10x1,
    unary main_v103 main_v104 (broadcastInDim S1x10x1 ![1, 2] bcast_S10x1_S1x10x1_1_2 : (⟨S10x1, .f32⟩ : BufTy).Contents (Elt F) → (⟨S1x10x1, .f32⟩ : BufTy).Contents (Elt F)),
    unary main_v104 main_v105 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v101 main_v106 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v105 main_v107 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v106 main_v107 main_v108 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_27 (constant S_ .f32 0xC3800000#32),
    nullary main_cst_28 (constant S_ .f32 0x437F0000#32),
    TRef.unary (TRef.of (T := ⟨S_, .f32⟩) main_cst_27) (TRef.of (T := ⟨S_, .f32⟩) main_call10_v0) id,
    TRef.unary (TRef.of (T := ⟨S_, .f32⟩) main_call10_v0) (TRef.of (T := ⟨S1024x10x1x24x24, .f32⟩) main_call10_v1) (broadcastInDim S1024x10x1x24x24 ![] bcast_S_S1024x10x1x24x24),
    TRef.binary (TRef.of (T := ⟨S1024x10x1x24x24, .f32⟩) main_call10_v1) (TRef.of (T := ⟨S1024x10x1x24x24, .f32⟩) main_v108) (TRef.of (T := ⟨S1024x10x1x24x24, .f32⟩) main_call10_v2) maximumf,
    TRef.unary (TRef.of (T := ⟨S_, .f32⟩) main_cst_28) (TRef.of (T := ⟨S_, .f32⟩) main_call10_v3) id,
    TRef.unary (TRef.of (T := ⟨S_, .f32⟩) main_call10_v3) (TRef.of (T := ⟨S1024x10x1x24x24, .f32⟩) main_call10_v4) (broadcastInDim S1024x10x1x24x24 ![] bcast_S_S1024x10x1x24x24),
    TRef.binary (TRef.of (T := ⟨S1024x10x1x24x24, .f32⟩) main_call10_v4) (TRef.of (T := ⟨S1024x10x1x24x24, .f32⟩) main_call10_v2) (TRef.of (T := ⟨S1024x10x1x24x24, .f32⟩) main_v109) minimumf,
    nullary main_cst_29 (constant S_ .f32 0x00000000#32),
    binary main_v109 main_cst_29 main_v110 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v99 main_v110 main_v111 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v112 ((extractStridedSlice S1024x1x24x24 ![0, 0, 1, 3] · slices_S1024x1x28x28_S1024x1x24x24_0_0_1_3) : (⟨S1024x1x28x28, .f32⟩ : BufTy).Contents (Elt F) → (⟨S1024x1x24x24, .f32⟩ : BufTy).Contents (Elt F)),
    unary main_v112 main_v113 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v114 ((extractStridedSlice S10x1x1x1 ![0, 0, 1, 3] · slices_S10x1x5x5_S10x1x1x1_0_0_1_3) : (⟨S10x1x5x5, .f32⟩ : BufTy).Contents (Elt F) → (⟨S10x1x1x1, .f32⟩ : BufTy).Contents (Elt F)),
    reshape main_v114 main_v115 rfl shapeCasts_S10x1x1x1_S10x1,
    unary main_v115 main_v116 (broadcastInDim S1x10x1 ![1, 2] bcast_S10x1_S1x10x1_1_2 : (⟨S10x1, .f32⟩ : BufTy).Contents (Elt F) → (⟨S1x10x1, .f32⟩ : BufTy).Contents (Elt F)),
    unary main_v116 main_v117 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v113 main_v118 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v117 main_v119 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v118 main_v119 main_v120 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_30 (constant S_ .f32 0xC3800000#32),
    nullary main_cst_31 (constant S_ .f32 0x437F0000#32),
    TRef.unary (TRef.of (T := ⟨S_, .f32⟩) main_cst_30) (TRef.of (T := ⟨S_, .f32⟩) main_call11_v0) id,
    TRef.unary (TRef.of (T := ⟨S_, .f32⟩) main_call11_v0) (TRef.of (T := ⟨S1024x10x1x24x24, .f32⟩) main_call11_v1) (broadcastInDim S1024x10x1x24x24 ![] bcast_S_S1024x10x1x24x24),
    TRef.binary (TRef.of (T := ⟨S1024x10x1x24x24, .f32⟩) main_call11_v1) (TRef.of (T := ⟨S1024x10x1x24x24, .f32⟩) main_v120) (TRef.of (T := ⟨S1024x10x1x24x24, .f32⟩) main_call11_v2) maximumf,
    TRef.unary (TRef.of (T := ⟨S_, .f32⟩) main_cst_31) (TRef.of (T := ⟨S_, .f32⟩) main_call11_v3) id,
    TRef.unary (TRef.of (T := ⟨S_, .f32⟩) main_call11_v3) (TRef.of (T := ⟨S1024x10x1x24x24, .f32⟩) main_call11_v4) (broadcastInDim S1024x10x1x24x24 ![] bcast_S_S1024x10x1x24x24),
    TRef.binary (TRef.of (T := ⟨S1024x10x1x24x24, .f32⟩) main_call11_v4) (TRef.of (T := ⟨S1024x10x1x24x24, .f32⟩) main_call11_v2) (TRef.of (T := ⟨S1024x10x1x24x24, .f32⟩) main_v121) minimumf,
    nullary main_cst_32 (constant S_ .f32 0x00000000#32),
    binary main_v121 main_cst_32 main_v122 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v111 main_v122 main_v123 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v124 ((extractStridedSlice S1024x1x24x24 ![0, 0, 1, 4] · slices_S1024x1x28x28_S1024x1x24x24_0_0_1_4) : (⟨S1024x1x28x28, .f32⟩ : BufTy).Contents (Elt F) → (⟨S1024x1x24x24, .f32⟩ : BufTy).Contents (Elt F)),
    unary main_v124 main_v125 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v126 ((extractStridedSlice S10x1x1x1 ![0, 0, 1, 4] · slices_S10x1x5x5_S10x1x1x1_0_0_1_4) : (⟨S10x1x5x5, .f32⟩ : BufTy).Contents (Elt F) → (⟨S10x1x1x1, .f32⟩ : BufTy).Contents (Elt F)),
    reshape main_v126 main_v127 rfl shapeCasts_S10x1x1x1_S10x1,
    unary main_v127 main_v128 (broadcastInDim S1x10x1 ![1, 2] bcast_S10x1_S1x10x1_1_2 : (⟨S10x1, .f32⟩ : BufTy).Contents (Elt F) → (⟨S1x10x1, .f32⟩ : BufTy).Contents (Elt F)),
    unary main_v128 main_v129 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v125 main_v130 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v129 main_v131 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v130 main_v131 main_v132 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_33 (constant S_ .f32 0xC3800000#32),
    nullary main_cst_34 (constant S_ .f32 0x437F0000#32),
    TRef.unary (TRef.of (T := ⟨S_, .f32⟩) main_cst_33) (TRef.of (T := ⟨S_, .f32⟩) main_call12_v0) id,
    TRef.unary (TRef.of (T := ⟨S_, .f32⟩) main_call12_v0) (TRef.of (T := ⟨S1024x10x1x24x24, .f32⟩) main_call12_v1) (broadcastInDim S1024x10x1x24x24 ![] bcast_S_S1024x10x1x24x24),
    TRef.binary (TRef.of (T := ⟨S1024x10x1x24x24, .f32⟩) main_call12_v1) (TRef.of (T := ⟨S1024x10x1x24x24, .f32⟩) main_v132) (TRef.of (T := ⟨S1024x10x1x24x24, .f32⟩) main_call12_v2) maximumf,
    TRef.unary (TRef.of (T := ⟨S_, .f32⟩) main_cst_34) (TRef.of (T := ⟨S_, .f32⟩) main_call12_v3) id,
    TRef.unary (TRef.of (T := ⟨S_, .f32⟩) main_call12_v3) (TRef.of (T := ⟨S1024x10x1x24x24, .f32⟩) main_call12_v4) (broadcastInDim S1024x10x1x24x24 ![] bcast_S_S1024x10x1x24x24),
    TRef.binary (TRef.of (T := ⟨S1024x10x1x24x24, .f32⟩) main_call12_v4) (TRef.of (T := ⟨S1024x10x1x24x24, .f32⟩) main_call12_v2) (TRef.of (T := ⟨S1024x10x1x24x24, .f32⟩) main_v133) minimumf,
    nullary main_cst_35 (constant S_ .f32 0x00000000#32),
    binary main_v133 main_cst_35 main_v134 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v123 main_v134 main_v135 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v136 ((extractStridedSlice S1024x1x24x24 ![0, 0, 2, 0] · slices_S1024x1x28x28_S1024x1x24x24_0_0_2_0) : (⟨S1024x1x28x28, .f32⟩ : BufTy).Contents (Elt F) → (⟨S1024x1x24x24, .f32⟩ : BufTy).Contents (Elt F)),
    unary main_v136 main_v137 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v138 ((extractStridedSlice S10x1x1x1 ![0, 0, 2, 0] · slices_S10x1x5x5_S10x1x1x1_0_0_2_0) : (⟨S10x1x5x5, .f32⟩ : BufTy).Contents (Elt F) → (⟨S10x1x1x1, .f32⟩ : BufTy).Contents (Elt F)),
    reshape main_v138 main_v139 rfl shapeCasts_S10x1x1x1_S10x1,
    unary main_v139 main_v140 (broadcastInDim S1x10x1 ![1, 2] bcast_S10x1_S1x10x1_1_2 : (⟨S10x1, .f32⟩ : BufTy).Contents (Elt F) → (⟨S1x10x1, .f32⟩ : BufTy).Contents (Elt F)),
    unary main_v140 main_v141 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v137 main_v142 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RunW2.lean ====
import proofs.«413587_j61040075211437_3_alg».proof.Proof.RunOps2
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part2_eq (c : Dev nD) : main_part2 (F := F) c = seq (ops2 (F := F)) := by
  rfl

set_option maxRecDepth 8192 in
set_option maxHeartbeats 4000000 in
theorem ops2_sub : (ops2 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops2_fresh : ∀ op ∈ (ops2 : List (HloOp τ sig (Elt F))), op.fresh = ∅ := by
  intro _ h
  (repeat (cases h with | head => rfl | tail _ h => ?_))
  exact nomatch h

set_option maxRecDepth 8192 in
set_option maxHeartbeats 8000000 in
theorem ops2_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live2 W x0 x1 x2 x3 x4 x5 x6 x7 x8) : Live3 (after (ops2 (F := F)) W) x0 x1 x2 x3 x4 x5 x6 x7 x8 := by
  simp only [Live2, ArgsAt, Conv1In, at'] at h
  obtain ⟨⟨h0, h1, h2, h3, h4, h5, h6, h7, h8⟩, ⟨hq0, hq1, hq2⟩, hs, hw, hx⟩ := h
  unfold Live3 ArgsAt Conv1In at'
  refine ⟨⟨?_, ?_, ?_, ?_, ?_, ?_, ?_, ?_, ?_⟩, ⟨?_, ?_, ?_⟩, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact hq0
  · after_results_simp; exact hq1
  · after_results_simp; exact hq2
  · after_results_simp; rw [hq0, hq1, hs, hw, hx]; rfl
  · after_results_simp; rw [hq1]; rfl
  · after_results_simp; rw [hq0]; rfl

end Cert.ReferenceIdeal.RRun

end
-- ==== Proof.RunOps3.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 3 of @main as a list of host operations (a called function's operations stand in its call's place). -/
abbrev ops3 : List (HloOp τ sig (Elt F)) :=
  [ unary main_v141 main_v143 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v142 main_v143 main_v144 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_36 (constant S_ .f32 0xC3800000#32),
    nullary main_cst_37 (constant S_ .f32 0x437F0000#32),
    TRef.unary (TRef.of (T := ⟨S_, .f32⟩) main_cst_36) (TRef.of (T := ⟨S_, .f32⟩) main_call13_v0) id,
    TRef.unary (TRef.of (T := ⟨S_, .f32⟩) main_call13_v0) (TRef.of (T := ⟨S1024x10x1x24x24, .f32⟩) main_call13_v1) (broadcastInDim S1024x10x1x24x24 ![] bcast_S_S1024x10x1x24x24),
    TRef.binary (TRef.of (T := ⟨S1024x10x1x24x24, .f32⟩) main_call13_v1) (TRef.of (T := ⟨S1024x10x1x24x24, .f32⟩) main_v144) (TRef.of (T := ⟨S1024x10x1x24x24, .f32⟩) main_call13_v2) maximumf,
    TRef.unary (TRef.of (T := ⟨S_, .f32⟩) main_cst_37) (TRef.of (T := ⟨S_, .f32⟩) main_call13_v3) id,
    TRef.unary (TRef.of (T := ⟨S_, .f32⟩) main_call13_v3) (TRef.of (T := ⟨S1024x10x1x24x24, .f32⟩) main_call13_v4) (broadcastInDim S1024x10x1x24x24 ![] bcast_S_S1024x10x1x24x24),
    TRef.binary (TRef.of (T := ⟨S1024x10x1x24x24, .f32⟩) main_call13_v4) (TRef.of (T := ⟨S1024x10x1x24x24, .f32⟩) main_call13_v2) (TRef.of (T := ⟨S1024x10x1x24x24, .f32⟩) main_v145) minimumf,
    nullary main_cst_38 (constant S_ .f32 0x00000000#32),
    binary main_v145 main_cst_38 main_v146 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v135 main_v146 main_v147 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v148 ((extractStridedSlice S1024x1x24x24 ![0, 0, 2, 1] · slices_S1024x1x28x28_S1024x1x24x24_0_0_2_1) : (⟨S1024x1x28x28, .f32⟩ : BufTy).Contents (Elt F) → (⟨S1024x1x24x24, .f32⟩ : BufTy).Contents (Elt F)),
    unary main_v148 main_v149 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v150 ((extractStridedSlice S10x1x1x1 ![0, 0, 2, 1] · slices_S10x1x5x5_S10x1x1x1_0_0_2_1) : (⟨S10x1x5x5, .f32⟩ : BufTy).Contents (Elt F) → (⟨S10x1x1x1, .f32⟩ : BufTy).Contents (Elt F)),
    reshape main_v150 main_v151 rfl shapeCasts_S10x1x1x1_S10x1,
    unary main_v151 main_v152 (broadcastInDim S1x10x1 ![1, 2] bcast_S10x1_S1x10x1_1_2 : (⟨S10x1, .f32⟩ : BufTy).Contents (Elt F) → (⟨S1x10x1, .f32⟩ : BufTy).Contents (Elt F)),
    unary main_v152 main_v153 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v149 main_v154 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v153 main_v155 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v154 main_v155 main_v156 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_39 (constant S_ .f32 0xC3800000#32),
    nullary main_cst_40 (constant S_ .f32 0x437F0000#32),
    TRef.unary (TRef.of (T := ⟨S_, .f32⟩) main_cst_39) (TRef.of (T := ⟨S_, .f32⟩) main_call14_v0) id,
    TRef.unary (TRef.of (T := ⟨S_, .f32⟩) main_call14_v0) (TRef.of (T := ⟨S1024x10x1x24x24, .f32⟩) main_call14_v1) (broadcastInDim S1024x10x1x24x24 ![] bcast_S_S1024x10x1x24x24),
    TRef.binary (TRef.of (T := ⟨S1024x10x1x24x24, .f32⟩) main_call14_v1) (TRef.of (T := ⟨S1024x10x1x24x24, .f32⟩) main_v156) (TRef.of (T := ⟨S1024x10x1x24x24, .f32⟩) main_call14_v2) maximumf,
    TRef.unary (TRef.of (T := ⟨S_, .f32⟩) main_cst_40) (TRef.of (T := ⟨S_, .f32⟩) main_call14_v3) id,
    TRef.unary (TRef.of (T := ⟨S_, .f32⟩) main_call14_v3) (TRef.of (T := ⟨S1024x10x1x24x24, .f32⟩) main_call14_v4) (broadcastInDim S1024x10x1x24x24 ![] bcast_S_S1024x10x1x24x24),
    TRef.binary (TRef.of (T := ⟨S1024x10x1x24x24, .f32⟩) main_call14_v4) (TRef.of (T := ⟨S1024x10x1x24x24, .f32⟩) main_call14_v2) (TRef.of (T := ⟨S1024x10x1x24x24, .f32⟩) main_v157) minimumf,
    nullary main_cst_41 (constant S_ .f32 0x00000000#32),
    binary main_v157 main_cst_41 main_v158 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v147 main_v158 main_v159 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v160 ((extractStridedSlice S1024x1x24x24 ![0, 0, 2, 2] · slices_S1024x1x28x28_S1024x1x24x24_0_0_2_2) : (⟨S1024x1x28x28, .f32⟩ : BufTy).Contents (Elt F) → (⟨S1024x1x24x24, .f32⟩ : BufTy).Contents (Elt F)),
    unary main_v160 main_v161 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v162 ((extractStridedSlice S10x1x1x1 ![0, 0, 2, 2] · slices_S10x1x5x5_S10x1x1x1_0_0_2_2) : (⟨S10x1x5x5, .f32⟩ : BufTy).Contents (Elt F) → (⟨S10x1x1x1, .f32⟩ : BufTy).Contents (Elt F)),
    reshape main_v162 main_v163 rfl shapeCasts_S10x1x1x1_S10x1,
    unary main_v163 main_v164 (broadcastInDim S1x10x1 ![1, 2] bcast_S10x1_S1x10x1_1_2 : (⟨S10x1, .f32⟩ : BufTy).Contents (Elt F) → (⟨S1x10x1, .f32⟩ : BufTy).Contents (Elt F)),
    unary main_v164 main_v165 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v161 main_v166 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v165 main_v167 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v166 main_v167 main_v168 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_42 (constant S_ .f32 0xC3800000#32),
    nullary main_cst_43 (constant S_ .f32 0x437F0000#32),
    TRef.unary (TRef.of (T := ⟨S_, .f32⟩) main_cst_42) (TRef.of (T := ⟨S_, .f32⟩) main_call15_v0) id,
    TRef.unary (TRef.of (T := ⟨S_, .f32⟩) main_call15_v0) (TRef.of (T := ⟨S1024x10x1x24x24, .f32⟩) main_call15_v1) (broadcastInDim S1024x10x1x24x24 ![] bcast_S_S1024x10x1x24x24),
    TRef.binary (TRef.of (T := ⟨S1024x10x1x24x24, .f32⟩) main_call15_v1) (TRef.of (T := ⟨S1024x10x1x24x24, .f32⟩) main_v168) (TRef.of (T := ⟨S1024x10x1x24x24, .f32⟩) main_call15_v2) maximumf,
    TRef.unary (TRef.of (T := ⟨S_, .f32⟩) main_cst_43) (TRef.of (T := ⟨S_, .f32⟩) main_call15_v3) id,
    TRef.unary (TRef.of (T := ⟨S_, .f32⟩) main_call15_v3) (TRef.of (T := ⟨S1024x10x1x24x24, .f32⟩) main_call15_v4) (broadcastInDim S1024x10x1x24x24 ![] bcast_S_S1024x10x1x24x24),
    TRef.binary (TRef.of (T := ⟨S1024x10x1x24x24, .f32⟩) main_call15_v4) (TRef.of (T := ⟨S1024x10x1x24x24, .f32⟩) main_call15_v2) (TRef.of (T := ⟨S1024x10x1x24x24, .f32⟩) main_v169) minimumf,
    nullary main_cst_44 (constant S_ .f32 0x00000000#32),
    binary main_v169 main_cst_44 main_v170 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v159 main_v170 main_v171 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v172 ((extractStridedSlice S1024x1x24x24 ![0, 0, 2, 3] · slices_S1024x1x28x28_S1024x1x24x24_0_0_2_3) : (⟨S1024x1x28x28, .f32⟩ : BufTy).Contents (Elt F) → (⟨S1024x1x24x24, .f32⟩ : BufTy).Contents (Elt F)),
    unary main_v172 main_v173 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v174 ((extractStridedSlice S10x1x1x1 ![0, 0, 2, 3] · slices_S10x1x5x5_S10x1x1x1_0_0_2_3) : (⟨S10x1x5x5, .f32⟩ : BufTy).Contents (Elt F) → (⟨S10x1x1x1, .f32⟩ : BufTy).Contents (Elt F)),
    reshape main_v174 main_v175 rfl shapeCasts_S10x1x1x1_S10x1,
    unary main_v175 main_v176 (broadcastInDim S1x10x1 ![1, 2] bcast_S10x1_S1x10x1_1_2 : (⟨S10x1, .f32⟩ : BufTy).Contents (Elt F) → (⟨S1x10x1, .f32⟩ : BufTy).Contents (Elt F)),
    unary main_v176 main_v177 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v173 main_v178 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v177 main_v179 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v178 main_v179 main_v180 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_45 (constant S_ .f32 0xC3800000#32),
    nullary main_cst_46 (constant S_ .f32 0x437F0000#32),
    TRef.unary (TRef.of (T := ⟨S_, .f32⟩) main_cst_45) (TRef.of (T := ⟨S_, .f32⟩) main_call16_v0) id,
    TRef.unary (TRef.of (T := ⟨S_, .f32⟩) main_call16_v0) (TRef.of (T := ⟨S1024x10x1x24x24, .f32⟩) main_call16_v1) (broadcastInDim S1024x10x1x24x24 ![] bcast_S_S1024x10x1x24x24),
    TRef.binary (TRef.of (T := ⟨S1024x10x1x24x24, .f32⟩) main_call16_v1) (TRef.of (T := ⟨S1024x10x1x24x24, .f32⟩) main_v180) (TRef.of (T := ⟨S1024x10x1x24x24, .f32⟩) main_call16_v2) maximumf,
    TRef.unary (TRef.of (T := ⟨S_, .f32⟩) main_cst_46) (TRef.of (T := ⟨S_, .f32⟩) main_call16_v3) id,
    TRef.unary (TRef.of (T := ⟨S_, .f32⟩) main_call16_v3) (TRef.of (T := ⟨S1024x10x1x24x24, .f32⟩) main_call16_v4) (broadcastInDim S1024x10x1x24x24 ![] bcast_S_S1024x10x1x24x24),
    TRef.binary (TRef.of (T := ⟨S1024x10x1x24x24, .f32⟩) main_call16_v4) (TRef.of (T := ⟨S1024x10x1x24x24, .f32⟩) main_call16_v2) (TRef.of (T := ⟨S1024x10x1x24x24, .f32⟩) main_v181) minimumf,
    nullary main_cst_47 (constant S_ .f32 0x00000000#32),
    binary main_v181 main_cst_47 main_v182 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v171 main_v182 main_v183 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v184 ((extractStridedSlice S1024x1x24x24 ![0, 0, 2, 4] · slices_S1024x1x28x28_S1024x1x24x24_0_0_2_4) : (⟨S1024x1x28x28, .f32⟩ : BufTy).Contents (Elt F) → (⟨S1024x1x24x24, .f32⟩ : BufTy).Contents (Elt F)),
    unary main_v184 main_v185 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v186 ((extractStridedSlice S10x1x1x1 ![0, 0, 2, 4] · slices_S10x1x5x5_S10x1x1x1_0_0_2_4) : (⟨S10x1x5x5, .f32⟩ : BufTy).Contents (Elt F) → (⟨S10x1x1x1, .f32⟩ : BufTy).Contents (Elt F)),
    reshape main_v186 main_v187 rfl shapeCasts_S10x1x1x1_S10x1,
    unary main_v187 main_v188 (broadcastInDim S1x10x1 ![1, 2] bcast_S10x1_S1x10x1_1_2 : (⟨S10x1, .f32⟩ : BufTy).Contents (Elt F) → (⟨S1x10x1, .f32⟩ : BufTy).Contents (Elt F)),
    unary main_v188 main_v189 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v185 main_v190 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RunW3.lean ====
import proofs.«413587_j61040075211437_3_alg».proof.Proof.RunOps3
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part3_eq (c : Dev nD) : main_part3 (F := F) c = seq (ops3 (F := F)) := by
  rfl

set_option maxRecDepth 8192 in
set_option maxHeartbeats 4000000 in
theorem ops3_sub : (ops3 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops3_fresh : ∀ op ∈ (ops3 : List (HloOp τ sig (Elt F))), op.fresh = ∅ := by
  intro _ h
  (repeat (cases h with | head => rfl | tail _ h => ?_))
  exact nomatch h

set_option maxRecDepth 8192 in
set_option maxHeartbeats 8000000 in
theorem ops3_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live3 W x0 x1 x2 x3 x4 x5 x6 x7 x8) : Live4 (after (ops3 (F := F)) W) x0 x1 x2 x3 x4 x5 x6 x7 x8 := by
  simp only [Live3, ArgsAt, Conv1In, at'] at h
  obtain ⟨⟨h0, h1, h2, h3, h4, h5, h6, h7, h8⟩, ⟨hq0, hq1, hq2⟩, hs, hw, hx⟩ := h
  unfold Live4 ArgsAt Conv1In at'
  refine ⟨⟨?_, ?_, ?_, ?_, ?_, ?_, ?_, ?_, ?_⟩, ⟨?_, ?_, ?_⟩, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact hq0
  · after_results_simp; exact hq1
  · after_results_simp; exact hq2
  · after_results_simp; rw [hq0, hq1, hs, hw, hx]; rfl
  · after_results_simp; rw [hq1]; rfl
  · after_results_simp; rw [hq0]; rfl

end Cert.ReferenceIdeal.RRun

end
-- ==== Proof.RunOps4.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 4 of @main as a list of host operations (a called function's operations stand in its call's place). -/
abbrev ops4 : List (HloOp τ sig (Elt F)) :=
  [ unary main_v189 main_v191 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v190 main_v191 main_v192 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_48 (constant S_ .f32 0xC3800000#32),
    nullary main_cst_49 (constant S_ .f32 0x437F0000#32),
    TRef.unary (TRef.of (T := ⟨S_, .f32⟩) main_cst_48) (TRef.of (T := ⟨S_, .f32⟩) main_call17_v0) id,
    TRef.unary (TRef.of (T := ⟨S_, .f32⟩) main_call17_v0) (TRef.of (T := ⟨S1024x10x1x24x24, .f32⟩) main_call17_v1) (broadcastInDim S1024x10x1x24x24 ![] bcast_S_S1024x10x1x24x24),
    TRef.binary (TRef.of (T := ⟨S1024x10x1x24x24, .f32⟩) main_call17_v1) (TRef.of (T := ⟨S1024x10x1x24x24, .f32⟩) main_v192) (TRef.of (T := ⟨S1024x10x1x24x24, .f32⟩) main_call17_v2) maximumf,
    TRef.unary (TRef.of (T := ⟨S_, .f32⟩) main_cst_49) (TRef.of (T := ⟨S_, .f32⟩) main_call17_v3) id,
    TRef.unary (TRef.of (T := ⟨S_, .f32⟩) main_call17_v3) (TRef.of (T := ⟨S1024x10x1x24x24, .f32⟩) main_call17_v4) (broadcastInDim S1024x10x1x24x24 ![] bcast_S_S1024x10x1x24x24),
    TRef.binary (TRef.of (T := ⟨S1024x10x1x24x24, .f32⟩) main_call17_v4) (TRef.of (T := ⟨S1024x10x1x24x24, .f32⟩) main_call17_v2) (TRef.of (T := ⟨S1024x10x1x24x24, .f32⟩) main_v193) minimumf,
    nullary main_cst_50 (constant S_ .f32 0x00000000#32),
    binary main_v193 main_cst_50 main_v194 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v183 main_v194 main_v195 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v196 ((extractStridedSlice S1024x1x24x24 ![0, 0, 3, 0] · slices_S1024x1x28x28_S1024x1x24x24_0_0_3_0) : (⟨S1024x1x28x28, .f32⟩ : BufTy).Contents (Elt F) → (⟨S1024x1x24x24, .f32⟩ : BufTy).Contents (Elt F)),
    unary main_v196 main_v197 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v198 ((extractStridedSlice S10x1x1x1 ![0, 0, 3, 0] · slices_S10x1x5x5_S10x1x1x1_0_0_3_0) : (⟨S10x1x5x5, .f32⟩ : BufTy).Contents (Elt F) → (⟨S10x1x1x1, .f32⟩ : BufTy).Contents (Elt F)),
    reshape main_v198 main_v199 rfl shapeCasts_S10x1x1x1_S10x1,
    unary main_v199 main_v200 (broadcastInDim S1x10x1 ![1, 2] bcast_S10x1_S1x10x1_1_2 : (⟨S10x1, .f32⟩ : BufTy).Contents (Elt F) → (⟨S1x10x1, .f32⟩ : BufTy).Contents (Elt F)),
    unary main_v200 main_v201 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v197 main_v202 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v201 main_v203 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v202 main_v203 main_v204 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_51 (constant S_ .f32 0xC3800000#32),
    nullary main_cst_52 (constant S_ .f32 0x437F0000#32),
    TRef.unary (TRef.of (T := ⟨S_, .f32⟩) main_cst_51) (TRef.of (T := ⟨S_, .f32⟩) main_call18_v0) id,
    TRef.unary (TRef.of (T := ⟨S_, .f32⟩) main_call18_v0) (TRef.of (T := ⟨S1024x10x1x24x24, .f32⟩) main_call18_v1) (broadcastInDim S1024x10x1x24x24 ![] bcast_S_S1024x10x1x24x24),
    TRef.binary (TRef.of (T := ⟨S1024x10x1x24x24, .f32⟩) main_call18_v1) (TRef.of (T := ⟨S1024x10x1x24x24, .f32⟩) main_v204) (TRef.of (T := ⟨S1024x10x1x24x24, .f32⟩) main_call18_v2) maximumf,
    TRef.unary (TRef.of (T := ⟨S_, .f32⟩) main_cst_52) (TRef.of (T := ⟨S_, .f32⟩) main_call18_v3) id,
    TRef.unary (TRef.of (T := ⟨S_, .f32⟩) main_call18_v3) (TRef.of (T := ⟨S1024x10x1x24x24, .f32⟩) main_call18_v4) (broadcastInDim S1024x10x1x24x24 ![] bcast_S_S1024x10x1x24x24),
    TRef.binary (TRef.of (T := ⟨S1024x10x1x24x24, .f32⟩) main_call18_v4) (TRef.of (T := ⟨S1024x10x1x24x24, .f32⟩) main_call18_v2) (TRef.of (T := ⟨S1024x10x1x24x24, .f32⟩) main_v205) minimumf,
    nullary main_cst_53 (constant S_ .f32 0x00000000#32),
    binary main_v205 main_cst_53 main_v206 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v195 main_v206 main_v207 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v208 ((extractStridedSlice S1024x1x24x24 ![0, 0, 3, 1] · slices_S1024x1x28x28_S1024x1x24x24_0_0_3_1) : (⟨S1024x1x28x28, .f32⟩ : BufTy).Contents (Elt F) → (⟨S1024x1x24x24, .f32⟩ : BufTy).Contents (Elt F)),
    unary main_v208 main_v209 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v210 ((extractStridedSlice S10x1x1x1 ![0, 0, 3, 1] · slices_S10x1x5x5_S10x1x1x1_0_0_3_1) : (⟨S10x1x5x5, .f32⟩ : BufTy).Contents (Elt F) → (⟨S10x1x1x1, .f32⟩ : BufTy).Contents (Elt F)),
    reshape main_v210 main_v211 rfl shapeCasts_S10x1x1x1_S10x1,
    unary main_v211 main_v212 (broadcastInDim S1x10x1 ![1, 2] bcast_S10x1_S1x10x1_1_2 : (⟨S10x1, .f32⟩ : BufTy).Contents (Elt F) → (⟨S1x10x1, .f32⟩ : BufTy).Contents (Elt F)),
    unary main_v212 main_v213 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v209 main_v214 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v213 main_v215 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v214 main_v215 main_v216 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_54 (constant S_ .f32 0xC3800000#32),
    nullary main_cst_55 (constant S_ .f32 0x437F0000#32),
    TRef.unary (TRef.of (T := ⟨S_, .f32⟩) main_cst_54) (TRef.of (T := ⟨S_, .f32⟩) main_call19_v0) id,
    TRef.unary (TRef.of (T := ⟨S_, .f32⟩) main_call19_v0) (TRef.of (T := ⟨S1024x10x1x24x24, .f32⟩) main_call19_v1) (broadcastInDim S1024x10x1x24x24 ![] bcast_S_S1024x10x1x24x24),
    TRef.binary (TRef.of (T := ⟨S1024x10x1x24x24, .f32⟩) main_call19_v1) (TRef.of (T := ⟨S1024x10x1x24x24, .f32⟩) main_v216) (TRef.of (T := ⟨S1024x10x1x24x24, .f32⟩) main_call19_v2) maximumf,
    TRef.unary (TRef.of (T := ⟨S_, .f32⟩) main_cst_55) (TRef.of (T := ⟨S_, .f32⟩) main_call19_v3) id,
    TRef.unary (TRef.of (T := ⟨S_, .f32⟩) main_call19_v3) (TRef.of (T := ⟨S1024x10x1x24x24, .f32⟩) main_call19_v4) (broadcastInDim S1024x10x1x24x24 ![] bcast_S_S1024x10x1x24x24),
    TRef.binary (TRef.of (T := ⟨S1024x10x1x24x24, .f32⟩) main_call19_v4) (TRef.of (T := ⟨S1024x10x1x24x24, .f32⟩) main_call19_v2) (TRef.of (T := ⟨S1024x10x1x24x24, .f32⟩) main_v217) minimumf,
    nullary main_cst_56 (constant S_ .f32 0x00000000#32),
    binary main_v217 main_cst_56 main_v218 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v207 main_v218 main_v219 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v220 ((extractStridedSlice S1024x1x24x24 ![0, 0, 3, 2] · slices_S1024x1x28x28_S1024x1x24x24_0_0_3_2) : (⟨S1024x1x28x28, .f32⟩ : BufTy).Contents (Elt F) → (⟨S1024x1x24x24, .f32⟩ : BufTy).Contents (Elt F)),
    unary main_v220 main_v221 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v222 ((extractStridedSlice S10x1x1x1 ![0, 0, 3, 2] · slices_S10x1x5x5_S10x1x1x1_0_0_3_2) : (⟨S10x1x5x5, .f32⟩ : BufTy).Contents (Elt F) → (⟨S10x1x1x1, .f32⟩ : BufTy).Contents (Elt F)),
    reshape main_v222 main_v223 rfl shapeCasts_S10x1x1x1_S10x1,
    unary main_v223 main_v224 (broadcastInDim S1x10x1 ![1, 2] bcast_S10x1_S1x10x1_1_2 : (⟨S10x1, .f32⟩ : BufTy).Contents (Elt F) → (⟨S1x10x1, .f32⟩ : BufTy).Contents (Elt F)),
    unary main_v224 main_v225 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v221 main_v226 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v225 main_v227 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v226 main_v227 main_v228 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_57 (constant S_ .f32 0xC3800000#32),
    nullary main_cst_58 (constant S_ .f32 0x437F0000#32),
    TRef.unary (TRef.of (T := ⟨S_, .f32⟩) main_cst_57) (TRef.of (T := ⟨S_, .f32⟩) main_call20_v0) id,
    TRef.unary (TRef.of (T := ⟨S_, .f32⟩) main_call20_v0) (TRef.of (T := ⟨S1024x10x1x24x24, .f32⟩) main_call20_v1) (broadcastInDim S1024x10x1x24x24 ![] bcast_S_S1024x10x1x24x24),
    TRef.binary (TRef.of (T := ⟨S1024x10x1x24x24, .f32⟩) main_call20_v1) (TRef.of (T := ⟨S1024x10x1x24x24, .f32⟩) main_v228) (TRef.of (T := ⟨S1024x10x1x24x24, .f32⟩) main_call20_v2) maximumf,
    TRef.unary (TRef.of (T := ⟨S_, .f32⟩) main_cst_58) (TRef.of (T := ⟨S_, .f32⟩) main_call20_v3) id,
    TRef.unary (TRef.of (T := ⟨S_, .f32⟩) main_call20_v3) (TRef.of (T := ⟨S1024x10x1x24x24, .f32⟩) main_call20_v4) (broadcastInDim S1024x10x1x24x24 ![] bcast_S_S1024x10x1x24x24),
    TRef.binary (TRef.of (T := ⟨S1024x10x1x24x24, .f32⟩) main_call20_v4) (TRef.of (T := ⟨S1024x10x1x24x24, .f32⟩) main_call20_v2) (TRef.of (T := ⟨S1024x10x1x24x24, .f32⟩) main_v229) minimumf,
    nullary main_cst_59 (constant S_ .f32 0x00000000#32),
    binary main_v229 main_cst_59 main_v230 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v219 main_v230 main_v231 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v232 ((extractStridedSlice S1024x1x24x24 ![0, 0, 3, 3] · slices_S1024x1x28x28_S1024x1x24x24_0_0_3_3) : (⟨S1024x1x28x28, .f32⟩ : BufTy).Contents (Elt F) → (⟨S1024x1x24x24, .f32⟩ : BufTy).Contents (Elt F)),
    unary main_v232 main_v233 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v234 ((extractStridedSlice S10x1x1x1 ![0, 0, 3, 3] · slices_S10x1x5x5_S10x1x1x1_0_0_3_3) : (⟨S10x1x5x5, .f32⟩ : BufTy).Contents (Elt F) → (⟨S10x1x1x1, .f32⟩ : BufTy).Contents (Elt F)),
    reshape main_v234 main_v235 rfl shapeCasts_S10x1x1x1_S10x1,
    unary main_v235 main_v236 (broadcastInDim S1x10x1 ![1, 2] bcast_S10x1_S1x10x1_1_2 : (⟨S10x1, .f32⟩ : BufTy).Contents (Elt F) → (⟨S1x10x1, .f32⟩ : BufTy).Contents (Elt F)),
    unary main_v236 main_v237 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v233 main_v238 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RunW4.lean ====
import proofs.«413587_j61040075211437_3_alg».proof.Proof.RunOps4
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part4_eq (c : Dev nD) : main_part4 (F := F) c = seq (ops4 (F := F)) := by
  rfl

set_option maxRecDepth 8192 in
set_option maxHeartbeats 4000000 in
theorem ops4_sub : (ops4 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops4_fresh : ∀ op ∈ (ops4 : List (HloOp τ sig (Elt F))), op.fresh = ∅ := by
  intro _ h
  (repeat (cases h with | head => rfl | tail _ h => ?_))
  exact nomatch h

set_option maxRecDepth 8192 in
set_option maxHeartbeats 8000000 in
theorem ops4_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live4 W x0 x1 x2 x3 x4 x5 x6 x7 x8) : Live5 (after (ops4 (F := F)) W) x0 x1 x2 x3 x4 x5 x6 x7 x8 := by
  simp only [Live4, ArgsAt, Conv1In, at'] at h
  obtain ⟨⟨h0, h1, h2, h3, h4, h5, h6, h7, h8⟩, ⟨hq0, hq1, hq2⟩, hs, hw, hx⟩ := h
  unfold Live5 ArgsAt Conv1In at'
  refine ⟨⟨?_, ?_, ?_, ?_, ?_, ?_, ?_, ?_, ?_⟩, ⟨?_, ?_, ?_⟩, ?_, ?_, ?_⟩
  · after_results_simp; exact h0
  · after_results_simp; exact h1
  · after_results_simp; exact h2
  · after_results_simp; exact h3
  · after_results_simp; exact h4
  · after_results_simp; exact h5
  · after_results_simp; exact h6
  · after_results_simp; exact h7
  · after_results_simp; exact h8
  · after_results_simp; exact hq0
  · after_results_simp; exact hq1
  · after_results_simp; exact hq2
  · after_results_simp; rw [hq0, hq1, hs, hw, hx]; rfl
  · after_results_simp; rw [hq1]; rfl
  · after_results_simp; rw [hq0]; rfl

end Cert.ReferenceIdeal.RRun

end
-- ==== Proof.RunOps5.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 5 of @main as a list of host operations (a called function's operations stand in its call's place). -/
abbrev ops5 : List (HloOp τ sig (Elt F)) :=
  [ unary main_v237 main_v239 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v238 main_v239 main_v240 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_60 (constant S_ .f32 0xC3800000#32),
    nullary main_cst_61 (constant S_ .f32 0x437F0000#32),
    TRef.unary (TRef.of (T := ⟨S_, .f32⟩) main_cst_60) (TRef.of (T := ⟨S_, .f32⟩) main_call21_v0) id,
    TRef.unary (TRef.of (T := ⟨S_, .f32⟩) main_call21_v0) (TRef.of (T := ⟨S1024x10x1x24x24, .f32⟩) main_call21_v1) (broadcastInDim S1024x10x1x24x24 ![] bcast_S_S1024x10x1x24x24),
    TRef.binary (TRef.of (T := ⟨S1024x10x1x24x24, .f32⟩) main_call21_v1) (TRef.of (T := ⟨S1024x10x1x24x24, .f32⟩) main_v240) (TRef.of (T := ⟨S1024x10x1x24x24, .f32⟩) main_call21_v2) maximumf,
    TRef.unary (TRef.of (T := ⟨S_, .f32⟩) main_cst_61) (TRef.of (T := ⟨S_, .f32⟩) main_call21_v3) id,
    TRef.unary (TRef.of (T := ⟨S_, .f32⟩) main_call21_v3) (TRef.of (T := ⟨S1024x10x1x24x24, .f32⟩) main_call21_v4) (broadcastInDim S1024x10x1x24x24 ![] bcast_S_S1024x10x1x24x24),
    TRef.binary (TRef.of (T := ⟨S1024x10x1x24x24, .f32⟩) main_call21_v4) (TRef.of (T := ⟨S1024x10x1x24x24, .f32⟩) main_call21_v2) (TRef.of (T := ⟨S1024x10x1x24x24, .f32⟩) main_v241) minimumf,
    nullary main_cst_62 (constant S_ .f32 0x00000000#32),
    binary main_v241 main_cst_62 main_v242 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v231 main_v242 main_v243 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v244 ((extractStridedSlice S1024x1x24x24 ![0, 0, 3, 4] · slices_S1024x1x28x28_S1024x1x24x24_0_0_3_4) : (⟨S1024x1x28x28, .f32⟩ : BufTy).Contents (Elt F) → (⟨S1024x1x24x24, .f32⟩ : BufTy).Contents (Elt F)),
    unary main_v244 main_v245 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v246 ((extractStridedSlice S10x1x1x1 ![0, 0, 3, 4] · slices_S10x1x5x5_S10x1x1x1_0_0_3_4) : (⟨S10x1x5x5, .f32⟩ : BufTy).Contents (Elt F) → (⟨S10x1x1x1, .f32⟩ : BufTy).Contents (Elt F)),
    reshape main_v246 main_v247 rfl shapeCasts_S10x1x1x1_S10x1,
    unary main_v247 main_v248 (broadcastInDim S1x10x1 ![1, 2] bcast_S10x1_S1x10x1_1_2 : (⟨S10x1, .f32⟩ : BufTy).Contents (Elt F) → (⟨S1x10x1, .f32⟩ : BufTy).Contents (Elt F)),
    unary main_v248 main_v249 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v245 main_v250 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v249 main_v251 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v250 main_v251 main_v252 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_63 (constant S_ .f32 0xC3800000#32),
    nullary main_cst_64 (constant S_ .f32 0x437F0000#32),
    TRef.unary (TRef.of (T := ⟨S_, .f32⟩) main_cst_63) (TRef.of (T := ⟨S_, .f32⟩) main_call22_v0) id,
    TRef.unary (TRef.of (T := ⟨S_, .f32⟩) main_call22_v0) (TRef.of (T := ⟨S1024x10x1x24x24, .f32⟩) main_call22_v1) (broadcastInDim S1024x10x1x24x24 ![] bcast_S_S1024x10x1x24x24),
    TRef.binary (TRef.of (T := ⟨S1024x10x1x24x24, .f32⟩) main_call22_v1) (TRef.of (T := ⟨S1024x10x1x24x24, .f32⟩) main_v252) (TRef.of (T := ⟨S1024x10x1x24x24, .f32⟩) main_call22_v2) maximumf,
    TRef.unary (TRef.of (T := ⟨S_, .f32⟩) main_cst_64) (TRef.of (T := ⟨S_, .f32⟩) main_call22_v3) id,
    TRef.unary (TRef.of (T := ⟨S_, .f32⟩) main_call22_v3) (TRef.of (T := ⟨S1024x10x1x24x24, .f32⟩) main_call22_v4) (broadcastInDim S1024x10x1x24x24 ![] bcast_S_S1024x10x1x24x24),
    TRef.binary (TRef.of (T := ⟨S1024x10x1x24x24, .f32⟩) main_call22_v4) (TRef.of (T := ⟨S1024x10x1x24x24, .f32⟩) main_call22_v2) (TRef.of (T := ⟨S1024x10x1x24x24, .f32⟩) main_v253) minimumf,
    nullary main_cst_65 (constant S_ .f32 0x00000000#32),
    binary main_v253 main_cst_65 main_v254 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v243 main_v254 main_v255 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v256 ((extractStridedSlice S1024x1x24x24 ![0, 0, 4, 0] · slices_S1024x1x28x28_S1024x1x24x24_0_0_4_0) : (⟨S1024x1x28x28, .f32⟩ : BufTy).Contents (Elt F) → (⟨S1024x1x24x24, .f32⟩ : BufTy).Contents (Elt F)),
    unary main_v256 main_v257 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v258 ((extractStridedSlice S10x1x1x1 ![0, 0, 4, 0] · slices_S10x1x5x5_S10x1x1x1_0_0_4_0) : (⟨S10x1x5x5, .f32⟩ : BufTy).Contents (Elt F) → (⟨S10x1x1x1, .f32⟩ : BufTy).Contents (Elt F)),
    reshape main_v258 main_v259 rfl shapeCasts_S10x1x1x1_S10x1,
    unary main_v259 main_v260 (broadcastInDim S1x10x1 ![1, 2] bcast_S10x1_S1x10x1_1_2 : (⟨S10x1, .f32⟩ : BufTy).Contents (Elt F) → (⟨S1x10x1, .f32⟩ : BufTy).Contents (Elt F)),
    unary main_v260 main_v261 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v257 main_v262 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v261 main_v263 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v262 main_v263 main_v264 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_66 (constant S_ .f32 0xC3800000#32),
    nullary main_cst_67 (constant S_ .f32 0x437F0000#32),
    TRef.unary (TRef.of (T := ⟨S_, .f32⟩) main_cst_66) (TRef.of (T := ⟨S_, .f32⟩) main_call23_v0) id,
    TRef.unary (TRef.of (T := ⟨S_, .f32⟩) main_call23_v0) (TRef.of (T := ⟨S1024x10x1x24x24, .f32⟩) main_call23_v1) (broadcastInDim S1024x10x1x24x24 ![] bcast_S_S1024x10x1x24x24),
    TRef.binary (TRef.of (T := ⟨S1024x10x1x24x24, .f32⟩) main_call23_v1) (TRef.of (T := ⟨S1024x10x1x24x24, .f32⟩) main_v264) (TRef.of (T := ⟨S1024x10x1x24x24, .f32⟩) main_call23_v2) maximumf,
    TRef.unary (TRef.of (T := ⟨S_, .f32⟩) main_cst_67) (TRef.of (T := ⟨S_, .f32⟩) main_call23_v3) id,
    TRef.unary (TRef.of (T := ⟨S_, .f32⟩) main_call23_v3) (TRef.of (T := ⟨S1024x10x1x24x24, .f32⟩) main_call23_v4) (broadcastInDim S1024x10x1x24x24 ![] bcast_S_S1024x10x1x24x24),
    TRef.binary (TRef.of (T := ⟨S1024x10x1x24x24, .f32⟩) main_call23_v4) (TRef.of (T := ⟨S1024x10x1x24x24, .f32⟩) main_call23_v2) (TRef.of (T := ⟨S1024x10x1x24x24, .f32⟩) main_v265) minimumf,
    nullary main_cst_68 (constant S_ .f32 0x00000000#32),
    binary main_v265 main_cst_68 main_v266 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v255 main_v266 main_v267 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v268 ((extractStridedSlice S1024x1x24x24 ![0, 0, 4, 1] · slices_S1024x1x28x28_S1024x1x24x24_0_0_4_1) : (⟨S1024x1x28x28, .f32⟩ : BufTy).Contents (Elt F) → (⟨S1024x1x24x24, .f32⟩ : BufTy).Contents (Elt F)),
    unary main_v268 main_v269 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v270 ((extractStridedSlice S10x1x1x1 ![0, 0, 4, 1] · slices_S10x1x5x5_S10x1x1x1_0_0_4_1) : (⟨S10x1x5x5, .f32⟩ : BufTy).Contents (Elt F) → (⟨S10x1x1x1, .f32⟩ : BufTy).Contents (Elt F)),
    reshape main_v270 main_v271 rfl shapeCasts_S10x1x1x1_S10x1,
    unary main_v271 main_v272 (broadcastInDim S1x10x1 ![1, 2] bcast_S10x1_S1x10x1_1_2 : (⟨S10x1, .f32⟩ : BufTy).Contents (Elt F) → (⟨S1x10x1, .f32⟩ : BufTy).Contents (Elt F)),
    unary main_v272 main_v273 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v269 main_v274 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v273 main_v275 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v274 main_v275 main_v276 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_69 (constant S_ .f32 0xC3800000#32),
    nullary main_cst_70 (constant S_ .f32 0x437F0000#32),
    TRef.unary (TRef.of (T := ⟨S_, .f32⟩) main_cst_69) (TRef.of (T := ⟨S_, .f32⟩) main_call24_v0) id,
    TRef.unary (TRef.of (T := ⟨S_, .f32⟩) main_call24_v0) (TRef.of (T := ⟨S1024x10x1x24x24, .f32⟩) main_call24_v1) (broadcastInDim S1024x10x1x24x24 ![] bcast_S_S1024x10x1x24x24),
    TRef.binary (TRef.of (T := ⟨S1024x10x1x24x24, .f32⟩) main_call24_v1) (TRef.of (T := ⟨S1024x10x1x24x24, .f32⟩) main_v276) (TRef.of (T := ⟨S1024x10x1x24x24, .f32⟩) main_call24_v2) maximumf,
    TRef.unary (TRef.of (T := ⟨S_, .f32⟩) main_cst_70) (TRef.of (T := ⟨S_, .f32⟩) main_call24_v3) id,
    TRef.unary (TRef.of (T := ⟨S_, .f32⟩) main_call24_v3) (TRef.of (T := ⟨S1024x10x1x24x24, .f32⟩) main_call24_v4) (broadcastInDim S1024x10x1x24x24 ![] bcast_S_S1024x10x1x24x24),
    TRef.binary (TRef.of (T := ⟨S1024x10x1x24x24, .f32⟩) main_call24_v4) (TRef.of (T := ⟨S1024x10x1x24x24, .f32⟩) main_call24_v2) (TRef.of (T := ⟨S1024x10x1x24x24, .f32⟩) main_v277) minimumf,
    nullary main_cst_71 (constant S_ .f32 0x00000000#32),
    binary main_v277 main_cst_71 main_v278 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v267 main_v278 main_v279 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v280 ((extractStridedSlice S1024x1x24x24 ![0, 0, 4, 2] · slices_S1024x1x28x28_S1024x1x24x24_0_0_4_2) : (⟨S1024x1x28x28, .f32⟩ : BufTy).Contents (Elt F) → (⟨S1024x1x24x24, .f32⟩ : BufTy).Contents (Elt F)),
    unary main_v280 main_v281 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v282 ((extractStridedSlice S10x1x1x1 ![0, 0, 4, 2] · slices_S10x1x5x5_S10x1x1x1_0_0_4_2) : (⟨S10x1x5x5, .f32⟩ : BufTy).Contents (Elt F) → (⟨S10x1x1x1, .f32⟩ : BufTy).Contents (Elt F)),
    reshape main_v282 main_v283 rfl shapeCasts_S10x1x1x1_S10x1,
    unary main_v283 main_v284 (broadcastInDim S1x10x1 ![1, 2] bcast_S10x1_S1x10x1_1_2 : (⟨S10x1, .f32⟩ : BufTy).Contents (Elt F) → (⟨S1x10x1, .f32⟩ : BufTy).Contents (Elt F)),
    unary main_v284 main_v285 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v281 main_v286 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)) ]

end Cert.ReferenceIdeal.RRun

end
-- ==== Proof.RunW5.lean ====
import proofs.«413587_j61040075211437_3_alg».proof.Proof.RunOps5
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part5_eq (c : Dev nD) : main_part5 (F := F) c = seq (ops5 (F := F)) := by
  rfl

set_option maxRecDepth 8192 in
set_option maxHeartbeats 4000000 in
theorem ops5_sub : (ops5 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops5_fresh : ∀ op ∈ (ops5 : List (HloOp τ sig (Elt F))), op.fresh = ∅ := by
  intro _ h
  repeat (cases h with | head => rfl | tail _ h => ?_)
  exact nomatch h

set_option maxRecDepth 8192 in
set_option maxHeartbeats 4000000 in
theorem ops5_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live5 W x0 x1 x2 x3 x4 x5 x6 x7 x8) : Live6 (after (ops5 (F := F)) W) x0 x1 x2 x3 x4 x5 x6 x7 x8 := by
  obtain ⟨⟨a0, a1, a2, a3, a4, a5, a6, a7, a8⟩, ⟨c4, c9, c14⟩, h231, h237, h238⟩ := h
  have e4 : W (Proc.devRef (τ := τ) .tc main_v4) = val_main_v4 (F := F) x0 := c4
  have e9 : W (Proc.devRef (τ := τ) .tc main_v9) = val_main_v9 (F := F) x1 := c9
  have e231 : W (Proc.devRef (τ := τ) .tc main_v231) = acc1 (val_main_v4 (F := F) x0) (val_main_v9 (F := F) x1) 18 := h231
  have e237 : W (Proc.devRef (τ := τ) .tc main_v237) = wgt1 (val_main_v9 (F := F) x1) 3 3 := h237
  have e238 : W (Proc.devRef (τ := τ) .tc main_v238) = img1 (val_main_v4 (F := F) x0) 3 3 := h238
  refine ⟨⟨?_, ?_, ?_, ?_, ?_, ?_, ?_, ?_, ?_⟩, ⟨?_, ?_, ?_⟩, ?_, ?_, ?_⟩
  · exact Eq.trans (by after_results_simp) a0
  · exact Eq.trans (by after_results_simp) a1
  · exact Eq.trans (by after_results_simp) a2
  · exact Eq.trans (by after_results_simp) a3
  · exact Eq.trans (by after_results_simp) a4
  · exact Eq.trans (by after_results_simp) a5
  · exact Eq.trans (by after_results_simp) a6
  · exact Eq.trans (by after_results_simp) a7
  · exact Eq.trans (by after_results_simp) a8
  · exact Eq.trans (by after_results_simp) c4
  · exact Eq.trans (by after_results_simp) c9
  · exact Eq.trans (by after_results_simp) c14
  · show after (ops5 (F := F)) W (Proc.devRef (τ := τ) .tc main_v279) = acc1 (val_main_v4 (F := F) x0) (val_main_v9 (F := F) x1) 22
    after_results_simp
    rw [e4, e9, e231, e237, e238]
    simp only [TRef.ofBuf, TRef.toBuf, cast_eq]
    rfl
  · show after (ops5 (F := F)) W (Proc.devRef (τ := τ) .tc main_v285) = wgt1 (val_main_v9 (F := F) x1) 4 2
    after_results_simp
    rw [e9]
    rfl
  · show after (ops5 (F := F)) W (Proc.devRef (τ := τ) .tc main_v286) = img1 (val_main_v4 (F := F) x0) 4 2
    after_results_simp
    rw [e4]
    rfl

end Cert.ReferenceIdeal.RRun

end
-- ==== Proof.RunOps6.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 6 of @main as a list of host operations (a called function's operations stand in its call's place). -/
abbrev ops6 : List (HloOp τ sig (Elt F)) :=
  [ unary main_v285 main_v287 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v286 main_v287 main_v288 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_72 (constant S_ .f32 0xC3800000#32),
    nullary main_cst_73 (constant S_ .f32 0x437F0000#32),
    TRef.unary (TRef.of (T := ⟨S_, .f32⟩) main_cst_72) (TRef.of (T := ⟨S_, .f32⟩) main_call25_v0) id,
    TRef.unary (TRef.of (T := ⟨S_, .f32⟩) main_call25_v0) (TRef.of (T := ⟨S1024x10x1x24x24, .f32⟩) main_call25_v1) (broadcastInDim S1024x10x1x24x24 ![] bcast_S_S1024x10x1x24x24),
    TRef.binary (TRef.of (T := ⟨S1024x10x1x24x24, .f32⟩) main_call25_v1) (TRef.of (T := ⟨S1024x10x1x24x24, .f32⟩) main_v288) (TRef.of (T := ⟨S1024x10x1x24x24, .f32⟩) main_call25_v2) maximumf,
    TRef.unary (TRef.of (T := ⟨S_, .f32⟩) main_cst_73) (TRef.of (T := ⟨S_, .f32⟩) main_call25_v3) id,
    TRef.unary (TRef.of (T := ⟨S_, .f32⟩) main_call25_v3) (TRef.of (T := ⟨S1024x10x1x24x24, .f32⟩) main_call25_v4) (broadcastInDim S1024x10x1x24x24 ![] bcast_S_S1024x10x1x24x24),
    TRef.binary (TRef.of (T := ⟨S1024x10x1x24x24, .f32⟩) main_call25_v4) (TRef.of (T := ⟨S1024x10x1x24x24, .f32⟩) main_call25_v2) (TRef.of (T := ⟨S1024x10x1x24x24, .f32⟩) main_v289) minimumf,
    nullary main_cst_74 (constant S_ .f32 0x00000000#32),
    binary main_v289 main_cst_74 main_v290 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v279 main_v290 main_v291 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v292 ((extractStridedSlice S1024x1x24x24 ![0, 0, 4, 3] · slices_S1024x1x28x28_S1024x1x24x24_0_0_4_3) : (⟨S1024x1x28x28, .f32⟩ : BufTy).Contents (Elt F) → (⟨S1024x1x24x24, .f32⟩ : BufTy).Contents (Elt F)),
    unary main_v292 main_v293 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v294 ((extractStridedSlice S10x1x1x1 ![0, 0, 4, 3] · slices_S10x1x5x5_S10x1x1x1_0_0_4_3) : (⟨S10x1x5x5, .f32⟩ : BufTy).Contents (Elt F) → (⟨S10x1x1x1, .f32⟩ : BufTy).Contents (Elt F)),
    reshape main_v294 main_v295 rfl shapeCasts_S10x1x1x1_S10x1,
    unary main_v295 main_v296 (broadcastInDim S1x10x1 ![1, 2] bcast_S10x1_S1x10x1_1_2 : (⟨S10x1, .f32⟩ : BufTy).Contents (Elt F) → (⟨S1x10x1, .f32⟩ : BufTy).Contents (Elt F)),
    unary main_v296 main_v297 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v293 main_v298 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v297 main_v299 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v298 main_v299 main_v300 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_75 (constant S_ .f32 0xC3800000#32),
    nullary main_cst_76 (constant S_ .f32 0x437F0000#32),
    TRef.unary (TRef.of (T := ⟨S_, .f32⟩) main_cst_75) (TRef.of (T := ⟨S_, .f32⟩) main_call26_v0) id,
    TRef.unary (TRef.of (T := ⟨S_, .f32⟩) main_call26_v0) (TRef.of (T := ⟨S1024x10x1x24x24, .f32⟩) main_call26_v1) (broadcastInDim S1024x10x1x24x24 ![] bcast_S_S1024x10x1x24x24),
    TRef.binary (TRef.of (T := ⟨S1024x10x1x24x24, .f32⟩) main_call26_v1) (TRef.of (T := ⟨S1024x10x1x24x24, .f32⟩) main_v300) (TRef.of (T := ⟨S1024x10x1x24x24, .f32⟩) main_call26_v2) maximumf,
    TRef.unary (TRef.of (T := ⟨S_, .f32⟩) main_cst_76) (TRef.of (T := ⟨S_, .f32⟩) main_call26_v3) id,
    TRef.unary (TRef.of (T := ⟨S_, .f32⟩) main_call26_v3) (TRef.of (T := ⟨S1024x10x1x24x24, .f32⟩) main_call26_v4) (broadcastInDim S1024x10x1x24x24 ![] bcast_S_S1024x10x1x24x24),
    TRef.binary (TRef.of (T := ⟨S1024x10x1x24x24, .f32⟩) main_call26_v4) (TRef.of (T := ⟨S1024x10x1x24x24, .f32⟩) main_call26_v2) (TRef.of (T := ⟨S1024x10x1x24x24, .f32⟩) main_v301) minimumf,
    nullary main_cst_77 (constant S_ .f32 0x00000000#32),
    binary main_v301 main_cst_77 main_v302 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v291 main_v302 main_v303 (addf : (⟨S1024x10x24x24, .f32⟩ : BufTy).Contents (Elt F) → (⟨S1024x10x24x24, .f32⟩ : BufTy).Contents (Elt F) → (⟨S1024x10x24x24, .f32⟩ : BufTy).Contents (Elt F)),
    unary main_v4 main_v304 ((extractStridedSlice S1024x1x24x24 ![0, 0, 4, 4] · slices_S1024x1x28x28_S1024x1x24x24_0_0_4_4) : (⟨S1024x1x28x28, .f32⟩ : BufTy).Contents (Elt F) → (⟨S1024x1x24x24, .f32⟩ : BufTy).Contents (Elt F)),
    unary main_v304 main_v305 (broadcastInDim S1024x1x1x24x24 ![0, 2, 3, 4] bcast_S1024x1x24x24_S1024x1x1x24x24_0_2_3_4 : (⟨S1024x1x24x24, .f32⟩ : BufTy).Contents (Elt F) → (⟨S1024x1x1x24x24, .f32⟩ : BufTy).Contents (Elt F)),
    unary main_v9 main_v306 ((extractStridedSlice S10x1x1x1 ![0, 0, 4, 4] · slices_S10x1x5x5_S10x1x1x1_0_0_4_4) : (⟨S10x1x5x5, .f32⟩ : BufTy).Contents (Elt F) → (⟨S10x1x1x1, .f32⟩ : BufTy).Contents (Elt F)),
    reshape main_v306 main_v307 rfl shapeCasts_S10x1x1x1_S10x1,
    unary main_v307 main_v308 (broadcastInDim S1x10x1 ![1, 2] bcast_S10x1_S1x10x1_1_2 : (⟨S10x1, .f32⟩ : BufTy).Contents (Elt F) → (⟨S1x10x1, .f32⟩ : BufTy).Contents (Elt F)),
    unary main_v308 main_v309 (broadcastInDim S1x10x1x1x1 ![0, 1, 2] bcast_S1x10x1_S1x10x1x1x1_0_1_2 : (⟨S1x10x1, .f32⟩ : BufTy).Contents (Elt F) → (⟨S1x10x1x1x1, .f32⟩ : BufTy).Contents (Elt F)),
    unary main_v305 main_v310 (broadcastInDim S1024x10x1x24x24 ![0, 1, 2, 3, 4] bcast_S1024x1x1x24x24_S1024x10x1x24x24_0_1_2_3_4 : (⟨S1024x1x1x24x24, .f32⟩ : BufTy).Contents (Elt F) → (⟨S1024x10x1x24x24, .f32⟩ : BufTy).Contents (Elt F)),
    unary main_v309 main_v311 (broadcastInDim S1024x10x1x24x24 ![0, 1, 2, 3, 4] bcast_S1x10x1x1x1_S1024x10x1x24x24_0_1_2_3_4 : (⟨S1x10x1x1x1, .f32⟩ : BufTy).Contents (Elt F) → (⟨S1024x10x1x24x24, .f32⟩ : BufTy).Contents (Elt F)),
    binary main_v310 main_v311 main_v312 (mulf : (⟨S1024x10x1x24x24, .f32⟩ : BufTy).Contents (Elt F) → (⟨S1024x10x1x24x24, .f32⟩ : BufTy).Contents (Elt F) → (⟨S1024x10x1x24x24, .f32⟩ : BufTy).Contents (Elt F)),
    nullary main_cst_78 (constant S_ .f32 0xC3800000#32),
    nullary main_cst_79 (constant S_ .f32 0x437F0000#32),
    TRef.unary (TRef.of (T := ⟨S_, .f32⟩) main_cst_78) (TRef.of (T := ⟨S_, .f32⟩) main_call27_v0) id,
    TRef.unary (TRef.of (T := ⟨S_, .f32⟩) main_call27_v0) (TRef.of (T := ⟨S1024x10x1x24x24, .f32⟩) main_call27_v1) (broadcastInDim S1024x10x1x24x24 ![] bcast_S_S1024x10x1x24x24),
    TRef.binary (TRef.of (T := ⟨S1024x10x1x24x24, .f32⟩) main_call27_v1) (TRef.of (T := ⟨S1024x10x1x24x24, .f32⟩) main_v312) (TRef.of (T := ⟨S1024x10x1x24x24, .f32⟩) main_call27_v2) maximumf,
    TRef.unary (TRef.of (T := ⟨S_, .f32⟩) main_cst_79) (TRef.of (T := ⟨S_, .f32⟩) main_call27_v3) id,
    TRef.unary (TRef.of (T := ⟨S_, .f32⟩) main_call27_v3) (TRef.of (T := ⟨S1024x10x1x24x24, .f32⟩) main_call27_v4) (broadcastInDim S1024x10x1x24x24 ![] bcast_S_S1024x10x1x24x24),
    TRef.binary (TRef.of (T := ⟨S1024x10x1x24x24, .f32⟩) main_call27_v4) (TRef.of (T := ⟨S1024x10x1x24x24, .f32⟩) main_call27_v2) (TRef.of (T := ⟨S1024x10x1x24x24, .f32⟩) main_v313) minimumf,
    nullary main_cst_80 (constant S_ .f32 0x00000000#32),
    binary main_v313 main_cst_80 main_v314 ((fun x v => Host.reduceAdd x v reducesTo_S1024x10x1x24x24_S1024x10x24x24_d2 h_S_) : (⟨S1024x10x1x24x24, .f32⟩ : BufTy).Contents (Elt F) → (⟨S_, .f32⟩ : BufTy).Contents (Elt F) → (⟨S1024x10x24x24, .f32⟩ : BufTy).Contents (Elt F)),
    binary main_v303 main_v314 main_v315 (addf : (⟨S1024x10x24x24, .f32⟩ : BufTy).Contents (Elt F) → (⟨S1024x10x24x24, .f32⟩ : BufTy).Contents (Elt F) → (⟨S1024x10x24x24, .f32⟩ : BufTy).Contents (Elt F)),
    unary main_v14 main_v316 (broadcastInDim S1x10x1x1 ![1] bcast_S10_S1x10x1x1_1 : (⟨S10, .f32⟩ : BufTy).Contents (Elt F) → (⟨S1x10x1x1, .f32⟩ : BufTy).Contents (Elt F)),
    unary main_v316 main_v317 (broadcastInDim S1024x10x24x24 ![0, 1, 2, 3] bcast_S1x10x1x1_S1024x10x24x24_0_1_2_3 : (⟨S1x10x1x1, .f32⟩ : BufTy).Contents (Elt F) → (⟨S1024x10x24x24, .f32⟩ : BufTy).Contents (Elt F)),
    binary main_v315 main_v317 main_v318 (addf : (⟨S1024x10x24x24, .f32⟩ : BufTy).Contents (Elt F) → (⟨S1024x10x24x24, .f32⟩ : BufTy).Contents (Elt F) → (⟨S1024x10x24x24, .f32⟩ : BufTy).Contents (Elt F)),
    nullary main_cst_81 (constant S_ .f32 0xFF800000#32),
    unary main_cst_81 main_v319 (broadcastInDim S_ ![] bcast_S_S_ : (⟨S_, .f32⟩ : BufTy).Contents (Elt F) → (⟨S_, .f32⟩ : BufTy).Contents (Elt F)),
    binary main_v318 main_v319 main_v320 ((fun x v => Host.reduceWindow FloatOps.maximumf ![1, 1, 2, 2] ![1, 1, 2, 2] ![0, 0, 0, 0] ![0, 0, 0, 0] x v reduceWindows_S1024x10x24x24_S1024x10x12x12_w1s1p0_0_w1s1p0_0_w2s2p0_0_w2s2p0_0 h_S_) : (⟨S1024x10x24x24, .f32⟩ : BufTy).Contents (Elt F) → (⟨S_, .f32⟩ : BufTy).Contents (Elt F) → (⟨S1024x10x12x12, .f32⟩ : BufTy).Contents (Elt F)),
    TRef.nullary (TRef.of (T := ⟨S_, .f32⟩) main_call28_cst) (constant S_ .f32 0x00000000#32),
    TRef.unary (TRef.of (T := ⟨S_, .f32⟩) main_call28_cst) (TRef.of (T := ⟨S1024x10x12x12, .f32⟩) main_call28_v0) (broadcastInDim S1024x10x12x12 ![] bcast_S_S1024x10x12x12),
    TRef.binary (TRef.of (T := ⟨S1024x10x12x12, .f32⟩) main_v320) (TRef.of (T := ⟨S1024x10x12x12, .f32⟩) main_call28_v0) (TRef.of (T := ⟨S1024x10x12x12, .f32⟩) main_v321) maximumf,
    nullary main_cst_82 (constant S_ .f32 0x3B800000#32),
    unary main_cst_82 main_v322 (broadcastInDim S20x10x5x5 ![] bcast_S_S20x10x5x5 : (⟨S_, .f32⟩ : BufTy).Contents (Elt F) → (⟨S20x10x5x5, .f32⟩ : BufTy).Contents (Elt F)),
    binary main_arg3 main_v322 main_v323 (Host.divf : (⟨S20x10x5x5, .f32⟩ : BufTy).Contents (Elt F) → (⟨S20x10x5x5, .f32⟩ : BufTy).Contents (Elt F) → (⟨S20x10x5x5, .f32⟩ : BufTy).Contents (Elt F)),
    TRef.unary (TRef.of (T := ⟨S20x10x5x5, .f32⟩) main_v323) (TRef.of (T := ⟨S20x10x5x5, .f32⟩) main_v324) Host.roundeven,
    nullary main_cst_83 (constant S_ .f32 0x3B800000#32),
    unary main_cst_83 main_v325 (broadcastInDim S20x10x5x5 ![] bcast_S_S20x10x5x5 : (⟨S_, .f32⟩ : BufTy).Contents (Elt F) → (⟨S20x10x5x5, .f32⟩ : BufTy).Contents (Elt F)),
    binary main_v324 main_v325 main_v326 (mulf : (⟨S20x10x5x5, .f32⟩ : BufTy).Contents (Elt F) → (⟨S20x10x5x5, .f32⟩ : BufTy).Contents (Elt F) → (⟨S20x10x5x5, .f32⟩ : BufTy).Contents (Elt F)),
    nullary main_cst_84 (constant S_ .f32 0x3B800000#32),
    unary main_cst_84 main_v327 (broadcastInDim S20 ![] bcast_S_S20 : (⟨S_, .f32⟩ : BufTy).Contents (Elt F) → (⟨S20, .f32⟩ : BufTy).Contents (Elt F)),
    binary main_arg4 main_v327 main_v328 (Host.divf : (⟨S20, .f32⟩ : BufTy).Contents (Elt F) → (⟨S20, .f32⟩ : BufTy).Contents (Elt F) → (⟨S20, .f32⟩ : BufTy).Contents (Elt F)),
    TRef.unary (TRef.of (T := ⟨S20, .f32⟩) main_v328) (TRef.of (T := ⟨S20, .f32⟩) main_v329) Host.roundeven,
    nullary main_cst_85 (constant S_ .f32 0x3B800000#32),
    unary main_cst_85 main_v330 (broadcastInDim S20 ![] bcast_S_S20 : (⟨S_, .f32⟩ : BufTy).Contents (Elt F) → (⟨S20, .f32⟩ : BufTy).Contents (Elt F)),
    binary main_v329 main_v330 main_v331 (mulf : (⟨S20, .f32⟩ : BufTy).Contents (Elt F) → (⟨S20, .f32⟩ : BufTy).Contents (Elt F) → (⟨S20, .f32⟩ : BufTy).Contents (Elt F)),
    nullary main_cst_86 (constant S_ .f32 0x00000000#32) ]

end Cert.ReferenceIdeal.RRun

end
-- ==== Proof.RunW6.lean ====
import proofs.«413587_j61040075211437_3_alg».proof.Proof.RunOps6
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part6_eq (c : Dev nD) : main_part6 (F := F) c = seq (ops6 (F := F)) := by
  rfl

set_option maxRecDepth 8192 in
set_option maxHeartbeats 4000000 in
theorem ops6_sub : (ops6 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops6_fresh : ∀ op ∈ (ops6 : List (HloOp τ sig (Elt F))), op.fresh = ∅ := by
  intro _ h
  repeat (cases h with | head => rfl | tail _ h => ?_)
  exact nomatch h

set_option maxRecDepth 8192 in
set_option maxHeartbeats 4000000 in
theorem ops6_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live6 W x0 x1 x2 x3 x4 x5 x6 x7 x8) : Live7 (after (ops6 (F := F)) W) x0 x1 x2 x3 x4 x5 x6 x7 x8 := by
  obtain ⟨⟨a0, a1, a2, a3, a4, a5, a6, a7, a8⟩, ⟨c4, c9, c14⟩, h279, h285, h286⟩ := h
  have e3 : W (Proc.devRef (τ := τ) .tc main_arg3) = x3 := a3
  have e4a : W (Proc.devRef (τ := τ) .tc main_arg4) = x4 := a4
  have e4 : W (Proc.devRef (τ := τ) .tc main_v4) = val_main_v4 (F := F) x0 := c4
  have e9 : W (Proc.devRef (τ := τ) .tc main_v9) = val_main_v9 (F := F) x1 := c9
  have e14 : W (Proc.devRef (τ := τ) .tc main_v14) = val_main_v14 (F := F) x2 := c14
  have e279 : W (Proc.devRef (τ := τ) .tc main_v279) = acc1 (val_main_v4 (F := F) x0) (val_main_v9 (F := F) x1) 22 := h279
  have e285 : W (Proc.devRef (τ := τ) .tc main_v285) = wgt1 (val_main_v9 (F := F) x1) 4 2 := h285
  have e286 : W (Proc.devRef (τ := τ) .tc main_v286) = img1 (val_main_v4 (F := F) x0) 4 2 := h286
  refine ⟨⟨?_, ?_, ?_, ?_, ?_, ?_, ?_, ?_, ?_⟩, ⟨?_, ?_, ?_⟩, ?_⟩
  · exact Eq.trans (by after_results_simp) a0
  · exact Eq.trans (by after_results_simp) a1
  · exact Eq.trans (by after_results_simp) a2
  · exact Eq.trans (by after_results_simp) a3
  · exact Eq.trans (by after_results_simp) a4
  · exact Eq.trans (by after_results_simp) a5
  · exact Eq.trans (by after_results_simp) a6
  · exact Eq.trans (by after_results_simp) a7
  · exact Eq.trans (by after_results_simp) a8
  · show after (ops6 (F := F)) W (Proc.devRef (τ := τ) .tc main_v321) = val_main_v321 (F := F) x0 x1 x2
    after_results_simp
    rw [e4, e9, e14, e279, e285, e286]
    simp only [TRef.ofBuf, TRef.toBuf, cast_eq]
    rfl
  · show after (ops6 (F := F)) W (Proc.devRef (τ := τ) .tc main_v326) = val_main_v326 (F := F) x3
    after_results_simp
    rw [e3]
    simp only [TRef.ofBuf, TRef.toBuf, cast_eq]
    rfl
  · show after (ops6 (F := F)) W (Proc.devRef (τ := τ) .tc main_v331) = val_main_v331 (F := F) x4
    after_results_simp
    rw [e4a]
    simp only [TRef.ofBuf, TRef.toBuf, cast_eq]
    rfl
  · show after (ops6 (F := F)) W (Proc.devRef (τ := τ) .tc main_cst_86) = val_main_cst_86 (F := F)
    after_results_simp
    rfl

end Cert.ReferenceIdeal.RRun

end
-- ==== Proof.RunOps7.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 7 of @main as a list of host operations (a called function's operations stand in its call's place). -/
abbrev ops7 : List (HloOp τ sig (Elt F)) :=
  [ unary main_cst_86 main_v332 (broadcastInDim S1024x20x8x8 ![] bcast_S_S1024x20x8x8 : (⟨S_, .f32⟩ : BufTy).Contents (Elt F) → (⟨S1024x20x8x8, .f32⟩ : BufTy).Contents (Elt F)),
    unary main_v321 main_v333 ((extractStridedSlice S1024x10x8x8 ![0, 0, 0, 0] · slices_S1024x10x12x12_S1024x10x8x8_0_0_0_0) : (⟨S1024x10x12x12, .f32⟩ : BufTy).Contents (Elt F) → (⟨S1024x10x8x8, .f32⟩ : BufTy).Contents (Elt F)),
    unary main_v333 main_v334 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v335 ((extractStridedSlice S20x10x1x1 ![0, 0, 0, 0] · slices_S20x10x5x5_S20x10x1x1_0_0_0_0) : (⟨S20x10x5x5, .f32⟩ : BufTy).Contents (Elt F) → (⟨S20x10x1x1, .f32⟩ : BufTy).Contents (Elt F)),
    reshape main_v335 main_v336 rfl shapeCasts_S20x10x1x1_S20x10,
    unary main_v336 main_v337 (broadcastInDim S1x20x10 ![1, 2] bcast_S20x10_S1x20x10_1_2 : (⟨S20x10, .f32⟩ : BufTy).Contents (Elt F) → (⟨S1x20x10, .f32⟩ : BufTy).Contents (Elt F)),
    unary main_v337 main_v338 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v334 main_v339 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v338 main_v340 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v339 main_v340 main_v341 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_87 (constant S_ .f32 0xC3800000#32),
    nullary main_cst_88 (constant S_ .f32 0x437F0000#32),
    TRef.unary (TRef.of (T := ⟨S_, .f32⟩) main_cst_87) (TRef.of (T := ⟨S_, .f32⟩) main_call31_v0) id,
    TRef.unary (TRef.of (T := ⟨S_, .f32⟩) main_call31_v0) (TRef.of (T := ⟨S1024x20x10x8x8, .f32⟩) main_call31_v1) (broadcastInDim S1024x20x10x8x8 ![] bcast_S_S1024x20x10x8x8),
    TRef.binary (TRef.of (T := ⟨S1024x20x10x8x8, .f32⟩) main_call31_v1) (TRef.of (T := ⟨S1024x20x10x8x8, .f32⟩) main_v341) (TRef.of (T := ⟨S1024x20x10x8x8, .f32⟩) main_call31_v2) maximumf,
    TRef.unary (TRef.of (T := ⟨S_, .f32⟩) main_cst_88) (TRef.of (T := ⟨S_, .f32⟩) main_call31_v3) id,
    TRef.unary (TRef.of (T := ⟨S_, .f32⟩) main_call31_v3) (TRef.of (T := ⟨S1024x20x10x8x8, .f32⟩) main_call31_v4) (broadcastInDim S1024x20x10x8x8 ![] bcast_S_S1024x20x10x8x8),
    TRef.binary (TRef.of (T := ⟨S1024x20x10x8x8, .f32⟩) main_call31_v4) (TRef.of (T := ⟨S1024x20x10x8x8, .f32⟩) main_call31_v2) (TRef.of (T := ⟨S1024x20x10x8x8, .f32⟩) main_v342) minimumf,
    nullary main_cst_89 (constant S_ .f32 0x00000000#32),
    binary main_v342 main_cst_89 main_v343 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v332 main_v343 main_v344 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v345 ((extractStridedSlice S1024x10x8x8 ![0, 0, 0, 1] · slices_S1024x10x12x12_S1024x10x8x8_0_0_0_1) : (⟨S1024x10x12x12, .f32⟩ : BufTy).Contents (Elt F) → (⟨S1024x10x8x8, .f32⟩ : BufTy).Contents (Elt F)),
    unary main_v345 main_v346 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v347 ((extractStridedSlice S20x10x1x1 ![0, 0, 0, 1] · slices_S20x10x5x5_S20x10x1x1_0_0_0_1) : (⟨S20x10x5x5, .f32⟩ : BufTy).Contents (Elt F) → (⟨S20x10x1x1, .f32⟩ : BufTy).Contents (Elt F)),
    reshape main_v347 main_v348 rfl shapeCasts_S20x10x1x1_S20x10,
    unary main_v348 main_v349 (broadcastInDim S1x20x10 ![1, 2] bcast_S20x10_S1x20x10_1_2 : (⟨S20x10, .f32⟩ : BufTy).Contents (Elt F) → (⟨S1x20x10, .f32⟩ : BufTy).Contents (Elt F)),
    unary main_v349 main_v350 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v346 main_v351 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v350 main_v352 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v351 main_v352 main_v353 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_90 (constant S_ .f32 0xC3800000#32),
    nullary main_cst_91 (constant S_ .f32 0x437F0000#32),
    TRef.unary (TRef.of (T := ⟨S_, .f32⟩) main_cst_90) (TRef.of (T := ⟨S_, .f32⟩) main_call32_v0) id,
    TRef.unary (TRef.of (T := ⟨S_, .f32⟩) main_call32_v0) (TRef.of (T := ⟨S1024x20x10x8x8, .f32⟩) main_call32_v1) (broadcastInDim S1024x20x10x8x8 ![] bcast_S_S1024x20x10x8x8),
    TRef.binary (TRef.of (T := ⟨S1024x20x10x8x8, .f32⟩) main_call32_v1) (TRef.of (T := ⟨S1024x20x10x8x8, .f32⟩) main_v353) (TRef.of (T := ⟨S1024x20x10x8x8, .f32⟩) main_call32_v2) maximumf,
    TRef.unary (TRef.of (T := ⟨S_, .f32⟩) main_cst_91) (TRef.of (T := ⟨S_, .f32⟩) main_call32_v3) id,
    TRef.unary (TRef.of (T := ⟨S_, .f32⟩) main_call32_v3) (TRef.of (T := ⟨S1024x20x10x8x8, .f32⟩) main_call32_v4) (broadcastInDim S1024x20x10x8x8 ![] bcast_S_S1024x20x10x8x8),
    TRef.binary (TRef.of (T := ⟨S1024x20x10x8x8, .f32⟩) main_call32_v4) (TRef.of (T := ⟨S1024x20x10x8x8, .f32⟩) main_call32_v2) (TRef.of (T := ⟨S1024x20x10x8x8, .f32⟩) main_v354) minimumf,
    nullary main_cst_92 (constant S_ .f32 0x00000000#32),
    binary main_v354 main_cst_92 main_v355 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v344 main_v355 main_v356 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v357 ((extractStridedSlice S1024x10x8x8 ![0, 0, 0, 2] · slices_S1024x10x12x12_S1024x10x8x8_0_0_0_2) : (⟨S1024x10x12x12, .f32⟩ : BufTy).Contents (Elt F) → (⟨S1024x10x8x8, .f32⟩ : BufTy).Contents (Elt F)),
    unary main_v357 main_v358 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v359 ((extractStridedSlice S20x10x1x1 ![0, 0, 0, 2] · slices_S20x10x5x5_S20x10x1x1_0_0_0_2) : (⟨S20x10x5x5, .f32⟩ : BufTy).Contents (Elt F) → (⟨S20x10x1x1, .f32⟩ : BufTy).Contents (Elt F)),
    reshape main_v359 main_v360 rfl shapeCasts_S20x10x1x1_S20x10,
    unary main_v360 main_v361 (broadcastInDim S1x20x10 ![1, 2] bcast_S20x10_S1x20x10_1_2 : (⟨S20x10, .f32⟩ : BufTy).Contents (Elt F) → (⟨S1x20x10, .f32⟩ : BufTy).Contents (Elt F)),
    unary main_v361 main_v362 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v358 main_v363 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v362 main_v364 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v363 main_v364 main_v365 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_93 (constant S_ .f32 0xC3800000#32),
    nullary main_cst_94 (constant S_ .f32 0x437F0000#32),
    TRef.unary (TRef.of (T := ⟨S_, .f32⟩) main_cst_93) (TRef.of (T := ⟨S_, .f32⟩) main_call33_v0) id,
    TRef.unary (TRef.of (T := ⟨S_, .f32⟩) main_call33_v0) (TRef.of (T := ⟨S1024x20x10x8x8, .f32⟩) main_call33_v1) (broadcastInDim S1024x20x10x8x8 ![] bcast_S_S1024x20x10x8x8),
    TRef.binary (TRef.of (T := ⟨S1024x20x10x8x8, .f32⟩) main_call33_v1) (TRef.of (T := ⟨S1024x20x10x8x8, .f32⟩) main_v365) (TRef.of (T := ⟨S1024x20x10x8x8, .f32⟩) main_call33_v2) maximumf,
    TRef.unary (TRef.of (T := ⟨S_, .f32⟩) main_cst_94) (TRef.of (T := ⟨S_, .f32⟩) main_call33_v3) id,
    TRef.unary (TRef.of (T := ⟨S_, .f32⟩) main_call33_v3) (TRef.of (T := ⟨S1024x20x10x8x8, .f32⟩) main_call33_v4) (broadcastInDim S1024x20x10x8x8 ![] bcast_S_S1024x20x10x8x8),
    TRef.binary (TRef.of (T := ⟨S1024x20x10x8x8, .f32⟩) main_call33_v4) (TRef.of (T := ⟨S1024x20x10x8x8, .f32⟩) main_call33_v2) (TRef.of (T := ⟨S1024x20x10x8x8, .f32⟩) main_v366) minimumf,
    nullary main_cst_95 (constant S_ .f32 0x00000000#32),
    binary main_v366 main_cst_95 main_v367 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v356 main_v367 main_v368 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v369 ((extractStridedSlice S1024x10x8x8 ![0, 0, 0, 3] · slices_S1024x10x12x12_S1024x10x8x8_0_0_0_3) : (⟨S1024x10x12x12, .f32⟩ : BufTy).Contents (Elt F) → (⟨S1024x10x8x8, .f32⟩ : BufTy).Contents (Elt F)),
    unary main_v369 main_v370 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v371 ((extractStridedSlice S20x10x1x1 ![0, 0, 0, 3] · slices_S20x10x5x5_S20x10x1x1_0_0_0_3) : (⟨S20x10x5x5, .f32⟩ : BufTy).Contents (Elt F) → (⟨S20x10x1x1, .f32⟩ : BufTy).Contents (Elt F)),
    reshape main_v371 main_v372 rfl shapeCasts_S20x10x1x1_S20x10,
    unary main_v372 main_v373 (broadcastInDim S1x20x10 ![1, 2] bcast_S20x10_S1x20x10_1_2 : (⟨S20x10, .f32⟩ : BufTy).Contents (Elt F) → (⟨S1x20x10, .f32⟩ : BufTy).Contents (Elt F)),
    unary main_v373 main_v374 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v370 main_v375 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v374 main_v376 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v375 main_v376 main_v377 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_96 (constant S_ .f32 0xC3800000#32),
    nullary main_cst_97 (constant S_ .f32 0x437F0000#32),
    TRef.unary (TRef.of (T := ⟨S_, .f32⟩) main_cst_96) (TRef.of (T := ⟨S_, .f32⟩) main_call34_v0) id,
    TRef.unary (TRef.of (T := ⟨S_, .f32⟩) main_call34_v0) (TRef.of (T := ⟨S1024x20x10x8x8, .f32⟩) main_call34_v1) (broadcastInDim S1024x20x10x8x8 ![] bcast_S_S1024x20x10x8x8),
    TRef.binary (TRef.of (T := ⟨S1024x20x10x8x8, .f32⟩) main_call34_v1) (TRef.of (T := ⟨S1024x20x10x8x8, .f32⟩) main_v377) (TRef.of (T := ⟨S1024x20x10x8x8, .f32⟩) main_call34_v2) maximumf,
    TRef.unary (TRef.of (T := ⟨S_, .f32⟩) main_cst_97) (TRef.of (T := ⟨S_, .f32⟩) main_call34_v3) id,
    TRef.unary (TRef.of (T := ⟨S_, .f32⟩) main_call34_v3) (TRef.of (T := ⟨S1024x20x10x8x8, .f32⟩) main_call34_v4) (broadcastInDim S1024x20x10x8x8 ![] bcast_S_S1024x20x10x8x8),
    TRef.binary (TRef.of (T := ⟨S1024x20x10x8x8, .f32⟩) main_call34_v4) (TRef.of (T := ⟨S1024x20x10x8x8, .f32⟩) main_call34_v2) (TRef.of (T := ⟨S1024x20x10x8x8, .f32⟩) main_v378) minimumf,
    nullary main_cst_98 (constant S_ .f32 0x00000000#32),
    binary main_v378 main_cst_98 main_v379 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW7.lean ====
import proofs.«413587_j61040075211437_3_alg».proof.Proof.RunOps7
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part7_eq (c : Dev nD) : main_part7 (F := F) c = seq (ops7 (F := F)) := by
  rfl

set_option maxRecDepth 8192 in
set_option maxHeartbeats 4000000 in
theorem ops7_sub : (ops7 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops7_fresh : ∀ op ∈ (ops7 : List (HloOp τ sig (Elt F))), op.fresh = ∅ := by
  intro _ h
  repeat (cases h with | head => rfl | tail _ h => ?_)
  exact nomatch h

set_option maxRecDepth 8192 in
set_option maxHeartbeats 4000000 in
theorem ops7_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live7 W x0 x1 x2 x3 x4 x5 x6 x7 x8) : Live8 (after (ops7 (F := F)) W) x0 x1 x2 x3 x4 x5 x6 x7 x8 := by
  obtain ⟨⟨a0, a1, a2, a3, a4, a5, a6, a7, a8⟩, ⟨c321, c326, c331⟩, h86⟩ := h
  have e321 : W (Proc.devRef (τ := τ) .tc main_v321) = val_main_v321 (F := F) x0 x1 x2 := c321
  have e326 : W (Proc.devRef (τ := τ) .tc main_v326) = val_main_v326 (F := F) x3 := c326
  have e86 : W (Proc.devRef (τ := τ) .tc main_cst_86) = val_main_cst_86 (F := F) := h86
  refine ⟨⟨?_, ?_, ?_, ?_, ?_, ?_, ?_, ?_, ?_⟩, ⟨?_, ?_, ?_⟩, ?_, ?_⟩
  · exact Eq.trans (by after_results_simp) a0
  · exact Eq.trans (by after_results_simp) a1
  · exact Eq.trans (by after_results_simp) a2
  · exact Eq.trans (by after_results_simp) a3
  · exact Eq.trans (by after_results_simp) a4
  · exact Eq.trans (by after_results_simp) a5
  · exact Eq.trans (by after_results_simp) a6
  · exact Eq.trans (by after_results_simp) a7
  · exact Eq.trans (by after_results_simp) a8
  · exact Eq.trans (by after_results_simp) c321
  · exact Eq.trans (by after_results_simp) c326
  · exact Eq.trans (by after_results_simp) c331
  · show after (ops7 (F := F)) W (Proc.devRef (τ := τ) .tc main_v368) = acc2 (val_main_v321 (F := F) x0 x1 x2) (val_main_v326 (F := F) x3) 3
    after_results_simp
    rw [e86, e321, e326]
    simp only [TRef.ofBuf, TRef.toBuf, cast_eq]
    rfl
  · show after (ops7 (F := F)) W (Proc.devRef (τ := τ) .tc main_v379) = tap2 (val_main_v321 (F := F) x0 x1 x2) (val_main_v326 (F := F) x3) 0 3
    after_results_simp
    rw [e321, e326]
    simp only [TRef.ofBuf, TRef.toBuf, cast_eq]
    rfl

end Cert.ReferenceIdeal.RRun

end
-- ==== Proof.RunOps8.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 8 of @main as a list of host operations (a called function's operations stand in its call's place). -/
abbrev ops8 : List (HloOp τ sig (Elt F)) :=
  [ binary main_v368 main_v379 main_v380 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v381 ((extractStridedSlice S1024x10x8x8 ![0, 0, 0, 4] · slices_S1024x10x12x12_S1024x10x8x8_0_0_0_4) : (⟨S1024x10x12x12, .f32⟩ : BufTy).Contents (Elt F) → (⟨S1024x10x8x8, .f32⟩ : BufTy).Contents (Elt F)),
    unary main_v381 main_v382 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v383 ((extractStridedSlice S20x10x1x1 ![0, 0, 0, 4] · slices_S20x10x5x5_S20x10x1x1_0_0_0_4) : (⟨S20x10x5x5, .f32⟩ : BufTy).Contents (Elt F) → (⟨S20x10x1x1, .f32⟩ : BufTy).Contents (Elt F)),
    reshape main_v383 main_v384 rfl shapeCasts_S20x10x1x1_S20x10,
    unary main_v384 main_v385 (broadcastInDim S1x20x10 ![1, 2] bcast_S20x10_S1x20x10_1_2 : (⟨S20x10, .f32⟩ : BufTy).Contents (Elt F) → (⟨S1x20x10, .f32⟩ : BufTy).Contents (Elt F)),
    unary main_v385 main_v386 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v382 main_v387 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v386 main_v388 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v387 main_v388 main_v389 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_99 (constant S_ .f32 0xC3800000#32),
    nullary main_cst_100 (constant S_ .f32 0x437F0000#32),
    TRef.unary (TRef.of (T := ⟨S_, .f32⟩) main_cst_99) (TRef.of (T := ⟨S_, .f32⟩) main_call35_v0) id,
    TRef.unary (TRef.of (T := ⟨S_, .f32⟩) main_call35_v0) (TRef.of (T := ⟨S1024x20x10x8x8, .f32⟩) main_call35_v1) (broadcastInDim S1024x20x10x8x8 ![] bcast_S_S1024x20x10x8x8),
    TRef.binary (TRef.of (T := ⟨S1024x20x10x8x8, .f32⟩) main_call35_v1) (TRef.of (T := ⟨S1024x20x10x8x8, .f32⟩) main_v389) (TRef.of (T := ⟨S1024x20x10x8x8, .f32⟩) main_call35_v2) maximumf,
    TRef.unary (TRef.of (T := ⟨S_, .f32⟩) main_cst_100) (TRef.of (T := ⟨S_, .f32⟩) main_call35_v3) id,
    TRef.unary (TRef.of (T := ⟨S_, .f32⟩) main_call35_v3) (TRef.of (T := ⟨S1024x20x10x8x8, .f32⟩) main_call35_v4) (broadcastInDim S1024x20x10x8x8 ![] bcast_S_S1024x20x10x8x8),
    TRef.binary (TRef.of (T := ⟨S1024x20x10x8x8, .f32⟩) main_call35_v4) (TRef.of (T := ⟨S1024x20x10x8x8, .f32⟩) main_call35_v2) (TRef.of (T := ⟨S1024x20x10x8x8, .f32⟩) main_v390) minimumf,
    nullary main_cst_101 (constant S_ .f32 0x00000000#32),
    binary main_v390 main_cst_101 main_v391 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v380 main_v391 main_v392 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v393 ((extractStridedSlice S1024x10x8x8 ![0, 0, 1, 0] · slices_S1024x10x12x12_S1024x10x8x8_0_0_1_0) : (⟨S1024x10x12x12, .f32⟩ : BufTy).Contents (Elt F) → (⟨S1024x10x8x8, .f32⟩ : BufTy).Contents (Elt F)),
    unary main_v393 main_v394 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v395 ((extractStridedSlice S20x10x1x1 ![0, 0, 1, 0] · slices_S20x10x5x5_S20x10x1x1_0_0_1_0) : (⟨S20x10x5x5, .f32⟩ : BufTy).Contents (Elt F) → (⟨S20x10x1x1, .f32⟩ : BufTy).Contents (Elt F)),
    reshape main_v395 main_v396 rfl shapeCasts_S20x10x1x1_S20x10,
    unary main_v396 main_v397 (broadcastInDim S1x20x10 ![1, 2] bcast_S20x10_S1x20x10_1_2 : (⟨S20x10, .f32⟩ : BufTy).Contents (Elt F) → (⟨S1x20x10, .f32⟩ : BufTy).Contents (Elt F)),
    unary main_v397 main_v398 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v394 main_v399 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v398 main_v400 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v399 main_v400 main_v401 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_102 (constant S_ .f32 0xC3800000#32),
    nullary main_cst_103 (constant S_ .f32 0x437F0000#32),
    TRef.unary (TRef.of (T := ⟨S_, .f32⟩) main_cst_102) (TRef.of (T := ⟨S_, .f32⟩) main_call36_v0) id,
    TRef.unary (TRef.of (T := ⟨S_, .f32⟩) main_call36_v0) (TRef.of (T := ⟨S1024x20x10x8x8, .f32⟩) main_call36_v1) (broadcastInDim S1024x20x10x8x8 ![] bcast_S_S1024x20x10x8x8),
    TRef.binary (TRef.of (T := ⟨S1024x20x10x8x8, .f32⟩) main_call36_v1) (TRef.of (T := ⟨S1024x20x10x8x8, .f32⟩) main_v401) (TRef.of (T := ⟨S1024x20x10x8x8, .f32⟩) main_call36_v2) maximumf,
    TRef.unary (TRef.of (T := ⟨S_, .f32⟩) main_cst_103) (TRef.of (T := ⟨S_, .f32⟩) main_call36_v3) id,
    TRef.unary (TRef.of (T := ⟨S_, .f32⟩) main_call36_v3) (TRef.of (T := ⟨S1024x20x10x8x8, .f32⟩) main_call36_v4) (broadcastInDim S1024x20x10x8x8 ![] bcast_S_S1024x20x10x8x8),
    TRef.binary (TRef.of (T := ⟨S1024x20x10x8x8, .f32⟩) main_call36_v4) (TRef.of (T := ⟨S1024x20x10x8x8, .f32⟩) main_call36_v2) (TRef.of (T := ⟨S1024x20x10x8x8, .f32⟩) main_v402) minimumf,
    nullary main_cst_104 (constant S_ .f32 0x00000000#32),
    binary main_v402 main_cst_104 main_v403 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v392 main_v403 main_v404 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v405 ((extractStridedSlice S1024x10x8x8 ![0, 0, 1, 1] · slices_S1024x10x12x12_S1024x10x8x8_0_0_1_1) : (⟨S1024x10x12x12, .f32⟩ : BufTy).Contents (Elt F) → (⟨S1024x10x8x8, .f32⟩ : BufTy).Contents (Elt F)),
    unary main_v405 main_v406 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v407 ((extractStridedSlice S20x10x1x1 ![0, 0, 1, 1] · slices_S20x10x5x5_S20x10x1x1_0_0_1_1) : (⟨S20x10x5x5, .f32⟩ : BufTy).Contents (Elt F) → (⟨S20x10x1x1, .f32⟩ : BufTy).Contents (Elt F)),
    reshape main_v407 main_v408 rfl shapeCasts_S20x10x1x1_S20x10,
    unary main_v408 main_v409 (broadcastInDim S1x20x10 ![1, 2] bcast_S20x10_S1x20x10_1_2 : (⟨S20x10, .f32⟩ : BufTy).Contents (Elt F) → (⟨S1x20x10, .f32⟩ : BufTy).Contents (Elt F)),
    unary main_v409 main_v410 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v406 main_v411 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v410 main_v412 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v411 main_v412 main_v413 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_105 (constant S_ .f32 0xC3800000#32),
    nullary main_cst_106 (constant S_ .f32 0x437F0000#32),
    TRef.unary (TRef.of (T := ⟨S_, .f32⟩) main_cst_105) (TRef.of (T := ⟨S_, .f32⟩) main_call37_v0) id,
    TRef.unary (TRef.of (T := ⟨S_, .f32⟩) main_call37_v0) (TRef.of (T := ⟨S1024x20x10x8x8, .f32⟩) main_call37_v1) (broadcastInDim S1024x20x10x8x8 ![] bcast_S_S1024x20x10x8x8),
    TRef.binary (TRef.of (T := ⟨S1024x20x10x8x8, .f32⟩) main_call37_v1) (TRef.of (T := ⟨S1024x20x10x8x8, .f32⟩) main_v413) (TRef.of (T := ⟨S1024x20x10x8x8, .f32⟩) main_call37_v2) maximumf,
    TRef.unary (TRef.of (T := ⟨S_, .f32⟩) main_cst_106) (TRef.of (T := ⟨S_, .f32⟩) main_call37_v3) id,
    TRef.unary (TRef.of (T := ⟨S_, .f32⟩) main_call37_v3) (TRef.of (T := ⟨S1024x20x10x8x8, .f32⟩) main_call37_v4) (broadcastInDim S1024x20x10x8x8 ![] bcast_S_S1024x20x10x8x8),
    TRef.binary (TRef.of (T := ⟨S1024x20x10x8x8, .f32⟩) main_call37_v4) (TRef.of (T := ⟨S1024x20x10x8x8, .f32⟩) main_call37_v2) (TRef.of (T := ⟨S1024x20x10x8x8, .f32⟩) main_v414) minimumf,
    nullary main_cst_107 (constant S_ .f32 0x00000000#32),
    binary main_v414 main_cst_107 main_v415 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v404 main_v415 main_v416 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v417 ((extractStridedSlice S1024x10x8x8 ![0, 0, 1, 2] · slices_S1024x10x12x12_S1024x10x8x8_0_0_1_2) : (⟨S1024x10x12x12, .f32⟩ : BufTy).Contents (Elt F) → (⟨S1024x10x8x8, .f32⟩ : BufTy).Contents (Elt F)),
    unary main_v417 main_v418 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v419 ((extractStridedSlice S20x10x1x1 ![0, 0, 1, 2] · slices_S20x10x5x5_S20x10x1x1_0_0_1_2) : (⟨S20x10x5x5, .f32⟩ : BufTy).Contents (Elt F) → (⟨S20x10x1x1, .f32⟩ : BufTy).Contents (Elt F)),
    reshape main_v419 main_v420 rfl shapeCasts_S20x10x1x1_S20x10,
    unary main_v420 main_v421 (broadcastInDim S1x20x10 ![1, 2] bcast_S20x10_S1x20x10_1_2 : (⟨S20x10, .f32⟩ : BufTy).Contents (Elt F) → (⟨S1x20x10, .f32⟩ : BufTy).Contents (Elt F)),
    unary main_v421 main_v422 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v418 main_v423 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v422 main_v424 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v423 main_v424 main_v425 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_108 (constant S_ .f32 0xC3800000#32),
    nullary main_cst_109 (constant S_ .f32 0x437F0000#32),
    TRef.unary (TRef.of (T := ⟨S_, .f32⟩) main_cst_108) (TRef.of (T := ⟨S_, .f32⟩) main_call38_v0) id,
    TRef.unary (TRef.of (T := ⟨S_, .f32⟩) main_call38_v0) (TRef.of (T := ⟨S1024x20x10x8x8, .f32⟩) main_call38_v1) (broadcastInDim S1024x20x10x8x8 ![] bcast_S_S1024x20x10x8x8),
    TRef.binary (TRef.of (T := ⟨S1024x20x10x8x8, .f32⟩) main_call38_v1) (TRef.of (T := ⟨S1024x20x10x8x8, .f32⟩) main_v425) (TRef.of (T := ⟨S1024x20x10x8x8, .f32⟩) main_call38_v2) maximumf,
    TRef.unary (TRef.of (T := ⟨S_, .f32⟩) main_cst_109) (TRef.of (T := ⟨S_, .f32⟩) main_call38_v3) id,
    TRef.unary (TRef.of (T := ⟨S_, .f32⟩) main_call38_v3) (TRef.of (T := ⟨S1024x20x10x8x8, .f32⟩) main_call38_v4) (broadcastInDim S1024x20x10x8x8 ![] bcast_S_S1024x20x10x8x8),
    TRef.binary (TRef.of (T := ⟨S1024x20x10x8x8, .f32⟩) main_call38_v4) (TRef.of (T := ⟨S1024x20x10x8x8, .f32⟩) main_call38_v2) (TRef.of (T := ⟨S1024x20x10x8x8, .f32⟩) main_v426) minimumf,
    nullary main_cst_110 (constant S_ .f32 0x00000000#32),
    binary main_v426 main_cst_110 main_v427 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW8.lean ====
import proofs.«413587_j61040075211437_3_alg».proof.Proof.RunOps8
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part8_eq (c : Dev nD) : main_part8 (F := F) c = seq (ops8 (F := F)) := by
  rfl

set_option maxRecDepth 8192 in
set_option maxHeartbeats 4000000 in
theorem ops8_sub : (ops8 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops8_fresh : ∀ op ∈ (ops8 : List (HloOp τ sig (Elt F))), op.fresh = ∅ := by
  intro _ h
  repeat (cases h with | head => rfl | tail _ h => ?_)
  exact nomatch h

set_option maxRecDepth 8192 in
set_option maxHeartbeats 4000000 in
theorem ops8_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live8 W x0 x1 x2 x3 x4 x5 x6 x7 x8) : Live9 (after (ops8 (F := F)) W) x0 x1 x2 x3 x4 x5 x6 x7 x8 := by
  obtain ⟨⟨a0, a1, a2, a3, a4, a5, a6, a7, a8⟩, ⟨c321, c326, c331⟩, h368, h379⟩ := h
  have e321 : W (Proc.devRef (τ := τ) .tc main_v321) = val_main_v321 (F := F) x0 x1 x2 := c321
  have e326 : W (Proc.devRef (τ := τ) .tc main_v326) = val_main_v326 (F := F) x3 := c326
  have e368 : W (Proc.devRef (τ := τ) .tc main_v368) = acc2 (val_main_v321 (F := F) x0 x1 x2) (val_main_v326 (F := F) x3) 3 := h368
  have e379 : W (Proc.devRef (τ := τ) .tc main_v379) = tap2 (val_main_v321 (F := F) x0 x1 x2) (val_main_v326 (F := F) x3) 0 3 := h379
  refine ⟨⟨?_, ?_, ?_, ?_, ?_, ?_, ?_, ?_, ?_⟩, ⟨?_, ?_, ?_⟩, ?_, ?_⟩
  · exact Eq.trans (by after_results_simp) a0
  · exact Eq.trans (by after_results_simp) a1
  · exact Eq.trans (by after_results_simp) a2
  · exact Eq.trans (by after_results_simp) a3
  · exact Eq.trans (by after_results_simp) a4
  · exact Eq.trans (by after_results_simp) a5
  · exact Eq.trans (by after_results_simp) a6
  · exact Eq.trans (by after_results_simp) a7
  · exact Eq.trans (by after_results_simp) a8
  · exact Eq.trans (by after_results_simp) c321
  · exact Eq.trans (by after_results_simp) c326
  · exact Eq.trans (by after_results_simp) c331
  · show after (ops8 (F := F)) W (Proc.devRef (τ := τ) .tc main_v416) = acc2 (val_main_v321 (F := F) x0 x1 x2) (val_main_v326 (F := F) x3) 7
    after_results_simp
    rw [e321, e326, e368, e379]
    simp only [TRef.ofBuf, TRef.toBuf, cast_eq]
    rfl
  · show after (ops8 (F := F)) W (Proc.devRef (τ := τ) .tc main_v427) = tap2 (val_main_v321 (F := F) x0 x1 x2) (val_main_v326 (F := F) x3) 1 2
    after_results_simp
    rw [e321, e326]
    simp only [TRef.ofBuf, TRef.toBuf, cast_eq]
    rfl

end Cert.ReferenceIdeal.RRun

end
-- ==== Proof.RunOps9.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 9 of @main as a list of host operations (a called function's operations stand in its call's place). -/
abbrev ops9 : List (HloOp τ sig (Elt F)) :=
  [ binary main_v416 main_v427 main_v428 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v429 ((extractStridedSlice S1024x10x8x8 ![0, 0, 1, 3] · slices_S1024x10x12x12_S1024x10x8x8_0_0_1_3) : (⟨S1024x10x12x12, .f32⟩ : BufTy).Contents (Elt F) → (⟨S1024x10x8x8, .f32⟩ : BufTy).Contents (Elt F)),
    unary main_v429 main_v430 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v431 ((extractStridedSlice S20x10x1x1 ![0, 0, 1, 3] · slices_S20x10x5x5_S20x10x1x1_0_0_1_3) : (⟨S20x10x5x5, .f32⟩ : BufTy).Contents (Elt F) → (⟨S20x10x1x1, .f32⟩ : BufTy).Contents (Elt F)),
    reshape main_v431 main_v432 rfl shapeCasts_S20x10x1x1_S20x10,
    unary main_v432 main_v433 (broadcastInDim S1x20x10 ![1, 2] bcast_S20x10_S1x20x10_1_2 : (⟨S20x10, .f32⟩ : BufTy).Contents (Elt F) → (⟨S1x20x10, .f32⟩ : BufTy).Contents (Elt F)),
    unary main_v433 main_v434 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v430 main_v435 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v434 main_v436 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v435 main_v436 main_v437 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_111 (constant S_ .f32 0xC3800000#32),
    nullary main_cst_112 (constant S_ .f32 0x437F0000#32),
    TRef.unary (TRef.of (T := ⟨S_, .f32⟩) main_cst_111) (TRef.of (T := ⟨S_, .f32⟩) main_call39_v0) id,
    TRef.unary (TRef.of (T := ⟨S_, .f32⟩) main_call39_v0) (TRef.of (T := ⟨S1024x20x10x8x8, .f32⟩) main_call39_v1) (broadcastInDim S1024x20x10x8x8 ![] bcast_S_S1024x20x10x8x8),
    TRef.binary (TRef.of (T := ⟨S1024x20x10x8x8, .f32⟩) main_call39_v1) (TRef.of (T := ⟨S1024x20x10x8x8, .f32⟩) main_v437) (TRef.of (T := ⟨S1024x20x10x8x8, .f32⟩) main_call39_v2) maximumf,
    TRef.unary (TRef.of (T := ⟨S_, .f32⟩) main_cst_112) (TRef.of (T := ⟨S_, .f32⟩) main_call39_v3) id,
    TRef.unary (TRef.of (T := ⟨S_, .f32⟩) main_call39_v3) (TRef.of (T := ⟨S1024x20x10x8x8, .f32⟩) main_call39_v4) (broadcastInDim S1024x20x10x8x8 ![] bcast_S_S1024x20x10x8x8),
    TRef.binary (TRef.of (T := ⟨S1024x20x10x8x8, .f32⟩) main_call39_v4) (TRef.of (T := ⟨S1024x20x10x8x8, .f32⟩) main_call39_v2) (TRef.of (T := ⟨S1024x20x10x8x8, .f32⟩) main_v438) minimumf,
    nullary main_cst_113 (constant S_ .f32 0x00000000#32),
    binary main_v438 main_cst_113 main_v439 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v428 main_v439 main_v440 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v441 ((extractStridedSlice S1024x10x8x8 ![0, 0, 1, 4] · slices_S1024x10x12x12_S1024x10x8x8_0_0_1_4) : (⟨S1024x10x12x12, .f32⟩ : BufTy).Contents (Elt F) → (⟨S1024x10x8x8, .f32⟩ : BufTy).Contents (Elt F)),
    unary main_v441 main_v442 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v443 ((extractStridedSlice S20x10x1x1 ![0, 0, 1, 4] · slices_S20x10x5x5_S20x10x1x1_0_0_1_4) : (⟨S20x10x5x5, .f32⟩ : BufTy).Contents (Elt F) → (⟨S20x10x1x1, .f32⟩ : BufTy).Contents (Elt F)),
    reshape main_v443 main_v444 rfl shapeCasts_S20x10x1x1_S20x10,
    unary main_v444 main_v445 (broadcastInDim S1x20x10 ![1, 2] bcast_S20x10_S1x20x10_1_2 : (⟨S20x10, .f32⟩ : BufTy).Contents (Elt F) → (⟨S1x20x10, .f32⟩ : BufTy).Contents (Elt F)),
    unary main_v445 main_v446 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v442 main_v447 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v446 main_v448 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v447 main_v448 main_v449 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_114 (constant S_ .f32 0xC3800000#32),
    nullary main_cst_115 (constant S_ .f32 0x437F0000#32),
    TRef.unary (TRef.of (T := ⟨S_, .f32⟩) main_cst_114) (TRef.of (T := ⟨S_, .f32⟩) main_call40_v0) id,
    TRef.unary (TRef.of (T := ⟨S_, .f32⟩) main_call40_v0) (TRef.of (T := ⟨S1024x20x10x8x8, .f32⟩) main_call40_v1) (broadcastInDim S1024x20x10x8x8 ![] bcast_S_S1024x20x10x8x8),
    TRef.binary (TRef.of (T := ⟨S1024x20x10x8x8, .f32⟩) main_call40_v1) (TRef.of (T := ⟨S1024x20x10x8x8, .f32⟩) main_v449) (TRef.of (T := ⟨S1024x20x10x8x8, .f32⟩) main_call40_v2) maximumf,
    TRef.unary (TRef.of (T := ⟨S_, .f32⟩) main_cst_115) (TRef.of (T := ⟨S_, .f32⟩) main_call40_v3) id,
    TRef.unary (TRef.of (T := ⟨S_, .f32⟩) main_call40_v3) (TRef.of (T := ⟨S1024x20x10x8x8, .f32⟩) main_call40_v4) (broadcastInDim S1024x20x10x8x8 ![] bcast_S_S1024x20x10x8x8),
    TRef.binary (TRef.of (T := ⟨S1024x20x10x8x8, .f32⟩) main_call40_v4) (TRef.of (T := ⟨S1024x20x10x8x8, .f32⟩) main_call40_v2) (TRef.of (T := ⟨S1024x20x10x8x8, .f32⟩) main_v450) minimumf,
    nullary main_cst_116 (constant S_ .f32 0x00000000#32),
    binary main_v450 main_cst_116 main_v451 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v440 main_v451 main_v452 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v453 ((extractStridedSlice S1024x10x8x8 ![0, 0, 2, 0] · slices_S1024x10x12x12_S1024x10x8x8_0_0_2_0) : (⟨S1024x10x12x12, .f32⟩ : BufTy).Contents (Elt F) → (⟨S1024x10x8x8, .f32⟩ : BufTy).Contents (Elt F)),
    unary main_v453 main_v454 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v455 ((extractStridedSlice S20x10x1x1 ![0, 0, 2, 0] · slices_S20x10x5x5_S20x10x1x1_0_0_2_0) : (⟨S20x10x5x5, .f32⟩ : BufTy).Contents (Elt F) → (⟨S20x10x1x1, .f32⟩ : BufTy).Contents (Elt F)),
    reshape main_v455 main_v456 rfl shapeCasts_S20x10x1x1_S20x10,
    unary main_v456 main_v457 (broadcastInDim S1x20x10 ![1, 2] bcast_S20x10_S1x20x10_1_2 : (⟨S20x10, .f32⟩ : BufTy).Contents (Elt F) → (⟨S1x20x10, .f32⟩ : BufTy).Contents (Elt F)),
    unary main_v457 main_v458 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v454 main_v459 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v458 main_v460 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v459 main_v460 main_v461 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_117 (constant S_ .f32 0xC3800000#32),
    nullary main_cst_118 (constant S_ .f32 0x437F0000#32),
    TRef.unary (TRef.of (T := ⟨S_, .f32⟩) main_cst_117) (TRef.of (T := ⟨S_, .f32⟩) main_call41_v0) id,
    TRef.unary (TRef.of (T := ⟨S_, .f32⟩) main_call41_v0) (TRef.of (T := ⟨S1024x20x10x8x8, .f32⟩) main_call41_v1) (broadcastInDim S1024x20x10x8x8 ![] bcast_S_S1024x20x10x8x8),
    TRef.binary (TRef.of (T := ⟨S1024x20x10x8x8, .f32⟩) main_call41_v1) (TRef.of (T := ⟨S1024x20x10x8x8, .f32⟩) main_v461) (TRef.of (T := ⟨S1024x20x10x8x8, .f32⟩) main_call41_v2) maximumf,
    TRef.unary (TRef.of (T := ⟨S_, .f32⟩) main_cst_118) (TRef.of (T := ⟨S_, .f32⟩) main_call41_v3) id,
    TRef.unary (TRef.of (T := ⟨S_, .f32⟩) main_call41_v3) (TRef.of (T := ⟨S1024x20x10x8x8, .f32⟩) main_call41_v4) (broadcastInDim S1024x20x10x8x8 ![] bcast_S_S1024x20x10x8x8),
    TRef.binary (TRef.of (T := ⟨S1024x20x10x8x8, .f32⟩) main_call41_v4) (TRef.of (T := ⟨S1024x20x10x8x8, .f32⟩) main_call41_v2) (TRef.of (T := ⟨S1024x20x10x8x8, .f32⟩) main_v462) minimumf,
    nullary main_cst_119 (constant S_ .f32 0x00000000#32),
    binary main_v462 main_cst_119 main_v463 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v452 main_v463 main_v464 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v465 ((extractStridedSlice S1024x10x8x8 ![0, 0, 2, 1] · slices_S1024x10x12x12_S1024x10x8x8_0_0_2_1) : (⟨S1024x10x12x12, .f32⟩ : BufTy).Contents (Elt F) → (⟨S1024x10x8x8, .f32⟩ : BufTy).Contents (Elt F)),
    unary main_v465 main_v466 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v467 ((extractStridedSlice S20x10x1x1 ![0, 0, 2, 1] · slices_S20x10x5x5_S20x10x1x1_0_0_2_1) : (⟨S20x10x5x5, .f32⟩ : BufTy).Contents (Elt F) → (⟨S20x10x1x1, .f32⟩ : BufTy).Contents (Elt F)),
    reshape main_v467 main_v468 rfl shapeCasts_S20x10x1x1_S20x10,
    unary main_v468 main_v469 (broadcastInDim S1x20x10 ![1, 2] bcast_S20x10_S1x20x10_1_2 : (⟨S20x10, .f32⟩ : BufTy).Contents (Elt F) → (⟨S1x20x10, .f32⟩ : BufTy).Contents (Elt F)),
    unary main_v469 main_v470 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v466 main_v471 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v470 main_v472 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v471 main_v472 main_v473 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_120 (constant S_ .f32 0xC3800000#32),
    nullary main_cst_121 (constant S_ .f32 0x437F0000#32),
    TRef.unary (TRef.of (T := ⟨S_, .f32⟩) main_cst_120) (TRef.of (T := ⟨S_, .f32⟩) main_call42_v0) id,
    TRef.unary (TRef.of (T := ⟨S_, .f32⟩) main_call42_v0) (TRef.of (T := ⟨S1024x20x10x8x8, .f32⟩) main_call42_v1) (broadcastInDim S1024x20x10x8x8 ![] bcast_S_S1024x20x10x8x8),
    TRef.binary (TRef.of (T := ⟨S1024x20x10x8x8, .f32⟩) main_call42_v1) (TRef.of (T := ⟨S1024x20x10x8x8, .f32⟩) main_v473) (TRef.of (T := ⟨S1024x20x10x8x8, .f32⟩) main_call42_v2) maximumf,
    TRef.unary (TRef.of (T := ⟨S_, .f32⟩) main_cst_121) (TRef.of (T := ⟨S_, .f32⟩) main_call42_v3) id,
    TRef.unary (TRef.of (T := ⟨S_, .f32⟩) main_call42_v3) (TRef.of (T := ⟨S1024x20x10x8x8, .f32⟩) main_call42_v4) (broadcastInDim S1024x20x10x8x8 ![] bcast_S_S1024x20x10x8x8),
    TRef.binary (TRef.of (T := ⟨S1024x20x10x8x8, .f32⟩) main_call42_v4) (TRef.of (T := ⟨S1024x20x10x8x8, .f32⟩) main_call42_v2) (TRef.of (T := ⟨S1024x20x10x8x8, .f32⟩) main_v474) minimumf,
    nullary main_cst_122 (constant S_ .f32 0x00000000#32),
    binary main_v474 main_cst_122 main_v475 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW9.lean ====
import proofs.«413587_j61040075211437_3_alg».proof.Proof.RunOps9
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part9_eq (c : Dev nD) : main_part9 (F := F) c = seq (ops9 (F := F)) := by
  rfl

set_option maxRecDepth 8192 in
set_option maxHeartbeats 4000000 in
theorem ops9_sub : (ops9 : List (HloOp τ sig (Elt F))).Forall fun op => op.bufs ⊆ tcRefs τ sig := by
  simp only [List.Forall, nullary_bufs_sub, unary_bufs_sub, binary_bufs_sub, reshape_bufs_sub, and_self]

set_option maxRecDepth 8192 in
set_option maxHeartbeats 4000000 in
theorem ops9_fresh : ∀ op ∈ (ops9 : List (HloOp τ sig (Elt F))), op.fresh = ∅ := by
  intro _ h
  repeat (cases h with | head => rfl | tail _ h => ?_)
  exact nomatch h

set_option maxRecDepth 8192 in
set_option maxHeartbeats 4000000 in
theorem ops9_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live9 W x0 x1 x2 x3 x4 x5 x6 x7 x8) : Live10 (after (ops9 (F := F)) W) x0 x1 x2 x3 x4 x5 x6 x7 x8 := by
  obtain ⟨⟨a0, a1, a2, a3, a4, a5, a6, a7, a8⟩, ⟨c321, c326, c331⟩, h416, h427⟩ := h
  have e321 : W (Proc.devRef (τ := τ) .tc main_v321) = val_main_v321 (F := F) x0 x1 x2 := c321
  have e326 : W (Proc.devRef (τ := τ) .tc main_v326) = val_main_v326 (F := F) x3 := c326
  have e416 : W (Proc.devRef (τ := τ) .tc main_v416) = acc2 (val_main_v321 (F := F) x0 x1 x2) (val_main_v326 (F := F) x3) 7 := h416
  have e427 : W (Proc.devRef (τ := τ) .tc main_v427) = tap2 (val_main_v321 (F := F) x0 x1 x2) (val_main_v326 (F := F) x3) 1 2 := h427
  refine ⟨⟨?_, ?_, ?_, ?_, ?_, ?_, ?_, ?_, ?_⟩, ⟨?_, ?_, ?_⟩, ?_, ?_⟩
  · exact Eq.trans (by after_results_simp) a0
  · exact Eq.trans (by after_results_simp) a1
  · exact Eq.trans (by after_results_simp) a2
  · exact Eq.trans (by after_results_simp) a3
  · exact Eq.trans (by after_results_simp) a4
  · exact Eq.trans (by after_results_simp) a5
  · exact Eq.trans (by after_results_simp) a6
  · exact Eq.trans (by after_results_simp) a7
  · exact Eq.trans (by after_results_simp) a8
  · exact Eq.trans (by after_results_simp) c321
  · exact Eq.trans (by after_results_simp) c326
  · exact Eq.trans (by after_results_simp) c331
  · show after (ops9 (F := F)) W (Proc.devRef (τ := τ) .tc main_v464) = acc2 (val_main_v321 (F := F) x0 x1 x2) (val_main_v326 (F := F) x3) 11
    after_results_simp
    rw [e321, e326, e416, e427]
    simp only [TRef.ofBuf, TRef.toBuf, cast_eq]
    rfl
  · show after (ops9 (F := F)) W (Proc.devRef (τ := τ) .tc main_v475) = tap2 (val_main_v321 (F := F) x0 x1 x2) (val_main_v326 (F := F) x3) 2 1
    after_results_simp
    rw [e321, e326]
    simp only [TRef.ofBuf, TRef.toBuf, cast_eq]
    rfl

end Cert.ReferenceIdeal.RRun

end
-- ==== Proof.RunOps10.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 10 of @main as a list of host operations (a called function's operations stand in its call's place). -/
abbrev ops10 : List (HloOp τ sig (Elt F)) :=
  [ binary main_v464 main_v475 main_v476 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v477 ((extractStridedSlice S1024x10x8x8 ![0, 0, 2, 2] · slices_S1024x10x12x12_S1024x10x8x8_0_0_2_2) : (⟨S1024x10x12x12, .f32⟩ : BufTy).Contents (Elt F) → (⟨S1024x10x8x8, .f32⟩ : BufTy).Contents (Elt F)),
    unary main_v477 main_v478 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v479 ((extractStridedSlice S20x10x1x1 ![0, 0, 2, 2] · slices_S20x10x5x5_S20x10x1x1_0_0_2_2) : (⟨S20x10x5x5, .f32⟩ : BufTy).Contents (Elt F) → (⟨S20x10x1x1, .f32⟩ : BufTy).Contents (Elt F)),
    reshape main_v479 main_v480 rfl shapeCasts_S20x10x1x1_S20x10,
    unary main_v480 main_v481 (broadcastInDim S1x20x10 ![1, 2] bcast_S20x10_S1x20x10_1_2 : (⟨S20x10, .f32⟩ : BufTy).Contents (Elt F) → (⟨S1x20x10, .f32⟩ : BufTy).Contents (Elt F)),
    unary main_v481 main_v482 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v478 main_v483 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v482 main_v484 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v483 main_v484 main_v485 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_123 (constant S_ .f32 0xC3800000#32),
    nullary main_cst_124 (constant S_ .f32 0x437F0000#32),
    TRef.unary (TRef.of (T := ⟨S_, .f32⟩) main_cst_123) (TRef.of (T := ⟨S_, .f32⟩) main_call43_v0) id,
    TRef.unary (TRef.of (T := ⟨S_, .f32⟩) main_call43_v0) (TRef.of (T := ⟨S1024x20x10x8x8, .f32⟩) main_call43_v1) (broadcastInDim S1024x20x10x8x8 ![] bcast_S_S1024x20x10x8x8),
    TRef.binary (TRef.of (T := ⟨S1024x20x10x8x8, .f32⟩) main_call43_v1) (TRef.of (T := ⟨S1024x20x10x8x8, .f32⟩) main_v485) (TRef.of (T := ⟨S1024x20x10x8x8, .f32⟩) main_call43_v2) maximumf,
    TRef.unary (TRef.of (T := ⟨S_, .f32⟩) main_cst_124) (TRef.of (T := ⟨S_, .f32⟩) main_call43_v3) id,
    TRef.unary (TRef.of (T := ⟨S_, .f32⟩) main_call43_v3) (TRef.of (T := ⟨S1024x20x10x8x8, .f32⟩) main_call43_v4) (broadcastInDim S1024x20x10x8x8 ![] bcast_S_S1024x20x10x8x8),
    TRef.binary (TRef.of (T := ⟨S1024x20x10x8x8, .f32⟩) main_call43_v4) (TRef.of (T := ⟨S1024x20x10x8x8, .f32⟩) main_call43_v2) (TRef.of (T := ⟨S1024x20x10x8x8, .f32⟩) main_v486) minimumf,
    nullary main_cst_125 (constant S_ .f32 0x00000000#32),
    binary main_v486 main_cst_125 main_v487 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v476 main_v487 main_v488 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v489 ((extractStridedSlice S1024x10x8x8 ![0, 0, 2, 3] · slices_S1024x10x12x12_S1024x10x8x8_0_0_2_3) : (⟨S1024x10x12x12, .f32⟩ : BufTy).Contents (Elt F) → (⟨S1024x10x8x8, .f32⟩ : BufTy).Contents (Elt F)),
    unary main_v489 main_v490 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v491 ((extractStridedSlice S20x10x1x1 ![0, 0, 2, 3] · slices_S20x10x5x5_S20x10x1x1_0_0_2_3) : (⟨S20x10x5x5, .f32⟩ : BufTy).Contents (Elt F) → (⟨S20x10x1x1, .f32⟩ : BufTy).Contents (Elt F)),
    reshape main_v491 main_v492 rfl shapeCasts_S20x10x1x1_S20x10,
    unary main_v492 main_v493 (broadcastInDim S1x20x10 ![1, 2] bcast_S20x10_S1x20x10_1_2 : (⟨S20x10, .f32⟩ : BufTy).Contents (Elt F) → (⟨S1x20x10, .f32⟩ : BufTy).Contents (Elt F)),
    unary main_v493 main_v494 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v490 main_v495 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v494 main_v496 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v495 main_v496 main_v497 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_126 (constant S_ .f32 0xC3800000#32),
    nullary main_cst_127 (constant S_ .f32 0x437F0000#32),
    TRef.unary (TRef.of (T := ⟨S_, .f32⟩) main_cst_126) (TRef.of (T := ⟨S_, .f32⟩) main_call44_v0) id,
    TRef.unary (TRef.of (T := ⟨S_, .f32⟩) main_call44_v0) (TRef.of (T := ⟨S1024x20x10x8x8, .f32⟩) main_call44_v1) (broadcastInDim S1024x20x10x8x8 ![] bcast_S_S1024x20x10x8x8),
    TRef.binary (TRef.of (T := ⟨S1024x20x10x8x8, .f32⟩) main_call44_v1) (TRef.of (T := ⟨S1024x20x10x8x8, .f32⟩) main_v497) (TRef.of (T := ⟨S1024x20x10x8x8, .f32⟩) main_call44_v2) maximumf,
    TRef.unary (TRef.of (T := ⟨S_, .f32⟩) main_cst_127) (TRef.of (T := ⟨S_, .f32⟩) main_call44_v3) id,
    TRef.unary (TRef.of (T := ⟨S_, .f32⟩) main_call44_v3) (TRef.of (T := ⟨S1024x20x10x8x8, .f32⟩) main_call44_v4) (broadcastInDim S1024x20x10x8x8 ![] bcast_S_S1024x20x10x8x8),
    TRef.binary (TRef.of (T := ⟨S1024x20x10x8x8, .f32⟩) main_call44_v4) (TRef.of (T := ⟨S1024x20x10x8x8, .f32⟩) main_call44_v2) (TRef.of (T := ⟨S1024x20x10x8x8, .f32⟩) main_v498) minimumf,
    nullary main_cst_128 (constant S_ .f32 0x00000000#32),
    binary main_v498 main_cst_128 main_v499 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v488 main_v499 main_v500 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v501 ((extractStridedSlice S1024x10x8x8 ![0, 0, 2, 4] · slices_S1024x10x12x12_S1024x10x8x8_0_0_2_4) : (⟨S1024x10x12x12, .f32⟩ : BufTy).Contents (Elt F) → (⟨S1024x10x8x8, .f32⟩ : BufTy).Contents (Elt F)),
    unary main_v501 main_v502 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v503 ((extractStridedSlice S20x10x1x1 ![0, 0, 2, 4] · slices_S20x10x5x5_S20x10x1x1_0_0_2_4) : (⟨S20x10x5x5, .f32⟩ : BufTy).Contents (Elt F) → (⟨S20x10x1x1, .f32⟩ : BufTy).Contents (Elt F)),
    reshape main_v503 main_v504 rfl shapeCasts_S20x10x1x1_S20x10,
    unary main_v504 main_v505 (broadcastInDim S1x20x10 ![1, 2] bcast_S20x10_S1x20x10_1_2 : (⟨S20x10, .f32⟩ : BufTy).Contents (Elt F) → (⟨S1x20x10, .f32⟩ : BufTy).Contents (Elt F)),
    unary main_v505 main_v506 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v502 main_v507 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v506 main_v508 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v507 main_v508 main_v509 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_129 (constant S_ .f32 0xC3800000#32),
    nullary main_cst_130 (constant S_ .f32 0x437F0000#32),
    TRef.unary (TRef.of (T := ⟨S_, .f32⟩) main_cst_129) (TRef.of (T := ⟨S_, .f32⟩) main_call45_v0) id,
    TRef.unary (TRef.of (T := ⟨S_, .f32⟩) main_call45_v0) (TRef.of (T := ⟨S1024x20x10x8x8, .f32⟩) main_call45_v1) (broadcastInDim S1024x20x10x8x8 ![] bcast_S_S1024x20x10x8x8),
    TRef.binary (TRef.of (T := ⟨S1024x20x10x8x8, .f32⟩) main_call45_v1) (TRef.of (T := ⟨S1024x20x10x8x8, .f32⟩) main_v509) (TRef.of (T := ⟨S1024x20x10x8x8, .f32⟩) main_call45_v2) maximumf,
    TRef.unary (TRef.of (T := ⟨S_, .f32⟩) main_cst_130) (TRef.of (T := ⟨S_, .f32⟩) main_call45_v3) id,
    TRef.unary (TRef.of (T := ⟨S_, .f32⟩) main_call45_v3) (TRef.of (T := ⟨S1024x20x10x8x8, .f32⟩) main_call45_v4) (broadcastInDim S1024x20x10x8x8 ![] bcast_S_S1024x20x10x8x8),
    TRef.binary (TRef.of (T := ⟨S1024x20x10x8x8, .f32⟩) main_call45_v4) (TRef.of (T := ⟨S1024x20x10x8x8, .f32⟩) main_call45_v2) (TRef.of (T := ⟨S1024x20x10x8x8, .f32⟩) main_v510) minimumf,
    nullary main_cst_131 (constant S_ .f32 0x00000000#32),
    binary main_v510 main_cst_131 main_v511 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v500 main_v511 main_v512 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v513 ((extractStridedSlice S1024x10x8x8 ![0, 0, 3, 0] · slices_S1024x10x12x12_S1024x10x8x8_0_0_3_0) : (⟨S1024x10x12x12, .f32⟩ : BufTy).Contents (Elt F) → (⟨S1024x10x8x8, .f32⟩ : BufTy).Contents (Elt F)),
    unary main_v513 main_v514 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v515 ((extractStridedSlice S20x10x1x1 ![0, 0, 3, 0] · slices_S20x10x5x5_S20x10x1x1_0_0_3_0) : (⟨S20x10x5x5, .f32⟩ : BufTy).Contents (Elt F) → (⟨S20x10x1x1, .f32⟩ : BufTy).Contents (Elt F)),
    reshape main_v515 main_v516 rfl shapeCasts_S20x10x1x1_S20x10,
    unary main_v516 main_v517 (broadcastInDim S1x20x10 ![1, 2] bcast_S20x10_S1x20x10_1_2 : (⟨S20x10, .f32⟩ : BufTy).Contents (Elt F) → (⟨S1x20x10, .f32⟩ : BufTy).Contents (Elt F)),
    unary main_v517 main_v518 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v514 main_v519 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v518 main_v520 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v519 main_v520 main_v521 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_132 (constant S_ .f32 0xC3800000#32),
    nullary main_cst_133 (constant S_ .f32 0x437F0000#32),
    TRef.unary (TRef.of (T := ⟨S_, .f32⟩) main_cst_132) (TRef.of (T := ⟨S_, .f32⟩) main_call46_v0) id,
    TRef.unary (TRef.of (T := ⟨S_, .f32⟩) main_call46_v0) (TRef.of (T := ⟨S1024x20x10x8x8, .f32⟩) main_call46_v1) (broadcastInDim S1024x20x10x8x8 ![] bcast_S_S1024x20x10x8x8),
    TRef.binary (TRef.of (T := ⟨S1024x20x10x8x8, .f32⟩) main_call46_v1) (TRef.of (T := ⟨S1024x20x10x8x8, .f32⟩) main_v521) (TRef.of (T := ⟨S1024x20x10x8x8, .f32⟩) main_call46_v2) maximumf,
    TRef.unary (TRef.of (T := ⟨S_, .f32⟩) main_cst_133) (TRef.of (T := ⟨S_, .f32⟩) main_call46_v3) id,
    TRef.unary (TRef.of (T := ⟨S_, .f32⟩) main_call46_v3) (TRef.of (T := ⟨S1024x20x10x8x8, .f32⟩) main_call46_v4) (broadcastInDim S1024x20x10x8x8 ![] bcast_S_S1024x20x10x8x8),
    TRef.binary (TRef.of (T := ⟨S1024x20x10x8x8, .f32⟩) main_call46_v4) (TRef.of (T := ⟨S1024x20x10x8x8, .f32⟩) main_call46_v2) (TRef.of (T := ⟨S1024x20x10x8x8, .f32⟩) main_v522) minimumf,
    nullary main_cst_134 (constant S_ .f32 0x00000000#32),
    binary main_v522 main_cst_134 main_v523 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW10.lean ====
import proofs.«413587_j61040075211437_3_alg».proof.Proof.RunOps10
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part10_eq (c : Dev nD) : main_part10 (F := F) c = seq (ops10 (F := F)) := by
  rfl

set_option maxHeartbeats 4000000 in
theorem ops10_sub : (ops10 : List (HloOp τ sig (Elt F))).Forall fun op => op.bufs ⊆ tcRefs τ sig := by
  simp only [List.Forall, nullary_bufs_sub, unary_bufs_sub, binary_bufs_sub, reshape_bufs_sub, and_self]

set_option maxHeartbeats 4000000 in
theorem ops10_fresh : ∀ op ∈ (ops10 : List (HloOp τ sig (Elt F))), op.fresh = ∅ := by
  rw [← List.forall_iff_forall_mem]
  simp only [List.Forall]
  repeat' constructor

set_option maxHeartbeats 8000000 in
theorem ops10_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live10 W x0 x1 x2 x3 x4 x5 x6 x7 x8) : Live11 (after (ops10 (F := F)) W) x0 x1 x2 x3 x4 x5 x6 x7 x8 := by
  unfold Live10 at h
  unfold Live11
  unfold ArgsAt Conv2In at *
  simp only [at'] at h ⊢
  obtain ⟨⟨a0, a1, a2, a3, a4, a5, a6, a7, a8⟩, ⟨c321, c326, c331⟩, h464, h475⟩ := h
  refine ⟨⟨?_, ?_, ?_, ?_, ?_, ?_, ?_, ?_, ?_⟩, ⟨?_, ?_, ?_⟩, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact c321
  · after_results_simp; exact c326
  · after_results_simp; exact c331
  ·
    after_results_simp
    rw [h464, h475, c321, c326]
    rfl
  ·
    after_results_simp
    rw [c321, c326]
    rfl

end Cert.ReferenceIdeal.RRun

end
-- ==== Proof.RunOps11.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 11 of @main as a list of host operations (a called function's operations stand in its call's place). -/
abbrev ops11 : List (HloOp τ sig (Elt F)) :=
  [ binary main_v512 main_v523 main_v524 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v525 ((extractStridedSlice S1024x10x8x8 ![0, 0, 3, 1] · slices_S1024x10x12x12_S1024x10x8x8_0_0_3_1) : (⟨S1024x10x12x12, .f32⟩ : BufTy).Contents (Elt F) → (⟨S1024x10x8x8, .f32⟩ : BufTy).Contents (Elt F)),
    unary main_v525 main_v526 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v527 ((extractStridedSlice S20x10x1x1 ![0, 0, 3, 1] · slices_S20x10x5x5_S20x10x1x1_0_0_3_1) : (⟨S20x10x5x5, .f32⟩ : BufTy).Contents (Elt F) → (⟨S20x10x1x1, .f32⟩ : BufTy).Contents (Elt F)),
    reshape main_v527 main_v528 rfl shapeCasts_S20x10x1x1_S20x10,
    unary main_v528 main_v529 (broadcastInDim S1x20x10 ![1, 2] bcast_S20x10_S1x20x10_1_2 : (⟨S20x10, .f32⟩ : BufTy).Contents (Elt F) → (⟨S1x20x10, .f32⟩ : BufTy).Contents (Elt F)),
    unary main_v529 main_v530 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v526 main_v531 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v530 main_v532 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v531 main_v532 main_v533 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_135 (constant S_ .f32 0xC3800000#32),
    nullary main_cst_136 (constant S_ .f32 0x437F0000#32),
    TRef.unary (TRef.of (T := ⟨S_, .f32⟩) main_cst_135) (TRef.of (T := ⟨S_, .f32⟩) main_call47_v0) id,
    TRef.unary (TRef.of (T := ⟨S_, .f32⟩) main_call47_v0) (TRef.of (T := ⟨S1024x20x10x8x8, .f32⟩) main_call47_v1) (broadcastInDim S1024x20x10x8x8 ![] bcast_S_S1024x20x10x8x8),
    TRef.binary (TRef.of (T := ⟨S1024x20x10x8x8, .f32⟩) main_call47_v1) (TRef.of (T := ⟨S1024x20x10x8x8, .f32⟩) main_v533) (TRef.of (T := ⟨S1024x20x10x8x8, .f32⟩) main_call47_v2) maximumf,
    TRef.unary (TRef.of (T := ⟨S_, .f32⟩) main_cst_136) (TRef.of (T := ⟨S_, .f32⟩) main_call47_v3) id,
    TRef.unary (TRef.of (T := ⟨S_, .f32⟩) main_call47_v3) (TRef.of (T := ⟨S1024x20x10x8x8, .f32⟩) main_call47_v4) (broadcastInDim S1024x20x10x8x8 ![] bcast_S_S1024x20x10x8x8),
    TRef.binary (TRef.of (T := ⟨S1024x20x10x8x8, .f32⟩) main_call47_v4) (TRef.of (T := ⟨S1024x20x10x8x8, .f32⟩) main_call47_v2) (TRef.of (T := ⟨S1024x20x10x8x8, .f32⟩) main_v534) minimumf,
    nullary main_cst_137 (constant S_ .f32 0x00000000#32),
    binary main_v534 main_cst_137 main_v535 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v524 main_v535 main_v536 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v537 ((extractStridedSlice S1024x10x8x8 ![0, 0, 3, 2] · slices_S1024x10x12x12_S1024x10x8x8_0_0_3_2) : (⟨S1024x10x12x12, .f32⟩ : BufTy).Contents (Elt F) → (⟨S1024x10x8x8, .f32⟩ : BufTy).Contents (Elt F)),
    unary main_v537 main_v538 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v539 ((extractStridedSlice S20x10x1x1 ![0, 0, 3, 2] · slices_S20x10x5x5_S20x10x1x1_0_0_3_2) : (⟨S20x10x5x5, .f32⟩ : BufTy).Contents (Elt F) → (⟨S20x10x1x1, .f32⟩ : BufTy).Contents (Elt F)),
    reshape main_v539 main_v540 rfl shapeCasts_S20x10x1x1_S20x10,
    unary main_v540 main_v541 (broadcastInDim S1x20x10 ![1, 2] bcast_S20x10_S1x20x10_1_2 : (⟨S20x10, .f32⟩ : BufTy).Contents (Elt F) → (⟨S1x20x10, .f32⟩ : BufTy).Contents (Elt F)),
    unary main_v541 main_v542 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v538 main_v543 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v542 main_v544 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v543 main_v544 main_v545 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_138 (constant S_ .f32 0xC3800000#32),
    nullary main_cst_139 (constant S_ .f32 0x437F0000#32),
    TRef.unary (TRef.of (T := ⟨S_, .f32⟩) main_cst_138) (TRef.of (T := ⟨S_, .f32⟩) main_call48_v0) id,
    TRef.unary (TRef.of (T := ⟨S_, .f32⟩) main_call48_v0) (TRef.of (T := ⟨S1024x20x10x8x8, .f32⟩) main_call48_v1) (broadcastInDim S1024x20x10x8x8 ![] bcast_S_S1024x20x10x8x8),
    TRef.binary (TRef.of (T := ⟨S1024x20x10x8x8, .f32⟩) main_call48_v1) (TRef.of (T := ⟨S1024x20x10x8x8, .f32⟩) main_v545) (TRef.of (T := ⟨S1024x20x10x8x8, .f32⟩) main_call48_v2) maximumf,
    TRef.unary (TRef.of (T := ⟨S_, .f32⟩) main_cst_139) (TRef.of (T := ⟨S_, .f32⟩) main_call48_v3) id,
    TRef.unary (TRef.of (T := ⟨S_, .f32⟩) main_call48_v3) (TRef.of (T := ⟨S1024x20x10x8x8, .f32⟩) main_call48_v4) (broadcastInDim S1024x20x10x8x8 ![] bcast_S_S1024x20x10x8x8),
    TRef.binary (TRef.of (T := ⟨S1024x20x10x8x8, .f32⟩) main_call48_v4) (TRef.of (T := ⟨S1024x20x10x8x8, .f32⟩) main_call48_v2) (TRef.of (T := ⟨S1024x20x10x8x8, .f32⟩) main_v546) minimumf,
    nullary main_cst_140 (constant S_ .f32 0x00000000#32),
    binary main_v546 main_cst_140 main_v547 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v536 main_v547 main_v548 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v549 ((extractStridedSlice S1024x10x8x8 ![0, 0, 3, 3] · slices_S1024x10x12x12_S1024x10x8x8_0_0_3_3) : (⟨S1024x10x12x12, .f32⟩ : BufTy).Contents (Elt F) → (⟨S1024x10x8x8, .f32⟩ : BufTy).Contents (Elt F)),
    unary main_v549 main_v550 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v551 ((extractStridedSlice S20x10x1x1 ![0, 0, 3, 3] · slices_S20x10x5x5_S20x10x1x1_0_0_3_3) : (⟨S20x10x5x5, .f32⟩ : BufTy).Contents (Elt F) → (⟨S20x10x1x1, .f32⟩ : BufTy).Contents (Elt F)),
    reshape main_v551 main_v552 rfl shapeCasts_S20x10x1x1_S20x10,
    unary main_v552 main_v553 (broadcastInDim S1x20x10 ![1, 2] bcast_S20x10_S1x20x10_1_2 : (⟨S20x10, .f32⟩ : BufTy).Contents (Elt F) → (⟨S1x20x10, .f32⟩ : BufTy).Contents (Elt F)),
    unary main_v553 main_v554 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v550 main_v555 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v554 main_v556 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v555 main_v556 main_v557 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_141 (constant S_ .f32 0xC3800000#32),
    nullary main_cst_142 (constant S_ .f32 0x437F0000#32),
    TRef.unary (TRef.of (T := ⟨S_, .f32⟩) main_cst_141) (TRef.of (T := ⟨S_, .f32⟩) main_call49_v0) id,
    TRef.unary (TRef.of (T := ⟨S_, .f32⟩) main_call49_v0) (TRef.of (T := ⟨S1024x20x10x8x8, .f32⟩) main_call49_v1) (broadcastInDim S1024x20x10x8x8 ![] bcast_S_S1024x20x10x8x8),
    TRef.binary (TRef.of (T := ⟨S1024x20x10x8x8, .f32⟩) main_call49_v1) (TRef.of (T := ⟨S1024x20x10x8x8, .f32⟩) main_v557) (TRef.of (T := ⟨S1024x20x10x8x8, .f32⟩) main_call49_v2) maximumf,
    TRef.unary (TRef.of (T := ⟨S_, .f32⟩) main_cst_142) (TRef.of (T := ⟨S_, .f32⟩) main_call49_v3) id,
    TRef.unary (TRef.of (T := ⟨S_, .f32⟩) main_call49_v3) (TRef.of (T := ⟨S1024x20x10x8x8, .f32⟩) main_call49_v4) (broadcastInDim S1024x20x10x8x8 ![] bcast_S_S1024x20x10x8x8),
    TRef.binary (TRef.of (T := ⟨S1024x20x10x8x8, .f32⟩) main_call49_v4) (TRef.of (T := ⟨S1024x20x10x8x8, .f32⟩) main_call49_v2) (TRef.of (T := ⟨S1024x20x10x8x8, .f32⟩) main_v558) minimumf,
    nullary main_cst_143 (constant S_ .f32 0x00000000#32),
    binary main_v558 main_cst_143 main_v559 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v548 main_v559 main_v560 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v561 ((extractStridedSlice S1024x10x8x8 ![0, 0, 3, 4] · slices_S1024x10x12x12_S1024x10x8x8_0_0_3_4) : (⟨S1024x10x12x12, .f32⟩ : BufTy).Contents (Elt F) → (⟨S1024x10x8x8, .f32⟩ : BufTy).Contents (Elt F)),
    unary main_v561 main_v562 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v563 ((extractStridedSlice S20x10x1x1 ![0, 0, 3, 4] · slices_S20x10x5x5_S20x10x1x1_0_0_3_4) : (⟨S20x10x5x5, .f32⟩ : BufTy).Contents (Elt F) → (⟨S20x10x1x1, .f32⟩ : BufTy).Contents (Elt F)),
    reshape main_v563 main_v564 rfl shapeCasts_S20x10x1x1_S20x10,
    unary main_v564 main_v565 (broadcastInDim S1x20x10 ![1, 2] bcast_S20x10_S1x20x10_1_2 : (⟨S20x10, .f32⟩ : BufTy).Contents (Elt F) → (⟨S1x20x10, .f32⟩ : BufTy).Contents (Elt F)),
    unary main_v565 main_v566 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v562 main_v567 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v566 main_v568 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v567 main_v568 main_v569 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_144 (constant S_ .f32 0xC3800000#32),
    nullary main_cst_145 (constant S_ .f32 0x437F0000#32),
    TRef.unary (TRef.of (T := ⟨S_, .f32⟩) main_cst_144) (TRef.of (T := ⟨S_, .f32⟩) main_call50_v0) id,
    TRef.unary (TRef.of (T := ⟨S_, .f32⟩) main_call50_v0) (TRef.of (T := ⟨S1024x20x10x8x8, .f32⟩) main_call50_v1) (broadcastInDim S1024x20x10x8x8 ![] bcast_S_S1024x20x10x8x8),
    TRef.binary (TRef.of (T := ⟨S1024x20x10x8x8, .f32⟩) main_call50_v1) (TRef.of (T := ⟨S1024x20x10x8x8, .f32⟩) main_v569) (TRef.of (T := ⟨S1024x20x10x8x8, .f32⟩) main_call50_v2) maximumf,
    TRef.unary (TRef.of (T := ⟨S_, .f32⟩) main_cst_145) (TRef.of (T := ⟨S_, .f32⟩) main_call50_v3) id,
    TRef.unary (TRef.of (T := ⟨S_, .f32⟩) main_call50_v3) (TRef.of (T := ⟨S1024x20x10x8x8, .f32⟩) main_call50_v4) (broadcastInDim S1024x20x10x8x8 ![] bcast_S_S1024x20x10x8x8),
    TRef.binary (TRef.of (T := ⟨S1024x20x10x8x8, .f32⟩) main_call50_v4) (TRef.of (T := ⟨S1024x20x10x8x8, .f32⟩) main_call50_v2) (TRef.of (T := ⟨S1024x20x10x8x8, .f32⟩) main_v570) minimumf,
    nullary main_cst_146 (constant S_ .f32 0x00000000#32),
    binary main_v570 main_cst_146 main_v571 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW11.lean ====
import proofs.«413587_j61040075211437_3_alg».proof.Proof.RunOps11
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part11_eq (c : Dev nD) : main_part11 (F := F) c = seq (ops11 (F := F)) := by
  rfl

set_option maxHeartbeats 4000000 in
theorem ops11_sub : (ops11 : List (HloOp τ sig (Elt F))).Forall fun op => op.bufs ⊆ tcRefs τ sig := by
  simp only [List.Forall, nullary_bufs_sub, unary_bufs_sub, binary_bufs_sub, reshape_bufs_sub, and_self]

set_option maxHeartbeats 4000000 in
theorem ops11_fresh : ∀ op ∈ (ops11 : List (HloOp τ sig (Elt F))), op.fresh = ∅ := by
  rw [← List.forall_iff_forall_mem]
  simp only [List.Forall]
  repeat' constructor

set_option maxHeartbeats 8000000 in
theorem ops11_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live11 W x0 x1 x2 x3 x4 x5 x6 x7 x8) : Live12 (after (ops11 (F := F)) W) x0 x1 x2 x3 x4 x5 x6 x7 x8 := by
  unfold Live11 at h
  unfold Live12
  unfold ArgsAt Conv2In at *
  simp only [at'] at h ⊢
  obtain ⟨⟨a0, a1, a2, a3, a4, a5, a6, a7, a8⟩, ⟨c321, c326, c331⟩, h512, h523⟩ := h
  refine ⟨⟨?_, ?_, ?_, ?_, ?_, ?_, ?_, ?_, ?_⟩, ⟨?_, ?_, ?_⟩, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact c321
  · after_results_simp; exact c326
  · after_results_simp; exact c331
  ·
    after_results_simp
    rw [h512, h523, c321, c326]
    rfl
  ·
    after_results_simp
    rw [c321, c326]
    rfl

end Cert.ReferenceIdeal.RRun

end
-- ==== Proof.RunOps12.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 12 of @main as a list of host operations (a called function's operations stand in its call's place). -/
abbrev ops12 : List (HloOp τ sig (Elt F)) :=
  [ binary main_v560 main_v571 main_v572 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v573 ((extractStridedSlice S1024x10x8x8 ![0, 0, 4, 0] · slices_S1024x10x12x12_S1024x10x8x8_0_0_4_0) : (⟨S1024x10x12x12, .f32⟩ : BufTy).Contents (Elt F) → (⟨S1024x10x8x8, .f32⟩ : BufTy).Contents (Elt F)),
    unary main_v573 main_v574 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v575 ((extractStridedSlice S20x10x1x1 ![0, 0, 4, 0] · slices_S20x10x5x5_S20x10x1x1_0_0_4_0) : (⟨S20x10x5x5, .f32⟩ : BufTy).Contents (Elt F) → (⟨S20x10x1x1, .f32⟩ : BufTy).Contents (Elt F)),
    reshape main_v575 main_v576 rfl shapeCasts_S20x10x1x1_S20x10,
    unary main_v576 main_v577 (broadcastInDim S1x20x10 ![1, 2] bcast_S20x10_S1x20x10_1_2 : (⟨S20x10, .f32⟩ : BufTy).Contents (Elt F) → (⟨S1x20x10, .f32⟩ : BufTy).Contents (Elt F)),
    unary main_v577 main_v578 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v574 main_v579 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v578 main_v580 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v579 main_v580 main_v581 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_147 (constant S_ .f32 0xC3800000#32),
    nullary main_cst_148 (constant S_ .f32 0x437F0000#32),
    TRef.unary (TRef.of (T := ⟨S_, .f32⟩) main_cst_147) (TRef.of (T := ⟨S_, .f32⟩) main_call51_v0) id,
    TRef.unary (TRef.of (T := ⟨S_, .f32⟩) main_call51_v0) (TRef.of (T := ⟨S1024x20x10x8x8, .f32⟩) main_call51_v1) (broadcastInDim S1024x20x10x8x8 ![] bcast_S_S1024x20x10x8x8),
    TRef.binary (TRef.of (T := ⟨S1024x20x10x8x8, .f32⟩) main_call51_v1) (TRef.of (T := ⟨S1024x20x10x8x8, .f32⟩) main_v581) (TRef.of (T := ⟨S1024x20x10x8x8, .f32⟩) main_call51_v2) maximumf,
    TRef.unary (TRef.of (T := ⟨S_, .f32⟩) main_cst_148) (TRef.of (T := ⟨S_, .f32⟩) main_call51_v3) id,
    TRef.unary (TRef.of (T := ⟨S_, .f32⟩) main_call51_v3) (TRef.of (T := ⟨S1024x20x10x8x8, .f32⟩) main_call51_v4) (broadcastInDim S1024x20x10x8x8 ![] bcast_S_S1024x20x10x8x8),
    TRef.binary (TRef.of (T := ⟨S1024x20x10x8x8, .f32⟩) main_call51_v4) (TRef.of (T := ⟨S1024x20x10x8x8, .f32⟩) main_call51_v2) (TRef.of (T := ⟨S1024x20x10x8x8, .f32⟩) main_v582) minimumf,
    nullary main_cst_149 (constant S_ .f32 0x00000000#32),
    binary main_v582 main_cst_149 main_v583 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v572 main_v583 main_v584 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v585 ((extractStridedSlice S1024x10x8x8 ![0, 0, 4, 1] · slices_S1024x10x12x12_S1024x10x8x8_0_0_4_1) : (⟨S1024x10x12x12, .f32⟩ : BufTy).Contents (Elt F) → (⟨S1024x10x8x8, .f32⟩ : BufTy).Contents (Elt F)),
    unary main_v585 main_v586 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v587 ((extractStridedSlice S20x10x1x1 ![0, 0, 4, 1] · slices_S20x10x5x5_S20x10x1x1_0_0_4_1) : (⟨S20x10x5x5, .f32⟩ : BufTy).Contents (Elt F) → (⟨S20x10x1x1, .f32⟩ : BufTy).Contents (Elt F)),
    reshape main_v587 main_v588 rfl shapeCasts_S20x10x1x1_S20x10,
    unary main_v588 main_v589 (broadcastInDim S1x20x10 ![1, 2] bcast_S20x10_S1x20x10_1_2 : (⟨S20x10, .f32⟩ : BufTy).Contents (Elt F) → (⟨S1x20x10, .f32⟩ : BufTy).Contents (Elt F)),
    unary main_v589 main_v590 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v586 main_v591 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v590 main_v592 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v591 main_v592 main_v593 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_150 (constant S_ .f32 0xC3800000#32),
    nullary main_cst_151 (constant S_ .f32 0x437F0000#32),
    TRef.unary (TRef.of (T := ⟨S_, .f32⟩) main_cst_150) (TRef.of (T := ⟨S_, .f32⟩) main_call52_v0) id,
    TRef.unary (TRef.of (T := ⟨S_, .f32⟩) main_call52_v0) (TRef.of (T := ⟨S1024x20x10x8x8, .f32⟩) main_call52_v1) (broadcastInDim S1024x20x10x8x8 ![] bcast_S_S1024x20x10x8x8),
    TRef.binary (TRef.of (T := ⟨S1024x20x10x8x8, .f32⟩) main_call52_v1) (TRef.of (T := ⟨S1024x20x10x8x8, .f32⟩) main_v593) (TRef.of (T := ⟨S1024x20x10x8x8, .f32⟩) main_call52_v2) maximumf,
    TRef.unary (TRef.of (T := ⟨S_, .f32⟩) main_cst_151) (TRef.of (T := ⟨S_, .f32⟩) main_call52_v3) id,
    TRef.unary (TRef.of (T := ⟨S_, .f32⟩) main_call52_v3) (TRef.of (T := ⟨S1024x20x10x8x8, .f32⟩) main_call52_v4) (broadcastInDim S1024x20x10x8x8 ![] bcast_S_S1024x20x10x8x8),
    TRef.binary (TRef.of (T := ⟨S1024x20x10x8x8, .f32⟩) main_call52_v4) (TRef.of (T := ⟨S1024x20x10x8x8, .f32⟩) main_call52_v2) (TRef.of (T := ⟨S1024x20x10x8x8, .f32⟩) main_v594) minimumf,
    nullary main_cst_152 (constant S_ .f32 0x00000000#32),
    binary main_v594 main_cst_152 main_v595 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v584 main_v595 main_v596 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v597 ((extractStridedSlice S1024x10x8x8 ![0, 0, 4, 2] · slices_S1024x10x12x12_S1024x10x8x8_0_0_4_2) : (⟨S1024x10x12x12, .f32⟩ : BufTy).Contents (Elt F) → (⟨S1024x10x8x8, .f32⟩ : BufTy).Contents (Elt F)),
    unary main_v597 main_v598 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v599 ((extractStridedSlice S20x10x1x1 ![0, 0, 4, 2] · slices_S20x10x5x5_S20x10x1x1_0_0_4_2) : (⟨S20x10x5x5, .f32⟩ : BufTy).Contents (Elt F) → (⟨S20x10x1x1, .f32⟩ : BufTy).Contents (Elt F)),
    reshape main_v599 main_v600 rfl shapeCasts_S20x10x1x1_S20x10,
    unary main_v600 main_v601 (broadcastInDim S1x20x10 ![1, 2] bcast_S20x10_S1x20x10_1_2 : (⟨S20x10, .f32⟩ : BufTy).Contents (Elt F) → (⟨S1x20x10, .f32⟩ : BufTy).Contents (Elt F)),
    unary main_v601 main_v602 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v598 main_v603 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v602 main_v604 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v603 main_v604 main_v605 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_153 (constant S_ .f32 0xC3800000#32),
    nullary main_cst_154 (constant S_ .f32 0x437F0000#32),
    TRef.unary (TRef.of (T := ⟨S_, .f32⟩) main_cst_153) (TRef.of (T := ⟨S_, .f32⟩) main_call53_v0) id,
    TRef.unary (TRef.of (T := ⟨S_, .f32⟩) main_call53_v0) (TRef.of (T := ⟨S1024x20x10x8x8, .f32⟩) main_call53_v1) (broadcastInDim S1024x20x10x8x8 ![] bcast_S_S1024x20x10x8x8),
    TRef.binary (TRef.of (T := ⟨S1024x20x10x8x8, .f32⟩) main_call53_v1) (TRef.of (T := ⟨S1024x20x10x8x8, .f32⟩) main_v605) (TRef.of (T := ⟨S1024x20x10x8x8, .f32⟩) main_call53_v2) maximumf,
    TRef.unary (TRef.of (T := ⟨S_, .f32⟩) main_cst_154) (TRef.of (T := ⟨S_, .f32⟩) main_call53_v3) id,
    TRef.unary (TRef.of (T := ⟨S_, .f32⟩) main_call53_v3) (TRef.of (T := ⟨S1024x20x10x8x8, .f32⟩) main_call53_v4) (broadcastInDim S1024x20x10x8x8 ![] bcast_S_S1024x20x10x8x8),
    TRef.binary (TRef.of (T := ⟨S1024x20x10x8x8, .f32⟩) main_call53_v4) (TRef.of (T := ⟨S1024x20x10x8x8, .f32⟩) main_call53_v2) (TRef.of (T := ⟨S1024x20x10x8x8, .f32⟩) main_v606) minimumf,
    nullary main_cst_155 (constant S_ .f32 0x00000000#32),
    binary main_v606 main_cst_155 main_v607 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v596 main_v607 main_v608 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v609 ((extractStridedSlice S1024x10x8x8 ![0, 0, 4, 3] · slices_S1024x10x12x12_S1024x10x8x8_0_0_4_3) : (⟨S1024x10x12x12, .f32⟩ : BufTy).Contents (Elt F) → (⟨S1024x10x8x8, .f32⟩ : BufTy).Contents (Elt F)),
    unary main_v609 main_v610 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v611 ((extractStridedSlice S20x10x1x1 ![0, 0, 4, 3] · slices_S20x10x5x5_S20x10x1x1_0_0_4_3) : (⟨S20x10x5x5, .f32⟩ : BufTy).Contents (Elt F) → (⟨S20x10x1x1, .f32⟩ : BufTy).Contents (Elt F)),
    reshape main_v611 main_v612 rfl shapeCasts_S20x10x1x1_S20x10,
    unary main_v612 main_v613 (broadcastInDim S1x20x10 ![1, 2] bcast_S20x10_S1x20x10_1_2 : (⟨S20x10, .f32⟩ : BufTy).Contents (Elt F) → (⟨S1x20x10, .f32⟩ : BufTy).Contents (Elt F)),
    unary main_v613 main_v614 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v610 main_v615 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v614 main_v616 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v615 main_v616 main_v617 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_156 (constant S_ .f32 0xC3800000#32),
    nullary main_cst_157 (constant S_ .f32 0x437F0000#32),
    TRef.unary (TRef.of (T := ⟨S_, .f32⟩) main_cst_156) (TRef.of (T := ⟨S_, .f32⟩) main_call54_v0) id,
    TRef.unary (TRef.of (T := ⟨S_, .f32⟩) main_call54_v0) (TRef.of (T := ⟨S1024x20x10x8x8, .f32⟩) main_call54_v1) (broadcastInDim S1024x20x10x8x8 ![] bcast_S_S1024x20x10x8x8),
    TRef.binary (TRef.of (T := ⟨S1024x20x10x8x8, .f32⟩) main_call54_v1) (TRef.of (T := ⟨S1024x20x10x8x8, .f32⟩) main_v617) (TRef.of (T := ⟨S1024x20x10x8x8, .f32⟩) main_call54_v2) maximumf,
    TRef.unary (TRef.of (T := ⟨S_, .f32⟩) main_cst_157) (TRef.of (T := ⟨S_, .f32⟩) main_call54_v3) id,
    TRef.unary (TRef.of (T := ⟨S_, .f32⟩) main_call54_v3) (TRef.of (T := ⟨S1024x20x10x8x8, .f32⟩) main_call54_v4) (broadcastInDim S1024x20x10x8x8 ![] bcast_S_S1024x20x10x8x8),
    TRef.binary (TRef.of (T := ⟨S1024x20x10x8x8, .f32⟩) main_call54_v4) (TRef.of (T := ⟨S1024x20x10x8x8, .f32⟩) main_call54_v2) (TRef.of (T := ⟨S1024x20x10x8x8, .f32⟩) main_v618) minimumf,
    nullary main_cst_158 (constant S_ .f32 0x00000000#32),
    binary main_v618 main_cst_158 main_v619 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)) ]

end Cert.ReferenceIdeal.RRun

end
-- ==== Proof.RunW12.lean ====
import proofs.«413587_j61040075211437_3_alg».proof.Proof.RunOps12
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part12_eq (c : Dev nD) : main_part12 (F := F) c = seq (ops12 (F := F)) := by
  rfl

set_option maxHeartbeats 4000000 in
theorem ops12_sub : (ops12 : List (HloOp τ sig (Elt F))).Forall fun op => op.bufs ⊆ tcRefs τ sig := by
  simp only [List.Forall, nullary_bufs_sub, unary_bufs_sub, binary_bufs_sub, reshape_bufs_sub, and_self]

set_option maxHeartbeats 4000000 in
theorem ops12_fresh : ∀ op ∈ (ops12 : List (HloOp τ sig (Elt F))), op.fresh = ∅ := by
  rw [← List.forall_iff_forall_mem]
  simp only [List.Forall]
  repeat' constructor

set_option maxHeartbeats 8000000 in
theorem ops12_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live12 W x0 x1 x2 x3 x4 x5 x6 x7 x8) : Live13 (after (ops12 (F := F)) W) x0 x1 x2 x3 x4 x5 x6 x7 x8 := by
  unfold Live12 at h
  unfold Live13
  unfold ArgsAt Conv2In at *
  simp only [at'] at h ⊢
  obtain ⟨⟨a0, a1, a2, a3, a4, a5, a6, a7, a8⟩, ⟨c321, c326, c331⟩, h560, h571⟩ := h
  refine ⟨⟨?_, ?_, ?_, ?_, ?_, ?_, ?_, ?_, ?_⟩, ⟨?_, ?_, ?_⟩, ?_, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  · after_results_simp; exact c321
  · after_results_simp; exact c326
  · after_results_simp; exact c331
  ·
    after_results_simp
    rw [h560, h571, c321, c326]
    rfl
  ·
    after_results_simp
    rw [c321, c326]
    rfl

end Cert.ReferenceIdeal.RRun

end
-- ==== Proof.RunOps13.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 13 of @main as a list of host operations (a called function's operations stand in its call's place). -/
abbrev ops13 : List (HloOp τ sig (Elt F)) :=
  [ binary main_v608 main_v619 main_v620 (addf : (⟨S1024x20x8x8, .f32⟩ : BufTy).Contents (Elt F) → (⟨S1024x20x8x8, .f32⟩ : BufTy).Contents (Elt F) → (⟨S1024x20x8x8, .f32⟩ : BufTy).Contents (Elt F)),
    unary main_v321 main_v621 ((extractStridedSlice S1024x10x8x8 ![0, 0, 4, 4] · slices_S1024x10x12x12_S1024x10x8x8_0_0_4_4) : (⟨S1024x10x12x12, .f32⟩ : BufTy).Contents (Elt F) → (⟨S1024x10x8x8, .f32⟩ : BufTy).Contents (Elt F)),
    unary main_v621 main_v622 (broadcastInDim S1024x1x10x8x8 ![0, 2, 3, 4] bcast_S1024x10x8x8_S1024x1x10x8x8_0_2_3_4 : (⟨S1024x10x8x8, .f32⟩ : BufTy).Contents (Elt F) → (⟨S1024x1x10x8x8, .f32⟩ : BufTy).Contents (Elt F)),
    unary main_v326 main_v623 ((extractStridedSlice S20x10x1x1 ![0, 0, 4, 4] · slices_S20x10x5x5_S20x10x1x1_0_0_4_4) : (⟨S20x10x5x5, .f32⟩ : BufTy).Contents (Elt F) → (⟨S20x10x1x1, .f32⟩ : BufTy).Contents (Elt F)),
    reshape main_v623 main_v624 rfl shapeCasts_S20x10x1x1_S20x10,
    unary main_v624 main_v625 (broadcastInDim S1x20x10 ![1, 2] bcast_S20x10_S1x20x10_1_2 : (⟨S20x10, .f32⟩ : BufTy).Contents (Elt F) → (⟨S1x20x10, .f32⟩ : BufTy).Contents (Elt F)),
    unary main_v625 main_v626 (broadcastInDim S1x20x10x1x1 ![0, 1, 2] bcast_S1x20x10_S1x20x10x1x1_0_1_2 : (⟨S1x20x10, .f32⟩ : BufTy).Contents (Elt F) → (⟨S1x20x10x1x1, .f32⟩ : BufTy).Contents (Elt F)),
    unary main_v622 main_v627 (broadcastInDim S1024x20x10x8x8 ![0, 1, 2, 3, 4] bcast_S1024x1x10x8x8_S1024x20x10x8x8_0_1_2_3_4 : (⟨S1024x1x10x8x8, .f32⟩ : BufTy).Contents (Elt F) → (⟨S1024x20x10x8x8, .f32⟩ : BufTy).Contents (Elt F)),
    unary main_v626 main_v628 (broadcastInDim S1024x20x10x8x8 ![0, 1, 2, 3, 4] bcast_S1x20x10x1x1_S1024x20x10x8x8_0_1_2_3_4 : (⟨S1x20x10x1x1, .f32⟩ : BufTy).Contents (Elt F) → (⟨S1024x20x10x8x8, .f32⟩ : BufTy).Contents (Elt F)),
    binary main_v627 main_v628 main_v629 (mulf : (⟨S1024x20x10x8x8, .f32⟩ : BufTy).Contents (Elt F) → (⟨S1024x20x10x8x8, .f32⟩ : BufTy).Contents (Elt F) → (⟨S1024x20x10x8x8, .f32⟩ : BufTy).Contents (Elt F)),
    nullary main_cst_159 (constant S_ .f32 0xC3800000#32),
    nullary main_cst_160 (constant S_ .f32 0x437F0000#32),
    TRef.unary (TRef.of (T := ⟨S_, .f32⟩) main_cst_159) (TRef.of (T := ⟨S_, .f32⟩) main_call55_v0) id,
    TRef.unary (TRef.of (T := ⟨S_, .f32⟩) main_call55_v0) (TRef.of (T := ⟨S1024x20x10x8x8, .f32⟩) main_call55_v1) (broadcastInDim S1024x20x10x8x8 ![] bcast_S_S1024x20x10x8x8),
    TRef.binary (TRef.of (T := ⟨S1024x20x10x8x8, .f32⟩) main_call55_v1) (TRef.of (T := ⟨S1024x20x10x8x8, .f32⟩) main_v629) (TRef.of (T := ⟨S1024x20x10x8x8, .f32⟩) main_call55_v2) maximumf,
    TRef.unary (TRef.of (T := ⟨S_, .f32⟩) main_cst_160) (TRef.of (T := ⟨S_, .f32⟩) main_call55_v3) id,
    TRef.unary (TRef.of (T := ⟨S_, .f32⟩) main_call55_v3) (TRef.of (T := ⟨S1024x20x10x8x8, .f32⟩) main_call55_v4) (broadcastInDim S1024x20x10x8x8 ![] bcast_S_S1024x20x10x8x8),
    TRef.binary (TRef.of (T := ⟨S1024x20x10x8x8, .f32⟩) main_call55_v4) (TRef.of (T := ⟨S1024x20x10x8x8, .f32⟩) main_call55_v2) (TRef.of (T := ⟨S1024x20x10x8x8, .f32⟩) main_v630) minimumf,
    nullary main_cst_161 (constant S_ .f32 0x00000000#32),
    binary main_v630 main_cst_161 main_v631 ((fun x v => Host.reduceAdd x v reducesTo_S1024x20x10x8x8_S1024x20x8x8_d2 h_S_) : (⟨S1024x20x10x8x8, .f32⟩ : BufTy).Contents (Elt F) → (⟨S_, .f32⟩ : BufTy).Contents (Elt F) → (⟨S1024x20x8x8, .f32⟩ : BufTy).Contents (Elt F)),
    binary main_v620 main_v631 main_v632 (addf : (⟨S1024x20x8x8, .f32⟩ : BufTy).Contents (Elt F) → (⟨S1024x20x8x8, .f32⟩ : BufTy).Contents (Elt F) → (⟨S1024x20x8x8, .f32⟩ : BufTy).Contents (Elt F)),
    unary main_v331 main_v633 (broadcastInDim S1x20x1x1 ![1] bcast_S20_S1x20x1x1_1 : (⟨S20, .f32⟩ : BufTy).Contents (Elt F) → (⟨S1x20x1x1, .f32⟩ : BufTy).Contents (Elt F)),
    unary main_v633 main_v634 (broadcastInDim S1024x20x8x8 ![0, 1, 2, 3] bcast_S1x20x1x1_S1024x20x8x8_0_1_2_3 : (⟨S1x20x1x1, .f32⟩ : BufTy).Contents (Elt F) → (⟨S1024x20x8x8, .f32⟩ : BufTy).Contents (Elt F)),
    binary main_v632 main_v634 main_v635 (addf : (⟨S1024x20x8x8, .f32⟩ : BufTy).Contents (Elt F) → (⟨S1024x20x8x8, .f32⟩ : BufTy).Contents (Elt F) → (⟨S1024x20x8x8, .f32⟩ : BufTy).Contents (Elt F)),
    nullary main_cst_162 (constant S_ .f32 0xFF800000#32),
    unary main_cst_162 main_v636 (broadcastInDim S_ ![] bcast_S_S_ : (⟨S_, .f32⟩ : BufTy).Contents (Elt F) → (⟨S_, .f32⟩ : BufTy).Contents (Elt F)),
    binary main_v635 main_v636 main_v637 ((fun x v => Host.reduceWindow FloatOps.maximumf ![1, 1, 2, 2] ![1, 1, 2, 2] ![0, 0, 0, 0] ![0, 0, 0, 0] x v reduceWindows_S1024x20x8x8_S1024x20x4x4_w1s1p0_0_w1s1p0_0_w2s2p0_0_w2s2p0_0 h_S_) : (⟨S1024x20x8x8, .f32⟩ : BufTy).Contents (Elt F) → (⟨S_, .f32⟩ : BufTy).Contents (Elt F) → (⟨S1024x20x4x4, .f32⟩ : BufTy).Contents (Elt F)),
    TRef.nullary (TRef.of (T := ⟨S_, .f32⟩) main_call56_cst) (constant S_ .f32 0x00000000#32),
    TRef.unary (TRef.of (T := ⟨S_, .f32⟩) main_call56_cst) (TRef.of (T := ⟨S1024x20x4x4, .f32⟩) main_call56_v0) (broadcastInDim S1024x20x4x4 ![] bcast_S_S1024x20x4x4),
    TRef.binary (TRef.of (T := ⟨S1024x20x4x4, .f32⟩) main_v637) (TRef.of (T := ⟨S1024x20x4x4, .f32⟩) main_call56_v0) (TRef.of (T := ⟨S1024x20x4x4, .f32⟩) main_v638) maximumf,
    reshape main_v638 main_v639 rfl shapeCasts_S1024x20x4x4_S1024x320,
    nullary main_cst_163 (constant S_ .f32 0x3B800000#32),
    unary main_cst_163 main_v640 (broadcastInDim S50x320 ![] bcast_S_S50x320 : (⟨S_, .f32⟩ : BufTy).Contents (Elt F) → (⟨S50x320, .f32⟩ : BufTy).Contents (Elt F)),
    binary main_arg5 main_v640 main_v641 (Host.divf : (⟨S50x320, .f32⟩ : BufTy).Contents (Elt F) → (⟨S50x320, .f32⟩ : BufTy).Contents (Elt F) → (⟨S50x320, .f32⟩ : BufTy).Contents (Elt F)),
    TRef.unary (TRef.of (T := ⟨S50x320, .f32⟩) main_v641) (TRef.of (T := ⟨S50x320, .f32⟩) main_v642) Host.roundeven,
    nullary main_cst_164 (constant S_ .f32 0x3B800000#32),
    unary main_cst_164 main_v643 (broadcastInDim S50x320 ![] bcast_S_S50x320 : (⟨S_, .f32⟩ : BufTy).Contents (Elt F) → (⟨S50x320, .f32⟩ : BufTy).Contents (Elt F)),
    binary main_v642 main_v643 main_v644 (mulf : (⟨S50x320, .f32⟩ : BufTy).Contents (Elt F) → (⟨S50x320, .f32⟩ : BufTy).Contents (Elt F) → (⟨S50x320, .f32⟩ : BufTy).Contents (Elt F)),
    nullary main_cst_165 (constant S_ .f32 0xC3800000#32),
    nullary main_cst_166 (constant S_ .f32 0x437F0000#32),
    TRef.unary (TRef.of (T := ⟨S_, .f32⟩) main_cst_165) (TRef.of (T := ⟨S_, .f32⟩) main_call58_v0) id,
    TRef.unary (TRef.of (T := ⟨S_, .f32⟩) main_call58_v0) (TRef.of (T := ⟨S50x320, .f32⟩) main_call58_v1) (broadcastInDim S50x320 ![] bcast_S_S50x320),
    TRef.binary (TRef.of (T := ⟨S50x320, .f32⟩) main_call58_v1) (TRef.of (T := ⟨S50x320, .f32⟩) main_v644) (TRef.of (T := ⟨S50x320, .f32⟩) main_call58_v2) maximumf,
    TRef.unary (TRef.of (T := ⟨S_, .f32⟩) main_cst_166) (TRef.of (T := ⟨S_, .f32⟩) main_call58_v3) id,
    TRef.unary (TRef.of (T := ⟨S_, .f32⟩) main_call58_v3) (TRef.of (T := ⟨S50x320, .f32⟩) main_call58_v4) (broadcastInDim S50x320 ![] bcast_S_S50x320),
    TRef.binary (TRef.of (T := ⟨S50x320, .f32⟩) main_call58_v4) (TRef.of (T := ⟨S50x320, .f32⟩) main_call58_v2) (TRef.of (T := ⟨S50x320, .f32⟩) main_v645) minimumf,
    nullary main_cst_167 (constant S_ .f32 0x3B800000#32),
    unary main_cst_167 main_v646 (broadcastInDim S50 ![] bcast_S_S50 : (⟨S_, .f32⟩ : BufTy).Contents (Elt F) → (⟨S50, .f32⟩ : BufTy).Contents (Elt F)),
    binary main_arg6 main_v646 main_v647 (Host.divf : (⟨S50, .f32⟩ : BufTy).Contents (Elt F) → (⟨S50, .f32⟩ : BufTy).Contents (Elt F) → (⟨S50, .f32⟩ : BufTy).Contents (Elt F)),
    TRef.unary (TRef.of (T := ⟨S50, .f32⟩) main_v647) (TRef.of (T := ⟨S50, .f32⟩) main_v648) Host.roundeven,
    nullary main_cst_168 (constant S_ .f32 0x3B800000#32),
    unary main_cst_168 main_v649 (broadcastInDim S50 ![] bcast_S_S50 : (⟨S_, .f32⟩ : BufTy).Contents (Elt F) → (⟨S50, .f32⟩ : BufTy).Contents (Elt F)),
    binary main_v648 main_v649 main_v650 (mulf : (⟨S50, .f32⟩ : BufTy).Contents (Elt F) → (⟨S50, .f32⟩ : BufTy).Contents (Elt F) → (⟨S50, .f32⟩ : BufTy).Contents (Elt F)),
    nullary main_cst_169 (constant S_ .f32 0xC3800000#32),
    nullary main_cst_170 (constant S_ .f32 0x437F0000#32),
    TRef.unary (TRef.of (T := ⟨S_, .f32⟩) main_cst_169) (TRef.of (T := ⟨S_, .f32⟩) main_call60_v0) id,
    TRef.unary (TRef.of (T := ⟨S_, .f32⟩) main_call60_v0) (TRef.of (T := ⟨S50, .f32⟩) main_call60_v1) (broadcastInDim S50 ![] bcast_S_S50),
    TRef.binary (TRef.of (T := ⟨S50, .f32⟩) main_call60_v1) (TRef.of (T := ⟨S50, .f32⟩) main_v650) (TRef.of (T := ⟨S50, .f32⟩) main_call60_v2) maximumf,
    TRef.unary (TRef.of (T := ⟨S_, .f32⟩) main_cst_170) (TRef.of (T := ⟨S_, .f32⟩) main_call60_v3) id,
    TRef.unary (TRef.of (T := ⟨S_, .f32⟩) main_call60_v3) (TRef.of (T := ⟨S50, .f32⟩) main_call60_v4) (broadcastInDim S50 ![] bcast_S_S50),
    TRef.binary (TRef.of (T := ⟨S50, .f32⟩) main_call60_v4) (TRef.of (T := ⟨S50, .f32⟩) main_call60_v2) (TRef.of (T := ⟨S50, .f32⟩) main_v651) minimumf,
    nullary main_cst_171 (constant S_ .f32 0x3B800000#32),
    unary main_cst_171 main_v652 (broadcastInDim S1024x320 ![] bcast_S_S1024x320 : (⟨S_, .f32⟩ : BufTy).Contents (Elt F) → (⟨S1024x320, .f32⟩ : BufTy).Contents (Elt F)),
    binary main_v639 main_v652 main_v653 (Host.divf : (⟨S1024x320, .f32⟩ : BufTy).Contents (Elt F) → (⟨S1024x320, .f32⟩ : BufTy).Contents (Elt F) → (⟨S1024x320, .f32⟩ : BufTy).Contents (Elt F)),
    TRef.unary (TRef.of (T := ⟨S1024x320, .f32⟩) main_v653) (TRef.of (T := ⟨S1024x320, .f32⟩) main_v654) Host.roundeven,
    nullary main_cst_172 (constant S_ .f32 0x3B800000#32),
    unary main_cst_172 main_v655 (broadcastInDim S1024x320 ![] bcast_S_S1024x320 : (⟨S_, .f32⟩ : BufTy).Contents (Elt F) → (⟨S1024x320, .f32⟩ : BufTy).Contents (Elt F)),
    binary main_v654 main_v655 main_v656 (mulf : (⟨S1024x320, .f32⟩ : BufTy).Contents (Elt F) → (⟨S1024x320, .f32⟩ : BufTy).Contents (Elt F) → (⟨S1024x320, .f32⟩ : BufTy).Contents (Elt F)),
    unary main_v645 main_v657 ((transpose S320x50 [1, 0] · transposes_S50x320_S320x50_1_0) : (⟨S50x320, .f32⟩ : BufTy).Contents (Elt F) → (⟨S320x50, .f32⟩ : BufTy).Contents (Elt F)),
    binary main_v656 main_v657 main_v658 ((fun l r => Host.dotGeneral dot_S1024x320_S320x50_S1024x50_1_0_0_1_n_n none l r) : (⟨S1024x320, .f32⟩ : BufTy).Contents (Elt F) → (⟨S320x50, .f32⟩ : BufTy).Contents (Elt F) → (⟨S1024x50, .f32⟩ : BufTy).Contents (Elt F)),
    unary main_v651 main_v659 (broadcastInDim S1x50 ![1] bcast_S50_S1x50_1 : (⟨S50, .f32⟩ : BufTy).Contents (Elt F) → (⟨S1x50, .f32⟩ : BufTy).Contents (Elt F)),
    unary main_v659 main_v660 (broadcastInDim S1024x50 ![0, 1] bcast_S1x50_S1024x50_0_1 : (⟨S1x50, .f32⟩ : BufTy).Contents (Elt F) → (⟨S1024x50, .f32⟩ : BufTy).Contents (Elt F)),
    binary main_v658 main_v660 main_v661 (addf : (⟨S1024x50, .f32⟩ : BufTy).Contents (Elt F) → (⟨S1024x50, .f32⟩ : BufTy).Contents (Elt F) → (⟨S1024x50, .f32⟩ : BufTy).Contents (Elt F)),
    nullary main_cst_173 (constant S_ .f32 0xC3800000#32),
    nullary main_cst_174 (constant S_ .f32 0x437F0000#32),
    TRef.unary (TRef.of (T := ⟨S_, .f32⟩) main_cst_173) (TRef.of (T := ⟨S_, .f32⟩) main_call62_v0) id,
    TRef.unary (TRef.of (T := ⟨S_, .f32⟩) main_call62_v0) (TRef.of (T := ⟨S1024x50, .f32⟩) main_call62_v1) (broadcastInDim S1024x50 ![] bcast_S_S1024x50),
    TRef.binary (TRef.of (T := ⟨S1024x50, .f32⟩) main_call62_v1) (TRef.of (T := ⟨S1024x50, .f32⟩) main_v661) (TRef.of (T := ⟨S1024x50, .f32⟩) main_call62_v2) maximumf,
    TRef.unary (TRef.of (T := ⟨S_, .f32⟩) main_cst_174) (TRef.of (T := ⟨S_, .f32⟩) main_call62_v3) id,
    TRef.unary (TRef.of (T := ⟨S_, .f32⟩) main_call62_v3) (TRef.of (T := ⟨S1024x50, .f32⟩) main_call62_v4) (broadcastInDim S1024x50 ![] bcast_S_S1024x50),
    TRef.binary (TRef.of (T := ⟨S1024x50, .f32⟩) main_call62_v4) (TRef.of (T := ⟨S1024x50, .f32⟩) main_call62_v2) (TRef.of (T := ⟨S1024x50, .f32⟩) main_v662) minimumf,
    TRef.nullary (TRef.of (T := ⟨S_, .f32⟩) main_call63_cst) (constant S_ .f32 0x00000000#32),
    TRef.unary (TRef.of (T := ⟨S_, .f32⟩) main_call63_cst) (TRef.of (T := ⟨S1024x50, .f32⟩) main_call63_v0) (broadcastInDim S1024x50 ![] bcast_S_S1024x50),
    TRef.binary (TRef.of (T := ⟨S1024x50, .f32⟩) main_v662) (TRef.of (T := ⟨S1024x50, .f32⟩) main_call63_v0) (TRef.of (T := ⟨S1024x50, .f32⟩) main_v663) maximumf ]

end Cert.ReferenceIdeal.RRun

end
-- ==== Proof.RunW13.lean ====
import proofs.«413587_j61040075211437_3_alg».proof.Proof.RunOps13
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part13_eq (c : Dev nD) : main_part13 (F := F) c = seq (ops13 (F := F)) := by
  rfl

set_option maxHeartbeats 4000000 in
theorem ops13_sub : (ops13 : List (HloOp τ sig (Elt F))).Forall fun op => op.bufs ⊆ tcRefs τ sig := by
  simp only [List.Forall, nullary_bufs_sub, unary_bufs_sub, binary_bufs_sub, reshape_bufs_sub, and_self]

set_option maxHeartbeats 4000000 in
theorem ops13_fresh : ∀ op ∈ (ops13 : List (HloOp τ sig (Elt F))), op.fresh = ∅ := by
  rw [← List.forall_iff_forall_mem]
  simp only [List.Forall]
  repeat' constructor

set_option maxHeartbeats 8000000 in
theorem ops13_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live13 W x0 x1 x2 x3 x4 x5 x6 x7 x8) : Live14 (after (ops13 (F := F)) W) x0 x1 x2 x3 x4 x5 x6 x7 x8 := by
  unfold Live13 at h
  unfold Live14
  unfold ArgsAt Conv2In at *
  simp only [at'] at h ⊢
  obtain ⟨⟨a0, a1, a2, a3, a4, a5, a6, a7, a8⟩, ⟨c321, c326, c331⟩, h608, h619⟩ := h
  refine ⟨⟨?_, ?_, ?_, ?_, ?_, ?_, ?_, ?_, ?_⟩, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  ·
    after_results_simp
    rw [h608, h619, c321, c326, c331, a5, a6]
    rfl

end Cert.ReferenceIdeal.RRun

end
-- ==== Proof.RunOps14.lean ====
import proofs.«413587_j61040075211437_3_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Window 14 of @main as a list of host operations (a called function's operations stand in its call's place). -/
abbrev ops14 : List (HloOp τ sig (Elt F)) :=
  [ nullary main_cst_175 (constant S_ .f32 0x3B800000#32),
    unary main_cst_175 main_v664 (broadcastInDim S10x50 ![] bcast_S_S10x50 : (⟨S_, .f32⟩ : BufTy).Contents (Elt F) → (⟨S10x50, .f32⟩ : BufTy).Contents (Elt F)),
    binary main_arg7 main_v664 main_v665 (Host.divf : (⟨S10x50, .f32⟩ : BufTy).Contents (Elt F) → (⟨S10x50, .f32⟩ : BufTy).Contents (Elt F) → (⟨S10x50, .f32⟩ : BufTy).Contents (Elt F)),
    TRef.unary (TRef.of (T := ⟨S10x50, .f32⟩) main_v665) (TRef.of (T := ⟨S10x50, .f32⟩) main_v666) Host.roundeven,
    nullary main_cst_176 (constant S_ .f32 0x3B800000#32),
    unary main_cst_176 main_v667 (broadcastInDim S10x50 ![] bcast_S_S10x50 : (⟨S_, .f32⟩ : BufTy).Contents (Elt F) → (⟨S10x50, .f32⟩ : BufTy).Contents (Elt F)),
    binary main_v666 main_v667 main_v668 (mulf : (⟨S10x50, .f32⟩ : BufTy).Contents (Elt F) → (⟨S10x50, .f32⟩ : BufTy).Contents (Elt F) → (⟨S10x50, .f32⟩ : BufTy).Contents (Elt F)),
    nullary main_cst_177 (constant S_ .f32 0xC3800000#32),
    nullary main_cst_178 (constant S_ .f32 0x437F0000#32),
    TRef.unary (TRef.of (T := ⟨S_, .f32⟩) main_cst_177) (TRef.of (T := ⟨S_, .f32⟩) main_call65_v0) id,
    TRef.unary (TRef.of (T := ⟨S_, .f32⟩) main_call65_v0) (TRef.of (T := ⟨S10x50, .f32⟩) main_call65_v1) (broadcastInDim S10x50 ![] bcast_S_S10x50),
    TRef.binary (TRef.of (T := ⟨S10x50, .f32⟩) main_call65_v1) (TRef.of (T := ⟨S10x50, .f32⟩) main_v668) (TRef.of (T := ⟨S10x50, .f32⟩) main_call65_v2) maximumf,
    TRef.unary (TRef.of (T := ⟨S_, .f32⟩) main_cst_178) (TRef.of (T := ⟨S_, .f32⟩) main_call65_v3) id,
    TRef.unary (TRef.of (T := ⟨S_, .f32⟩) main_call65_v3) (TRef.of (T := ⟨S10x50, .f32⟩) main_call65_v4) (broadcastInDim S10x50 ![] bcast_S_S10x50),
    TRef.binary (TRef.of (T := ⟨S10x50, .f32⟩) main_call65_v4) (TRef.of (T := ⟨S10x50, .f32⟩) main_call65_v2) (TRef.of (T := ⟨S10x50, .f32⟩) main_v669) minimumf,
    nullary main_cst_179 (constant S_ .f32 0x3B800000#32),
    unary main_cst_179 main_v670 (broadcastInDim S10 ![] bcast_S_S10 : (⟨S_, .f32⟩ : BufTy).Contents (Elt F) → (⟨S10, .f32⟩ : BufTy).Contents (Elt F)),
    binary main_arg8 main_v670 main_v671 (Host.divf : (⟨S10, .f32⟩ : BufTy).Contents (Elt F) → (⟨S10, .f32⟩ : BufTy).Contents (Elt F) → (⟨S10, .f32⟩ : BufTy).Contents (Elt F)),
    TRef.unary (TRef.of (T := ⟨S10, .f32⟩) main_v671) (TRef.of (T := ⟨S10, .f32⟩) main_v672) Host.roundeven,
    nullary main_cst_180 (constant S_ .f32 0x3B800000#32),
    unary main_cst_180 main_v673 (broadcastInDim S10 ![] bcast_S_S10 : (⟨S_, .f32⟩ : BufTy).Contents (Elt F) → (⟨S10, .f32⟩ : BufTy).Contents (Elt F)),
    binary main_v672 main_v673 main_v674 (mulf : (⟨S10, .f32⟩ : BufTy).Contents (Elt F) → (⟨S10, .f32⟩ : BufTy).Contents (Elt F) → (⟨S10, .f32⟩ : BufTy).Contents (Elt F)),
    nullary main_cst_181 (constant S_ .f32 0xC3800000#32),
    nullary main_cst_182 (constant S_ .f32 0x437F0000#32),
    TRef.unary (TRef.of (T := ⟨S_, .f32⟩) main_cst_181) (TRef.of (T := ⟨S_, .f32⟩) main_call67_v0) id,
    TRef.unary (TRef.of (T := ⟨S_, .f32⟩) main_call67_v0) (TRef.of (T := ⟨S10, .f32⟩) main_call67_v1) (broadcastInDim S10 ![] bcast_S_S10),
    TRef.binary (TRef.of (T := ⟨S10, .f32⟩) main_call67_v1) (TRef.of (T := ⟨S10, .f32⟩) main_v674) (TRef.of (T := ⟨S10, .f32⟩) main_call67_v2) maximumf,
    TRef.unary (TRef.of (T := ⟨S_, .f32⟩) main_cst_182) (TRef.of (T := ⟨S_, .f32⟩) main_call67_v3) id,
    TRef.unary (TRef.of (T := ⟨S_, .f32⟩) main_call67_v3) (TRef.of (T := ⟨S10, .f32⟩) main_call67_v4) (broadcastInDim S10 ![] bcast_S_S10),
    TRef.binary (TRef.of (T := ⟨S10, .f32⟩) main_call67_v4) (TRef.of (T := ⟨S10, .f32⟩) main_call67_v2) (TRef.of (T := ⟨S10, .f32⟩) main_v675) minimumf,
    nullary main_cst_183 (constant S_ .f32 0x3B800000#32),
    unary main_cst_183 main_v676 (broadcastInDim S1024x50 ![] bcast_S_S1024x50 : (⟨S_, .f32⟩ : BufTy).Contents (Elt F) → (⟨S1024x50, .f32⟩ : BufTy).Contents (Elt F)),
    binary main_v663 main_v676 main_v677 (Host.divf : (⟨S1024x50, .f32⟩ : BufTy).Contents (Elt F) → (⟨S1024x50, .f32⟩ : BufTy).Contents (Elt F) → (⟨S1024x50, .f32⟩ : BufTy).Contents (Elt F)),
    TRef.unary (TRef.of (T := ⟨S1024x50, .f32⟩) main_v677) (TRef.of (T := ⟨S1024x50, .f32⟩) main_v678) Host.roundeven,
    nullary main_cst_184 (constant S_ .f32 0x3B800000#32),
    unary main_cst_184 main_v679 (broadcastInDim S1024x50 ![] bcast_S_S1024x50 : (⟨S_, .f32⟩ : BufTy).Contents (Elt F) → (⟨S1024x50, .f32⟩ : BufTy).Contents (Elt F)),
    binary main_v678 main_v679 main_v680 (mulf : (⟨S1024x50, .f32⟩ : BufTy).Contents (Elt F) → (⟨S1024x50, .f32⟩ : BufTy).Contents (Elt F) → (⟨S1024x50, .f32⟩ : BufTy).Contents (Elt F)),
    unary main_v669 main_v681 ((transpose S50x10 [1, 0] · transposes_S10x50_S50x10_1_0) : (⟨S10x50, .f32⟩ : BufTy).Contents (Elt F) → (⟨S50x10, .f32⟩ : BufTy).Contents (Elt F)),
    binary main_v680 main_v681 main_v682 ((fun l r => Host.dotGeneral dot_S1024x50_S50x10_S1024x10_1_0_0_1_n_n none l r) : (⟨S1024x50, .f32⟩ : BufTy).Contents (Elt F) → (⟨S50x10, .f32⟩ : BufTy).Contents (Elt F) → (⟨S1024x10, .f32⟩ : BufTy).Contents (Elt F)),
    unary main_v675 main_v683 (broadcastInDim S1x10 ![1] bcast_S10_S1x10_1 : (⟨S10, .f32⟩ : BufTy).Contents (Elt F) → (⟨S1x10, .f32⟩ : BufTy).Contents (Elt F)),
    unary main_v683 main_v684 (broadcastInDim S1024x10 ![0, 1] bcast_S1x10_S1024x10_0_1 : (⟨S1x10, .f32⟩ : BufTy).Contents (Elt F) → (⟨S1024x10, .f32⟩ : BufTy).Contents (Elt F)),
    binary main_v682 main_v684 main_v685 (addf : (⟨S1024x10, .f32⟩ : BufTy).Contents (Elt F) → (⟨S1024x10, .f32⟩ : BufTy).Contents (Elt F) → (⟨S1024x10, .f32⟩ : BufTy).Contents (Elt F)),
    nullary main_cst_185 (constant S_ .f32 0xC3800000#32),
    nullary main_cst_186 (constant S_ .f32 0x437F0000#32),
    TRef.unary (TRef.of (T := ⟨S_, .f32⟩) main_cst_185) (TRef.of (T := ⟨S_, .f32⟩) main_call69_v0) id,
    TRef.unary (TRef.of (T := ⟨S_, .f32⟩) main_call69_v0) (TRef.of (T := ⟨S1024x10, .f32⟩) main_call69_v1) (broadcastInDim S1024x10 ![] bcast_S_S1024x10),
    TRef.binary (TRef.of (T := ⟨S1024x10, .f32⟩) main_call69_v1) (TRef.of (T := ⟨S1024x10, .f32⟩) main_v685) (TRef.of (T := ⟨S1024x10, .f32⟩) main_call69_v2) maximumf,
    TRef.unary (TRef.of (T := ⟨S_, .f32⟩) main_cst_186) (TRef.of (T := ⟨S_, .f32⟩) main_call69_v3) id,
    TRef.unary (TRef.of (T := ⟨S_, .f32⟩) main_call69_v3) (TRef.of (T := ⟨S1024x10, .f32⟩) main_call69_v4) (broadcastInDim S1024x10 ![] bcast_S_S1024x10),
    TRef.binary (TRef.of (T := ⟨S1024x10, .f32⟩) main_call69_v4) (TRef.of (T := ⟨S1024x10, .f32⟩) main_call69_v2) (TRef.of (T := ⟨S1024x10, .f32⟩) main_v686) minimumf,
    TRef.nullary (TRef.of (T := ⟨S_, .f32⟩) main_call70_cst) (constant S_ .f32 0xFF800000#32),
    TRef.binary (TRef.of (T := ⟨S1024x10, .f32⟩) main_v686) (TRef.of (T := ⟨S_, .f32⟩) main_call70_cst) (TRef.of (T := ⟨S1024, .f32⟩) main_call70_v0) (fun x v => Host.reduce FloatOps.maximumf x v reducesTo_S1024x10_S1024_d1 h_S_),
    TRef.nullary (TRef.of (T := ⟨S_, .f32⟩) main_call70_cst_0) (constant S_ .f32 0xFF800000#32),
    TRef.unary (TRef.of (T := ⟨S_, .f32⟩) main_call70_cst_0) (TRef.of (T := ⟨S1024, .f32⟩) main_call70_v1) (broadcastInDim S1024 ![] bcast_S_S1024),
    TRef.binary (TRef.of (T := ⟨S1024, .f32⟩) main_call70_v1) (TRef.of (T := ⟨S1024, .f32⟩) main_call70_v0) (TRef.of (T := ⟨S1024, .f32⟩) main_call70_v2) maximumf,
    TRef.unary (TRef.of (T := ⟨S1024, .f32⟩) main_call70_v2) (TRef.of (T := ⟨S1024x1, .f32⟩) main_call70_v3) (broadcastInDim S1024x1 ![0] bcast_S1024_S1024x1_0),
    TRef.unary (TRef.of (T := ⟨S1024x1, .f32⟩) main_call70_v3) (TRef.of (T := ⟨S1024x10, .f32⟩) main_call70_v4) (broadcastInDim S1024x10 ![0, 1] bcast_S1024x1_S1024x10_0_1),
    TRef.binary (TRef.of (T := ⟨S1024x10, .f32⟩) main_v686) (TRef.of (T := ⟨S1024x10, .f32⟩) main_call70_v4) (TRef.of (T := ⟨S1024x10, .f32⟩) main_call70_v5) subf,
    TRef.unary (TRef.of (T := ⟨S1024x10, .f32⟩) main_call70_v5) (TRef.of (T := ⟨S1024x10, .f32⟩) main_call70_v6) Host.exp,
    TRef.nullary (TRef.of (T := ⟨S_, .f32⟩) main_call70_cst_1) (constant S_ .f32 0x00000000#32),
    TRef.binary (TRef.of (T := ⟨S1024x10, .f32⟩) main_call70_v6) (TRef.of (T := ⟨S_, .f32⟩) main_call70_cst_1) (TRef.of (T := ⟨S1024, .f32⟩) main_call70_v7) (fun x v => Host.reduceAdd x v reducesTo_S1024x10_S1024_d1 h_S_),
    TRef.unary (TRef.of (T := ⟨S1024, .f32⟩) main_call70_v7) (TRef.of (T := ⟨S1024x1, .f32⟩) main_call70_v8) (broadcastInDim S1024x1 ![0] bcast_S1024_S1024x1_0),
    TRef.unary (TRef.of (T := ⟨S1024x1, .f32⟩) main_call70_v8) (TRef.of (T := ⟨S1024x1, .f32⟩) main_call70_v9) Host.log,
    TRef.unary (TRef.of (T := ⟨S1024x1, .f32⟩) main_call70_v9) (TRef.of (T := ⟨S1024x10, .f32⟩) main_call70_v10) (broadcastInDim S1024x10 ![0, 1] bcast_S1024x1_S1024x10_0_1),
    TRef.binary (TRef.of (T := ⟨S1024x10, .f32⟩) main_call70_v5) (TRef.of (T := ⟨S1024x10, .f32⟩) main_call70_v10) (TRef.of (T := ⟨S1024x10, .f32⟩) main_v687) subf ]

end Cert.ReferenceIdeal.RRun

end
-- ==== Proof.RunW14.lean ====
import proofs.«413587_j61040075211437_3_alg».proof.Proof.RunOps14
import proofs.«413587_j61040075211437_3_alg».proof.Proof.RunLive

noncomputable section

namespace Cert.ReferenceIdeal.RRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

set_option maxRecDepth 8192 in
set_option maxHeartbeats 4000000 in
theorem part14_eq (c : Dev nD) : main_part14 (F := F) c = seq (ops14 (F := F)) := by
  rfl

set_option maxHeartbeats 4000000 in
theorem ops14_sub : (ops14 : List (HloOp τ sig (Elt F))).Forall fun op => op.bufs ⊆ tcRefs τ sig := by
  simp only [List.Forall, nullary_bufs_sub, unary_bufs_sub, binary_bufs_sub, reshape_bufs_sub, and_self]

set_option maxHeartbeats 4000000 in
theorem ops14_fresh : ∀ op ∈ (ops14 : List (HloOp τ sig (Elt F))), op.fresh = ∅ := by
  rw [← List.forall_iff_forall_mem]
  simp only [List.Forall]
  repeat' constructor

set_option maxHeartbeats 8000000 in
theorem ops14_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live14 W x0 x1 x2 x3 x4 x5 x6 x7 x8) : Live15 (after (ops14 (F := F)) W) x0 x1 x2 x3 x4 x5 x6 x7 x8 := by
  unfold Live14 at h
  unfold Live15
  unfold ArgsAt at *
  simp only [at'] at h ⊢
  obtain ⟨⟨a0, a1, a2, a3, a4, a5, a6, a7, a8⟩, h663⟩ := h
  refine ⟨⟨?_, ?_, ?_, ?_, ?_, ?_, ?_, ?_, ?_⟩, ?_⟩
  · after_results_simp; exact a0
  · after_results_simp; exact a1
  · after_results_simp; exact a2
  · after_results_simp; exact a3
  · after_results_simp; exact a4
  · after_results_simp; exact a5
  · after_results_simp; exact a6
  · after_results_simp; exact a7
  · after_results_simp; exact a8
  ·
    after_results_simp
    rw [h663, a7, a8]
    rfl

end Cert.ReferenceIdeal.RRun

end
-- ==== Proof.RefRun.lean ====
import proofs.«413587_j61040075211437_3_alg».proof.Proof.RunW0
import proofs.«413587_j61040075211437_3_alg».proof.Proof.RunW1
import proofs.«413587_j61040075211437_3_alg».proof.Proof.RunW2
import proofs.«413587_j61040075211437_3_alg».proof.Proof.RunW3
import proofs.«413587_j61040075211437_3_alg».proof.Proof.RunW4
import proofs.«413587_j61040075211437_3_alg».proof.Proof.RunW5
import proofs.«413587_j61040075211437_3_alg».proof.Proof.RunW6
import proofs.«413587_j61040075211437_3_alg».proof.Proof.RunW7
import proofs.«413587_j61040075211437_3_alg».proof.Proof.RunW8
import proofs.«413587_j61040075211437_3_alg».proof.Proof.RunW9
import proofs.«413587_j61040075211437_3_alg».proof.Proof.RunW10
import proofs.«413587_j61040075211437_3_alg».proof.Proof.RunW11
import proofs.«413587_j61040075211437_3_alg».proof.Proof.RunW12
import proofs.«413587_j61040075211437_3_alg».proof.Proof.RunW13
import proofs.«413587_j61040075211437_3_alg».proof.Proof.RunW14
import Idealize.ShloMosaic.Lib.StableHlo.Run

noncomputable section

namespace Cert.ReferenceIdeal.RRun

open Idealize.ShloMosaic Idealize.ShloMosaic.TcCoe Idealize.SL.Sem Idealize.ShloMosaic.StableHlo Cert.ReferenceIdeal Cert.ReferenceIdeal.Gen Cert.ReferenceIdeal.ReadP

variable {F : FTy → Type} [FloatOps F]

theorem rr_after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

theorem rr_seq_bind {Λ : Labels} {l₁ l₂ : List (HloOp τ sig (Elt F))}
    {p q : Prog (TpuEff nD τ sig (Elt F) Λ .tc) PUnit} (hp : p = seq l₁) (hq : q = seq l₂) :
    (p >>= fun _ => q) = seq (l₁ ++ l₂) := by
  rw [seq_append, hp, hq]

theorem rr_forall_append {P : HloOp τ sig (Elt F) → Prop} {l₁ l₂ : List (HloOp τ sig (Elt F))}
    (h₁ : l₁.Forall P) (h₂ : l₂.Forall P) : (l₁ ++ l₂).Forall P :=
  List.forall_append.mpr ⟨h₁, h₂⟩

theorem rr_mem_append {P : HloOp τ sig (Elt F) → Prop} {l₁ l₂ : List (HloOp τ sig (Elt F))}
    (h₁ : ∀ op ∈ l₁, P op) (h₂ : ∀ op ∈ l₂, P op) : ∀ op ∈ l₁ ++ l₂, P op :=
  fun op h => (List.mem_append.mp h).elim (h₁ op) (h₂ op)

/-- All of @main's operations, window after window. -/
def allOps : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ ops14)))))))))))))

theorem main_eq (c : Dev nD) : main (F := F) c = seq (allOps (F := F)) :=
  rr_seq_bind (part0_eq c) (rr_seq_bind (part1_eq c) (rr_seq_bind (part2_eq c) (rr_seq_bind (part3_eq c)
    (rr_seq_bind (part4_eq c) (rr_seq_bind (part5_eq c) (rr_seq_bind (part6_eq c) (rr_seq_bind (part7_eq c)
    (rr_seq_bind (part8_eq c) (rr_seq_bind (part9_eq c) (rr_seq_bind (part10_eq c) (rr_seq_bind (part11_eq c)
    (rr_seq_bind (part12_eq c) (rr_seq_bind (part13_eq c) (part14_eq c))))))))))))))

theorem allOps_sub : (allOps : List (HloOp τ sig (Elt F))).Forall fun op => op.bufs ⊆ tcRefs τ sig :=
  rr_forall_append ops0_sub (rr_forall_append ops1_sub (rr_forall_append ops2_sub (rr_forall_append ops3_sub
    (rr_forall_append ops4_sub (rr_forall_append ops5_sub (rr_forall_append ops6_sub (rr_forall_append ops7_sub
    (rr_forall_append ops8_sub (rr_forall_append ops9_sub (rr_forall_append ops10_sub (rr_forall_append ops11_sub
    (rr_forall_append ops12_sub (rr_forall_append ops13_sub ops14_sub)))))))))))))

theorem allOps_fresh : ∀ op ∈ (allOps : List (HloOp τ sig (Elt F))), op.fresh = ∅ :=
  rr_mem_append ops0_fresh (rr_mem_append ops1_fresh (rr_mem_append ops2_fresh (rr_mem_append ops3_fresh
    (rr_mem_append ops4_fresh (rr_mem_append ops5_fresh (rr_mem_append ops6_fresh (rr_mem_append ops7_fresh
    (rr_mem_append ops8_fresh (rr_mem_append ops9_fresh (rr_mem_append ops10_fresh (rr_mem_append ops11_fresh
    (rr_mem_append ops12_fresh (rr_mem_append ops13_fresh ops14_fresh)))))))))))))

theorem allOps_after (W : Valuation τ sig (Elt F)) :
    after (allOps (F := F)) W
      = after ops14 (after ops13 (after ops12 (after ops11 (after ops10 (after ops9 (after ops8 (after ops7
          (after ops6 (after ops5 (after ops4 (after ops3 (after ops2 (after ops1 (after ops0 W)))))))))))))) :=
  (rr_after_append ops0 _ _).trans <| (rr_after_append ops1 _ _).trans <| (rr_after_append ops2 _ _).trans <|
  (rr_after_append ops3 _ _).trans <| (rr_after_append ops4 _ _).trans <| (rr_after_append ops5 _ _).trans <|
  (rr_after_append ops6 _ _).trans <| (rr_after_append ops7 _ _).trans <| (rr_after_append ops8 _ _).trans <|
  (rr_after_append ops9 _ _).trans <| (rr_after_append ops10 _ _).trans <| (rr_after_append ops11 _ _).trans <|
  (rr_after_append ops12 _ _).trans <| rr_after_append ops13 _ _

/-- Each window carries its boundary's facts to the next. -/
theorem allOps_live (W : Valuation τ sig (Elt F))
    (x0 : (⟨S1024x1x28x28, .f32⟩ : BufTy).Contents (Elt F)) (x1 : (⟨S10x1x5x5, .f32⟩ : BufTy).Contents (Elt F))
    (x2 : (⟨S10, .f32⟩ : BufTy).Contents (Elt F)) (x3 : (⟨S20x10x5x5, .f32⟩ : BufTy).Contents (Elt F))
    (x4 : (⟨S20, .f32⟩ : BufTy).Contents (Elt F)) (x5 : (⟨S50x320, .f32⟩ : BufTy).Contents (Elt F))
    (x6 : (⟨S50, .f32⟩ : BufTy).Contents (Elt F)) (x7 : (⟨S10x50, .f32⟩ : BufTy).Contents (Elt F))
    (x8 : (⟨S10, .f32⟩ : BufTy).Contents (Elt F))
    (h : Live0 W x0 x1 x2 x3 x4 x5 x6 x7 x8) : Live15 (after (allOps (F := F)) W) x0 x1 x2 x3 x4 x5 x6 x7 x8 :=
  (allOps_after W).symm ▸
    ops14_live _ x0 x1 x2 x3 x4 x5 x6 x7 x8 (ops13_live _ x0 x1 x2 x3 x4 x5 x6 x7 x8 (ops12_live _ x0 x1 x2 x3 x4 x5 x6 x7 x8 (ops11_live _ x0 x1 x2 x3 x4 x5 x6 x7 x8
    (ops10_live _ x0 x1 x2 x3 x4 x5 x6 x7 x8 (ops9_live _ x0 x1 x2 x3 x4 x5 x6 x7 x8 (ops8_live _ x0 x1 x2 x3 x4 x5 x6 x7 x8 (ops7_live _ x0 x1 x2 x3 x4 x5 x6 x7 x8
    (ops6_live _ x0 x1 x2 x3 x4 x5 x6 x7 x8 (ops5_live _ x0 x1 x2 x3 x4 x5 x6 x7 x8 (ops4_live _ x0 x1 x2 x3 x4 x5 x6 x7 x8 (ops3_live _ x0 x1 x2 x3 x4 x5 x6 x7 x8
    (ops2_live _ x0 x1 x2 x3 x4 x5 x6 x7 x8 (ops1_live _ x0 x1 x2 x3 x4 x5 x6 x7 x8 (ops0_live W x0 x1 x2 x3 x4 x5 x6 x7 x8 h))))))))))))))

theorem scopedRefs_eq : (Finset.univ.filter fun b : Ref sig .tc => b.isScoped) = ∅ := by decide
theorem scopedSems_eq : (Finset.univ.filter fun sm : SemLoc sig => sm.isScoped .tc) = ∅ := by decide

/-- The launch gives each argument buffer its array; the windows' facts chained from there name the result buffer. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v687) = val_main_v687 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono
    (fun _ h c =>
      have L : Live15 (after (allOps (F := F)) (launchContents m c)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
        allOps_live (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) ⟨rfl, rfl, rfl, rfl, rfl, rfl, rfl, rfl, rfl⟩
      ⟨(h c main_v687).trans L.2,
       (h c main_arg0).trans L.1.1,
       (h c main_arg1).trans L.1.2.1,
       (h c main_arg2).trans L.1.2.2.1,
       (h c main_arg3).trans L.1.2.2.2.1,
       (h c main_arg4).trans L.1.2.2.2.2.1,
       (h c main_arg5).trans L.1.2.2.2.2.2.1,
       (h c main_arg6).trans L.1.2.2.2.2.2.2.1,
       (h c main_arg7).trans L.1.2.2.2.2.2.2.2.1,
       (h c main_arg8).trans L.1.2.2.2.2.2.2.2.2⟩)
    (run_seq scopedRefs_eq scopedSems_eq defs main (fun _ => allOps) main_eq (fun _ => allOps_sub) m ρ
      (hfresh := fun _ => allOps_fresh))

end Cert.ReferenceIdeal.RRun

end
-- ==== Proof.RTaps.lean ====
import proofs.«413587_j61040075211437_3_alg».proof.Proof.RStage
import Idealize.ShloMosaic.Lib.Pipeline.Value
import Idealize.ShloMosaic.Lib.ValueLayout
import Idealize.ShloMosaic.PureOps.Ideal.Laws

noncomputable section

namespace Cert.ReferenceIdeal.RV

open Idealize.ShloMosaic Idealize.ShloMosaic.TcCoe Idealize.ShloMosaic.ValueIdx Cert.ReferenceIdeal Cert.ReferenceIdeal.Gen Cert.ReferenceIdeal.ReadP Cert.QNet

/-- The one-term sum from the zero word is its term: the clipped product of pixel (b, 0, u + h, v + w) and weight (j, 0, u, v). -/
theorem tap1_apply (A : FVec Ideal S1024x1x28x28 .f32) (W : FVec Ideal S10x1x5x5 .f32) (u v : Fin 5)
    (b : Fin 1024) (j : Fin 10) (h w : Fin 24) :
    tap1 (F := Ideal) A W u v (ix4 b j h w) = Cl (A (ix4 b 0 (s24 u h) (s24 v w)) * W (ix4 j 0 u v)) := by
  have hR : S1024x10x1x24x24.Reduces [2] S1024x10x24x24 := by decide
  unfold tap1 img1 wgt1
  simp only [Host.reduceAdd, Ideal.hostReduceAdd_def]
  rw [Ideal.hostReduceAdd_single reducesTo_S1024x10x1x24x24_S1024x10x24x24_d2 hR]
  refine (congrArg₂ (· + ·) Ideal.ofBits_zero_f32 (Finset.sum_congr rfl fun (k : Fin 1) _ => ?_)).trans
    ((zero_add _).trans (Fin.sum_univ_one fun _ => Cl (A (ix4 b 0 (s24 u h) (s24 v w)) * W (ix4 j 0 u v))))
  have hl : hR.lift (ix4 b j h w) k = ix5 b j k h w :=
    funext fun a => Fin.ext (by match a with | ⟨0, _⟩ => rfl | ⟨1, _⟩ => rfl | ⟨2, _⟩ => rfl | ⟨3, _⟩ => rfl | ⟨4, _⟩ => rfl)
  rw [hl, minimumf_apply, maximumf_apply, mulf_apply]
  refine congrArg (fun t => Cl t) (congrArg₂ (· * ·) ?_ ?_)
  · refine (broadcastInDim_apply _ _ _ (ix5 b j k h w) (ix5 b 0 0 h w : S1024x1x1x24x24.Idx) (fun a => match a with
      | ⟨0, _⟩ => rfl | ⟨1, _⟩ => rfl | ⟨2, _⟩ => rfl | ⟨3, _⟩ => rfl | ⟨4, _⟩ => rfl)).trans ?_
    refine (broadcastInDim_apply _ _ _ (ix5 b 0 0 h w : S1024x1x1x24x24.Idx) (ix4 b 0 h w : S1024x1x24x24.Idx) (fun a => match a with
      | ⟨0, _⟩ => rfl | ⟨1, _⟩ => rfl | ⟨2, _⟩ => rfl | ⟨3, _⟩ => rfl)).trans ?_
    exact extractStridedSlice_apply _ A _ (ix4 b 0 h w) (ix4 b 0 (s24 u h) (s24 v w)) (fun a => match a with
      | ⟨0, _⟩ => (Nat.zero_add _).symm | ⟨1, _⟩ => rfl | ⟨2, _⟩ => rfl | ⟨3, _⟩ => rfl)
  · refine (broadcastInDim_apply _ _ _ (ix5 b j k h w) (ix5 0 j 0 0 0 : S1x10x1x1x1.Idx) (fun a => match a with
      | ⟨0, _⟩ => rfl | ⟨1, _⟩ => rfl | ⟨2, _⟩ => rfl | ⟨3, _⟩ => rfl | ⟨4, _⟩ => rfl)).trans ?_
    refine (broadcastInDim_apply _ _ _ (ix5 0 j 0 0 0 : S1x10x1x1x1.Idx) (ix3 0 j 0 : S1x10x1.Idx) (fun a => match a with
      | ⟨0, _⟩ => rfl | ⟨1, _⟩ => rfl | ⟨2, _⟩ => rfl)).trans ?_
    refine (broadcastInDim_apply _ _ _ (ix3 0 j 0 : S1x10x1.Idx) (ix2 j 0 : S10x1.Idx) (fun a => match a with
      | ⟨0, _⟩ => rfl | ⟨1, _⟩ => rfl)).trans ?_
    refine (shapeCast_apply _ shapeCasts_S10x1x1x1_S10x1 (ix2 j 0 : S10x1.Idx) (ix4 j 0 0 0 : S10x1x1x1.Idx) (by
      rewrite [Shape.rowMajor_val_four, Shape.rowMajor_val_two]
      show ((j.val * 1 + 0) * 1 + 0) * 1 + 0 = j.val * 1 + 0
      omega)).trans ?_
    exact extractStridedSlice_apply _ W _ (ix4 j 0 0 0 : S10x1x1x1.Idx) (ix4 j 0 u v) (fun a => match a with
      | ⟨0, _⟩ => (Nat.zero_add _).symm | ⟨1, _⟩ => rfl | ⟨2, _⟩ => rfl | ⟨3, _⟩ => rfl)

/-- The running sum over the first n taps, at an index: each tap adds its clipped product to the sum before it, from 0. -/
theorem acc1_apply (A : FVec Ideal S1024x1x28x28 .f32) (W : FVec Ideal S10x1x5x5 .f32) (n : ℕ)
    (b : Fin 1024) (j : Fin 10) (h w : Fin 24) :
    acc1 (F := Ideal) A W n (ix4 b j h w)
      = (taps.take n).foldl (fun (a : EReal) uv => a + Cl (A (ix4 b 0 (s24 uv.1 h) (s24 uv.2 w)) * W (ix4 j 0 uv.1 uv.2))) 0 := by
  have key : ∀ (l : List (Fin 5 × Fin 5)) (acc : FVec Ideal S1024x10x24x24 .f32),
      l.foldl (fun a uv => addf a (tap1 (F := Ideal) A W uv.1 uv.2)) acc (ix4 b j h w)
        = l.foldl (fun (a : EReal) uv => a + Cl (A (ix4 b 0 (s24 uv.1 h) (s24 uv.2 w)) * W (ix4 j 0 uv.1 uv.2))) (acc (ix4 b j h w)) := by
    intro l
    induction l with
    | nil => intro _; rfl
    | cons uv l ih =>
      intro acc
      rw [List.foldl_cons, List.foldl_cons, ih]
      exact congrArg (fun t => List.foldl _ t l) (congrArg (acc (ix4 b j h w) + ·) (tap1_apply A W uv.1 uv.2 b j h w))
  unfold acc1
  rw [key]
  exact congrArg (fun t => List.foldl _ t _) Ideal.ofBits_zero_f32

theorem tap2_apply (A : FVec Ideal S1024x10x12x12 .f32) (W : FVec Ideal S20x10x5x5 .f32) (u v : Fin 5)
    (b : Fin 1024) (j : Fin 20) (h w : Fin 8) :
    tap2 (F := Ideal) A W u v (ix4 b j h w) = ∑ c : Fin 10, Cl (A (ix4 b c (s8 u h) (s8 v w)) * W (ix4 j c u v)) := by
  have hR : S1024x20x10x8x8.Reduces [2] S1024x20x8x8 := by decide
  unfold tap2
  simp only [Host.reduceAdd, Ideal.hostReduceAdd_def]
  rw [Ideal.hostReduceAdd_single reducesTo_S1024x20x10x8x8_S1024x20x8x8_d2 hR]
  refine (congrArg₂ (· + ·) Ideal.ofBits_zero_f32 (Finset.sum_congr rfl fun (c : Fin 10) _ => ?_)).trans (zero_add _)
  have hl : hR.lift (ix4 b j h w) c = ix5 b j c h w :=
    funext fun a => Fin.ext (by match a with | ⟨0, _⟩ => rfl | ⟨1, _⟩ => rfl | ⟨2, _⟩ => rfl | ⟨3, _⟩ => rfl | ⟨4, _⟩ => rfl)
  rw [hl, minimumf_apply, maximumf_apply, mulf_apply]
  refine congrArg (fun t => Cl t) (congrArg₂ (· * ·) ?_ ?_)
  · refine (broadcastInDim_apply _ _ _ (ix5 b j c h w) (ix5 b 0 c h w : S1024x1x10x8x8.Idx) (fun a => match a with
      | ⟨0, _⟩ => rfl | ⟨1, _⟩ => rfl | ⟨2, _⟩ => rfl | ⟨3, _⟩ => rfl | ⟨4, _⟩ => rfl)).trans ?_
    refine (broadcastInDim_apply _ _ _ (ix5 b 0 c h w : S1024x1x10x8x8.Idx) (ix4 b c h w : S1024x10x8x8.Idx) (fun a => match a with
      | ⟨0, _⟩ => rfl | ⟨1, _⟩ => rfl | ⟨2, _⟩ => rfl | ⟨3, _⟩ => rfl)).trans ?_
    exact extractStridedSlice_apply _ A _ (ix4 b c h w) (ix4 b c (s8 u h) (s8 v w)) (fun a => match a with
      | ⟨0, _⟩ => (Nat.zero_add _).symm | ⟨1, _⟩ => (Nat.zero_add _).symm | ⟨2, _⟩ => rfl | ⟨3, _⟩ => rfl)
  · refine (broadcastInDim_apply _ _ _ (ix5 b j c h w) (ix5 0 j c 0 0 : S1x20x10x1x1.Idx) (fun a => match a with
      | ⟨0, _⟩ => rfl | ⟨1, _⟩ => rfl | ⟨2, _⟩ => rfl | ⟨3, _⟩ => rfl | ⟨4, _⟩ => rfl)).trans ?_
    refine (broadcastInDim_apply _ _ _ (ix5 0 j c 0 0 : S1x20x10x1x1.Idx) (ix3 0 j c : S1x20x10.Idx) (fun a => match a with
      | ⟨0, _⟩ => rfl | ⟨1, _⟩ => rfl | ⟨2, _⟩ => rfl)).trans ?_
    refine (broadcastInDim_apply _ _ _ (ix3 0 j c : S1x20x10.Idx) (ix2 j c : S20x10.Idx) (fun a => match a with
      | ⟨0, _⟩ => rfl | ⟨1, _⟩ => rfl)).trans ?_
    refine (shapeCast_apply _ shapeCasts_S20x10x1x1_S20x10 (ix2 j c : S20x10.Idx) (ix4 j c 0 0 : S20x10x1x1.Idx) (by
      rewrite [Shape.rowMajor_val_four, Shape.rowMajor_val_two]
      show ((j.val * 10 + c.val) * 1 + 0) * 1 + 0 = j.val * 10 + c.val
      omega)).trans ?_
    exact extractStridedSlice_apply _ W _ (ix4 j c 0 0 : S20x10x1x1.Idx) (ix4 j c u v) (fun a => match a with
      | ⟨0, _⟩ => (Nat.zero_add _).symm | ⟨1, _⟩ => (Nat.zero_add _).symm | ⟨2, _⟩ => rfl | ⟨3, _⟩ => rfl)

theorem acc2_apply (A : FVec Ideal S1024x10x12x12 .f32) (W : FVec Ideal S20x10x5x5 .f32) (n : ℕ)
    (b : Fin 1024) (j : Fin 20) (h w : Fin 8) :
    acc2 (F := Ideal) A W n (ix4 b j h w)
      = (taps.take n).foldl (fun (a : EReal) uv => a + ∑ c : Fin 10, Cl (A (ix4 b c (s8 uv.1 h) (s8 uv.2 w)) * W (ix4 j c uv.1 uv.2))) 0 := by
  have key : ∀ (l : List (Fin 5 × Fin 5)) (acc : FVec Ideal S1024x20x8x8 .f32),
      l.foldl (fun a uv => addf a (tap2 (F := Ideal) A W uv.1 uv.2)) acc (ix4 b j h w)
        = l.foldl (fun (a : EReal) uv => a + ∑ c : Fin 10, Cl (A (ix4 b c (s8 uv.1 h) (s8 uv.2 w)) * W (ix4 j c uv.1 uv.2))) (acc (ix4 b j h w)) := by
    intro l
    induction l with
    | nil => intro _; rfl
    | cons uv l ih =>
      intro acc
      rw [List.foldl_cons, List.foldl_cons, ih]
      exact congrArg (fun t => List.foldl _ t l) (congrArg (acc (ix4 b j h w) + ·) (tap2_apply A W uv.1 uv.2 b j h w))
  unfold acc2
  rw [key]
  exact congrArg (fun t => List.foldl _ t _) Ideal.ofBits_zero_f32

end Cert.ReferenceIdeal.RV

end
-- ==== Proof.LibPool.lean ====
import Idealize.ShloMosaic.PureOps.Contract
import Idealize.ShloMosaic.Lib.ValueIdx
import Mathlib.Data.EReal.Basic

namespace Cert.LibPool

open Idealize.ShloMosaic Idealize.ShloMosaic.ValueIdx

theorem foldl_finRange_four {β : Type} {N : ℕ} (hN : N = 4) (g : β → Fin N → β) (v : β) :
    (List.finRange N).foldl g v = g (g (g (g v ⟨0, by omega⟩) ⟨1, by omega⟩) ⟨2, by omega⟩) ⟨3, by omega⟩ := by
  subst hN; rfl

abbrev Win : Shape := ⟨4, ![1, 1, 2, 2]⟩
theorem win_numel : Win.numel = 4 := by decide

theorem win_pos0 (a : Fin 4) : ((Win.rowMajor.symm ⟨0, by decide⟩) a).val = 0 := by fin_cases a <;> decide
theorem win_pos1 (a : Fin 4) : ((Win.rowMajor.symm ⟨1, by decide⟩) a).val = (![0, 0, 0, 1] : Fin 4 → ℕ) a := by fin_cases a <;> decide
theorem win_pos2 (a : Fin 4) : ((Win.rowMajor.symm ⟨2, by decide⟩) a).val = (![0, 0, 1, 0] : Fin 4 → ℕ) a := by fin_cases a <;> decide
theorem win_pos3 (a : Fin 4) : ((Win.rowMajor.symm ⟨3, by decide⟩) a).val = (![0, 0, 1, 1] : Fin 4 → ℕ) a := by fin_cases a <;> decide

/-- A 2×2 window reduction with stride 2 folds the four window elements from the initial value, row by row. -/
theorem pool_read {α : Type} (f : α → α → α) {B C H2 W2 H W : ℕ} (hH : 2 * H ≤ H2) (hW : 2 * W ≤ W2)
    (x : (⟨4, ![B, C, H2, W2]⟩ : Shape).Idx → α) (init : (⟨0, ![]⟩ : Shape).Idx → α)
    (h : (⟨4, ![B, C, H2, W2]⟩ : Shape).ReduceWindows ![1, 1, 2, 2] ![1, 1, 2, 2] ![0, 0, 0, 0] ![0, 0, 0, 0] ⟨4, ![B, C, H, W]⟩)
    (hu : 0 < (⟨0, ![]⟩ : Shape).numel) (b : Fin B) (c : Fin C) (i : Fin H) (j : Fin W) :
    Host.reduceWindow f ![1, 1, 2, 2] ![1, 1, 2, 2] ![0, 0, 0, 0] ![0, 0, 0, 0] x init h hu (ix4 b c i j)
      = f (f (f (f (init ix0)
            (x (ix4 b c ⟨2 * i.val, by omega⟩ ⟨2 * j.val, by omega⟩)))
            (x (ix4 b c ⟨2 * i.val, by omega⟩ ⟨2 * j.val + 1, by omega⟩)))
            (x (ix4 b c ⟨2 * i.val + 1, by omega⟩ ⟨2 * j.val, by omega⟩)))
            (x (ix4 b c ⟨2 * i.val + 1, by omega⟩ ⟨2 * j.val + 1, by omega⟩)) := by
  unfold Host.reduceWindow
  simp only []
  rw [foldl_finRange_four win_numel]
  have hb := b.isLt; have hc := c.isLt; have hi := i.isLt; have hj := j.isLt
  have e2 : (ix4 b c i j (2 : Fin 4)).val = i.val := rfl
  have e3 : (ix4 b c i j (3 : Fin 4)).val = j.val := rfl
  rw [dif_pos, dif_pos, dif_pos, dif_pos]
  · refine congrArg₂ f (congrArg₂ f (congrArg₂ f (congrArg₂ f (congrArg init (funext fun a => a.elim0)) ?_) ?_) ?_) ?_
    all_goals refine congrArg x (funext fun a => Fin.ext ?_)
    · fin_cases a <;> simp [win_pos0] <;> omega
    · fin_cases a <;> simp [win_pos1] <;> omega
    · fin_cases a <;> simp [win_pos2] <;> omega
    · fin_cases a <;> simp [win_pos3] <;> omega
  · intro a; fin_cases a <;> simp [win_pos3, e2, e3] <;> omega
  · intro a; fin_cases a <;> simp [win_pos2, e2, e3] <;> omega
  · intro a; fin_cases a <;> simp [win_pos1, e2, e3] <;> omega
  · intro a; fin_cases a <;> simp [win_pos0, e2, e3] <;> omega

/-- Folded from ⊥, the maximum of four is the maximum of the two column maxima. -/
theorem max4_bot (a b c d : EReal) : max (max (max (max ⊥ a) b) c) d = max (max a c) (max b d) := by
  rw [max_eq_right (bot_le : (⊥ : EReal) ≤ a)]
  simp only [max_assoc, max_comm, max_left_comm]

end Cert.LibPool
-- ==== Proof.RConv1.lean ====
import proofs.«413587_j61040075211437_3_alg».proof.Proof.RefRead
import proofs.«413587_j61040075211437_3_alg».proof.Proof.Spec
import proofs.«413587_j61040075211437_3_alg».proof.Proof.RTaps
import proofs.«413587_j61040075211437_3_alg».proof.Proof.LibPool
import Idealize.ShloMosaic.Lib.Pipeline.Value
import Idealize.ShloMosaic.Lib.ValueLayout
import Idealize.ShloMosaic.PureOps.Ideal.Laws

noncomputable section

namespace Cert.ReferenceIdeal.RV

open Idealize.ShloMosaic Idealize.ShloMosaic.TcCoe Idealize.ShloMosaic.ValueIdx Cert.ReferenceIdeal Cert.ReferenceIdeal.ReadP Cert.QNet

variable (x0 : FVec Ideal S1024x1x28x28 .f32) (x1 : FVec Ideal S10x1x5x5 .f32) (x2 : FVec Ideal S10 .f32)
  (x3 : FVec Ideal S20x10x5x5 .f32) (x4 : FVec Ideal S20 .f32) (x5 : FVec Ideal S50x320 .f32)
  (x6 : FVec Ideal S50 .f32) (x7 : FVec Ideal S10x50 .f32) (x8 : FVec Ideal S10 .f32)

/-- The running sum after the 25 taps, from the zero array, at an index. -/
theorem conv_acc (b : Fin 1024) (j : Fin 10) (h w : Fin 24) :
    val_main_v315 (F := Ideal) x0 x1 (ix4 b j h w)
      = taps.foldl (fun acc uv => acc + Cl (Q (x0 (ix4 b 0 (s24 uv.1 h) (s24 uv.2 w))) * Q (x1 (ix4 j 0 uv.1 uv.2)))) 0 := by
  rw [val_main_v315, acc1_apply]
  rfl

theorem conv_bias (b : Fin 1024) (j : Fin 10) (h w : Fin 24) :
    val_main_v318 (F := Ideal) x0 x1 x2 (ix4 b j h w)
      = C1 (fun r c => Q (x0 (ix4 b 0 r c))) (fun j u w => Q (x1 (ix4 j 0 u w))) (fun j => Q (x2 (ix1 j))) j h w := by
  have hi : idx_main_v316 (idx_main_v317 (ix4 b j h w)) = ix1 j :=
    funext fun a => Fin.ext (by match a with | ⟨0, _⟩ => rfl)
  rw [val_main_v318_apply, val_main_v317_apply, val_main_v316_apply, hi, conv_acc]
  rfl

theorem pool_eq (b : Fin 1024) (j : Fin 10) (h v : Fin 12) :
    val_main_v320 (F := Ideal) x0 x1 x2 (ix4 b j h v)
      = max (max (val_main_v318 (F := Ideal) x0 x1 x2 (ix4 b j (e12 h) (e12 v)))
              (val_main_v318 (F := Ideal) x0 x1 x2 (ix4 b j (o12 h) (e12 v))))
          (max (val_main_v318 (F := Ideal) x0 x1 x2 (ix4 b j (e12 h) (o12 v)))
              (val_main_v318 (F := Ideal) x0 x1 x2 (ix4 b j (o12 h) (o12 v)))) := by
  have hbot : val_main_v319 (F := Ideal) ix0 = ⊥ := by
    show Ideal.ofBits .f32 0xFF800000#32 = ⊥
    simp [Ideal.ofBits, Ideal.ieee]
  refine (Cert.LibPool.pool_read (FloatOps.maximumf (F := Ideal) (φ := .f32)) (by decide) (by decide)
    (val_main_v318 (F := Ideal) x0 x1 x2) (val_main_v319 (F := Ideal)) _ _ b j h v).trans ?_
  simp only [Ideal.maximumf_def]
  rw [hbot, Cert.LibPool.max4_bot]
  rfl

/-- Buffer %321 is the pooled, rectified first convolution of the quantised image. -/
theorem ref_p1 (b : Fin 1024) (j : Fin 10) (h v : Fin 12) :
    val_main_v321 (F := Ideal) x0 x1 x2 (ix4 b j h v)
      = P1 (C1 (fun r c => Q (x0 (ix4 b 0 r c))) (fun j u w => Q (x1 (ix4 j 0 u w))) (fun j => Q (x2 (ix1 j)))) j h v := by
  have hz : val_main_call28_v0 (F := Ideal) (ix4 b j h v) = 0 := Ideal.ofBits_zero_f32
  rw [val_main_v321_apply, pool_eq, hz, conv_bias, conv_bias, conv_bias, conv_bias]
  rfl

end Cert.ReferenceIdeal.RV

end
-- ==== Proof.RConv2.lean ====
import proofs.«413587_j61040075211437_3_alg».proof.Proof.RefRead
import proofs.«413587_j61040075211437_3_alg».proof.Proof.Spec
import proofs.«413587_j61040075211437_3_alg».proof.Proof.RTaps
import proofs.«413587_j61040075211437_3_alg».proof.Proof.LibPool
import Idealize.ShloMosaic.Lib.Pipeline.Value
import Idealize.ShloMosaic.Lib.ValueLayout
import Idealize.ShloMosaic.PureOps.Ideal.Laws

noncomputable section

namespace Cert.ReferenceIdeal.RV

open Idealize.ShloMosaic Idealize.ShloMosaic.TcCoe Idealize.ShloMosaic.ValueIdx Cert.ReferenceIdeal Cert.ReferenceIdeal.ReadP Cert.QNet

variable (x0 : FVec Ideal S1024x1x28x28 .f32) (x1 : FVec Ideal S10x1x5x5 .f32) (x2 : FVec Ideal S10 .f32)
  (x3 : FVec Ideal S20x10x5x5 .f32) (x4 : FVec Ideal S20 .f32) (x5 : FVec Ideal S50x320 .f32)
  (x6 : FVec Ideal S50 .f32) (x7 : FVec Ideal S10x50 .f32) (x8 : FVec Ideal S10 .f32)

theorem c2_ninf_bot : Ideal.ofBits .f32 0xFF800000#32 = (⊥ : EReal) := by
  simp [Ideal.ofBits, Ideal.ieee]

/-- The running sum after the 25 taps, from the zero array, plus the quantised bias of the output channel. -/
theorem c2_conv (b : Fin 1024) (j : Fin 20) (h w : Fin 8) :
    val_main_v635 (F := Ideal) x0 x1 x2 x3 x4 (ix4 b j h w)
      = C2 (fun c r d => val_main_v321 (F := Ideal) x0 x1 x2 (ix4 b c r d))
           (fun j c u w => Q (x3 (ix4 j c u w))) (fun j => Q (x4 (ix1 j))) j h w := by
  have eb : idx_main_v633 (idx_main_v634 (ix4 b j h w)) = ix1 j :=
    funext fun a => match a with | ⟨0, _⟩ => rfl
  rw [val_main_v635_apply, val_main_v634_apply, val_main_v633_apply, eb, val_main_v632, acc2_apply]
  rfl

theorem c2_pool (b : Fin 1024) (j : Fin 20) (h v : Fin 4) :
    val_main_v637 (F := Ideal) x0 x1 x2 x3 x4 (ix4 b j h v)
      = max (max (val_main_v635 (F := Ideal) x0 x1 x2 x3 x4 (ix4 b j (e4 h) (e4 v)))
                 (val_main_v635 (F := Ideal) x0 x1 x2 x3 x4 (ix4 b j (o4 h) (e4 v))))
            (max (val_main_v635 (F := Ideal) x0 x1 x2 x3 x4 (ix4 b j (e4 h) (o4 v)))
                 (val_main_v635 (F := Ideal) x0 x1 x2 x3 x4 (ix4 b j (o4 h) (o4 v)))) := by
  unfold val_main_v637
  refine (Cert.LibPool.pool_read FloatOps.maximumf (H := 4) (W := 4) (by decide) (by decide) _ _ _ _ b j h v).trans ?_
  rw [val_main_v636_apply, val_main_cst_162_apply]
  simp only [Ideal.maximumf_def, Ideal.ofBits_def]
  rw [c2_ninf_bot, Cert.LibPool.max4_bot]
  rfl

/-- Buffer %656 at (b, k) is the pooled, rectified, quantised second convolution at the position k flattens. -/
theorem ref_p2q (b : Fin 1024) (k : Fin 320) :
    val_main_v656 (F := Ideal) x0 x1 x2 x3 x4 (ix2 b k)
      = flat (P2q (C2 (fun c r d => val_main_v321 (F := Ideal) x0 x1 x2 (ix4 b c r d))
                      (fun j c u w => Q (x3 (ix4 j c u w))) (fun j => Q (x4 (ix1 j))))) k := by
  have ek : idx_main_v639 (ix2 b k) = ix4 b (ck k) (hk k) (vk k) :=
    funext fun a => match a with
      | ⟨0, _⟩ => Fin.ext (by show (b.val * 320 + k.val) / 320 = b.val; omega)
      | ⟨1, _⟩ => Fin.ext (by show (b.val * 320 + k.val) / 16 % 20 = k.val / 16; omega)
      | ⟨2, _⟩ => Fin.ext (by show (b.val * 320 + k.val) / 4 % 4 = k.val % 16 / 4; omega)
      | ⟨3, _⟩ => Fin.ext (by show (b.val * 320 + k.val) % 4 = k.val % 4; omega)
  rw [val_main_v656_apply, val_main_v654_apply, val_main_v653_apply, val_main_v652_apply, val_main_v655_apply,
    val_main_cst_171_apply, val_main_cst_172_apply, val_main_v639_apply, ek, val_main_v638_apply,
    val_main_call56_v0_apply, val_main_call56_cst_apply, c2_pool, c2_conv, c2_conv, c2_conv, c2_conv]
  simp only [Ideal.mulf_def, Ideal.hostDivf_def, Ideal.hostUnary_roundeven_def, Ideal.maximumf_def, Ideal.ofBits_def,
    Ideal.ofBits_zero_f32]
  rfl

end Cert.ReferenceIdeal.RV

end
-- ==== Proof.RDense.lean ====
import proofs.«413587_j61040075211437_3_alg».proof.Proof.RefRead
import proofs.«413587_j61040075211437_3_alg».proof.Proof.Spec
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RV

open Idealize.ShloMosaic Idealize.ShloMosaic.TcCoe Idealize.ShloMosaic.ValueIdx Cert.ReferenceIdeal Cert.ReferenceIdeal.ReadP Cert.QNet

variable (x0 : FVec Ideal S1024x1x28x28 .f32) (x1 : FVec Ideal S10x1x5x5 .f32) (x2 : FVec Ideal S10 .f32)
  (x3 : FVec Ideal S20x10x5x5 .f32) (x4 : FVec Ideal S20 .f32) (x5 : FVec Ideal S50x320 .f32)
  (x6 : FVec Ideal S50 .f32) (x7 : FVec Ideal S10x50 .f32) (x8 : FVec Ideal S10 .f32)

theorem ninf_bot : Ideal.ofBits .f32 0xFF800000#32 = (⊥ : EReal) := by simp [Ideal.ofBits, Ideal.ieee]

theorem w1_at (j : Fin 50) (k : Fin 320) :
    val_main_v645 (F := Ideal) x5 (ix2 j k) = Cl (Q (x5 (ix2 j k))) := rfl

theorem b1_at (j : Fin 50) :
    val_main_v651 (F := Ideal) x6 (ix1 j) = Cl (Q (x6 (ix1 j))) := rfl

theorem w2_at (j : Fin 10) (k : Fin 50) :
    val_main_v669 (F := Ideal) x7 (ix2 j k) = Cl (Q (x7 (ix2 j k))) := rfl

theorem b2_at (j : Fin 10) :
    val_main_v675 (F := Ideal) x8 (ix1 j) = Cl (Q (x8 (ix1 j))) := rfl

theorem d1_at (b : Fin 1024) (j : Fin 50) :
    val_main_v661 (F := Ideal) x0 x1 x2 x3 x4 x5 x6 (ix2 b j)
      = A1 (fun k => val_main_v656 (F := Ideal) x0 x1 x2 x3 x4 (ix2 b k))
          (fun j k => Cl (Q (x5 (ix2 j k)))) (fun j => Cl (Q (x6 (ix1 j)))) j := by
  rw [val_main_v661_apply, val_main_v658_apply, val_main_v660_apply, val_main_v659_apply]
  have eb : idx_main_v659 (idx_main_v660 (ix2 b j)) = ix1 j :=
    funext fun a => Fin.ext (by match a with | ⟨0, _⟩ => rfl)
  rw [eb, b1_at]
  simp only [Ideal.addf_def]
  unfold QNet.A1
  refine congrArg (· + _) (Finset.sum_congr rfl fun k _ => ?_)
  have el : lidx_main_v658 (ix2 b j) k = ix2 b k :=
    funext fun a => Fin.ext (by match a with | ⟨0, _⟩ => rfl | ⟨1, _⟩ => rfl)
  have er : idx_main_v657 (ridx_main_v658 (ix2 b j) k) = ix2 j k :=
    funext fun a => Fin.ext (by match a with | ⟨0, _⟩ => rfl | ⟨1, _⟩ => rfl)
  rw [val_main_v657_apply, el, er, w1_at]

theorem h1_at (b : Fin 1024) (k : Fin 50) :
    val_main_v680 (F := Ideal) x0 x1 x2 x3 x4 x5 x6 (ix2 b k)
      = Q (max (Cl (A1 (fun k => val_main_v656 (F := Ideal) x0 x1 x2 x3 x4 (ix2 b k))
          (fun j k => Cl (Q (x5 (ix2 j k)))) (fun j => Cl (Q (x6 (ix1 j)))) k)) 0) := by
  rw [val_main_v680_apply, val_main_v678_apply, val_main_v677_apply, val_main_v663_apply, val_main_v662_apply,
      val_main_call62_v4_apply, val_main_call62_v3_apply, val_main_cst_174_apply,
      val_main_call62_v2_apply, val_main_call62_v1_apply, val_main_call62_v0_apply, val_main_cst_173_apply,
      d1_at, val_main_call63_v0_apply, val_main_call63_cst_apply,
      val_main_v676_apply, val_main_cst_183_apply, val_main_v679_apply, val_main_cst_184_apply]
  simp only [Ideal.minimumf_def, Ideal.maximumf_def, Ideal.mulf_def, Ideal.hostDivf_def,
    Ideal.hostUnary_roundeven_def, Ideal.ofBits_def, Ideal.ofBits_zero_f32]
  rfl

theorem z_at (b : Fin 1024) (j : Fin 10) :
    val_main_v686 (F := Ideal) x0 x1 x2 x3 x4 x5 x6 x7 x8 (ix2 b j)
      = Z (A1 (fun k => val_main_v656 (F := Ideal) x0 x1 x2 x3 x4 (ix2 b k))
            (fun j k => Cl (Q (x5 (ix2 j k)))) (fun j => Cl (Q (x6 (ix1 j)))))
          (fun j k => Cl (Q (x7 (ix2 j k)))) (fun j => Cl (Q (x8 (ix1 j)))) j := by
  rw [val_main_v686_apply, val_main_call69_v4_apply, val_main_call69_v3_apply, val_main_cst_186_apply,
      val_main_call69_v2_apply, val_main_call69_v1_apply, val_main_call69_v0_apply, val_main_cst_185_apply,
      val_main_v685_apply, val_main_v682_apply, val_main_v684_apply, val_main_v683_apply]
  have eb : idx_main_v683 (idx_main_v684 (ix2 b j)) = ix1 j :=
    funext fun a => Fin.ext (by match a with | ⟨0, _⟩ => rfl)
  rw [eb, b2_at]
  simp only [Ideal.minimumf_def, Ideal.maximumf_def, Ideal.addf_def, Ideal.ofBits_def]
  unfold QNet.Z
  refine congrArg (fun t => Cl (t + _)) (Finset.sum_congr rfl fun k _ => ?_)
  have el : lidx_main_v682 (ix2 b j) k = ix2 b k :=
    funext fun a => Fin.ext (by match a with | ⟨0, _⟩ => rfl | ⟨1, _⟩ => rfl)
  have er : idx_main_v681 (ridx_main_v682 (ix2 b j) k) = ix2 j k :=
    funext fun a => Fin.ext (by match a with | ⟨0, _⟩ => rfl | ⟨1, _⟩ => rfl)
  rw [val_main_v681_apply, el, er, w2_at, h1_at]

theorem lift_at (h : S1024x10.Reduces [1] S1024) (b : Fin 1024) (k : Fin (S1024x10.size 1)) :
    h.lift (ix1 b) k = ix2 b (⟨k.val, k.isLt⟩ : Fin 10) := by
  funext c; apply Fin.ext
  fin_cases c <;> rfl

theorem max_at (b : Fin 1024) :
    val_main_call70_v0 (F := Ideal) x0 x1 x2 x3 x4 x5 x6 x7 x8 (ix1 b)
      = M (fun j => val_main_v686 (F := Ideal) x0 x1 x2 x3 x4 x5 x6 x7 x8 (ix2 b j)) := by
  have h : S1024x10.Reduces [1] S1024 := by decide
  unfold val_main_call70_v0
  generalize val_main_v686 (F := Ideal) x0 x1 x2 x3 x4 x5 x6 x7 x8 = y
  rw [Host.reduce_eq_fold_single FloatOps.maximumf _ _ Gen.reducesTo_S1024x10_S1024_d1 h Gen.h_S_]
  unfold QNet.M QNet.ninf
  have hf : (y ∘ h.lift (ix1 b)) = fun k : Fin 10 => y (ix2 b k) :=
    funext fun k => congrArg _ (lift_at h b k)
  rw [hf]
  rfl

theorem m_at (b : Fin 1024) (j : Fin 10) :
    val_main_call70_v4 (F := Ideal) x0 x1 x2 x3 x4 x5 x6 x7 x8 (ix2 b j)
      = M (fun j => val_main_v686 (F := Ideal) x0 x1 x2 x3 x4 x5 x6 x7 x8 (ix2 b j)) := by
  rw [val_main_call70_v4_apply, val_main_call70_v3_apply, val_main_call70_v2_apply,
      val_main_call70_v1_apply, val_main_call70_cst_0_apply]
  have e : idx_main_call70_v3 (idx_main_call70_v4 (ix2 b j)) = ix1 b :=
    funext fun a => Fin.ext (by match a with | ⟨0, _⟩ => rfl)
  rw [e, max_at]
  simp only [Ideal.maximumf_def, Ideal.ofBits_def]
  rw [ninf_bot]
  exact max_bot_left _

theorem shift_at (b : Fin 1024) (j : Fin 10) :
    val_main_call70_v5 (F := Ideal) x0 x1 x2 x3 x4 x5 x6 x7 x8 (ix2 b j)
      = val_main_v686 (F := Ideal) x0 x1 x2 x3 x4 x5 x6 x7 x8 (ix2 b j)
        - M (fun j => val_main_v686 (F := Ideal) x0 x1 x2 x3 x4 x5 x6 x7 x8 (ix2 b j)) := by
  rw [val_main_call70_v5_apply, m_at]
  rfl

theorem sum_at (b : Fin 1024) :
    val_main_call70_v7 (F := Ideal) x0 x1 x2 x3 x4 x5 x6 x7 x8 (ix1 b)
      = ∑ i : Fin 10, Ideal.exp (val_main_v686 (F := Ideal) x0 x1 x2 x3 x4 x5 x6 x7 x8 (ix2 b i)
          - M (fun j => val_main_v686 (F := Ideal) x0 x1 x2 x3 x4 x5 x6 x7 x8 (ix2 b j))) := by
  rw [val_main_call70_v7_apply, val_main_call70_cst_1_apply]
  simp only [Ideal.ofBits_def, Ideal.ofBits_zero_f32, zero_add]
  refine Finset.sum_congr rfl fun k _ => ?_
  have e : idx_main_call70_v7 (ix1 b) k = ix2 b k :=
    funext fun a => Fin.ext (by match a with | ⟨0, _⟩ => rfl | ⟨1, _⟩ => rfl)
  rw [val_main_call70_v6_apply, e, shift_at]
  rfl

/-- Buffer %687 is the log-softmax of the two dense layers over buffer %656. -/
theorem ref_out (b : Fin 1024) (j : Fin 10) :
    val_main_v687 (F := Ideal) x0 x1 x2 x3 x4 x5 x6 x7 x8 (ix2 b j)
      = LS (Z (A1 (fun k => val_main_v656 (F := Ideal) x0 x1 x2 x3 x4 (ix2 b k))
                  (fun j k => Cl (Q (x5 (ix2 j k)))) (fun j => Cl (Q (x6 (ix1 j)))))
              (fun j k => Cl (Q (x7 (ix2 j k)))) (fun j => Cl (Q (x8 (ix1 j))))) j := by
  rw [val_main_v687_apply, shift_at, val_main_call70_v10_apply, val_main_call70_v9_apply,
      val_main_call70_v8_apply]
  have e : idx_main_call70_v8 (idx_main_call70_v10 (ix2 b j)) = ix1 b :=
    funext fun a => Fin.ext (by match a with | ⟨0, _⟩ => rfl)
  rw [e, sum_at]
  have hz : (fun j => val_main_v686 (F := Ideal) x0 x1 x2 x3 x4 x5 x6 x7 x8 (ix2 b j))
      = Z (A1 (fun k => val_main_v656 (F := Ideal) x0 x1 x2 x3 x4 (ix2 b k))
            (fun j k => Cl (Q (x5 (ix2 j k)))) (fun j => Cl (Q (x6 (ix1 j)))))
          (fun j k => Cl (Q (x7 (ix2 j k)))) (fun j => Cl (Q (x8 (ix1 j)))) :=
    funext fun j => z_at x0 x1 x2 x3 x4 x5 x6 x7 x8 b j
  simp only [Ideal.subf_def, Ideal.hostUnary_log_def]
  unfold QNet.LS
  rw [← hz]

end Cert.ReferenceIdeal.RV

end
-- ==== Proof.RValue.lean ====
import proofs.«413587_j61040075211437_3_alg».proof.Proof.RConv1
import proofs.«413587_j61040075211437_3_alg».proof.Proof.RConv2
import proofs.«413587_j61040075211437_3_alg».proof.Proof.RDense

noncomputable section

namespace Cert.ReferenceIdeal.RV

open Idealize.ShloMosaic Idealize.ShloMosaic.TcCoe Idealize.ShloMosaic.ValueIdx Cert.ReferenceIdeal Cert.ReferenceIdeal.ReadP Cert.QNet

variable (x0 : FVec Ideal S1024x1x28x28 .f32) (x1 : FVec Ideal S10x1x5x5 .f32) (x2 : FVec Ideal S10 .f32)
  (x3 : FVec Ideal S20x10x5x5 .f32) (x4 : FVec Ideal S20 .f32) (x5 : FVec Ideal S50x320 .f32)
  (x6 : FVec Ideal S50 .f32) (x7 : FVec Ideal S10x50 .f32) (x8 : FVec Ideal S10 .f32)

/-- The reference's last stage is the specification. -/
theorem ref_is_G : val_main_v687 (F := Ideal) x0 x1 x2 x3 x4 x5 x6 x7 x8 = G x0 x1 x2 x3 x4 x5 x6 x7 x8 := by
  funext i
  obtain ⟨b, j, rfl⟩ : ∃ (b : Fin 1024) (j : Fin 10), i = ix2 b j := ⟨i 0, i 1, eq_ix2 i⟩
  rw [ref_out]
  simp only [ref_p2q, ref_p1]
  rfl

end Cert.ReferenceIdeal.RV

end
-- ==== Proof.lean ====
import proofs.«413587_j61040075211437_3_alg».proof.Defs
import proofs.«413587_j61040075211437_3_alg».proof.Proof.Gen.Kernel
import proofs.«413587_j61040075211437_3_alg».proof.Proof.Gen.Kernel.Frame
import proofs.«413587_j61040075211437_3_alg».proof.Proof.Gen.KernelIdeal
import proofs.«413587_j61040075211437_3_alg».proof.Proof.Gen.KernelIdeal.Frame
import proofs.«413587_j61040075211437_3_alg».proof.Proof.Gen.ReferenceIdeal
import proofs.«413587_j61040075211437_3_alg».proof.Proof.Gen.Pre_finite_inputs
import proofs.«413587_j61040075211437_3_alg».proof.Proof.KRun
import proofs.«413587_j61040075211437_3_alg».proof.Proof.RefRun
import proofs.«413587_j61040075211437_3_alg».proof.Proof.RValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RRun.run (F := Ideal) m ρ)

/-- Both runs end at G of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.QNet.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.KV.run m ρ, ?_⟩
  refine (θ_run Cert.ReferenceIdeal.defs _ _).mono (fun _ h c => ⟨(h c).1.trans ?_, (h c).2⟩)
    (Cert.ReferenceIdeal.RRun.run (F := Ideal) m' ρ')
  obtain ⟨h0, h1, h2, h3, h4, h5, h6, h7, h8⟩ := hagree c
  rw [Cert.ReferenceIdeal.RV.ref_is_G, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
